-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v10_1)) (v1 : (c : Dev Cert.KernelIdeal.nD) → Buf (Elt Ideal) ((c.tc : Thread Cert.KernelIdeal.nD Cert.KernelIdeal.τ).loc Cert.KernelIdeal.main_v10_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_1) = v0 c
          ∧ r.2.mem ((c.tc : Thread Cert.KernelIdeal.nD Cert.KernelIdeal.τ).loc Cert.KernelIdeal.main_v10_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x16 : Shape := ⟨2, ![10000, 16]⟩
abbrev S10000x2048 : Shape := ⟨2, ![10000, 2048]⟩
abbrev S2048 : Shape := ⟨1, ![2048]⟩
abbrev S128x32 : Shape := ⟨2, ![128, 32]⟩
abbrev S32 : Shape := ⟨1, ![32]⟩
abbrev S16x32 : Shape := ⟨2, ![16, 32]⟩
abbrev S64x64 : Shape := ⟨2, ![64, 64]⟩
abbrev S64 : Shape := ⟨1, ![64]⟩
abbrev S64x32 : Shape := ⟨2, ![64, 32]⟩
abbrev S32x64 : Shape := ⟨2, ![32, 64]⟩
abbrev S64x2 : Shape := ⟨2, ![64, 2]⟩
abbrev S2 : Shape := ⟨1, ![2]⟩
abbrev S_ : Shape := ⟨0, ![]⟩
abbrev S1x2048 : Shape := ⟨2, ![1, 2048]⟩
abbrev S10000 : Shape := ⟨1, ![10000]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x16 : S_.BroadcastsInDim S10000x16 (![] : Fin 0 → Fin S10000x16.rank)
  reducesTo_S10000x16_S_d0_1 : S10000x16.ReducesTo [0, 1] S_
  bcast_S_S10000x2048 : S_.BroadcastsInDim S10000x2048 (![] : Fin 0 → Fin S10000x2048.rank)
  reducesTo_S10000x2048_S_d0_1 : S10000x2048.ReducesTo [0, 1] S_
  bcast_S_S2048 : S_.BroadcastsInDim S2048 (![] : Fin 0 → Fin S2048.rank)
  reducesTo_S2048_S_d0 : S2048.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32x64 : S_.BroadcastsInDim S32x64 (![] : Fin 0 → Fin S32x64.rank)
  reducesTo_S32x64_S_d0_1 : S32x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  bcast_S2048_S1x2048_1 : S2048.BroadcastsInDim S1x2048 (![1] : Fin 1 → Fin S1x2048.rank)
  bcast_S1x2048_S10000x2048_0_1 : S1x2048.BroadcastsInDim S10000x2048 (![0, 1] : Fin 2 → Fin S10000x2048.rank)
  reducesTo_S10000x2048_S10000_d1 : S10000x2048.ReducesTo [1] S10000
  bcast_S_S10000 : S_.BroadcastsInDim S10000 (![] : Fin 0 → Fin S10000.rank)
  reducesTo_S10000_S_d0 : S10000.ReducesTo [0] S_

variable [Facts]

def fn_part5 {F : FTy → Type} [FloatOps F] (main_arg2 : FVec F S10000x2048 .f32) (main_arg3 : FVec F S2048 .f32) (main_v83 : IVec S_ 1) (main_v84 : FVec F S2 .f32) (main_cst_32 : FVec F S_ .f32) : IVec S_ 1 :=
  let main_v85 : FVec F S2 .f32 := broadcastInDim S2 ![] bcast_S_S2 main_cst_32
  let main_v86 : IVec S2 1 := cmpf .olt main_v84 main_v85
  let main_c_33 : IVec S_ 1 := constantI S_ 1 1#1
  let main_v87 : IVec S_ 1 := (fun x v => Host.reduce IntOp.andi x v reducesTo_S2_S_d0 h_S_) main_v86 main_c_33
  let main_v88 : IVec S_ 1 := andi main_v83 main_v87
  let main_v89 : FVec F S1x2048 .f32 := broadcastInDim S1x2048 ![1] bcast_S2048_S1x2048_1 main_arg3
  let main_v90 : FVec F S10000x2048 .f32 := broadcastInDim S10000x2048 ![0, 1] bcast_S1x2048_S10000x2048_0_1 main_v89
  let main_v91 : FVec F S10000x2048 .f32 := mulf main_arg2 main_v90
  let main_cst_34 : FVec F S_ .f32 := constant S_ .f32 0x00000000#32
  let main_v92 : FVec F S10000 .f32 := (fun x v => Host.reduceAdd x v reducesTo_S10000x2048_S10000_d1 h_S_) main_v91 main_cst_34
  let main_cst_35 : FVec F S_ .f32 := constant S_ .f32 0x3089705F#32
  let main_v93 : FVec F S10000 .f32 := broadcastInDim S10000 ![] bcast_S_S10000 main_cst_35
  let main_v94 : FVec F S10000 .f32 := addf main_v92 main_v93
  let main_cst_36 : FVec F S_ .f32 := constant S_ .f32 0x00000000#32
  let main_v95 : FVec F S10000 .f32 := broadcastInDim S10000 ![] bcast_S_S10000 main_cst_36
  let main_v96 : IVec S10000 1 := cmpf .ogt main_v94 main_v95
  let main_c_37 : IVec S_ 1 := constantI S_ 1 1#1
  let main_v97 : IVec S_ 1 := (fun x v => Host.reduce IntOp.andi x v reducesTo_S10000_S_d0 h_S_) main_v96 main_c_37
  let main_v98 : IVec S_ 1 := andi main_v88 main_v97
  main_v98

def fn_part4 {F : FTy → Type} [FloatOps F] (main_arg2 : FVec F S10000x2048 .f32) (main_arg3 : FVec F S2048 .f32) (main_arg14 : FVec F S64x64 .f32) (main_arg15 : FVec F S64 .f32) (main_arg16 : FVec F S64x2 .f32) (main_arg17 : FVec F S2 .f32) (main_v63 : IVec S_ 1) (main_v67 : IVec S_ 1) : IVec S_ 1 :=
  let main_v68 : IVec S_ 1 := andi main_v63 main_v67
  let main_v69 : FVec F S64x64 .f32 := Host.absf main_arg14
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x2 .f32 := Host.absf main_arg16
  let main_cst_30 : FVec F S_ .f32 := constant S_ .f32 0x7F800000#32
  let main_v80 : FVec F S64x2 .f32 := broadcastInDim S64x2 ![] bcast_S_S64x2 main_cst_30
  let main_v81 : IVec S64x2 1 := cmpf .olt main_v79 main_v80
  let main_c_31 : IVec S_ 1 := constantI S_ 1 1#1
  let main_v82 : IVec S_ 1 := (fun x v => Host.reduce IntOp.andi x v reducesTo_S64x2_S_d0_1 h_S_) main_v81 main_c_31
  let main_v83 : IVec S_ 1 := andi main_v78 main_v82
  let main_v84 : FVec F S2 .f32 := Host.absf main_arg17
  let main_cst_32 : FVec F S_ .f32 := constant S_ .f32 0x7F800000#32
  fn_part5 (F := F) main_arg2 main_arg3 main_v83 main_v84 main_cst_32

def fn_part3 {F : FTy → Type} [FloatOps F] (main_arg2 : FVec F S10000x2048 .f32) (main_arg3 : FVec F S2048 .f32) (main_arg11 : FVec F S32 .f32) (main_arg12 : FVec F S32x64 .f32) (main_arg13 : FVec F S64 .f32) (main_arg14 : FVec F S64x64 .f32) (main_arg15 : FVec F S64 .f32) (main_arg16 : FVec F S64x2 .f32) (main_arg17 : FVec F S2 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x64 .f32 := Host.absf main_arg12
  let main_cst_22 : FVec F S_ .f32 := constant S_ .f32 0x7F800000#32
  let main_v60 : FVec F S32x64 .f32 := broadcastInDim S32x64 ![] bcast_S_S32x64 main_cst_22
  let main_v61 : IVec S32x64 1 := cmpf .olt main_v59 main_v60
  let main_c_23 : IVec S_ 1 := constantI S_ 1 1#1
  let main_v62 : IVec S_ 1 := (fun x v => Host.reduce IntOp.andi x v reducesTo_S32x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg2 main_arg3 main_arg14 main_arg15 main_arg16 main_arg17 main_v63 main_v67

def fn_part2 {F : FTy → Type} [FloatOps F] (main_arg2 : FVec F S10000x2048 .f32) (main_arg3 : FVec F S2048 .f32) (main_arg7 : FVec F S32 .f32) (main_arg8 : FVec F S64x64 .f32) (main_arg9 : FVec F S64 .f32) (main_arg10 : FVec F S64x32 .f32) (main_arg11 : FVec F S32 .f32) (main_arg12 : FVec F S32x64 .f32) (main_arg13 : FVec F S64 .f32) (main_arg14 : FVec F S64x64 .f32) (main_arg15 : FVec F S64 .f32) (main_arg16 : FVec F S64x2 .f32) (main_arg17 : FVec F S2 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x32 .f32 := Host.absf main_arg10
  let main_cst_18 : FVec F S_ .f32 := constant S_ .f32 0x7F800000#32
  let main_v50 : FVec F S64x32 .f32 := broadcastInDim S64x32 ![] bcast_S_S64x32 main_cst_18
  fn_part3 (F := F) main_arg2 main_arg3 main_arg11 main_arg12 main_arg13 main_arg14 main_arg15 main_arg16 main_arg17 main_v48 main_v49 main_v50

def fn_part1 {F : FTy → Type} [FloatOps F] (main_arg2 : FVec F S10000x2048 .f32) (main_arg3 : FVec F S2048 .f32) (main_arg4 : FVec F S128x32 .f32) (main_arg5 : FVec F S32 .f32) (main_arg6 : FVec F S16x32 .f32) (main_arg7 : FVec F S32 .f32) (main_arg8 : FVec F S64x64 .f32) (main_arg9 : FVec F S64 .f32) (main_arg10 : FVec F S64x32 .f32) (main_arg11 : FVec F S32 .f32) (main_arg12 : FVec F S32x64 .f32) (main_arg13 : FVec F S64 .f32) (main_arg14 : FVec F S64x64 .f32) (main_arg15 : FVec F S64 .f32) (main_arg16 : FVec F S64x2 .f32) (main_arg17 : FVec F S2 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S128x32 .f32 := Host.absf main_arg4
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S16x32 .f32 := Host.absf main_arg6
  let main_cst_10 : FVec F S_ .f32 := constant S_ .f32 0x7F800000#32
  let main_v30 : FVec F S16x32 .f32 := broadcastInDim S16x32 ![] bcast_S_S16x32 main_cst_10
  let main_v31 : IVec S16x32 1 := cmpf .olt main_v29 main_v30
  let main_c_11 : IVec S_ 1 := constantI S_ 1 1#1
  let main_v32 : IVec S_ 1 := (fun x v => Host.reduce IntOp.andi x v reducesTo_S16x32_S_d0_1 h_S_) main_v31 main_c_11
  let main_v33 : IVec S_ 1 := andi main_v28 main_v32
  fn_part2 (F := F) main_arg2 main_arg3 main_arg7 main_arg8 main_arg9 main_arg10 main_arg11 main_arg12 main_arg13 main_arg14 main_arg15 main_arg16 main_arg17 main_v33

def fn {F : FTy → Type} [FloatOps F] (main_arg0 : FVec F S10000x128 .f32) (main_arg1 : FVec F S10000x16 .f32) (main_arg2 : FVec F S10000x2048 .f32) (main_arg3 : FVec F S2048 .f32) (main_arg4 : FVec F S128x32 .f32) (main_arg5 : FVec F S32 .f32) (main_arg6 : FVec F S16x32 .f32) (main_arg7 : FVec F S32 .f32) (main_arg8 : FVec F S64x64 .f32) (main_arg9 : FVec F S64 .f32) (main_arg10 : FVec F S64x32 .f32) (main_arg11 : FVec F S32 .f32) (main_arg12 : FVec F S32x64 .f32) (main_arg13 : FVec F S64 .f32) (main_arg14 : FVec F S64x64 .f32) (main_arg15 : FVec F S64 .f32) (main_arg16 : FVec F S64x2 .f32) (main_arg17 : FVec F S2 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x16 .f32 := Host.absf main_arg1
  let main_cst_0 : FVec F S_ .f32 := constant S_ .f32 0x7F800000#32
  let main_v5 : FVec F S10000x16 .f32 := broadcastInDim S10000x16 ![] bcast_S_S10000x16 main_cst_0
  let main_v6 : IVec S10000x16 1 := cmpf .olt main_v4 main_v5
  let main_c_1 : IVec S_ 1 := constantI S_ 1 1#1
  let main_v7 : IVec S_ 1 := (fun x v => Host.reduce IntOp.andi x v reducesTo_S10000x16_S_d0_1 h_S_) main_v6 main_c_1
  let main_v8 : IVec S_ 1 := andi main_v3 main_v7
  let main_v9 : FVec F S10000x2048 .f32 := Host.absf main_arg2
  let main_cst_2 : FVec F S_ .f32 := constant S_ .f32 0x7F800000#32
  let main_v10 : FVec F S10000x2048 .f32 := broadcastInDim S10000x2048 ![] bcast_S_S10000x2048 main_cst_2
  let main_v11 : IVec S10000x2048 1 := cmpf .olt main_v9 main_v10
  let main_c_3 : IVec S_ 1 := constantI S_ 1 1#1
  let main_v12 : IVec S_ 1 := (fun x v => Host.reduce IntOp.andi x v reducesTo_S10000x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg2 main_arg3 main_arg4 main_arg5 main_arg6 main_arg7 main_arg8 main_arg9 main_arg10 main_arg11 main_arg12 main_arg13 main_arg14 main_arg15 main_arg16 main_arg17 main_v13 main_v16
-- ==== Kernel.lean ====
abbrev S10000x128 : Shape := ⟨2, ![10000, 128]⟩
abbrev S10000x16 : Shape := ⟨2, ![10000, 16]⟩
abbrev S10000x2048 : Shape := ⟨2, ![10000, 2048]⟩
abbrev S2048 : Shape := ⟨1, ![2048]⟩
abbrev S128x32 : Shape := ⟨2, ![128, 32]⟩
abbrev S32 : Shape := ⟨1, ![32]⟩
abbrev S16x32 : Shape := ⟨2, ![16, 32]⟩
abbrev S64x64 : Shape := ⟨2, ![64, 64]⟩
abbrev S64 : Shape := ⟨1, ![64]⟩
abbrev S64x32 : Shape := ⟨2, ![64, 32]⟩
abbrev S32x64 : Shape := ⟨2, ![32, 64]⟩
abbrev S64x2 : Shape := ⟨2, ![64, 2]⟩
abbrev S2 : Shape := ⟨1, ![2]⟩
abbrev S2048x1 : Shape := ⟨2, ![2048, 1]⟩
abbrev S1x2048 : Shape := ⟨2, ![1, 2048]⟩
abbrev S1x32 : Shape := ⟨2, ![1, 32]⟩
abbrev S1x64 : Shape := ⟨2, ![1, 64]⟩
abbrev S1x2 : Shape := ⟨2, ![1, 2]⟩
abbrev S10000x32 : Shape := ⟨2, ![10000, 32]⟩
abbrev S10000x2 : Shape := ⟨2, ![10000, 2]⟩
abbrev S400x2048 : Shape := ⟨2, ![400, 2048]⟩
abbrev S400x128 : Shape := ⟨2, ![400, 128]⟩
abbrev S400x16 : Shape := ⟨2, ![400, 16]⟩
abbrev S400x32 : Shape := ⟨2, ![400, 32]⟩
abbrev S400x2 : Shape := ⟨2, ![400, 2]⟩
abbrev S64x2048 : Shape := ⟨2, ![64, 2048]⟩
abbrev S2048x64 : Shape := ⟨2, ![2048, 64]⟩
abbrev S400x1 : Shape := ⟨2, ![400, 1]⟩
abbrev S1x400 : Shape := ⟨2, ![1, 400]⟩
abbrev S400x64 : Shape := ⟨2, ![400, 64]⟩
abbrev S2000x2048 : Shape := ⟨2, ![2000, 2048]⟩
abbrev S2000x64 : Shape := ⟨2, ![2000, 64]⟩

abbrev nBuf : Space → Nat
  | .hbm => 30
  | .vmem => 30
  | .smem => 0
  | _ => 0

abbrev bufTy : (tb : Table) → Fin (tcTables nBuf tb) → BufTy
  | .hbm, ⟨0, _⟩ => ⟨S10000x128, .f32⟩
  | .hbm, ⟨1, _⟩ => ⟨S10000x16, .f32⟩
  | .hbm, ⟨2, _⟩ => ⟨S10000x2048, .f32⟩
  | .hbm, ⟨3, _⟩ => ⟨S2048, .f32⟩
  | .hbm, ⟨4, _⟩ => ⟨S128x32, .f32⟩
  | .hbm, ⟨5, _⟩ => ⟨S32, .f32⟩
  | .hbm, ⟨6, _⟩ => ⟨S16x32, .f32⟩
  | .hbm, ⟨7, _⟩ => ⟨S32, .f32⟩
  | .hbm, ⟨8, _⟩ => ⟨S64x64, .f32⟩
  | .hbm, ⟨9, _⟩ => ⟨S64, .f32⟩
  | .hbm, ⟨10, _⟩ => ⟨S64x32, .f32⟩
  | .hbm, ⟨11, _⟩ => ⟨S32, .f32⟩
  | .hbm, ⟨12, _⟩ => ⟨S32x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x2, .f32⟩
  | .hbm, ⟨17, _⟩ => ⟨S2, .f32⟩
  | .hbm, ⟨18, _⟩ => ⟨S2048x1, .f32⟩
  | .hbm, ⟨19, _⟩ => ⟨S2048x1, .bf16⟩
  | .hbm, ⟨20, _⟩ => ⟨S1x2048, .f32⟩
  | .hbm, ⟨21, _⟩ => ⟨S1x32, .f32⟩
  | .hbm, ⟨22, _⟩ => ⟨S1x32, .f32⟩
  | .hbm, ⟨23, _⟩ => ⟨S1x64, .f32⟩
  | .hbm, ⟨24, _⟩ => ⟨S1x32, .f32⟩
  | .hbm, ⟨25, _⟩ => ⟨S1x64, .f32⟩
  | .hbm, ⟨26, _⟩ => ⟨S1x64, .f32⟩
  | .hbm, ⟨27, _⟩ => ⟨S1x2, .f32⟩
  | .hbm, ⟨28, _⟩ => ⟨S10000x32, .f32⟩
  | .hbm, ⟨29, _⟩ => ⟨S10000x2, .f32⟩
  | .local _ .vmem, ⟨0, _⟩ => ⟨S400x2048, .f32⟩
  | .local _ .vmem, ⟨1, _⟩ => ⟨S400x2048, .f32⟩
  | .local _ .vmem, ⟨2, _⟩ => ⟨S400x128, .f32⟩
  | .local _ .vmem, ⟨3, _⟩ => ⟨S400x128, .f32⟩
  | .local _ .vmem, ⟨4, _⟩ => ⟨S400x16, .f32⟩
  | .local _ .vmem, ⟨5, _⟩ => ⟨S400x16, .f32⟩
  | .local _ .vmem, ⟨6, _⟩ => ⟨S2048x1, .bf16⟩
  | .local _ .vmem, ⟨7, _⟩ => ⟨S1x2048, .f32⟩
  | .local _ .vmem, ⟨8, _⟩ => ⟨S128x32, .f32⟩
  | .local _ .vmem, ⟨9, _⟩ => ⟨S1x32, .f32⟩
  | .local _ .vmem, ⟨10, _⟩ => ⟨S16x32, .f32⟩
  | .local _ .vmem, ⟨11, _⟩ => ⟨S1x32, .f32⟩
  | .local _ .vmem, ⟨12, _⟩ => ⟨S64x64, .f32⟩
  | .local _ .vmem, ⟨13, _⟩ => ⟨S1x64, .f32⟩
  | .local _ .vmem, ⟨14, _⟩ => ⟨S64x32, .f32⟩
  | .local _ .vmem, ⟨15, _⟩ => ⟨S1x32, .f32⟩
  | .local _ .vmem, ⟨16, _⟩ => ⟨S32x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S64x2, .f32⟩
  | .local _ .vmem, ⟨21, _⟩ => ⟨S1x2, .f32⟩
  | .local _ .vmem, ⟨22, _⟩ => ⟨S400x32, .f32⟩
  | .local _ .vmem, ⟨23, _⟩ => ⟨S400x32, .f32⟩
  | .local _ .vmem, ⟨24, _⟩ => ⟨S400x2, .f32⟩
  | .local _ .vmem, ⟨25, _⟩ => ⟨S400x2, .f32⟩
  | .local _ .vmem, ⟨26, _⟩ => ⟨S10000x2048, .bf16⟩
  | .local _ .vmem, ⟨27, _⟩ => ⟨S1x2048, .f32⟩
  | .local _ .vmem, ⟨28, _⟩ => ⟨S64x2048, .f32⟩
  | .local _ .vmem, ⟨29, _⟩ => ⟨S2048x64, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10_0 : Ref sig .tc := ⟨.hbm, 28, rfl⟩
abbrev main_v10_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem19_1 : DmaSem sig := 23
abbrev cc0_sem20_0 : DmaSem sig := 24
abbrev cc0_sem20_1 : DmaSem sig := 25

abbrev nD : Nat := 1
abbrev τ : Topo := Topo.v7x

variable {F : FTy → Type} [FloatOps F]

abbrev grid0 : Pipeline.Grid := ⟨1, ![55], ![false]⟩

def k0_cond2 (i : grid0.Coords) : BitVec 1 :=
  let arg0 : BitVec 32 := BitVec.ofNat 32 (i 0).val
  let c25_i32 : BitVec 32 := 25#32
  let v3 : BitVec 1 := Scalar.cmpi .slt arg0 c25_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c400_i32 : BitVec 32 := 400#32
  let v38 : BitVec 32 := Scalar.muli arg0 c400_i32
  let v39 : Index := Scalar.indexCast v38
  let c0_20 : Index := 0#32
  ![v39.toNat, 0]
def k0_cond4 (i : grid0.Coords) : BitVec 1 :=
  let arg0 : BitVec 32 := BitVec.ofNat 32 (i 0).val
  let c25_i32_4 : BitVec 32 := 25#32
  let v9 : BitVec 1 := Scalar.cmpi .sge arg0 c25_i32_4
  let c30_i32 : BitVec 32 := 30#32
  let v10 : BitVec 1 := Scalar.cmpi .slt arg0 c30_i32
  let v11 : BitVec 1 := Scalar.andi v9 v10
  let v12 : BitVec 32 := Scalar.extui v11
  let c0_i32_5 : BitVec 32 := 0#32
  let v13 : BitVec 1 := Scalar.cmpi .ne v12 c0_i32_5
  v13

def k0_off2 (i : grid0.Coords) : Fin 2 → Nat :=
  let arg0 : BitVec 32 := BitVec.ofNat 32 (i 0).val
  let c25_i32_10 : BitVec 32 := 25#32
  let v20 : BitVec 32 := Scalar.subi arg0 c25_i32_10
  let c2000_i32 : BitVec 32 := 2000#32
  let v21 : BitVec 32 := Scalar.muli v20 c2000_i32
  let v22 : Index := Scalar.indexCast v21
  let c0 : Index := 0#32
  ![v22.toNat, 0]
def k0_cond6 (i : grid0.Coords) : BitVec 1 :=
  let arg0 : BitVec 32 := BitVec.ofNat 32 (i 0).val
  let c30_i32_8 : BitVec 32 := 30#32
  let v17 : BitVec 1 := Scalar.cmpi .sge arg0 c30_i32_8
  let v18 : BitVec 32 := Scalar.extui v17
  let c0_i32_9 : BitVec 32 := 0#32
  let v19 : BitVec 1 := Scalar.cmpi .ne v18 c0_i32_9
  v19

def k0_off3 (i : grid0.Coords) : Fin 2 → Nat :=
  let arg0 : BitVec 32 := BitVec.ofNat 32 (i 0).val
  let c30_i32_10 : BitVec 32 := 30#32
  let v20 : BitVec 32 := Scalar.subi arg0 c30_i32_10
  let c400_i32 : BitVec 32 := 400#32
  let v21 : BitVec 32 := Scalar.muli v20 c400_i32
  let v22 : Index := Scalar.indexCast v21
  let c0 : Index := 0#32
  ![v22.toNat, 0]
def cc0_transform_0 (i : grid0.Coords) : Fin 2 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c30_i32 : BitVec 32 := 30#32
  let v0 : BitVec 32 := Scalar.subi arg0 c30_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S400x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S64x2 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x2 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S400x32 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S400x2 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  shapeCasts_S2048_S2048x1 : S2048.ShapeCasts S2048x1
  bitsLt_bf16_f32 : FTy.bits .bf16 < FTy.bits .f32
  shapeCasts_S2048_S1x2048 : S2048.ShapeCasts S1x2048
  shapeCasts_S32_S1x32 : S32.ShapeCasts S1x32
  shapeCasts_S64_S1x64 : S64.ShapeCasts S1x64
  shapeCasts_S2_S1x2 : S2.ShapeCasts S1x2
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S400x2048_S400x2048_0_0 : ∀ a, (![0, 0] : Fin 2 → Nat) a + S400x2048.size a ≤ S400x2048.size a
  h_S400x2048 : 0 < S400x2048.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S400x1_S400x2048 : S400x1.Broadcasts S400x2048
  shapeCasts_S400x2048_S400x2048 : S400x2048.ShapeCasts S400x2048
  inb_S400x128_S400x128_0_0 : ∀ a, (![0, 0] : Fin 2 → Nat) a + S400x128.size a ≤ S400x128.size a
  h_S400x128 : 0 < S400x128.numel
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S400x32 : S1x32.Broadcasts S400x32
  inb_S400x16_S400x16_0_0 : ∀ a, (![0, 0] : Fin 2 → Nat) a + S400x16.size a ≤ S400x16.size a
  h_S400x16 : 0 < S400x16.numel
  inb_S16x32_S16x32_0_0 : ∀ a, (![0, 0] : Fin 2 → Nat) a + S16x32.size a ≤ S16x32.size a
  h_S16x32 : 0 < S16x32.numel
  concatenates_S400x32_S400x32_S400x64_d1 : Shape.Concatenates [S400x32, S400x32] S400x64 1
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S64x32_S64x32_0_0 : ∀ a, (![0, 0] : Fin 2 → Nat) a + S64x32.size a ≤ S64x32.size a
  h_S64x32 : 0 < S64x32.numel
  inb_S400x32_S400x32_0_0 : ∀ a, (![0, 0] : Fin 2 → Nat) a + S400x32.size a ≤ S400x32.size a
  h_S400x32 : 0 < S400x32.numel
  inb_S32x64_S32x64_0_0 : ∀ a, (![0, 0] : Fin 2 → Nat) a + S32x64.size a ≤ S32x64.size a
  h_S32x64 : 0 < S32x64.numel
  broadcasts_S1x2048_S64x2048 : S1x2048.Broadcasts S64x2048
  transposes_S64x2048_p1_0_S2048x64 : S64x2048.Transposes [1, 0] S2048x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  h_S2000x2048 : 0 < S2000x2048.numel
  broadcasts_S1x64_S2000x64 : S1x64.Broadcasts S2000x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S400x2 : S1x2.Broadcasts S400x2
  inb_S400x2_S400x2_0_0 : ∀ a, (![0, 0] : Fin 2 → Nat) a + S400x2.size a ≤ S400x2.size a
  h_S400x2 : 0 < S400x2.numel
  dot_S400x2048_S2048x1_S400x1_1_0_0_1_n_n_wf : DotDims.WF S400x2048 S2048x1 S400x1 [1] [0] [0] [1] [] []
  dot_S1x400_S400x2048_S1x2048_1_0_0_1_n_n_wf : DotDims.WF S1x400 S400x2048 S1x2048 [1] [0] [0] [1] [] []
  dot_S400x128_S128x32_S400x32_1_0_0_1_n_n_wf : DotDims.WF S400x128 S128x32 S400x32 [1] [0] [0] [1] [] []
  dot_S400x16_S16x32_S400x32_1_0_0_1_n_n_wf : DotDims.WF S400x16 S16x32 S400x32 [1] [0] [0] [1] [] []
  dot_S400x64_S64x64_S400x64_1_0_0_1_n_n_wf : DotDims.WF S400x64 S64x64 S400x64 [1] [0] [0] [1] [] []
  dot_S400x64_S64x32_S400x32_1_0_0_1_n_n_wf : DotDims.WF S400x64 S64x32 S400x32 [1] [0] [0] [1] [] []
  dot_S400x32_S32x64_S400x64_1_0_0_1_n_n_wf : DotDims.WF S400x32 S32x64 S400x64 [1] [0] [0] [1] [] []
  dot_S400x64_S400x2048_S64x2048_0_0_1_1_n_n_wf : DotDims.WF S400x64 S400x2048 S64x2048 [0] [0] [1] [1] [] []
  dot_S2000x2048_S2048x64_S2000x64_1_0_0_1_n_n_wf : DotDims.WF S2000x2048 S2048x64 S2000x64 [1] [0] [0] [1] [] []
  dot_S2000x64_S64x64_S2000x64_1_0_0_1_n_n_wf : DotDims.WF S2000x64 S64x64 S2000x64 [1] [0] [0] [1] [] []
  dot_S2000x64_S2000x2048_S64x2048_0_0_1_1_n_n_wf : DotDims.WF S2000x64 S2000x2048 S64x2048 [0] [0] [1] [1] [] []
  dot_S400x2048_S2048x64_S400x64_1_0_0_1_n_n_wf : DotDims.WF S400x2048 S2048x64 S400x64 [1] [0] [0] [1] [] []
  dot_S400x64_S64x2_S400x2_1_0_0_1_n_n_wf : DotDims.WF S400x64 S64x2 S400x2 [1] [0] [0] [1] [] []
  hrank0 : 0 < grid0.rank
  k0_off1_inb : ∀ i : grid0.Coords, ∀ (k0_h2 : k0_cond2 i = 1#1), ∀ a, (k0_off1 i) a + S400x2048.size a ≤ S10000x2048.size a
  k0_off1_packedbf16 : ∀ i : grid0.Coords, ∀ (k0_h2 : k0_cond2 i = 1#1), (Rect.unit (s := S10000x2048) (k0_off1 i) S400x2048.size (k0_off1_inb i k0_h2)).PackedRows (EltTy.packing .bf16)
  k0_off2_inb : ∀ i : grid0.Coords, ∀ (k0_h4 : k0_cond4 i = 1#1), ∀ a, (k0_off2 i) a + S2000x2048.size a ≤ S10000x2048.size a
  k0_off3_inb : ∀ i : grid0.Coords, ∀ (k0_h6 : k0_cond6 i = 1#1), ∀ a, (k0_off3 i) a + S400x2048.size a ≤ S10000x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x2048.size a ≤ S10000x2048.size a
  hwx0_0 : ∀ i : grid0.Coords, EltTy.bits .f32 = 32 ∨ (Rect.block (s := S10000x2048) S400x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x128.size a ≤ S10000x128.size a
  hwx0_1 : ∀ i : grid0.Coords, EltTy.bits .f32 = 32 ∨ (Rect.block (s := S10000x128) S400x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x16.size a ≤ S10000x16.size a
  hwx0_2 : ∀ i : grid0.Coords, EltTy.bits .f32 = 32 ∨ (Rect.block (s := S10000x16) S400x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S2048x1.size a
  hwx0_3 : ∀ i : grid0.Coords, EltTy.bits .bf16 = 32 ∨ (Rect.block (s := S2048x1) S2048x1.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x32.size a ≤ S128x32.size a
  hwx0_5 : ∀ i : grid0.Coords, EltTy.bits .f32 = 32 ∨ (Rect.block (s := S128x32) S128x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x32.size a ≤ S16x32.size a
  hwx0_7 : ∀ i : grid0.Coords, EltTy.bits .f32 = 32 ∨ (Rect.block (s := S16x32) S16x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x32.size a ≤ S64x32.size a
  hwx0_11 : ∀ i : grid0.Coords, EltTy.bits .f32 = 32 ∨ (Rect.block (s := S64x32) S64x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x32.size a ≤ S1x32.size a
  hwx0_12 : ∀ i : grid0.Coords, EltTy.bits .f32 = 32 ∨ (Rect.block (s := S1x32) S1x32.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S32x64.size a ≤ S32x64.size a
  hwx0_13 : ∀ i : grid0.Coords, EltTy.bits .f32 = 32 ∨ (Rect.block (s := S32x64) S32x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x64.size a ≤ S1x64.size a
  hwx0_14 : ∀ i : grid0.Coords, EltTy.bits .f32 = 32 ∨ (Rect.block (s := S1x64) S1x64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S64x64.size a ≤ S64x64.size a
  hwx0_15 : ∀ i : grid0.Coords, EltTy.bits .f32 = 32 ∨ (Rect.block (s := S64x64) S64x64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x64.size a ≤ S1x64.size a
  hwx0_16 : ∀ i : grid0.Coords, EltTy.bits .f32 = 32 ∨ (Rect.block (s := S1x64) S1x64.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S64x2.size a ≤ S64x2.size a
  hwx0_17 : ∀ i : grid0.Coords, EltTy.bits .f32 = 32 ∨ (Rect.block (s := S64x2) S64x2.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x2.size a ≤ S1x2.size a
  hwx0_18 : ∀ i : grid0.Coords, EltTy.bits .f32 = 32 ∨ (Rect.block (s := S1x2) S1x2.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S400x32.size a ≤ S10000x32.size a
  hwx0_19 : ∀ i : grid0.Coords, EltTy.bits .f32 = 32 ∨ (Rect.block (s := S10000x32) S400x32.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S400x2.size a ≤ S10000x2.size a
  hwx0_20 : ∀ i : grid0.Coords, EltTy.bits .f32 = 32 ∨ (Rect.block (s := S10000x2) S400x2.size (cc0_transform_20 i) (hinb0_20 i)).WholeWords (EltTy.packing .f32)

variable [Facts₀]

def dot_S400x2048_S2048x1_S400x1_1_0_0_1_n_n : DotDims S400x2048 S2048x1 S400x1 where
  lhsContracting := [1]
  rhsContracting := [0]
  lhsNonContracting := [0]
  rhsNonContracting := [1]
  lhsBatch := []
  rhsBatch := []
  wf := dot_S400x2048_S2048x1_S400x1_1_0_0_1_n_n_wf
def dot_S1x400_S400x2048_S1x2048_1_0_0_1_n_n : DotDims S1x400 S400x2048 S1x2048 where
  lhsContracting := [1]
  rhsContracting := [0]
  lhsNonContracting := [0]
  rhsNonContracting := [1]
  lhsBatch := []
  rhsBatch := []
  wf := dot_S1x400_S400x2048_S1x2048_1_0_0_1_n_n_wf
def dot_S400x128_S128x32_S400x32_1_0_0_1_n_n : DotDims S400x128 S128x32 S400x32 where
  lhsContracting := [1]
  rhsContracting := [0]
  lhsNonContracting := [0]
  rhsNonContracting := [1]
  lhsBatch := []
  rhsBatch := []
  wf := dot_S400x128_S128x32_S400x32_1_0_0_1_n_n_wf
def dot_S400x16_S16x32_S400x32_1_0_0_1_n_n : DotDims S400x16 S16x32 S400x32 where
  lhsContracting := [1]
  rhsContracting := [0]
  lhsNonContracting := [0]
  rhsNonContracting := [1]
  lhsBatch := []
  rhsBatch := []
  wf := dot_S400x16_S16x32_S400x32_1_0_0_1_n_n_wf
def dot_S400x64_S64x64_S400x64_1_0_0_1_n_n : DotDims S400x64 S64x64 S400x64 where
  lhsContracting := [1]
  rhsContracting := [0]
  lhsNonContracting := [0]
  rhsNonContracting := [1]
  lhsBatch := []
  rhsBatch := []
  wf := dot_S400x64_S64x64_S400x64_1_0_0_1_n_n_wf
def dot_S400x64_S64x32_S400x32_1_0_0_1_n_n : DotDims S400x64 S64x32 S400x32 where
  lhsContracting := [1]
  rhsContracting := [0]
  lhsNonContracting := [0]
  rhsNonContracting := [1]
  lhsBatch := []
  rhsBatch := []
  wf := dot_S400x64_S64x32_S400x32_1_0_0_1_n_n_wf
def dot_S400x32_S32x64_S400x64_1_0_0_1_n_n : DotDims S400x32 S32x64 S400x64 where
  lhsContracting := [1]
  rhsContracting := [0]
  lhsNonContracting := [0]
  rhsNonContracting := [1]
  lhsBatch := []
  rhsBatch := []
  wf := dot_S400x32_S32x64_S400x64_1_0_0_1_n_n_wf
def dot_S400x64_S400x2048_S64x2048_0_0_1_1_n_n : DotDims S400x64 S400x2048 S64x2048 where
  lhsContracting := [0]
  rhsContracting := [0]
  lhsNonContracting := [1]
  rhsNonContracting := [1]
  lhsBatch := []
  rhsBatch := []
  wf := dot_S400x64_S400x2048_S64x2048_0_0_1_1_n_n_wf
def dot_S2000x2048_S2048x64_S2000x64_1_0_0_1_n_n : DotDims S2000x2048 S2048x64 S2000x64 where
  lhsContracting := [1]
  rhsContracting := [0]
  lhsNonContracting := [0]
  rhsNonContracting := [1]
  lhsBatch := []
  rhsBatch := []
  wf := dot_S2000x2048_S2048x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S2000x2048_S64x2048_0_0_1_1_n_n : DotDims S2000x64 S2000x2048 S64x2048 where
  lhsContracting := [0]
  rhsContracting := [0]
  lhsNonContracting := [1]
  rhsNonContracting := [1]
  lhsBatch := []
  rhsBatch := []
  wf := dot_S2000x64_S2000x2048_S64x2048_0_0_1_1_n_n_wf
def dot_S400x2048_S2048x64_S400x64_1_0_0_1_n_n : DotDims S400x2048 S2048x64 S400x64 where
  lhsContracting := [1]
  rhsContracting := [0]
  lhsNonContracting := [0]
  rhsNonContracting := [1]
  lhsBatch := []
  rhsBatch := []
  wf := dot_S400x2048_S2048x64_S400x64_1_0_0_1_n_n_wf
def dot_S400x64_S64x2_S400x2_1_0_0_1_n_n : DotDims S400x64 S64x2 S400x2 where
  lhsContracting := [1]
  rhsContracting := [0]
  lhsNonContracting := [0]
  rhsNonContracting := [1]
  lhsBatch := []
  rhsBatch := []
  wf := dot_S400x64_S64x2_S400x2_1_0_0_1_n_n_wf

abbrev win0_0 : Pipeline.Window sig grid0 :=
  Pipeline.Window.ofSpec (Memref.whole main_arg2) S400x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S400x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S16x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S64x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v6) S1x32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S32x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v7) S1x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg14) S64x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v8) S1x64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg16) S64x2.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v9) S1x2.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v10_0) S400x32.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v10_1) S400x2.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

abbrev idle0 : Fin 21 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun _ => false | 19 => fun i => !(k0_cond2 i == 1#1) | 20 => fun i => !(k0_cond6 i == 1#1) | ⟨_ + 21, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x16 : Shape := ⟨2, ![10000, 16]⟩
abbrev S10000x2048 : Shape := ⟨2, ![10000, 2048]⟩
abbrev S2048 : Shape := ⟨1, ![2048]⟩
abbrev S128x32 : Shape := ⟨2, ![128, 32]⟩
abbrev S32 : Shape := ⟨1, ![32]⟩
abbrev S16x32 : Shape := ⟨2, ![16, 32]⟩
abbrev S64x64 : Shape := ⟨2, ![64, 64]⟩
abbrev S64 : Shape := ⟨1, ![64]⟩
abbrev S64x32 : Shape := ⟨2, ![64, 32]⟩
abbrev S32x64 : Shape := ⟨2, ![32, 64]⟩
abbrev S64x2 : Shape := ⟨2, ![64, 2]⟩
abbrev S2 : Shape := ⟨1, ![2]⟩
abbrev S10000x32 : Shape := ⟨2, ![10000, 32]⟩
abbrev S1x32 : Shape := ⟨2, ![1, 32]⟩
abbrev S10000x64 : Shape := ⟨2, ![10000, 64]⟩
abbrev S1x64 : Shape := ⟨2, ![1, 64]⟩
abbrev S_ : Shape := ⟨0, ![]⟩
abbrev S1x2048 : Shape := ⟨2, ![1, 2048]⟩
abbrev S10000 : Shape := ⟨1, ![10000]⟩
abbrev S10000x1 : Shape := ⟨2, ![10000, 1]⟩
abbrev S2048x10000 : Shape := ⟨2, ![2048, 10000]⟩
abbrev S2048x64 : Shape := ⟨2, ![2048, 64]⟩
abbrev S2048x1 : Shape := ⟨2, ![2048, 1]⟩
abbrev S10000x2 : Shape := ⟨2, ![10000, 2]⟩
abbrev S1x2 : Shape := ⟨2, ![1, 2]⟩

abbrev nBuf : Space → Nat
  | .hbm => 124
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x16, .f32⟩
  | .hbm, ⟨2, _⟩ => ⟨S10000x2048, .f32⟩
  | .hbm, ⟨3, _⟩ => ⟨S2048, .f32⟩
  | .hbm, ⟨4, _⟩ => ⟨S128x32, .f32⟩
  | .hbm, ⟨5, _⟩ => ⟨S32, .f32⟩
  | .hbm, ⟨6, _⟩ => ⟨S16x32, .f32⟩
  | .hbm, ⟨7, _⟩ => ⟨S32, .f32⟩
  | .hbm, ⟨8, _⟩ => ⟨S64x64, .f32⟩
  | .hbm, ⟨9, _⟩ => ⟨S64, .f32⟩
  | .hbm, ⟨10, _⟩ => ⟨S64x32, .f32⟩
  | .hbm, ⟨11, _⟩ => ⟨S32, .f32⟩
  | .hbm, ⟨12, _⟩ => ⟨S32x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x2, .f32⟩
  | .hbm, ⟨17, _⟩ => ⟨S2, .f32⟩
  | .hbm, ⟨18, _⟩ => ⟨S10000x32, .f32⟩
  | .hbm, ⟨19, _⟩ => ⟨S1x32, .f32⟩
  | .hbm, ⟨20, _⟩ => ⟨S10000x32, .f32⟩
  | .hbm, ⟨21, _⟩ => ⟨S10000x32, .f32⟩
  | .hbm, ⟨22, _⟩ => ⟨S10000x32, .f32⟩
  | .hbm, ⟨23, _⟩ => ⟨S1x32, .f32⟩
  | .hbm, ⟨24, _⟩ => ⟨S10000x32, .f32⟩
  | .hbm, ⟨25, _⟩ => ⟨S10000x32, .f32⟩
  | .hbm, ⟨26, _⟩ => ⟨S10000x64, .f32⟩
  | .hbm, ⟨27, _⟩ => ⟨S10000x64, .f32⟩
  | .hbm, ⟨28, _⟩ => ⟨S1x64, .f32⟩
  | .hbm, ⟨29, _⟩ => ⟨S10000x64, .f32⟩
  | .hbm, ⟨30, _⟩ => ⟨S10000x64, .f32⟩
  | .hbm, ⟨31, _⟩ => ⟨S_, .f32⟩
  | .hbm, ⟨32, _⟩ => ⟨S10000x64, .f32⟩
  | .hbm, ⟨33, _⟩ => ⟨S10000x64, .f32⟩
  | .hbm, ⟨34, _⟩ => ⟨S10000x32, .f32⟩
  | .hbm, ⟨35, _⟩ => ⟨S1x32, .f32⟩
  | .hbm, ⟨36, _⟩ => ⟨S10000x32, .f32⟩
  | .hbm, ⟨37, _⟩ => ⟨S10000x32, .f32⟩
  | .hbm, ⟨38, _⟩ => ⟨S10000x32, .f32⟩
  | .hbm, ⟨39, _⟩ => ⟨S10000x32, .f32⟩
  | .hbm, ⟨40, _⟩ => ⟨S_, .f32⟩
  | .hbm, ⟨41, _⟩ => ⟨S10000x32, .f32⟩
  | .hbm, ⟨42, _⟩ => ⟨S10000x32, .f32⟩
  | .hbm, ⟨43, _⟩ => ⟨S_, .f32⟩
  | .hbm, ⟨44, _⟩ => ⟨S10000x32, .f32⟩
  | .hbm, ⟨45, _⟩ => ⟨S10000x32, .f32⟩
  | .hbm, ⟨46, _⟩ => ⟨S10000x32, .f32⟩
  | .hbm, ⟨47, _⟩ => ⟨S_, .f32⟩
  | .hbm, ⟨48, _⟩ => ⟨S10000x32, .f32⟩
  | .hbm, ⟨49, _⟩ => ⟨S10000x32, .f32⟩
  | .hbm, ⟨50, _⟩ => ⟨S10000x32, .f32⟩
  | .hbm, ⟨51, _⟩ => ⟨S10000x32, .f32⟩
  | .hbm, ⟨52, _⟩ => ⟨S10000x64, .f32⟩
  | .hbm, ⟨53, _⟩ => ⟨S1x64, .f32⟩
  | .hbm, ⟨54, _⟩ => ⟨S10000x64, .f32⟩
  | .hbm, ⟨55, _⟩ => ⟨S10000x64, .f32⟩
  | .hbm, ⟨56, _⟩ => ⟨S1x2048, .f32⟩
  | .hbm, ⟨57, _⟩ => ⟨S10000x2048, .f32⟩
  | .hbm, ⟨58, _⟩ => ⟨S10000x2048, .f32⟩
  | .hbm, ⟨59, _⟩ => ⟨S_, .f32⟩
  | .hbm, ⟨60, _⟩ => ⟨S10000, .f32⟩
  | .hbm, ⟨61, _⟩ => ⟨S_, .f32⟩
  | .hbm, ⟨62, _⟩ => ⟨S2048, .f32⟩
  | .hbm, ⟨63, _⟩ => ⟨S_, .f32⟩
  | .hbm, ⟨64, _⟩ => ⟨S10000, .f32⟩
  | .hbm, ⟨65, _⟩ => ⟨S10000, .f32⟩
  | .hbm, ⟨66, _⟩ => ⟨S10000, .f32⟩
  | .hbm, ⟨67, _⟩ => ⟨S10000x1, .f32⟩
  | .hbm, ⟨68, _⟩ => ⟨S10000x64, .f32⟩
  | .hbm, ⟨69, _⟩ => ⟨S10000x64, .f32⟩
  | .hbm, ⟨70, _⟩ => ⟨S2048x10000, .f32⟩
  | .hbm, ⟨71, _⟩ => ⟨S2048x64, .f32⟩
  | .hbm, ⟨72, _⟩ => ⟨S_, .f32⟩
  | .hbm, ⟨73, _⟩ => ⟨S2048, .f32⟩
  | .hbm, ⟨74, _⟩ => ⟨S2048, .f32⟩
  | .hbm, ⟨75, _⟩ => ⟨S2048, .f32⟩
  | .hbm, ⟨76, _⟩ => ⟨S2048x1, .f32⟩
  | .hbm, ⟨77, _⟩ => ⟨S2048x64, .f32⟩
  | .hbm, ⟨78, _⟩ => ⟨S2048x64, .f32⟩
  | .hbm, ⟨79, _⟩ => ⟨S10000x64, .f32⟩
  | .hbm, ⟨80, _⟩ => ⟨S10000x1, .f32⟩
  | .hbm, ⟨81, _⟩ => ⟨S10000x64, .f32⟩
  | .hbm, ⟨82, _⟩ => ⟨S10000x64, .f32⟩
  | .hbm, ⟨83, _⟩ => ⟨S_, .f32⟩
  | .hbm, ⟨84, _⟩ => ⟨S10000x64, .f32⟩
  | .hbm, ⟨85, _⟩ => ⟨S10000x64, .f32⟩
  | .hbm, ⟨86, _⟩ => ⟨S10000x64, .f32⟩
  | .hbm, ⟨87, _⟩ => ⟨S1x64, .f32⟩
  | .hbm, ⟨88, _⟩ => ⟨S10000x64, .f32⟩
  | .hbm, ⟨89, _⟩ => ⟨S10000x64, .f32⟩
  | .hbm, ⟨90, _⟩ => ⟨S1x2048, .f32⟩
  | .hbm, ⟨91, _⟩ => ⟨S10000x2048, .f32⟩
  | .hbm, ⟨92, _⟩ => ⟨S10000x2048, .f32⟩
  | .hbm, ⟨93, _⟩ => ⟨S_, .f32⟩
  | .hbm, ⟨94, _⟩ => ⟨S10000, .f32⟩
  | .hbm, ⟨95, _⟩ => ⟨S_, .f32⟩
  | .hbm, ⟨96, _⟩ => ⟨S2048, .f32⟩
  | .hbm, ⟨97, _⟩ => ⟨S_, .f32⟩
  | .hbm, ⟨98, _⟩ => ⟨S10000, .f32⟩
  | .hbm, ⟨99, _⟩ => ⟨S10000, .f32⟩
  | .hbm, ⟨100, _⟩ => ⟨S10000, .f32⟩
  | .hbm, ⟨101, _⟩ => ⟨S10000x1, .f32⟩
  | .hbm, ⟨102, _⟩ => ⟨S10000x64, .f32⟩
  | .hbm, ⟨103, _⟩ => ⟨S10000x64, .f32⟩
  | .hbm, ⟨104, _⟩ => ⟨S2048x10000, .f32⟩
  | .hbm, ⟨105, _⟩ => ⟨S2048x64, .f32⟩
  | .hbm, ⟨106, _⟩ => ⟨S_, .f32⟩
  | .hbm, ⟨107, _⟩ => ⟨S2048, .f32⟩
  | .hbm, ⟨108, _⟩ => ⟨S2048, .f32⟩
  | .hbm, ⟨109, _⟩ => ⟨S2048, .f32⟩
  | .hbm, ⟨110, _⟩ => ⟨S2048x1, .f32⟩
  | .hbm, ⟨111, _⟩ => ⟨S2048x64, .f32⟩
  | .hbm, ⟨112, _⟩ => ⟨S2048x64, .f32⟩
  | .hbm, ⟨113, _⟩ => ⟨S10000x64, .f32⟩
  | .hbm, ⟨114, _⟩ => ⟨S10000x1, .f32⟩
  | .hbm, ⟨115, _⟩ => ⟨S10000x64, .f32⟩
  | .hbm, ⟨116, _⟩ => ⟨S10000x64, .f32⟩
  | .hbm, ⟨117, _⟩ => ⟨S_, .f32⟩
  | .hbm, ⟨118, _⟩ => ⟨S10000x64, .f32⟩
  | .hbm, ⟨119, _⟩ => ⟨S10000x64, .f32⟩
  | .hbm, ⟨120, _⟩ => ⟨S10000x2, .f32⟩
  | .hbm, ⟨121, _⟩ => ⟨S1x2, .f32⟩
  | .hbm, ⟨122, _⟩ => ⟨S10000x2, .f32⟩
  | .hbm, ⟨123, _⟩ => ⟨S10000x2, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call0_cst : Ref sig .tc := ⟨.hbm, 31, rfl⟩
abbrev main_call0_v0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst : Ref sig .tc := ⟨.hbm, 40, rfl⟩
abbrev main_v20 : Ref sig .tc := ⟨.hbm, 41, rfl⟩
abbrev main_v21 : Ref sig .tc := ⟨.hbm, 42, rfl⟩
abbrev main_cst_0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_1 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_2 : Ref sig .tc := ⟨.hbm, 59, rfl⟩
abbrev main_v36 : Ref sig .tc := ⟨.hbm, 60, rfl⟩
abbrev main_cst_3 : Ref sig .tc := ⟨.hbm, 61, rfl⟩
abbrev main_v37 : Ref sig .tc := ⟨.hbm, 62, rfl⟩
abbrev main_cst_4 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_5 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_call1_cst : Ref sig .tc := ⟨.hbm, 83, rfl⟩
abbrev main_call1_v0 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_6 : Ref sig .tc := ⟨.hbm, 93, rfl⟩
abbrev main_v64 : Ref sig .tc := ⟨.hbm, 94, rfl⟩
abbrev main_cst_7 : Ref sig .tc := ⟨.hbm, 95, rfl⟩
abbrev main_v65 : Ref sig .tc := ⟨.hbm, 96, rfl⟩
abbrev main_cst_8 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_9 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_call2_cst : Ref sig .tc := ⟨.hbm, 117, rfl⟩
abbrev main_call2_v0 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  concatenates_S10000x32_S10000x32_S10000x64_d1 : Shape.Concatenates [S10000x32, S10000x32] S10000x64 1
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S_S10000x32 : S_.BroadcastsInDim S10000x32 (![] : Fin 0 → Fin S10000x32.rank)
  bcast_S2048_S1x2048_1 : S2048.BroadcastsInDim S1x2048 (![1] : Fin 1 → Fin S1x2048.rank)
  bcast_S1x2048_S10000x2048_0_1 : S1x2048.BroadcastsInDim S10000x2048 (![0, 1] : Fin 2 → Fin S10000x2048.rank)
  reducesTo_S10000x2048_S10000_d1 : S10000x2048.ReducesTo [1] S10000
  h_S_ : 0 < S_.numel
  reducesTo_S10000x2048_S2048_d0 : S10000x2048.ReducesTo [0] S2048
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  transposes_S10000x2048_S2048x10000_1_0 : S10000x2048.Transposes [1, 0] S2048x10000
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  bcast_S2_S1x2_1 : S2.BroadcastsInDim S1x2 (![1] : Fin 1 → Fin S1x2.rank)
  bcast_S1x2_S10000x2_0_1 : S1x2.BroadcastsInDim S10000x2 (![0, 1] : Fin 2 → Fin S10000x2.rank)
  dot_S10000x128_S128x32_S10000x32_1_0_0_1_n_n_wf : DotDims.WF S10000x128 S128x32 S10000x32 [1] [0] [0] [1] [] []
  dot_S10000x16_S16x32_S10000x32_1_0_0_1_n_n_wf : DotDims.WF S10000x16 S16x32 S10000x32 [1] [0] [0] [1] [] []
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  dot_S10000x32_S32x64_S10000x64_1_0_0_1_n_n_wf : DotDims.WF S10000x32 S32x64 S10000x64 [1] [0] [0] [1] [] []
  dot_S2048x10000_S10000x64_S2048x64_1_0_0_1_n_n_wf : DotDims.WF S2048x10000 S10000x64 S2048x64 [1] [0] [0] [1] [] []
  dot_S10000x2048_S2048x64_S10000x64_1_0_0_1_n_n_wf : DotDims.WF S10000x2048 S2048x64 S10000x64 [1] [0] [0] [1] [] []
  dot_S10000x64_S64x2_S10000x2_1_0_0_1_n_n_wf : DotDims.WF S10000x64 S64x2 S10000x2 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S2048x10000_S10000x64_S2048x64_1_0_0_1_n_n : DotDims S2048x10000 S10000x64 S2048x64 where
  lhsContracting := [1]
  rhsContracting := [0]
  lhsNonContracting := [0]
  rhsNonContracting := [1]
  lhsBatch := []
  rhsBatch := []
  wf := dot_S2048x10000_S10000x64_S2048x64_1_0_0_1_n_n_wf
def dot_S10000x2048_S2048x64_S10000x64_1_0_0_1_n_n : DotDims S10000x2048 S2048x64 S10000x64 where
  lhsContracting := [1]
  rhsContracting := [0]
  lhsNonContracting := [0]
  rhsNonContracting := [1]
  lhsBatch := []
  rhsBatch := []
  wf := dot_S10000x2048_S2048x64_S10000x64_1_0_0_1_n_n_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf

class Facts : Prop extends Facts₀ where

variable [Facts]
-- ==== Proof.KSched.lean ====
import proofs.«108041_g40587440947829_cont_sun_m_1101_23_alg».proof.Proof.Gen.Kernel.Frame
import proofs.«108041_g40587440947829_cont_sun_m_1101_23_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cInit (i : grid0.Coords) : Prop := (Scalar.cmpi .ne (Scalar.extui (Scalar.cmpi .eq (BitVec.ofNat 32 (i 0).val) 0#32)) 0#32) = 1#1

abbrev cPh0 (i : grid0.Coords) : Prop := k0_cond2 i = 1#1

abbrev cN1 (i : grid0.Coords) : Prop := (Scalar.cmpi .ne (Scalar.extui (Scalar.cmpi .eq (BitVec.ofNat 32 (i 0).val) 25#32)) 0#32) = 1#1

abbrev cPh1 (i : grid0.Coords) : Prop := k0_cond4 i = 1#1

abbrev cN2 (i : grid0.Coords) : Prop := (Scalar.cmpi .ne (Scalar.extui (Scalar.cmpi .eq (BitVec.ofNat 32 (i 0).val) 30#32)) 0#32) = 1#1

abbrev cPh2 (i : grid0.Coords) : Prop := k0_cond6 i = 1#1

theorem hcInit : ∀ t : Fin cfg0.N, cInit (grid0.coords t) ↔ t.val = 0 :=
  (by decide +kernel : ∀ t : Fin grid0.N, cInit (grid0.coords t) ↔ t.val = 0)
theorem hcPh0 : ∀ t : Fin cfg0.N, cPh0 (grid0.coords t) ↔ t.val < 25 :=
  (by decide +kernel : ∀ t : Fin grid0.N, cPh0 (grid0.coords t) ↔ t.val < 25)
theorem hcN1 : ∀ t : Fin cfg0.N, cN1 (grid0.coords t) ↔ t.val = 25 :=
  (by decide +kernel : ∀ t : Fin grid0.N, cN1 (grid0.coords t) ↔ t.val = 25)
theorem hcPh1 : ∀ t : Fin cfg0.N, cPh1 (grid0.coords t) ↔ (25 ≤ t.val ∧ t.val < 30) :=
  (by decide +kernel : ∀ t : Fin grid0.N, cPh1 (grid0.coords t) ↔ (25 ≤ t.val ∧ t.val < 30))
theorem hcN2 : ∀ t : Fin cfg0.N, cN2 (grid0.coords t) ↔ t.val = 30 :=
  (by decide +kernel : ∀ t : Fin grid0.N, cN2 (grid0.coords t) ↔ t.val = 30)
theorem hcPh2 : ∀ t : Fin cfg0.N, cPh2 (grid0.coords t) ↔ 30 ≤ t.val :=
  (by decide +kernel : ∀ t : Fin grid0.N, cPh2 (grid0.coords t) ↔ 30 ≤ t.val)

theorem off1_eq : ∀ t : Fin cfg0.N, k0_off1 (grid0.coords t) = ![400 * t.val, 0] :=
  (by decide +kernel : ∀ t : Fin grid0.N, k0_off1 (grid0.coords t) = ![400 * t.val, 0])
theorem off2_eq : ∀ t : Fin cfg0.N, 25 ≤ t.val → t.val < 30 → k0_off2 (grid0.coords t) = ![2000 * (t.val - 25), 0] :=
  (by decide +kernel : ∀ t : Fin grid0.N, 25 ≤ t.val → t.val < 30 → k0_off2 (grid0.coords t) = ![2000 * (t.val - 25), 0])
theorem off3_eq : ∀ t : Fin cfg0.N, 30 ≤ t.val → k0_off3 (grid0.coords t) = ![400 * (t.val - 30), 0] :=
  (by decide +kernel : ∀ t : Fin grid0.N, 30 ≤ t.val → k0_off3 (grid0.coords t) = ![400 * (t.val - 30), 0])

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
theorem live9 : ∀ t : Fin cfg0.N, cfg0.idle 9 (grid0.coords t) = false := by decide +kernel
theorem live10 : ∀ t : Fin cfg0.N, cfg0.idle 10 (grid0.coords t) = false := by decide +kernel
theorem live11 : ∀ t : Fin cfg0.N, cfg0.idle 11 (grid0.coords t) = false := by decide +kernel
theorem live12 : ∀ t : Fin cfg0.N, cfg0.idle 12 (grid0.coords t) = false := by decide +kernel
theorem live13 : ∀ t : Fin cfg0.N, cfg0.idle 13 (grid0.coords t) = false := by decide +kernel
theorem live14 : ∀ t : Fin cfg0.N, cfg0.idle 14 (grid0.coords t) = false := by decide +kernel
theorem live15 : ∀ t : Fin cfg0.N, cfg0.idle 15 (grid0.coords t) = false := by decide +kernel
theorem live16 : ∀ t : Fin cfg0.N, cfg0.idle 16 (grid0.coords t) = false := by decide +kernel
theorem live17 : ∀ t : Fin cfg0.N, cfg0.idle 17 (grid0.coords t) = false := by decide +kernel
theorem live18 : ∀ t : Fin cfg0.N, cfg0.idle 18 (grid0.coords t) = false := by decide +kernel

theorem live19 : ∀ t : Fin cfg0.N, t.val < 25 → cfg0.idle 19 (grid0.coords t) = false := by decide +kernel
theorem idle19 : ∀ t : Fin cfg0.N, 25 ≤ t.val → cfg0.idle 19 (grid0.coords t) = true := by decide +kernel

theorem noFlush19 : ∀ t : Fin cfg0.N, 25 ≤ t.val → t.val < 54 → (cfg0.win 19).flush t = false := by decide +kernel
theorem flush19_last : ∀ t : Fin cfg0.N, t.val = 54 → (cfg0.win 19).flush t = true := by decide +kernel

theorem noFlush19_24 : ∀ t : Fin cfg0.N, t.val = 24 → (cfg0.win 19).flush t = false := by decide +kernel

theorem idle20 : ∀ t : Fin cfg0.N, t.val < 30 → cfg0.idle 20 (grid0.coords t) = true := by decide +kernel
theorem noFlush20 : ∀ t : Fin cfg0.N, t.val < 30 → (cfg0.win 20).flush t = false := by decide +kernel
theorem live20 : ∀ t : Fin cfg0.N, 30 ≤ t.val → cfg0.idle 20 (grid0.coords t) = false := by decide +kernel

abbrev ms0 (t : Fin cfg0.N) : Memref sig .tc .vmem S400x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S400x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x1 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x32 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x32 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S16x32 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x32 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S64x64 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x64 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S64x32 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x32 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S32x64 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S1x64 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S64x64 .f32 := win0_15.stage (cfg0.slots t 15)
abbrev hs15 (t : Fin cfg0.N) : (ms15 t).IsWhole := hstage0_15 ((cfg0.slots t 15).cast nbuf0_15)
abbrev ms16 (t : Fin cfg0.N) : Memref sig .tc .vmem S1x64 .f32 := win0_16.stage (cfg0.slots t 16)
abbrev hs16 (t : Fin cfg0.N) : (ms16 t).IsWhole := hstage0_16 ((cfg0.slots t 16).cast nbuf0_16)
abbrev ms17 (t : Fin cfg0.N) : Memref sig .tc .vmem S64x2 .f32 := win0_17.stage (cfg0.slots t 17)
abbrev hs17 (t : Fin cfg0.N) : (ms17 t).IsWhole := hstage0_17 ((cfg0.slots t 17).cast nbuf0_17)
abbrev ms18 (t : Fin cfg0.N) : Memref sig .tc .vmem S1x2 .f32 := win0_18.stage (cfg0.slots t 18)
abbrev hs18 (t : Fin cfg0.N) : (ms18 t).IsWhole := hstage0_18 ((cfg0.slots t 18).cast nbuf0_18)
abbrev ms19 (t : Fin cfg0.N) : Memref sig .tc .vmem S400x32 .f32 := win0_19.stage (cfg0.slots t 19)
abbrev hs19 (t : Fin cfg0.N) : (ms19 t).IsWhole := hstage0_19 ((cfg0.slots t 19).cast nbuf0_19)
abbrev ms20 (t : Fin cfg0.N) : Memref sig .tc .vmem S400x2 .f32 := win0_20.stage (cfg0.slots t 20)
abbrev hs20 (t : Fin cfg0.N) : (ms20 t).IsWhole := hstage0_20 ((cfg0.slots t 20).cast nbuf0_20)

abbrev scHq : Memref sig .tc .vmem S10000x2048 .bf16 := Memref.whole cc0_scratch0
abbrev scDe : Memref sig .tc .vmem S1x2048 .f32 := Memref.whole cc0_scratch1
abbrev scMt : Memref sig .tc .vmem S64x2048 .f32 := Memref.whole cc0_scratch2
abbrev scMn : Memref sig .tc .vmem S2048x64 .bf16 := Memref.whole cc0_scratch3

theorem PhiA_eq (c : Dev nD) :
    (Pipeline.ΦA spec0 c : sProp 𝕄)
      = iprop(iprop((∃ d, owns (c : Thread nD τ) scHq fullShare d) ∗ (∃ d, owns (c : Thread nD τ) scDe fullShare d)
          ∗ (∃ d, owns (c : Thread nD τ) scMt fullShare d) ∗ (∃ d, owns (c : Thread nD τ) scMn fullShare d)) ∗ (∃ r, prngReg c r)) := by
  unfold Pipeline.ΦA; rw [scopedRest0_eq]; simp only [scHq, scDe, scMt, scMn, owns_whole]; try rfl

/-- The body's twenty-five buffer arguments, each a whole buffer. -/
structure Bufs where
  a1 : Memref sig .tc .vmem S400x2048 .f32
  w1 : a1.IsWhole
  a2 : Memref sig .tc .vmem S400x128 .f32
  w2 : a2.IsWhole
  a3 : Memref sig .tc .vmem S400x16 .f32
  w3 : a3.IsWhole
  a4 : Memref sig .tc .vmem S2048x1 .bf16
  w4 : a4.IsWhole
  a5 : Memref sig .tc .vmem S1x2048 .f32
  w5 : a5.IsWhole
  a6 : Memref sig .tc .vmem S128x32 .f32
  w6 : a6.IsWhole
  a7 : Memref sig .tc .vmem S1x32 .f32
  w7 : a7.IsWhole
  a8 : Memref sig .tc .vmem S16x32 .f32
  w8 : a8.IsWhole
  a9 : Memref sig .tc .vmem S1x32 .f32
  w9 : a9.IsWhole
  a10 : Memref sig .tc .vmem S64x64 .f32
  w10 : a10.IsWhole
  a11 : Memref sig .tc .vmem S1x64 .f32
  w11 : a11.IsWhole
  a12 : Memref sig .tc .vmem S64x32 .f32
  w12 : a12.IsWhole
  a13 : Memref sig .tc .vmem S1x32 .f32
  w13 : a13.IsWhole
  a14 : Memref sig .tc .vmem S32x64 .f32
  w14 : a14.IsWhole
  a15 : Memref sig .tc .vmem S1x64 .f32
  w15 : a15.IsWhole
  a16 : Memref sig .tc .vmem S64x64 .f32
  w16 : a16.IsWhole
  a17 : Memref sig .tc .vmem S1x64 .f32
  w17 : a17.IsWhole
  a18 : Memref sig .tc .vmem S64x2 .f32
  w18 : a18.IsWhole
  a19 : Memref sig .tc .vmem S1x2 .f32
  w19 : a19.IsWhole
  a20 : Memref sig .tc .vmem S400x32 .f32
  w20 : a20.IsWhole
  a21 : Memref sig .tc .vmem S400x2 .f32
  w21 : a21.IsWhole
  a22 : Memref sig .tc .vmem S10000x2048 .bf16
  w22 : a22.IsWhole
  a23 : Memref sig .tc .vmem S1x2048 .f32
  w23 : a23.IsWhole
  a24 : Memref sig .tc .vmem S64x2048 .f32
  w24 : a24.IsWhole
  a25 : Memref sig .tc .vmem S2048x64 .bf16
  w25 : a25.IsWhole

/-- The contents of the nineteen buffers the body only reads. -/
structure Ins (F : FTy → Type) where
  x0 : Vec F S400x2048 .f32
  x1 : Vec F S400x128 .f32
  x2 : Vec F S400x16 .f32
  x3 : Vec F S2048x1 .bf16
  x4 : Vec F S1x2048 .f32
  x5 : Vec F S128x32 .f32
  x6 : Vec F S1x32 .f32
  x7 : Vec F S16x32 .f32
  x8 : Vec F S1x32 .f32
  x9 : Vec F S64x64 .f32
  x10 : Vec F S1x64 .f32
  x11 : Vec F S64x32 .f32
  x12 : Vec F S1x32 .f32
  x13 : Vec F S32x64 .f32
  x14 : Vec F S1x64 .f32
  x15 : Vec F S64x64 .f32
  x16 : Vec F S1x64 .f32
  x17 : Vec F S64x2 .f32
  x18 : Vec F S1x2 .f32

/-- The body's buffers at grid point `t`. -/
abbrev bufs (t : Fin cfg0.N) : Bufs :=
  ⟨ms0 t, hs0 t, ms1 t, hs1 t, ms2 t, hs2 t, ms3 t, hs3 t, ms4 t, hs4 t, ms5 t, hs5 t, ms6 t, hs6 t, ms7 t, hs7 t, ms8 t, hs8 t, ms9 t, hs9 t, ms10 t, hs10 t, ms11 t, hs11 t, ms12 t, hs12 t, ms13 t, hs13 t, ms14 t, hs14 t, ms15 t, hs15 t, ms16 t, hs16 t, ms17 t, hs17 t, ms18 t, hs18 t, ms19 t, hs19 t, ms20 t, hs20 t, scHq, Memref.isWhole_whole _, scDe, Memref.isWhole_whole _, scMt, Memref.isWhole_whole _, scMn, Memref.isWhole_whole _⟩

/-- The kernel body over a bundle of buffers. -/
abbrev body (i : grid0.Coords) (B : Bufs) : Prog (TpuEff nD τ sig (Elt F) Λ₀ .tc) PUnit :=
  cc0__kernel i B.a1 B.w1 B.a2 B.w2 B.a3 B.w3 B.a4 B.w4 B.a5 B.w5 B.a6 B.w6 B.a7 B.w7 B.a8 B.w8 B.a9 B.w9 B.a10 B.w10 B.a11 B.w11 B.a12 B.w12 B.a13 B.w13 B.a14 B.w14 B.a15 B.w15 B.a16 B.w16 B.a17 B.w17 B.a18 B.w18 B.a19 B.w19 B.a20 B.w20 B.a21 B.w21 B.a22 B.w22 B.a23 B.w23 B.a24 B.w24 B.a25 B.w25

/-- Every read-only buffer owned whole, at its contents. -/
def insOwned (c : Dev nD) (B : Bufs) (X : Ins F) : sProp 𝕄 :=
  iprop(owns (c : Thread nD τ) B.a1 fullShare X.x0 ∗ owns (c : Thread nD τ) B.a2 fullShare X.x1 ∗ owns (c : Thread nD τ) B.a3 fullShare X.x2 ∗ owns (c : Thread nD τ) B.a4 fullShare X.x3 ∗ owns (c : Thread nD τ) B.a5 fullShare X.x4 ∗ owns (c : Thread nD τ) B.a6 fullShare X.x5 ∗ owns (c : Thread nD τ) B.a7 fullShare X.x6 ∗ owns (c : Thread nD τ) B.a8 fullShare X.x7 ∗ owns (c : Thread nD τ) B.a9 fullShare X.x8 ∗ owns (c : Thread nD τ) B.a10 fullShare X.x9 ∗ owns (c : Thread nD τ) B.a11 fullShare X.x10 ∗ owns (c : Thread nD τ) B.a12 fullShare X.x11 ∗ owns (c : Thread nD τ) B.a13 fullShare X.x12 ∗ owns (c : Thread nD τ) B.a14 fullShare X.x13 ∗ owns (c : Thread nD τ) B.a15 fullShare X.x14 ∗ owns (c : Thread nD τ) B.a16 fullShare X.x15 ∗ owns (c : Thread nD τ) B.a17 fullShare X.x16 ∗ owns (c : Thread nD τ) B.a18 fullShare X.x17 ∗ owns (c : Thread nD τ) B.a19 fullShare X.x18)

theorem hz2 : (![0, 0] : Fin 2 → ℕ) = fun _ => 0 := funext fun a => by fin_cases a <;> rfl

/-- A whole buffer holding the raw contents that read `x` is owned at `x`. -/
theorem ownsU (c : Dev nD) {S : Shape} {e : EltTy} {a : Memref sig .tc .vmem S e} (w : a.IsWhole) (x : Vec F S e) :
    (a.view.loc (c : Thread nD τ) ↦[a.view.set]{fullShare} w.unread x : sProp 𝕄)
      ⊢ iprop(∃ f, ⌜a.view.read (Elt F) f = x⌝ ∗ (a.view.loc (c : Thread nD τ) ↦[a.view.set]{fullShare} f)) := by
  iintro H; iexists _; isplitr; · ipureintro; exact w.read_unread _
  iexact H

end Cert.Kernel.Hand

end
-- ==== Proof.KRunA.lean ====
import proofs.«108041_g40587440947829_cont_sun_m_1101_23_alg».proof.Proof.KSched

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Control case A: the body runs to its end; the lists are the stores it makes to each written buffer, newest first. -/
noncomputable def runA (c : Dev nD) (i : grid0.Coords) (B : Bufs)
    (h1 : cInit i) (h2 : cPh0 i) (h3 : ¬cN1 i) (h4 : ¬cPh1 i) (h5 : ¬cN2 i) (h6 : ¬cPh2 i)
    (X : Ins F) (xhq : Vec F S10000x2048 .bf16) :
    Σ' (L20 : List (View.Piece (Elt F) S400x32 .f32)) (L22 : List (View.Piece (Elt F) S10000x2048 .bf16)) (L23 : List (View.Piece (Elt F) S1x2048 .f32)), { L24 : List (View.Piece (Elt F) S64x2048 .f32) //
      ∀ (xi20 : Vec F S400x2 .f32) (xmn : Vec F S2048x64 .bf16) (E : Set ℕ) (K : PUnit → sProp 𝕄),
        iprop(insOwned c B X
            ∗ (∃ d, owns (c : Thread nD τ) B.a20 fullShare d) ∗ owns (c : Thread nD τ) B.a21 fullShare xi20
            ∗ owns (c : Thread nD τ) B.a22 fullShare xhq ∗ (∃ d, owns (c : Thread nD τ) B.a23 fullShare d) ∗ (∃ d, owns (c : Thread nD τ) B.a24 fullShare d) ∗ owns (c : Thread nD τ) B.a25 fullShare xmn
            ∗ (iprop(insOwned c B X
              ∗ (∃ f, B.a20.view.loc (c : Thread nD τ) ↦[B.a20.view.set]{fullShare} B.a20.view.writes (Elt F) f L20) ∗ owns (c : Thread nD τ) B.a21 fullShare xi20
              ∗ (B.a22.view.loc (c : Thread nD τ) ↦[B.a22.view.set]{fullShare} B.a22.view.writes (Elt F) (B.w22.unread xhq) L22)
              ∗ (∃ f, B.a23.view.loc (c : Thread nD τ) ↦[B.a23.view.set]{fullShare} B.a23.view.writes (Elt F) f L23)
              ∗ (∃ f, B.a24.view.loc (c : Thread nD τ) ↦[B.a24.view.set]{fullShare} B.a24.view.writes (Elt F) f L24)
              ∗ owns (c : Thread nD τ) B.a25 fullShare xmn) -∗ K ⟨⟩))
          ⊢ wp frame (wpE (defs₀ (F := F)) Variants.none c none) E (body i B) K } := by
  refine ⟨?_, ?_, ?_, ?_, fun xi20 xmn E K => ?run⟩
  case run =>
    simp only [body, cc0__kernel_eq_skeleton]; unfold cc0__kernel_skel
    unfold insOwned owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, ⟨%d19, %f19, -, H19⟩, ⟨%f20, %hf20, H20⟩, ⟨%f21, %hf21, H21⟩, ⟨%d22, %f22, -, H22⟩, ⟨%d23, %f23, -, H23⟩, ⟨%f24, %hf24, H24⟩, Hk⟩
    obtain rfl := B.w1.eq_unread hf0; obtain rfl := B.w2.eq_unread hf1; obtain rfl := B.w3.eq_unread hf2; obtain rfl := B.w4.eq_unread hf3; obtain rfl := B.w5.eq_unread hf4; obtain rfl := B.w6.eq_unread hf5; obtain rfl := B.w7.eq_unread hf6; obtain rfl := B.w8.eq_unread hf7; obtain rfl := B.w9.eq_unread hf8; obtain rfl := B.w10.eq_unread hf9; obtain rfl := B.w11.eq_unread hf10; obtain rfl := B.w12.eq_unread hf11; obtain rfl := B.w13.eq_unread hf12; obtain rfl := B.w14.eq_unread hf13; obtain rfl := B.w15.eq_unread hf14; obtain rfl := B.w16.eq_unread hf15; obtain rfl := B.w17.eq_unread hf16; obtain rfl := B.w18.eq_unread hf17; obtain rfl := B.w19.eq_unread hf18
    obtain rfl := B.w21.eq_unread hf20; obtain rfl := B.w22.eq_unread hf21; obtain rfl := B.w25.eq_unread hf24
    sl_exec (disch := first | exact h1 | exact h2 | exact h3 | exact h4 | exact h5 | exact h6)
    sl_step
    iapply Hk
    isplitl [H0 H1 H2 H3 H4 H5 H6 H7 H8 H9 H10 H11 H12 H13 H14 H15 H16 H17 H18]
    ·
      isplitl [H0]; · iapply ownsU c B.w1; iexact H0
      isplitl [H1]; · iapply ownsU c B.w2; iexact H1
      isplitl [H2]; · iapply ownsU c B.w3; iexact H2
      isplitl [H3]; · iapply ownsU c B.w4; iexact H3
      isplitl [H4]; · iapply ownsU c B.w5; iexact H4
      isplitl [H5]; · iapply ownsU c B.w6; iexact H5
      isplitl [H6]; · iapply ownsU c B.w7; iexact H6
      isplitl [H7]; · iapply ownsU c B.w8; iexact H7
      isplitl [H8]; · iapply ownsU c B.w9; iexact H8
      isplitl [H9]; · iapply ownsU c B.w10; iexact H9
      isplitl [H10]; · iapply ownsU c B.w11; iexact H10
      isplitl [H11]; · iapply ownsU c B.w12; iexact H11
      isplitl [H12]; · iapply ownsU c B.w13; iexact H12
      isplitl [H13]; · iapply ownsU c B.w14; iexact H13
      isplitl [H14]; · iapply ownsU c B.w15; iexact H14
      isplitl [H15]; · iapply ownsU c B.w16; iexact H15
      isplitl [H16]; · iapply ownsU c B.w17; iexact H16
      isplitl [H17]; · iapply ownsU c B.w18; iexact H17
      iapply ownsU c B.w19; iexact H18
    isplitl [H19]
    · iexists _; iexact H19
    isplitl [H20]; · iapply ownsU c B.w21; iexact H20
    isplitl [H21]
    · iexact H21
    isplitl [H22]
    · iexists _; iexact H22
    isplitl [H23]
    · iexists _; iexact H23
    iapply ownsU c B.w25; iexact H24

end Cert.Kernel.Hand

end
-- ==== Proof.KState.lean ====
import proofs.«108041_g40587440947829_cont_sun_m_1101_23_alg».proof.Proof.KSched
import Idealize.ShloMosaic.Lib.ValueIdx

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ)

theorem N55 : cfg0.N = 55 := N_0

abbrev pt (n : ℕ) (h : n < 55) : Fin cfg0.N := ⟨n, lt_of_lt_of_eq h N55.symm⟩

abbrev bH (c : Dev nD) (t : Fin cfg0.N) : Vec F S400x2048 .f32 := iblk m c 0 t
abbrev bX (c : Dev nD) (t : Fin cfg0.N) : Vec F S400x128 .f32 := iblk m c 1 t
abbrev bZ (c : Dev nD) (t : Fin cfg0.N) : Vec F S400x16 .f32 := iblk m c 2 t
abbrev bWc (c : Dev nD) (t : Fin cfg0.N) : Vec F S2048x1 .bf16 := iblk m c 3 t
abbrev bWr (c : Dev nD) (t : Fin cfg0.N) : Vec F S1x2048 .f32 := iblk m c 4 t
abbrev bPsiW (c : Dev nD) (t : Fin cfg0.N) : Vec F S128x32 .f32 := iblk m c 5 t
abbrev bPsib (c : Dev nD) (t : Fin cfg0.N) : Vec F S1x32 .f32 := iblk m c 6 t
abbrev bPhiW (c : Dev nD) (t : Fin cfg0.N) : Vec F S16x32 .f32 := iblk m c 7 t
abbrev bPhib (c : Dev nD) (t : Fin cfg0.N) : Vec F S1x32 .f32 := iblk m c 8 t
abbrev bG1W (c : Dev nD) (t : Fin cfg0.N) : Vec F S64x64 .f32 := iblk m c 9 t
abbrev bG1b (c : Dev nD) (t : Fin cfg0.N) : Vec F S1x64 .f32 := iblk m c 10 t
abbrev bG2W (c : Dev nD) (t : Fin cfg0.N) : Vec F S64x32 .f32 := iblk m c 11 t
abbrev bG2b (c : Dev nD) (t : Fin cfg0.N) : Vec F S1x32 .f32 := iblk m c 12 t
abbrev bC1W (c : Dev nD) (t : Fin cfg0.N) : Vec F S32x64 .f32 := iblk m c 13 t
abbrev bC1b (c : Dev nD) (t : Fin cfg0.N) : Vec F S1x64 .f32 := iblk m c 14 t
abbrev bC2W (c : Dev nD) (t : Fin cfg0.N) : Vec F S64x64 .f32 := iblk m c 15 t
abbrev bC2b (c : Dev nD) (t : Fin cfg0.N) : Vec F S1x64 .f32 := iblk m c 16 t
abbrev bHdW (c : Dev nD) (t : Fin cfg0.N) : Vec F S64x2 .f32 := iblk m c 17 t
abbrev bHdb (c : Dev nD) (t : Fin cfg0.N) : Vec F S1x2 .f32 := iblk m c 18 t

abbrev hsTile (c : Dev nD) (t : Fin cfg0.N) : Vec F S400x2048 .bf16 := k0_pay11 (bH m c t) (bWc m c t)

abbrev hqTile (c : Dev nD) (t : Fin cfg0.N) : Vec F S400x2048 .bf16 := k0_pay12 (bH m c t) (bWc m c t)

abbrev z400x32 : FVec F S400x32 .f32 := constant S400x32 .f32 0x00000000#32
abbrev z64x2048 : FVec F S64x2048 .f32 := constant S64x2048 .f32 0x00000000#32

abbrev x1Tile (c : Dev nD) (t : Fin cfg0.N) : Vec F S400x32 .f32 := k0_pay13 (bX m c t) (bPsiW m c t) (bPsib m c t)

abbrev gTile (c : Dev nD) (t : Fin cfg0.N) : Vec F S400x32 .f32 :=
  k0_pay15 (x1Tile m c t) (bZ m c t) (bPhiW m c t) z400x32 (bPhib m c t) (bG1W m c t) (bG1b m c t) (bG2W m c t) (bG2b m c t)

abbrev xcTile (c : Dev nD) (t : Fin cfg0.N) : Vec F S400x64 .bf16 :=
  k0_pay16 (x1Tile m c t) (bZ m c t) (bPhiW m c t) z400x32 (bPhib m c t) (bG1W m c t) (bG1b m c t) (bG2W m c t) (bG2b m c t) (bC1W m c t) (bC1b m c t)

def deAt (c : Dev nD) : (n : ℕ) → n < 55 → Vec F S1x2048 .f32
  | 0, h => k0_pay10 (bH m c (pt 0 h)) (k0_pay1 (F := F))
  | n + 1, h => k0_pay10 (bH m c (pt (n + 1) h)) (deAt c n (Nat.lt_of_succ_lt h))

def mt0At (c : Dev nD) : (n : ℕ) → n < 55 → Vec F S64x2048 .f32
  | 0, h => k0_pay3 (hsTile m c (pt 0 h)) (xcTile m c (pt 0 h)) (k0_pay2 (F := F)) z64x2048
  | n + 1, h => k0_pay3 (hsTile m c (pt (n + 1) h)) (xcTile m c (pt (n + 1) h)) (mt0At c n (Nat.lt_of_succ_lt h)) z64x2048

abbrev DE (c : Dev nD) : Vec F S1x2048 .f32 := deAt m c 24 (by omega)

abbrev MT1 (c : Dev nD) : Vec F S64x2048 .f32 := mt0At m c 24 (by omega)

abbrev MN1 (c : Dev nD) : Vec F S2048x64 .bf16 := k0_pay4 (bWr m c (pt 25 (by omega))) (DE m c) (MT1 m c)

def hqRow (c : Dev nD) (r : Fin 10000) (j : Fin 2048) : Elt F .bf16 :=
  hqTile m c (pt (r.val / 400) (by have := r.isLt; omega)) (ValueIdx.ix2 (⟨r.val % 400, Nat.mod_lt _ (by omega)⟩ : Fin 400) j)

def hqS2000 (c : Dev nD) (i : ℕ) (hi : i < 5) : Vec F S2000x2048 .bf16 :=
  fun y => hqRow m c ⟨2000 * i + (y 0).val, by have h1 : (y 0).val < 2000 := (y 0).isLt; omega⟩ ⟨(y 1).val, (y 1).isLt⟩

abbrev hqS400 (c : Dev nD) (k : ℕ) (hk : k < 25) : Vec F S400x2048 .bf16 := hqTile m c (pt k (by omega))

def HqOk (c : Dev nD) (n : ℕ) (hq : Vec F S10000x2048 .bf16) : Prop :=
  ∀ (r : Fin 10000) (j : Fin 2048), r.val < 400 * n → hq (ValueIdx.ix2 r j) = hqRow m c r j

def mt1At (c : Dev nD) : (i : ℕ) → i < 5 → Vec F S64x2048 .f32
  | 0, h => k0_pay6 (hqS2000 m c 0 h) (MN1 m c) (bC2W m c (pt 25 (by omega))) (bC2b m c (pt 25 (by omega))) (k0_pay5 (F := F))
  | i + 1, h => k0_pay6 (hqS2000 m c (i + 1) h) (MN1 m c) (bC2W m c (pt (26 + i) (by omega))) (bC2b m c (pt (26 + i) (by omega))) (mt1At c i (Nat.lt_of_succ_lt h))

abbrev MT2 (c : Dev nD) : Vec F S64x2048 .f32 := mt1At m c 4 (by omega)

abbrev MN2 (c : Dev nD) : Vec F S2048x64 .bf16 := k0_pay7 (bWr m c (pt 30 (by omega))) (DE m c) (MT2 m c)

abbrev outTile (c : Dev nD) (k : ℕ) (hk : k < 25) : Vec F S400x2 .f32 :=
  k0_pay8 (hqS400 m c k hk) (MN2 m c) (bHdW m c (pt (30 + k) (by omega))) (bHdb m c (pt (30 + k) (by omega)))

def after19 (c : Dev nD) (t : Fin cfg0.N) : Vec F S400x32 .f32 :=
  if h : t.val < 25 then gTile m c t else gTile m c (pt 24 (by omega))

def after20 (c : Dev nD) (t : Fin cfg0.N) : Vec F S400x2 .f32 :=
  if h : 30 ≤ t.val then outTile m c (t.val - 30) (by have h1 := t.isLt; have h2 : cfg0.N = 55 := N55; omega) else outTile m c 0 (by omega)

/-- The contents of the read-only buffers at grid point `t`. -/
abbrev ins (c : Dev nD) (t : Fin cfg0.N) : Ins F :=
  ⟨bH m c t, bX m c t, bZ m c t, bWc m c t, bWr m c t, bPsiW m c t, bPsib m c t, bPhiW m c t, bPhib m c t, bG1W m c t, bG1b m c t, bG2W m c t, bG2b m c t, bC1W m c t, bC1b m c t, bC2W m c t, bC2b m c t, bHdW m c t, bHdb m c t⟩

end Cert.Kernel.Hand

end
-- ==== Proof.KData.lean ====
import proofs.«108041_g40587440947829_cont_sun_m_1101_23_alg».proof.Proof.KState

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev hqHeld (c : Dev nD) (n : ℕ) : sProp 𝕄 :=
  iprop(∃ hq : Vec F S10000x2048 .bf16, owns (c : Thread nD τ) scHq fullShare hq ∗ ⌜HqOk m c n hq⌝)

abbrev PhiStream (c : Dev nD) (n : ℕ) (h1 : 1 ≤ n) (h25 : n ≤ 25) : sProp 𝕄 :=
  iprop(iprop(hqHeld m c n ∗ owns (c : Thread nD τ) scDe fullShare (deAt m c (n - 1) (by omega))
      ∗ owns (c : Thread nD τ) scMt fullShare (mt0At m c (n - 1) (by omega)) ∗ (∃ d, owns (c : Thread nD τ) scMn fullShare d))
    ∗ (∃ r, prngReg c r))

abbrev PhiScat1 (c : Dev nD) (n : ℕ) (h26 : 26 ≤ n) (h30 : n ≤ 30) : sProp 𝕄 :=
  iprop(iprop(hqHeld m c 25 ∗ owns (c : Thread nD τ) scDe fullShare (DE m c)
      ∗ owns (c : Thread nD τ) scMt fullShare (mt1At m c (n - 26) (by omega)) ∗ owns (c : Thread nD τ) scMn fullShare (MN1 m c))
    ∗ (∃ r, prngReg c r))

abbrev PhiScat2 (c : Dev nD) : sProp 𝕄 :=
  iprop(iprop(hqHeld m c 25 ∗ owns (c : Thread nD τ) scDe fullShare (DE m c)
      ∗ owns (c : Thread nD τ) scMt fullShare (MT2 m c) ∗ owns (c : Thread nD τ) scMn fullShare (MN2 m c))
    ∗ (∃ r, prngReg c r))

def PhiS (c : Dev nD) (n : ℕ) : sProp 𝕄 :=
  if h0 : n = 0 then Pipeline.ΦA spec0 c
  else if h25 : n ≤ 25 then PhiStream m c n (by omega) h25
  else if h30 : n ≤ 30 then PhiScat1 m c n (by omega) h30
  else PhiScat2 m c

theorem PhiS_zero (c : Dev nD) : PhiS m c 0 = Pipeline.ΦA spec0 c := by unfold PhiS; rw [dif_pos rfl]
theorem PhiS_stream (c : Dev nD) (n : ℕ) (h1 : 1 ≤ n) (h25 : n ≤ 25) : PhiS m c n = PhiStream m c n h1 h25 := by
  unfold PhiS; rw [dif_neg (by omega), dif_pos h25]
theorem PhiS_scat1 (c : Dev nD) (n : ℕ) (h26 : 26 ≤ n) (h30 : n ≤ 30) : PhiS m c n = PhiScat1 m c n h26 h30 := by
  unfold PhiS; rw [dif_neg (by omega), dif_neg (by omega), dif_pos h30]
theorem PhiS_scat2 (c : Dev nD) (n : ℕ) (h31 : 31 ≤ n) : PhiS m c n = PhiScat2 m c := by
  unfold PhiS; rw [dif_neg (by omega), dif_neg (by omega), dif_neg (by omega)]

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => after19 m c t
    | ⟨20, _⟩ => after20 m c t
    | ⟨_ + 21, h⟩ => absurd h (Nat.not_lt.2 (Nat.le_add_left _ _))
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := by
  dsimp only [dats]; simp only [Fin.val_succ]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = after19 m c t := by dsimp only [dats]
theorem after_20 (c : Dev nD) (t : Fin cfg0.N) : (dats m 0 c).after 20 t = after20 m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d
theorem before_18 (c : Dev nD) (t : Fin cfg0.N) (d) : (dats m 0 c).before 18 t d = iblk m c 18 t :=
  before0_18_of m (dats m 0 c) (A_eq m c 18) (after_18 m c) t d

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d))
    ∗ (∃ d, owns (c : Thread nD τ) (ms19 t) fullShare ((dats m 0 c).before 19 t d))
    ∗ (∃ d, owns (c : Thread nD τ) (ms20 t) fullShare ((dats m 0 c).before 20 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t)

/-- Before a point the nineteen read-only blocks are held at their contents, whatever the point. -/
theorem bodyPre_to (c : Dev nD) (t : Fin cfg0.N) :
    bodyPre m c t ⊢ iprop(PhiS m c t.val ∗ (dats m 0 c).owesAt () t.castSucc ∗ insOwned c (bufs t) (ins m c t)
      ∗ (∃ d, owns (c : Thread nD τ) (ms19 t) fullShare ((dats m 0 c).before 19 t d))
      ∗ (∃ d, owns (c : Thread nD τ) (ms20 t) fullShare ((dats m 0 c).before 20 t d))) := by
  unfold bodyPre insOwned
  simp only [before_0, before_1, before_2, before_3, before_4, before_5, before_6, before_7, before_8, before_9, before_10, before_11, before_12, before_13, before_14, before_15, before_16, before_17, before_18]
  rw [Phi_castSucc]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, H19, H20⟩
  isplitl [HΦ]; · iexact HΦ
  isplitl [Ho]; · iexact Ho
  isplitl [H0 H1 H2 H3 H4 H5 H6 H7 H8 H9 H10 H11 H12 H13 H14 H15 H16 H17 H18]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  isplitl [H19]; · iexact H19
  iexact H20

/-- After a point the nineteen read-only blocks are owed back as they were held. -/
theorem bodyPost_of (c : Dev nD) (t : Fin cfg0.N) :
    iprop(PhiS m c (t.val + 1) ∗ (dats m 0 c).owesAt () t.castSucc ∗ insOwned c (bufs t) (ins m c t)
      ∗ (dats m 0 c).leavesExact 19 t ∗ (dats m 0 c).leavesExact 20 t) ⊢ bodyPost m c t := by
  unfold bodyPost insOwned
  rw [Phi_succ, show (dats m 0 c).owesAt () t.succ = (dats m 0 c).owesAt () t.castSucc from rfl]
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  rw [show (dats m 0 c).leavesExact 4 t = owns (c : Thread nD τ) (ms4 t) fullShare ((dats m 0 c).after 4 t) from by
    unfold Dat.leavesExact; rw [live4 t], after_4]
  rw [show (dats m 0 c).leavesExact 5 t = owns (c : Thread nD τ) (ms5 t) fullShare ((dats m 0 c).after 5 t) from by
    unfold Dat.leavesExact; rw [live5 t], after_5]
  rw [show (dats m 0 c).leavesExact 6 t = owns (c : Thread nD τ) (ms6 t) fullShare ((dats m 0 c).after 6 t) from by
    unfold Dat.leavesExact; rw [live6 t], after_6]
  rw [show (dats m 0 c).leavesExact 7 t = owns (c : Thread nD τ) (ms7 t) fullShare ((dats m 0 c).after 7 t) from by
    unfold Dat.leavesExact; rw [live7 t], after_7]
  rw [show (dats m 0 c).leavesExact 8 t = owns (c : Thread nD τ) (ms8 t) fullShare ((dats m 0 c).after 8 t) from by
    unfold Dat.leavesExact; rw [live8 t], after_8]
  rw [show (dats m 0 c).leavesExact 9 t = owns (c : Thread nD τ) (ms9 t) fullShare ((dats m 0 c).after 9 t) from by
    unfold Dat.leavesExact; rw [live9 t], after_9]
  rw [show (dats m 0 c).leavesExact 10 t = owns (c : Thread nD τ) (ms10 t) fullShare ((dats m 0 c).after 10 t) from by
    unfold Dat.leavesExact; rw [live10 t], after_10]
  rw [show (dats m 0 c).leavesExact 11 t = owns (c : Thread nD τ) (ms11 t) fullShare ((dats m 0 c).after 11 t) from by
    unfold Dat.leavesExact; rw [live11 t], after_11]
  rw [show (dats m 0 c).leavesExact 12 t = owns (c : Thread nD τ) (ms12 t) fullShare ((dats m 0 c).after 12 t) from by
    unfold Dat.leavesExact; rw [live12 t], after_12]
  rw [show (dats m 0 c).leavesExact 13 t = owns (c : Thread nD τ) (ms13 t) fullShare ((dats m 0 c).after 13 t) from by
    unfold Dat.leavesExact; rw [live13 t], after_13]
  rw [show (dats m 0 c).leavesExact 14 t = owns (c : Thread nD τ) (ms14 t) fullShare ((dats m 0 c).after 14 t) from by
    unfold Dat.leavesExact; rw [live14 t], after_14]
  rw [show (dats m 0 c).leavesExact 15 t = owns (c : Thread nD τ) (ms15 t) fullShare ((dats m 0 c).after 15 t) from by
    unfold Dat.leavesExact; rw [live15 t], after_15]
  rw [show (dats m 0 c).leavesExact 16 t = owns (c : Thread nD τ) (ms16 t) fullShare ((dats m 0 c).after 16 t) from by
    unfold Dat.leavesExact; rw [live16 t], after_16]
  rw [show (dats m 0 c).leavesExact 17 t = owns (c : Thread nD τ) (ms17 t) fullShare ((dats m 0 c).after 17 t) from by
    unfold Dat.leavesExact; rw [live17 t], after_17]
  rw [show (dats m 0 c).leavesExact 18 t = owns (c : Thread nD τ) (ms18 t) fullShare ((dats m 0 c).after 18 t) from by
    unfold Dat.leavesExact; rw [live18 t], after_18]
  simp only [after_0, after_1, after_2, after_3, after_4, after_5, after_6, after_7, after_8, after_9, after_10, after_11, after_12, after_13, after_14, after_15, after_16, after_17, after_18]
  iintro ⟨HΦ, Ho, ⟨H0, H1, H2, H3, H4, H5, H6, H7, H8, H9, H10, H11, H12, H13, H14, H15, H16, H17, H18⟩, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The body obligation at a point reduces to what the point does to the invariant and to the two output blocks. -/
theorem sound_of (c : Dev nD) (t : Fin cfg0.N)
    (h : iprop(PhiS m c t.val ∗ (dats m 0 c).owesAt () t.castSucc ∗ insOwned c (bufs t) (ins m c t)
        ∗ (∃ d, owns (c : Thread nD τ) (ms19 t) fullShare ((dats m 0 c).before 19 t d))
        ∗ (∃ d, owns (c : Thread nD τ) (ms20 t) fullShare ((dats m 0 c).before 20 t d)))
      ⊢ wp frame (wpE (defs₀ (F := F)) Variants.none c none) Set.univ (bodyAt0 t) (fun _ => iprop(PhiS m c (t.val + 1)
        ∗ (dats m 0 c).owesAt () t.castSucc ∗ insOwned c (bufs t) (ins m c t) ∗ (dats m 0 c).leavesExact 19 t ∗ (dats m 0 c).leavesExact 20 t))) :
    bodyPre m c t ⊢ wp frame (wpE (defs₀ (F := F)) Variants.none c none) Set.univ (bodyAt0 t) (fun _ => bodyPost m c t) :=
  (bodyPre_to m c t).trans (h.trans (wp_mono _ _ _ fun _ => bodyPost_of m c t))

end Cert.Kernel.Hand

end
-- ==== Proof.KHq.lean ====
import proofs.«108041_g40587440947829_cont_sun_m_1101_23_alg».proof.Proof.KData
import Idealize.ShloMosaic.Lib.WholeRead
import Idealize.ShloMosaic.Lib.WritesUnit
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

theorem hqRow_tile (c : Dev nD) (k : ℕ) (hk : k < 25) (a : Fin 400) (j : Fin 2048) (r : Fin 10000)
    (hr : r.val = 400 * k + a.val) :
    hqRow m c r j = hqTile m c (pt k (by omega)) (ValueIdx.ix2 a j) := by
  have ha : a.val < 400 := a.isLt
  have e1 : r.val / 400 = k := by omega
  have e2 : r.val % 400 = a.val := by omega
  have key : ∀ (q : ℕ) (hq : q < 55) (b : ℕ) (hb : b < 400), q = k → b = a.val →
      hqTile m c (pt q hq) (ValueIdx.ix2 (⟨b, hb⟩ : Fin 400) j) = hqTile m c (pt k (by omega)) (ValueIdx.ix2 a j) := by
    intro q hq b hb eq eb
    subst eq; subst eb
    rfl
  unfold hqRow
  exact key _ _ _ _ e1 e2

theorem hq_read2000 (c : Dev nD) (arg22 : Memref sig .tc .vmem S10000x2048 .bf16) (harg22 : arg22.IsWhole)
    (xhq : Vec F S10000x2048 .bf16) (hok : HqOk m c 25 xhq) (i : ℕ) (hi : i < 5) (off : Fin 2 → Nat)
    (inb : ∀ a, off a + S2000x2048.size a ≤ S10000x2048.size a) (hoff : off = ![2000 * i, 0]) :
    View.readAt (Elt F) arg22.view (Rect.unit (s := S10000x2048) off S2000x2048.size inb).toLoadRect (harg22.unread xhq)
      = hqS2000 m c i hi := by
  subst hoff
  funext y
  have h0 : (y 0).val < 2000 := (y 0).isLt
  have h1 : (y 1).val < 2048 := (y 1).isLt
  have hidx : (Rect.unit (s := S10000x2048) ![2000 * i, 0] S2000x2048.size inb).toLoadRect.idx y
      = ValueIdx.ix2 (⟨2000 * i + (y 0).val, by omega⟩ : Fin 10000) (⟨(y 1).val, h1⟩ : Fin 2048) :=
    funext fun a => Fin.ext (by
      match a with
      | ⟨0, _⟩ => show 2000 * i + 1 * (y 0).val = 2000 * i + (y 0).val; omega
      | ⟨1, _⟩ => show 0 + 1 * (y 1).val = (y 1).val; omega)
  rw [harg22.readAt_unread, hidx, hok _ _ (show 2000 * i + (y 0).val < 400 * 25 by omega)]
  unfold hqS2000
  rfl

theorem hq_read400 (c : Dev nD) (arg22 : Memref sig .tc .vmem S10000x2048 .bf16) (harg22 : arg22.IsWhole)
    (xhq : Vec F S10000x2048 .bf16) (hok : HqOk m c 25 xhq) (k : ℕ) (hk : k < 25) (off : Fin 2 → Nat)
    (inb : ∀ a, off a + S400x2048.size a ≤ S10000x2048.size a) (hoff : off = ![400 * k, 0]) :
    View.readAt (Elt F) arg22.view (Rect.unit (s := S10000x2048) off S400x2048.size inb).toLoadRect (harg22.unread xhq)
      = hqS400 m c k hk := by
  subst hoff
  funext y
  have h0 : (y 0).val < 400 := (y 0).isLt
  have h1 : (y 1).val < 2048 := (y 1).isLt
  have hidx : (Rect.unit (s := S10000x2048) ![400 * k, 0] S400x2048.size inb).toLoadRect.idx y
      = ValueIdx.ix2 (⟨400 * k + (y 0).val, by omega⟩ : Fin 10000) (⟨(y 1).val, h1⟩ : Fin 2048) :=
    funext fun a => Fin.ext (by
      match a with
      | ⟨0, _⟩ => show 400 * k + 1 * (y 0).val = 400 * k + (y 0).val; omega
      | ⟨1, _⟩ => show 0 + 1 * (y 1).val = (y 1).val; omega)
  rw [harg22.readAt_unread, hidx, hok _ _ (show 400 * k + (y 0).val < 400 * 25 by omega),
    hqRow_tile m c k hk ⟨(y 0).val, h0⟩ ⟨(y 1).val, h1⟩ _ rfl]
  exact congrArg (hqTile m c (pt k (by omega))) (ValueIdx.eq_ix2 y).symm

theorem hq_store (c : Dev nD) (arg22 : Memref sig .tc .vmem S10000x2048 .bf16) (harg22 : arg22.IsWhole)
    (xhq : Vec F S10000x2048 .bf16) (n : ℕ) (hn : n < 25) (hok : HqOk m c n xhq) (off : Fin 2 → Nat)
    (inb : ∀ a, off a + S400x2048.size a ≤ S10000x2048.size a) (hoff : off = ![400 * n, 0]) :
    HqOk m c (n + 1) (arg22.view.read (Elt F) (arg22.view.writes (Elt F) (harg22.unread xhq)
      [⟨Rect.unit (s := S10000x2048) off S400x2048.size inb, hqTile m c (pt n (by omega))⟩])) := by
  intro r j hr
  by_cases h : r.val < 400 * n
  · refine (View.read_writes_cons_rows_of_not_mem arg22.view (harg22.unread xhq) inb _ [] (ValueIdx.ix2 r j) hoff
      (W := 400) rfl (Or.inl h)).trans ?_
    rw [View.writes_nil, harg22.read_unread]
    exact hok r j h
  · have hlt : r.val - 400 * n < 400 := by omega
    refine (View.read_writes_cons_rows_of_mem arg22.view (harg22.unread xhq) inb _ [] (ValueIdx.ix2 r j)
      (ValueIdx.ix2 (⟨r.val - 400 * n, hlt⟩ : Fin 400) j) hoff
      (show r.val = 400 * n + (r.val - 400 * n) by omega) rfl).trans ?_
    exact (hqRow_tile m c n hn ⟨r.val - 400 * n, hlt⟩ j r (show r.val = 400 * n + (r.val - 400 * n) by omega)).symm

end Cert.Kernel.Hand

end
-- ==== Proof.KCaseA.lean ====
import proofs.«108041_g40587440947829_cont_sun_m_1101_23_alg».proof.Proof.KRunA
import proofs.«108041_g40587440947829_cont_sun_m_1101_23_alg».proof.Proof.KHq
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem h055A : 0 < 55 := by decide

variable (c : Dev nD) (i : grid0.Coords) (B : Bufs) (h1 : cInit i) (h2 : cPh0 i) (h3 : ¬cN1 i) (h4 : ¬cPh1 i) (h5 : ¬cN2 i) (h6 : ¬cPh2 i) (X : Ins F) (xhq : Vec F S10000x2048 .bf16)

theorem readA20 (f) :
    B.a20.view.read (Elt F) (B.a20.view.writes (Elt F) f (runA c i B h1 h2 h3 h4 h5 h6 X xhq).1)
      = k0_pay15 (k0_pay13 X.x1 X.x5 X.x6) X.x2 X.x7 z400x32 X.x8 X.x9 X.x10 X.x11 X.x12 := by
  rw [View.read_writes_eq_canon _ _ _ (View.cover_of_tiledL _ S400x32.size (by sl_kernel_rfl))]
  unfold runA
  dsimp only
  sl_unfold_words
  rw [View.canon_unit_zero hz2]
  simp only [View.readAt_eq_ld, Memref.IsWhole.read_unread, View.ld_unit_zero (S := S400x128) hz2, View.ld_unit_zero (S := S128x32) hz2, View.ld_unit_zero (S := S1x32) hz2, View.ld_unit_zero (S := S400x16) hz2, View.ld_unit_zero (S := S16x32) hz2, View.ld_unit_zero (S := S64x64) hz2, View.ld_unit_zero (S := S1x64) hz2, View.ld_unit_zero (S := S64x32) hz2]

theorem readA23 (f) :
    B.a23.view.read (Elt F) (B.a23.view.writes (Elt F) f (runA c i B h1 h2 h3 h4 h5 h6 X xhq).2.2.1)
      = k0_pay10 X.x0 (k0_pay1 (F := F)) := by
  rw [View.read_writes_eq_canon _ _ _ (View.cover_of_tiledL _ S1x2048.size (by sl_kernel_rfl))]
  unfold runA
  dsimp only
  sl_unfold_words
  rw [View.canon_cons_unit_zero (S := S1x2048) hz2]
  simp only [View.readAt_eq_ld, Memref.IsWhole.read_unread, View.readCov_unit_zero (S := S1x2048) _ hz2, View.ld_unit_zero (S := S400x2048) hz2]

theorem readA24 (f) :
    B.a24.view.read (Elt F) (B.a24.view.writes (Elt F) f (runA c i B h1 h2 h3 h4 h5 h6 X xhq).2.2.2.1)
      = k0_pay3 (k0_pay11 X.x0 X.x3) (k0_pay16 (k0_pay13 X.x1 X.x5 X.x6) X.x2 X.x7 z400x32 X.x8 X.x9 X.x10 X.x11 X.x12 X.x13 X.x14) (k0_pay2 (F := F)) z64x2048 := by
  rw [View.read_writes_eq_canon _ _ _ (View.cover_of_tiledL _ S64x2048.size (by sl_kernel_rfl))]
  unfold runA
  dsimp only
  sl_unfold_words
  rw [View.canon_cons_unit_zero (S := S64x2048) hz2]
  simp only [View.readAt_eq_ld, Memref.IsWhole.read_unread, View.readCov_unit_zero (S := S64x2048) _ hz2, View.ld_unit_zero (S := S400x2048) hz2, View.ld_unit_zero (S := S2048x1) hz2, View.ld_unit_zero (S := S400x128) hz2, View.ld_unit_zero (S := S128x32) hz2, View.ld_unit_zero (S := S1x32) hz2, View.ld_unit_zero (S := S400x16) hz2, View.ld_unit_zero (S := S16x32) hz2, View.ld_unit_zero (S := S64x64) hz2, View.ld_unit_zero (S := S1x64) hz2, View.ld_unit_zero (S := S64x32) hz2, View.ld_unit_zero (S := S32x64) hz2]

theorem hqA
    (hoff : k0_off1 i = ![400 * 0, 0]) (hx0 : X.x0 = bH m c (pt 0 h055A)) (hx3 : X.x3 = bWc m c (pt 0 h055A)) :
    HqOk m c (0 + 1) (B.a22.view.read (Elt F) (B.a22.view.writes (Elt F) (B.w22.unread xhq) (runA c i B h1 h2 h3 h4 h5 h6 X xhq).2.1)) := by
  have h0 : HqOk m c 0 xhq := fun r j h => absurd h (by omega)
  have key := hq_store m c B.a22 B.w22 xhq 0 (by omega) h0 (k0_off1 i) (k0_off1_inb i h2) hoff
  unfold runA
  dsimp only
  sl_unfold_words
  simp only [View.readAt_eq_ld, Memref.IsWhole.read_unread, View.ld_unit_zero (S := S400x2048) hz2, View.ld_unit_zero (S := S2048x1) hz2]
  rw [hx0, hx3]
  exact key

theorem deAt_zeroA (c : Dev nD) (h : 0 < 55) : deAt m c 0 h = k0_pay10 (bH m c (pt 0 h)) (k0_pay1 (F := F)) := by
  unfold deAt; rfl

theorem mt0At_zeroA (c : Dev nD) (h : 0 < 55) :
    mt0At m c 0 h = k0_pay3 (hsTile m c (pt 0 h)) (xcTile m c (pt 0 h)) (k0_pay2 (F := F)) z64x2048 := by
  unfold mt0At; rfl

set_option maxHeartbeats 4000000 in
/-- The body obligation in control case A: the invariant before the point and the run's stores give the invariant after it. -/
theorem sound_A (c : Dev nD) (t : Fin cfg0.N) (ht : t.val = 0) :
    bodyPre m c t ⊢ wp frame (wpE (defs₀ (F := F)) Variants.none c none) Set.univ (bodyAt0 t) (fun _ => bodyPost m c t) := by
  have et : t = pt 0 h055A := Fin.ext ht
  have hg1 : cInit (grid0.coords t) := (hcInit t).mpr ht
  have hg2 : cPh0 (grid0.coords t) := (hcPh0 t).mpr (by omega)
  have hg3 : ¬cN1 (grid0.coords t) := fun h => absurd ((hcN1 t).mp h) (by omega)
  have hg4 : ¬cPh1 (grid0.coords t) := fun h => absurd ((hcPh1 t).mp h) (by omega)
  have hg5 : ¬cN2 (grid0.coords t) := fun h => absurd ((hcN2 t).mp h) (by omega)
  have hg6 : ¬cPh2 (grid0.coords t) := fun h => absurd ((hcPh2 t).mp h) (by omega)
  have eΦ0 : PhiS m c t.val = Pipeline.ΦA spec0 c := by rw [ht]; exact PhiS_zero m c
  have eΦ1 : PhiS m c (t.val + 1)
      = iprop(iprop(hqHeld m c 1 ∗ owns (c : Thread nD τ) scDe fullShare (deAt m c 0 (by omega))
          ∗ owns (c : Thread nD τ) scMt fullShare (mt0At m c 0 (by omega)) ∗ (∃ d, owns (c : Thread nD τ) scMn fullShare d))
        ∗ (∃ r, prngReg c r)) := by
    rw [ht]; exact PhiS_stream m c 1 (le_refl 1) (by omega)
  refine sound_of m c t ?_
  unfold bodyAt0
  rw [eΦ0, eΦ1, PhiA_eq]
  rw [show (dats m 0 c).leavesExact 19 t = owns (c : Thread nD τ) (ms19 t) fullShare ((dats m 0 c).after 19 t) from by
    unfold Dat.leavesExact; rw [live19 t (by omega)], after_19]
  rw [show after19 m c t = gTile m c t from by unfold after19; exact dif_pos (by omega)]
  rw [Dat.leavesExact_idle (dats m 0 c) 20 t (idle20 t (by omega)) (noFlush20 t (by omega))]
  iintro ⟨⟨⟨⟨%dhq, Hhq⟩, ⟨%dde, Hde⟩, ⟨%dmt, Hmt⟩, ⟨%dmn, Hmn⟩⟩, Hg⟩, Ho, Hin, ⟨%d19, H19⟩, ⟨%d20, H20⟩⟩
  iapply ((runA c (grid0.coords t) (bufs t) hg1 hg2 hg3 hg4 hg5 hg6 (ins m c t) dhq).2.2.2.2 ((dats m 0 c).before 20 t d20) dmn Set.univ _)
  isplitl [Hin]; · iexact Hin
  isplitl [H19]; · iexists _; iexact H19
  isplitl [H20]; · iexact H20
  isplitl [Hhq]; · iexact Hhq
  isplitl [Hde]; · iexists _; iexact Hde
  isplitl [Hmt]; · iexists _; iexact Hmt
  isplitl [Hmn]; · iexact Hmn
  iintro ⟨Hin, ⟨%e19, H19⟩, H20, Hhq, ⟨%ede, Hde⟩, ⟨%emt, Hmt⟩, Hmn⟩
  isplitl [Hhq Hde Hmt Hmn Hg]
  · isplitl [Hhq Hde Hmt Hmn]
    · isplitl [Hhq]
      · iexists _
        isplitl [Hhq]
        · unfold owns; iexists _; isplitr
          swap; · iexact Hhq
          ipureintro; rfl
        · ipureintro
          exact hqA m c (grid0.coords t) (bufs t) hg1 hg2 hg3 hg4 hg5 hg6 (ins m c t) dhq (by rw [off1_eq t, ht]) (by subst et; rfl) (by subst et; rfl)
      isplitl [Hde]
      · unfold owns; iexists _; isplitr
        swap; · iexact Hde
        ipureintro
        refine (readA23 c (grid0.coords t) (bufs t) hg1 hg2 hg3 hg4 hg5 hg6 (ins m c t) dhq _).trans ?_
        subst et
        dsimp only [ins]
        exact (deAt_zeroA m c _).symm
      isplitl [Hmt]
      · unfold owns; iexists _; isplitr
        swap; · iexact Hmt
        ipureintro
        refine (readA24 c (grid0.coords t) (bufs t) hg1 hg2 hg3 hg4 hg5 hg6 (ins m c t) dhq _).trans ?_
        subst et
        dsimp only [ins]
        exact (mt0At_zeroA m c _).symm
      · iexists _; iexact Hmn
    · iexact Hg
  isplitl [Ho]; · iexact Ho
  isplitl [Hin]; · iexact Hin
  isplitl [H19]
  · unfold owns; iexists _; isplitr
    swap; · iexact H19
    ipureintro
    refine (readA20 c (grid0.coords t) (bufs t) hg1 hg2 hg3 hg4 hg5 hg6 (ins m c t) dhq _).trans ?_
    dsimp only [ins] <;> rfl
  iexists _; iexact H20

end Cert.Kernel.Hand

end
-- ==== Proof.KRunB.lean ====
import proofs.«108041_g40587440947829_cont_sun_m_1101_23_alg».proof.Proof.KSched

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Control case B: the body runs to its end; the lists are the stores it makes to each written buffer, newest first. -/
noncomputable def runB (c : Dev nD) (i : grid0.Coords) (B : Bufs)
    (h1 : ¬cInit i) (h2 : cPh0 i) (h3 : ¬cN1 i) (h4 : ¬cPh1 i) (h5 : ¬cN2 i) (h6 : ¬cPh2 i)
    (X : Ins F) (xhq : Vec F S10000x2048 .bf16) (xde : Vec F S1x2048 .f32) (xmt : Vec F S64x2048 .f32) :
    Σ' (L19 : List (View.Piece (Elt F) S400x32 .f32)) (LHq : List (View.Piece (Elt F) S10000x2048 .bf16)) (LDe : List (View.Piece (Elt F) S1x2048 .f32)), { LMt : List (View.Piece (Elt F) S64x2048 .f32) //
      ∀ (xi20 : Vec F S400x2 .f32) (xmn : Vec F S2048x64 .bf16) (E : Set ℕ) (K : PUnit → sProp 𝕄),
        iprop(insOwned c B X ∗ (∃ d, owns (c : Thread nD τ) B.a20 fullShare d) ∗ owns (c : Thread nD τ) B.a21 fullShare xi20
            ∗ owns (c : Thread nD τ) B.a22 fullShare xhq ∗ owns (c : Thread nD τ) B.a23 fullShare xde ∗ owns (c : Thread nD τ) B.a24 fullShare xmt ∗ owns (c : Thread nD τ) B.a25 fullShare xmn
            ∗ (iprop(insOwned c B X ∗ (∃ f, B.a20.view.loc (c : Thread nD τ) ↦[B.a20.view.set]{fullShare} B.a20.view.writes (Elt F) f L19) ∗ owns (c : Thread nD τ) B.a21 fullShare xi20
              ∗ (B.a22.view.loc (c : Thread nD τ) ↦[B.a22.view.set]{fullShare} B.a22.view.writes (Elt F) (B.w22.unread xhq) LHq) ∗ (∃ f, B.a23.view.loc (c : Thread nD τ) ↦[B.a23.view.set]{fullShare} B.a23.view.writes (Elt F) f LDe) ∗ (∃ f, B.a24.view.loc (c : Thread nD τ) ↦[B.a24.view.set]{fullShare} B.a24.view.writes (Elt F) f LMt) ∗ owns (c : Thread nD τ) B.a25 fullShare xmn) -∗ K ⟨⟩))
          ⊢ wp frame (wpE (defs₀ (F := F)) Variants.none c none) E (body i B) K } := by
  refine ⟨?_, ?_, ?_, ?_, fun xi20 xmn E K => ?run⟩
  case run =>
    simp only [body, cc0__kernel_eq_skeleton]; unfold cc0__kernel_skel
    simp only [k0_part1_eq_skeleton, k0_part2_eq_skeleton]
    unfold insOwned owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, ⟨%d19, %f19, %hf19, H19⟩, ⟨%f20, %hf20, H20⟩, ⟨%f21, %hf21, H21⟩, ⟨%f22, %hf22, H22⟩, ⟨%f23, %hf23, H23⟩, ⟨%f24, %hf24, H24⟩, Hk⟩
    obtain rfl := B.w1.eq_unread hf0; obtain rfl := B.w2.eq_unread hf1; obtain rfl := B.w3.eq_unread hf2; obtain rfl := B.w4.eq_unread hf3; obtain rfl := B.w5.eq_unread hf4; obtain rfl := B.w6.eq_unread hf5; obtain rfl := B.w7.eq_unread hf6; obtain rfl := B.w8.eq_unread hf7; obtain rfl := B.w9.eq_unread hf8; obtain rfl := B.w10.eq_unread hf9; obtain rfl := B.w11.eq_unread hf10; obtain rfl := B.w12.eq_unread hf11; obtain rfl := B.w13.eq_unread hf12; obtain rfl := B.w14.eq_unread hf13; obtain rfl := B.w15.eq_unread hf14; obtain rfl := B.w16.eq_unread hf15; obtain rfl := B.w17.eq_unread hf16; obtain rfl := B.w18.eq_unread hf17; obtain rfl := B.w19.eq_unread hf18
    obtain rfl := B.w20.eq_unread hf19; obtain rfl := B.w21.eq_unread hf20; obtain rfl := B.w22.eq_unread hf21; obtain rfl := B.w23.eq_unread hf22; obtain rfl := B.w24.eq_unread hf23; obtain rfl := B.w25.eq_unread hf24
    sl_exec (disch := first | exact h1 | exact h2 | exact h3 | exact h4 | exact h5 | exact h6)
    sl_step
    iapply Hk
    isplitl [H0 H1 H2 H3 H4 H5 H6 H7 H8 H9 H10 H11 H12 H13 H14 H15 H16 H17 H18]
    ·
      isplitl [H0]; · iapply ownsU c B.w1; iexact H0
      isplitl [H1]; · iapply ownsU c B.w2; iexact H1
      isplitl [H2]; · iapply ownsU c B.w3; iexact H2
      isplitl [H3]; · iapply ownsU c B.w4; iexact H3
      isplitl [H4]; · iapply ownsU c B.w5; iexact H4
      isplitl [H5]; · iapply ownsU c B.w6; iexact H5
      isplitl [H6]; · iapply ownsU c B.w7; iexact H6
      isplitl [H7]; · iapply ownsU c B.w8; iexact H7
      isplitl [H8]; · iapply ownsU c B.w9; iexact H8
      isplitl [H9]; · iapply ownsU c B.w10; iexact H9
      isplitl [H10]; · iapply ownsU c B.w11; iexact H10
      isplitl [H11]; · iapply ownsU c B.w12; iexact H11
      isplitl [H12]; · iapply ownsU c B.w13; iexact H12
      isplitl [H13]; · iapply ownsU c B.w14; iexact H13
      isplitl [H14]; · iapply ownsU c B.w15; iexact H14
      isplitl [H15]; · iapply ownsU c B.w16; iexact H15
      isplitl [H16]; · iapply ownsU c B.w17; iexact H16
      isplitl [H17]; · iapply ownsU c B.w18; iexact H17
      iapply ownsU c B.w19; iexact H18
    isplitl [H19]
    · iexists _; iexact H19
    isplitl [H20]; · iapply ownsU c B.w21; iexact H20
    isplitl [H21]
    · iexact H21
    isplitl [H22]
    · iexists _; iexact H22
    isplitl [H23]
    · iexists _; iexact H23
    iapply ownsU c B.w25; iexact H24

end Cert.Kernel.Hand

end
-- ==== Proof.KCaseB.lean ====
import proofs.«108041_g40587440947829_cont_sun_m_1101_23_alg».proof.Proof.KRunB
import proofs.«108041_g40587440947829_cont_sun_m_1101_23_alg».proof.Proof.KData
import proofs.«108041_g40587440947829_cont_sun_m_1101_23_alg».proof.Proof.KHq
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem deAt_succB (c : Dev nD) (n : ℕ) (h1 : 1 ≤ n) (h : n < 55) :
    deAt m c n h = k0_pay10 (bH m c (pt n h)) (deAt m c (n - 1) (by omega)) := by
  obtain ⟨k, rfl⟩ : ∃ k, n = k + 1 := ⟨n - 1, by omega⟩
  rfl

theorem mt0At_succB (c : Dev nD) (n : ℕ) (h1 : 1 ≤ n) (h : n < 55) :
    mt0At m c n h = k0_pay3 (hsTile m c (pt n h)) (xcTile m c (pt n h)) (mt0At m c (n - 1) (by omega)) (z64x2048 (F := F)) := by
  obtain ⟨k, rfl⟩ : ∃ k, n = k + 1 := ⟨n - 1, by omega⟩
  rfl

theorem gB1 (t : Fin cfg0.N) (h1 : 1 ≤ t.val) : ¬cInit (grid0.coords t) := fun h => by have := (hcInit t).mp h; omega
theorem gB2 (t : Fin cfg0.N) (h24 : t.val ≤ 24) : cPh0 (grid0.coords t) := (hcPh0 t).mpr (by omega)
theorem gB3 (t : Fin cfg0.N) (h24 : t.val ≤ 24) : ¬cN1 (grid0.coords t) := fun h => by have := (hcN1 t).mp h; omega
theorem gB4 (t : Fin cfg0.N) (h24 : t.val ≤ 24) : ¬cPh1 (grid0.coords t) := fun h => by have := (hcPh1 t).mp h; omega
theorem gB5 (t : Fin cfg0.N) (h24 : t.val ≤ 24) : ¬cN2 (grid0.coords t) := fun h => by have := (hcN2 t).mp h; omega
theorem gB6 (t : Fin cfg0.N) (h24 : t.val ≤ 24) : ¬cPh2 (grid0.coords t) := fun h => by have := (hcPh2 t).mp h; omega

variable (c : Dev nD) (i : grid0.Coords) (B : Bufs) (h1 : ¬cInit i) (h2 : cPh0 i) (h3 : ¬cN1 i) (h4 : ¬cPh1 i) (h5 : ¬cN2 i) (h6 : ¬cPh2 i) (X : Ins F) (xhq : Vec F S10000x2048 .bf16) (xde : Vec F S1x2048 .f32) (xmt : Vec F S64x2048 .f32)

theorem runB_gate
    (f : B.a20.view.ty.Contents (Elt F)) :
    B.a20.view.read (Elt F) (B.a20.view.writes (Elt F) f (runB c i B h1 h2 h3 h4 h5 h6 X xhq xde xmt).1)
      = k0_pay15 (k0_pay13 X.x1 X.x5 X.x6) X.x2 X.x7 (z400x32 (F := F)) X.x8 X.x9 X.x10 X.x11 X.x12 := by
  rw [View.read_writes_eq_canon _ _ _ (View.cover_of_tiledL _ S400x32.size (by sl_kernel_rfl))]
  unfold runB
  dsimp only
  try sl_unfold_words
  rw [View.canon_unit_zero hz2]
  simp only [View.readAt_eq_ld, B.w2.read_unread, B.w6.read_unread, B.w7.read_unread, B.w3.read_unread, B.w8.read_unread, B.w9.read_unread, B.w10.read_unread, B.w11.read_unread, B.w12.read_unread, B.w13.read_unread, View.ld_unit_zero (S := S400x128) hz2, View.ld_unit_zero (S := S128x32) hz2, View.ld_unit_zero (S := S1x32) hz2, View.ld_unit_zero (S := S400x16) hz2, View.ld_unit_zero (S := S16x32) hz2, View.ld_unit_zero (S := S64x64) hz2, View.ld_unit_zero (S := S1x64) hz2, View.ld_unit_zero (S := S64x32) hz2]

theorem runB_de
    (f : B.a23.view.ty.Contents (Elt F)) :
    B.a23.view.read (Elt F) (B.a23.view.writes (Elt F) f (runB c i B h1 h2 h3 h4 h5 h6 X xhq xde xmt).2.2.1)
      = k0_pay10 X.x0 xde := by
  rw [View.read_writes_eq_canon _ _ _ (View.cover_of_tiledL _ S1x2048.size (by sl_kernel_rfl))]
  unfold runB
  dsimp only
  try sl_unfold_words
  rw [View.canon_unit_zero hz2]
  simp only [View.readAt_eq_ld, B.w1.read_unread, B.w23.read_unread, View.ld_unit_zero (S := S400x2048) hz2, View.ld_unit_zero (S := S1x2048) hz2]

theorem runB_mt
    (f : B.a24.view.ty.Contents (Elt F)) :
    B.a24.view.read (Elt F) (B.a24.view.writes (Elt F) f (runB c i B h1 h2 h3 h4 h5 h6 X xhq xde xmt).2.2.2.1)
      = k0_pay3 (k0_pay11 X.x0 X.x3) (k0_pay16 (k0_pay13 X.x1 X.x5 X.x6) X.x2 X.x7 (z400x32 (F := F)) X.x8 X.x9 X.x10 X.x11 X.x12 X.x13 X.x14) xmt (z64x2048 (F := F)) := by
  rw [View.read_writes_eq_canon _ _ _ (View.cover_of_tiledL _ S64x2048.size (by sl_kernel_rfl))]
  unfold runB
  dsimp only
  try sl_unfold_words
  rw [View.canon_unit_zero hz2]
  simp only [View.readAt_eq_ld, B.w1.read_unread, B.w4.read_unread, B.w2.read_unread, B.w6.read_unread, B.w7.read_unread, B.w3.read_unread, B.w8.read_unread, B.w9.read_unread, B.w10.read_unread, B.w11.read_unread, B.w12.read_unread, B.w13.read_unread, B.w14.read_unread, B.w15.read_unread, B.w24.read_unread, View.ld_unit_zero (S := S400x2048) hz2, View.ld_unit_zero (S := S2048x1) hz2, View.ld_unit_zero (S := S400x128) hz2, View.ld_unit_zero (S := S128x32) hz2, View.ld_unit_zero (S := S1x32) hz2, View.ld_unit_zero (S := S400x16) hz2, View.ld_unit_zero (S := S16x32) hz2, View.ld_unit_zero (S := S64x64) hz2, View.ld_unit_zero (S := S1x64) hz2, View.ld_unit_zero (S := S64x32) hz2, View.ld_unit_zero (S := S32x64) hz2, View.ld_unit_zero (S := S64x2048) hz2]

theorem runB_hq :
    (runB c i B h1 h2 h3 h4 h5 h6 X xhq xde xmt).2.1
      = [⟨Rect.unit (s := S10000x2048) (k0_off1 i) S400x2048.size (k0_off1_inb i h2), k0_pay12 X.x0 X.x3⟩] := by
  unfold runB
  dsimp only
  try sl_unfold_words
  simp only [View.readAt_eq_ld, B.w1.read_unread, B.w4.read_unread, View.ld_unit_zero (S := S400x2048) hz2, View.ld_unit_zero (S := S2048x1) hz2]

set_option maxHeartbeats 4000000 in
/-- The body obligation in control case B: the invariant before the point and the run's stores give the invariant after it. -/
theorem sound_B (c : Dev nD) (t : Fin cfg0.N) (ht : 1 ≤ t.val ∧ t.val ≤ 24) :
    bodyPre m c t ⊢ wp frame (wpE (defs₀ (F := F)) Variants.none c none) Set.univ (bodyAt0 t) (fun _ => bodyPost m c t) := by
  have h1 : 1 ≤ t.val := ht.1
  have h24 : t.val ≤ 24 := ht.2
  have hlt : t.val - 1 < 55 := by omega
  refine sound_of m c t ?_
  unfold bodyAt0
  rw [PhiS_stream m c t.val h1 (by omega), PhiS_stream m c (t.val + 1) (by omega) (by omega)]
  rw [show (dats m 0 c).leavesExact 19 t = owns (c : Thread nD τ) (ms19 t) fullShare ((dats m 0 c).after 19 t) from by
    unfold Dat.leavesExact; rw [live19 t (by omega)], after_19,
    show after19 m c t = gTile m c t from by unfold after19; rw [dif_pos (show t.val < 25 by omega)]]
  rw [Dat.leavesExact_idle (dats m 0 c) 20 t (idle20 t (by omega)) (noFlush20 t (by omega))]
  iintro ⟨⟨⟨⟨%hq, Hhq, %hok⟩, Hde, Hmt, ⟨%dmn, Hmn⟩⟩, Hg⟩, Ho, Hin, ⟨%d19, H19⟩, ⟨%d20, H20⟩⟩
  iapply ((runB c (grid0.coords t) (bufs t) (gB1 t h1) (gB2 t h24) (gB3 t h24) (gB4 t h24) (gB5 t h24) (gB6 t h24) (ins m c t) hq (deAt m c (t.val - 1) hlt) (mt0At m c (t.val - 1) hlt)).2.2.2.2 _ _ Set.univ _)
  isplitl [Hin]; · iexact Hin
  isplitl [H19]; · iexists _; iexact H19
  isplitl [H20]; · iexact H20
  isplitl [Hhq]; · iexact Hhq
  isplitl [Hde]; · iexact Hde
  isplitl [Hmt]; · iexact Hmt
  isplitl [Hmn]; · iexact Hmn
  iintro ⟨Hin, ⟨%e19, H19⟩, H20, Hhq, ⟨%ede, Hde⟩, ⟨%emt, Hmt⟩, Hmn⟩
  isplitl [Hhq Hde Hmt Hmn Hg]
  · isplitl [Hhq Hde Hmt Hmn]
    · isplitl [Hhq]
      · iexists _; isplitl [Hhq]
        · unfold owns; iexists _; isplitr
          swap; · iexact Hhq
          ipureintro; rfl
        ipureintro
        rw [runB_hq]
        dsimp only [bufs, ins]
        exact hq_store m c scHq (Memref.isWhole_whole cc0_scratch0) hq t.val (by omega) hok _ _ (off1_eq t)
      isplitl [Hde]
      · unfold owns; iexists _; isplitr
        swap; · iexact Hde
        ipureintro
        refine (runB_de c (grid0.coords t) (bufs t) (gB1 t h1) (gB2 t h24) (gB3 t h24) (gB4 t h24) (gB5 t h24) (gB6 t h24) (ins m c t) hq (deAt m c (t.val - 1) hlt) (mt0At m c (t.val - 1) hlt) ede).trans ?_
        dsimp only [ins]
        exact (deAt_succB m c t.val h1 (by omega)).symm
      isplitl [Hmt]
      · unfold owns; iexists _; isplitr
        swap; · iexact Hmt
        ipureintro
        refine (runB_mt c (grid0.coords t) (bufs t) (gB1 t h1) (gB2 t h24) (gB3 t h24) (gB4 t h24) (gB5 t h24) (gB6 t h24) (ins m c t) hq (deAt m c (t.val - 1) hlt) (mt0At m c (t.val - 1) hlt) emt).trans ?_
        dsimp only [ins]
        exact (mt0At_succB m c t.val h1 (by omega)).symm
      iexists _; iexact Hmn
    iexact Hg
  isplitl [Ho]; · iexact Ho
  isplitl [Hin]; · iexact Hin
  isplitl [H19]
  · unfold owns; iexists _; isplitr
    swap; · iexact H19
    ipureintro
    refine (runB_gate c (grid0.coords t) (bufs t) (gB1 t h1) (gB2 t h24) (gB3 t h24) (gB4 t h24) (gB5 t h24) (gB6 t h24) (ins m c t) hq (deAt m c (t.val - 1) hlt) (mt0At m c (t.val - 1) hlt) e19).trans ?_
    dsimp only [ins] <;> rfl
  iexists _; iexact H20

end Cert.Kernel.Hand

end
-- ==== Proof.KRunC.lean ====
import proofs.«108041_g40587440947829_cont_sun_m_1101_23_alg».proof.Proof.KSched

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Control case C: the body runs to its end; the lists are the stores it makes to each written buffer, newest first. -/
noncomputable def runC (c : Dev nD) (i : grid0.Coords) (B : Bufs)
    (h1 : ¬cInit i) (h2 : ¬cPh0 i) (h3 : cN1 i) (h4 : cPh1 i) (h5 : ¬cN2 i) (h6 : ¬cPh2 i)
    (X : Ins F) (xhq : Vec F S10000x2048 .bf16) (xde : Vec F S1x2048 .f32) (xmt : Vec F S64x2048 .f32) :
    Σ' (L24 : List (View.Piece (Elt F) S64x2048 .f32)), { L25 : List (View.Piece (Elt F) S2048x64 .bf16) //
      ∀ (xi19 : Vec F S400x32 .f32) (xi20 : Vec F S400x2 .f32) (E : Set ℕ) (K : PUnit → sProp 𝕄),
        iprop(insOwned c B X ∗ owns (c : Thread nD τ) B.a20 fullShare xi19 ∗ owns (c : Thread nD τ) B.a21 fullShare xi20 ∗ owns (c : Thread nD τ) B.a22 fullShare xhq ∗ owns (c : Thread nD τ) B.a23 fullShare xde ∗ owns (c : Thread nD τ) B.a24 fullShare xmt ∗ (∃ d, owns (c : Thread nD τ) B.a25 fullShare d)
            ∗ (iprop(insOwned c B X ∗ owns (c : Thread nD τ) B.a20 fullShare xi19 ∗ owns (c : Thread nD τ) B.a21 fullShare xi20 ∗ owns (c : Thread nD τ) B.a22 fullShare xhq ∗ owns (c : Thread nD τ) B.a23 fullShare xde ∗ (∃ f, B.a24.view.loc (c : Thread nD τ) ↦[B.a24.view.set]{fullShare} B.a24.view.writes (Elt F) f L24) ∗ (∃ f, B.a25.view.loc (c : Thread nD τ) ↦[B.a25.view.set]{fullShare} B.a25.view.writes (Elt F) f L25)) -∗ K ⟨⟩))
          ⊢ wp frame (wpE (defs₀ (F := F)) Variants.none c none) E (body i B) K } := by
  refine ⟨?_, ?_, fun xi19 xi20 E K => ?run⟩
  case run =>
    simp only [body, cc0__kernel_eq_skeleton]; unfold cc0__kernel_skel
    unfold insOwned owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, ⟨%f19, %hf19, H19⟩, ⟨%f20, %hf20, H20⟩, ⟨%f21, %hf21, H21⟩, ⟨%f22, %hf22, H22⟩, ⟨%f23, %hf23, H23⟩, ⟨%d24, %f24, %hf24, H24⟩, Hk⟩
    obtain rfl := B.w1.eq_unread hf0; obtain rfl := B.w2.eq_unread hf1; obtain rfl := B.w3.eq_unread hf2; obtain rfl := B.w4.eq_unread hf3; obtain rfl := B.w5.eq_unread hf4; obtain rfl := B.w6.eq_unread hf5; obtain rfl := B.w7.eq_unread hf6; obtain rfl := B.w8.eq_unread hf7; obtain rfl := B.w9.eq_unread hf8; obtain rfl := B.w10.eq_unread hf9; obtain rfl := B.w11.eq_unread hf10; obtain rfl := B.w12.eq_unread hf11; obtain rfl := B.w13.eq_unread hf12
    obtain rfl := B.w14.eq_unread hf13; obtain rfl := B.w15.eq_unread hf14; obtain rfl := B.w16.eq_unread hf15; obtain rfl := B.w17.eq_unread hf16; obtain rfl := B.w18.eq_unread hf17; obtain rfl := B.w19.eq_unread hf18; obtain rfl := B.w20.eq_unread hf19; obtain rfl := B.w21.eq_unread hf20; obtain rfl := B.w22.eq_unread hf21; obtain rfl := B.w23.eq_unread hf22; obtain rfl := B.w24.eq_unread hf23; obtain rfl := B.w25.eq_unread hf24
    sl_exec (disch := first | exact h1 | exact h2 | exact h3 | exact h4 | exact h5 | exact h6)
    sl_step
    iapply Hk
    isplitl [H0 H1 H2 H3 H4 H5 H6 H7 H8 H9 H10 H11 H12 H13 H14 H15 H16 H17 H18]
    ·
      isplitl [H0]; · iapply ownsU c B.w1; iexact H0
      isplitl [H1]; · iapply ownsU c B.w2; iexact H1
      isplitl [H2]; · iapply ownsU c B.w3; iexact H2
      isplitl [H3]; · iapply ownsU c B.w4; iexact H3
      isplitl [H4]; · iapply ownsU c B.w5; iexact H4
      isplitl [H5]; · iapply ownsU c B.w6; iexact H5
      isplitl [H6]; · iapply ownsU c B.w7; iexact H6
      isplitl [H7]; · iapply ownsU c B.w8; iexact H7
      isplitl [H8]; · iapply ownsU c B.w9; iexact H8
      isplitl [H9]; · iapply ownsU c B.w10; iexact H9
      isplitl [H10]; · iapply ownsU c B.w11; iexact H10
      isplitl [H11]; · iapply ownsU c B.w12; iexact H11
      isplitl [H12]; · iapply ownsU c B.w13; iexact H12
      isplitl [H13]; · iapply ownsU c B.w14; iexact H13
      isplitl [H14]; · iapply ownsU c B.w15; iexact H14
      isplitl [H15]; · iapply ownsU c B.w16; iexact H15
      isplitl [H16]; · iapply ownsU c B.w17; iexact H16
      isplitl [H17]; · iapply ownsU c B.w18; iexact H17
      iapply ownsU c B.w19; iexact H18
    isplitl [H19]; · iapply ownsU c B.w20; iexact H19
    isplitl [H20]; · iapply ownsU c B.w21; iexact H20
    isplitl [H21]; · iapply ownsU c B.w22; iexact H21
    isplitl [H22]; · iapply ownsU c B.w23; iexact H22
    isplitl [H23]
    · iexists _; iexact H23
    iexists _; iexact H24

end Cert.Kernel.Hand

end
-- ==== Proof.KCaseC.lean ====
import proofs.«108041_g40587440947829_cont_sun_m_1101_23_alg».proof.Proof.KHq
import proofs.«108041_g40587440947829_cont_sun_m_1101_23_alg».proof.Proof.KRunC
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (B : Bufs) (h1 : ¬cInit i) (h2 : ¬cPh0 i) (h3 : cN1 i) (h4 : cPh1 i) (h5 : ¬cN2 i) (h6 : ¬cPh2 i) (X : Ins F) (xhq : Vec F S10000x2048 .bf16) (xde : Vec F S1x2048 .f32) (xmt : Vec F S64x2048 .f32)

theorem runC_mn
    (f : B.a25.view.ty.Contents (Elt F)) :
    B.a25.view.read (Elt F) (B.a25.view.writes (Elt F) f (runC c i B h1 h2 h3 h4 h5 h6 X xhq xde xmt).2.1)
      = k0_pay4 X.x4 xde xmt := by
  rw [View.read_writes_eq_canon _ _ _ (View.cover_of_tiledL _ S2048x64.size (by sl_kernel_rfl))]
  unfold runC
  dsimp only
  sl_unfold_words
  rw [View.canon_unit_zero hz2]
  simp only [View.readAt_eq_ld, B.w5.read_unread, B.w23.read_unread, B.w24.read_unread,
    View.ld_unit_zero (S := S1x2048) hz2, View.ld_unit_zero (S := S64x2048) hz2]

theorem runC_mt
    (f : B.a24.view.ty.Contents (Elt F)) :
    B.a24.view.read (Elt F) (B.a24.view.writes (Elt F) f (runC c i B h1 h2 h3 h4 h5 h6 X xhq xde xmt).1)
      = k0_pay6 (View.readAt (Elt F) B.a22.view (Rect.unit (s := S10000x2048) (k0_off2 i) S2000x2048.size (k0_off2_inb i h4)).toLoadRect (B.w22.unread xhq))
          (k0_pay4 X.x4 xde xmt) X.x15 X.x16 (k0_pay5 (F := F)) := by
  rw [View.read_writes_eq_canon _ _ _ (View.cover_of_tiledL _ S64x2048.size (by sl_kernel_rfl))]
  unfold runC
  dsimp only
  sl_unfold_words
  rw [View.canon_cons_unit_zero (S := S64x2048) hz2]
  simp only [View.readAt_eq_ld, B.w5.read_unread, B.w23.read_unread, B.w24.read_unread, B.w16.read_unread, B.w17.read_unread,
    View.ld_unit_zero (S := S1x2048) hz2, View.ld_unit_zero (S := S64x2048) hz2, View.ld_unit_zero (S := S64x64) hz2, View.ld_unit_zero (S := S1x64) hz2,
    View.readCov_unit_zero (S := S2048x64) _ hz2, View.readCov_unit_zero (S := S64x2048) _ hz2]

variable (m : (ℓ : Loc nD τ sig) → Buf (Elt F) ℓ) (ρ : Dev nD → PrngReg)

theorem mt1At_zero_C (c : Dev nD) (h : 0 < 5) :
    mt1At m c 0 h = k0_pay6 (hqS2000 m c 0 h) (MN1 m c) (bC2W m c (pt 25 (by omega))) (bC2b m c (pt 25 (by omega))) (k0_pay5 (F := F)) := by
  rw [mt1At]

set_option maxHeartbeats 1000000 in
/-- The body obligation in control case C: the invariant before the point and the run's stores give the invariant after it. -/
theorem sound_C (c : Dev nD) (t : Fin cfg0.N) (ht : t.val = 25) :
    bodyPre m c t ⊢ wp frame (wpE (defs₀ (F := F)) Variants.none c none) Set.univ (bodyAt0 t) (fun _ => bodyPost m c t) := by
  refine sound_of m c t ?_
  unfold bodyAt0
  rw [show PhiS m c t.val = PhiStream m c 25 (by omega) (by omega) from by rw [ht]; exact PhiS_stream m c 25 _ _]
  rw [show PhiS m c (t.val + 1) = PhiScat1 m c 26 (by omega) (by omega) from by rw [ht]; exact PhiS_scat1 m c 26 _ _]
  rw [Dat.leavesExact_idle (dats m 0 c) 19 t (idle19 t (by omega)) (noFlush19 t (by omega) (by omega))]
  rw [Dat.leavesExact_idle (dats m 0 c) 20 t (idle20 t (by omega)) (noFlush20 t (by omega))]
  have g1 : ¬cInit (grid0.coords t) := fun h => by have := (hcInit t).mp h; omega
  have g2 : ¬cPh0 (grid0.coords t) := fun h => by have := (hcPh0 t).mp h; omega
  have g3 : cN1 (grid0.coords t) := (hcN1 t).mpr ht
  have g4 : cPh1 (grid0.coords t) := (hcPh1 t).mpr ⟨by omega, by omega⟩
  have g5 : ¬cN2 (grid0.coords t) := fun h => by have := (hcN2 t).mp h; omega
  have g6 : ¬cPh2 (grid0.coords t) := fun h => by have := (hcPh2 t).mp h; omega
  have et : t = pt 25 (by decide) := Fin.ext ht
  unfold PhiStream PhiScat1 hqHeld
  iintro ⟨⟨⟨⟨%hq, Hhq, %hok⟩, Hde, Hmt, ⟨%dmn, Hmn⟩⟩, Hg⟩, Ho, Hin, ⟨%d19, H19⟩, ⟨%d20, H20⟩⟩
  iapply ((runC c (grid0.coords t) (bufs t) g1 g2 g3 g4 g5 g6 (ins m c t) hq (DE m c) (MT1 m c)).2.2 _ _ Set.univ _)
  isplitl [Hin]; · iexact Hin
  isplitl [H19]; · iexact H19
  isplitl [H20]; · iexact H20
  isplitl [Hhq]; · iexact Hhq
  isplitl [Hde]; · iexact Hde
  isplitl [Hmt]; · iexact Hmt
  isplitl [Hmn]; · iexists _; iexact Hmn
  iintro ⟨Hin, H19, H20, Hhq, Hde, ⟨%e24, Hmt⟩, ⟨%e25, Hmn⟩⟩
  isplitl [Hhq Hde Hmt Hmn Hg]
  · isplitr [Hg]
    swap; · iexact Hg
    isplitl [Hhq]
    · iexists hq; isplitl [Hhq]; · iexact Hhq
      ipureintro; exact hok
    isplitl [Hde]; · iexact Hde
    isplitl [Hmt]
    · unfold owns; iexists _; isplitr
      swap; · iexact Hmt
      ipureintro
      refine (runC_mt c (grid0.coords t) (bufs t) g1 g2 g3 g4 g5 g6 (ins m c t) hq (DE m c) (MT1 m c) e24).trans ?_
      rw [hq_read2000 m c scHq (Memref.isWhole_whole _) hq hok 0 (by omega) (k0_off2 (grid0.coords t)) (k0_off2_inb (grid0.coords t) g4) (by rw [off2_eq t (by omega) (by omega), ht])]
      subst et
      exact (mt1At_zero_C m c _).symm
    unfold owns; iexists _; isplitr
    swap; · iexact Hmn
    ipureintro
    refine (runC_mn c (grid0.coords t) (bufs t) g1 g2 g3 g4 g5 g6 (ins m c t) hq (DE m c) (MT1 m c) e25).trans ?_
    subst et
    rfl
  isplitl [Ho]; · iexact Ho
  isplitl [Hin]; · iexact Hin
  isplitl [H19]; · iexists _; iexact H19
  iexists _; iexact H20

end Cert.Kernel.Hand

end
-- ==== Proof.KRunD.lean ====
import proofs.«108041_g40587440947829_cont_sun_m_1101_23_alg».proof.Proof.KSched

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Control case D: the body runs to its end; the lists are the stores it makes to each written buffer, newest first. -/
noncomputable def runD (c : Dev nD) (i : grid0.Coords) (B : Bufs)
    (h1 : ¬cInit i) (h2 : ¬cPh0 i) (h3 : ¬cN1 i) (h4 : cPh1 i) (h5 : ¬cN2 i) (h6 : ¬cPh2 i)
    (X : Ins F) (xhq : Vec F S10000x2048 .bf16) (xde : Vec F S1x2048 .f32) (xmt : Vec F S64x2048 .f32) (xmn : Vec F S2048x64 .bf16) :
    { L24 : List (View.Piece (Elt F) S64x2048 .f32) //
      ∀ (xi19 : Vec F S400x32 .f32) (xi20 : Vec F S400x2 .f32) (E : Set ℕ) (K : PUnit → sProp 𝕄),
        iprop(insOwned c B X ∗ owns (c : Thread nD τ) B.a20 fullShare xi19 ∗ owns (c : Thread nD τ) B.a21 fullShare xi20
            ∗ owns (c : Thread nD τ) B.a22 fullShare xhq ∗ owns (c : Thread nD τ) B.a23 fullShare xde ∗ owns (c : Thread nD τ) B.a24 fullShare xmt ∗ owns (c : Thread nD τ) B.a25 fullShare xmn
            ∗ (iprop(insOwned c B X ∗ owns (c : Thread nD τ) B.a20 fullShare xi19 ∗ owns (c : Thread nD τ) B.a21 fullShare xi20
              ∗ owns (c : Thread nD τ) B.a22 fullShare xhq ∗ owns (c : Thread nD τ) B.a23 fullShare xde ∗ (∃ f, B.a24.view.loc (c : Thread nD τ) ↦[B.a24.view.set]{fullShare} B.a24.view.writes (Elt F) f L24) ∗ owns (c : Thread nD τ) B.a25 fullShare xmn) -∗ K ⟨⟩))
          ⊢ wp frame (wpE (defs₀ (F := F)) Variants.none c none) E (body i B) K } := by
  refine ⟨?_, fun xi19 xi20 E K => ?run⟩
  case run =>
    simp only [body, cc0__kernel_eq_skeleton]; unfold cc0__kernel_skel
    unfold insOwned owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, ⟨%f19, %hf19, H19⟩, ⟨%f20, %hf20, H20⟩, ⟨%f21, %hf21, H21⟩, ⟨%f22, %hf22, H22⟩, ⟨%f23, %hf23, H23⟩, ⟨%f24, %hf24, H24⟩, Hk⟩
    obtain rfl := B.w1.eq_unread hf0; obtain rfl := B.w2.eq_unread hf1; obtain rfl := B.w3.eq_unread hf2; obtain rfl := B.w4.eq_unread hf3; obtain rfl := B.w5.eq_unread hf4; obtain rfl := B.w6.eq_unread hf5; obtain rfl := B.w7.eq_unread hf6; obtain rfl := B.w8.eq_unread hf7; obtain rfl := B.w9.eq_unread hf8; obtain rfl := B.w10.eq_unread hf9; obtain rfl := B.w11.eq_unread hf10; obtain rfl := B.w12.eq_unread hf11; obtain rfl := B.w13.eq_unread hf12; obtain rfl := B.w14.eq_unread hf13; obtain rfl := B.w15.eq_unread hf14; obtain rfl := B.w16.eq_unread hf15; obtain rfl := B.w17.eq_unread hf16; obtain rfl := B.w18.eq_unread hf17; obtain rfl := B.w19.eq_unread hf18; obtain rfl := B.w20.eq_unread hf19; obtain rfl := B.w21.eq_unread hf20
    obtain rfl := B.w22.eq_unread hf21; obtain rfl := B.w23.eq_unread hf22; obtain rfl := B.w24.eq_unread hf23; obtain rfl := B.w25.eq_unread hf24
    sl_exec (disch := first | exact h1 | exact h2 | exact h3 | exact h4 | exact h5 | exact h6)
    sl_step
    iapply Hk
    isplitl [H0 H1 H2 H3 H4 H5 H6 H7 H8 H9 H10 H11 H12 H13 H14 H15 H16 H17 H18]
    ·
      isplitl [H0]; · iapply ownsU c B.w1; iexact H0
      isplitl [H1]; · iapply ownsU c B.w2; iexact H1
      isplitl [H2]; · iapply ownsU c B.w3; iexact H2
      isplitl [H3]; · iapply ownsU c B.w4; iexact H3
      isplitl [H4]; · iapply ownsU c B.w5; iexact H4
      isplitl [H5]; · iapply ownsU c B.w6; iexact H5
      isplitl [H6]; · iapply ownsU c B.w7; iexact H6
      isplitl [H7]; · iapply ownsU c B.w8; iexact H7
      isplitl [H8]; · iapply ownsU c B.w9; iexact H8
      isplitl [H9]; · iapply ownsU c B.w10; iexact H9
      isplitl [H10]; · iapply ownsU c B.w11; iexact H10
      isplitl [H11]; · iapply ownsU c B.w12; iexact H11
      isplitl [H12]; · iapply ownsU c B.w13; iexact H12
      isplitl [H13]; · iapply ownsU c B.w14; iexact H13
      isplitl [H14]; · iapply ownsU c B.w15; iexact H14
      isplitl [H15]; · iapply ownsU c B.w16; iexact H15
      isplitl [H16]; · iapply ownsU c B.w17; iexact H16
      isplitl [H17]; · iapply ownsU c B.w18; iexact H17
      iapply ownsU c B.w19; iexact H18
    isplitl [H19]; · iapply ownsU c B.w20; iexact H19
    isplitl [H20]; · iapply ownsU c B.w21; iexact H20
    isplitl [H21]; · iapply ownsU c B.w22; iexact H21
    isplitl [H22]; · iapply ownsU c B.w23; iexact H22
    isplitl [H23]
    · iexists _; iexact H23
    iapply ownsU c B.w25; iexact H24

end Cert.Kernel.Hand

end
-- ==== Proof.KCaseD.lean ====
import proofs.«108041_g40587440947829_cont_sun_m_1101_23_alg».proof.Proof.KRunD
import proofs.«108041_g40587440947829_cont_sun_m_1101_23_alg».proof.Proof.KData
import proofs.«108041_g40587440947829_cont_sun_m_1101_23_alg».proof.Proof.KHq
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mt1At_stepD (c : Dev nD) (t : Fin cfg0.N) (ht : 26 ≤ t.val ∧ t.val ≤ 29) :
    mt1At m c (t.val + 1 - 26) (by omega)
      = k0_pay6 (hqS2000 m c (t.val - 25) (by omega)) (MN1 m c) (bC2W m c t) (bC2b m c t) (mt1At m c (t.val - 26) (by omega)) := by
  obtain ⟨n, hn⟩ := t
  have h4 : n = 26 ∨ n = 27 ∨ n = 28 ∨ n = 29 := by simp only at ht; omega
  rcases h4 with rfl | rfl | rfl | rfl <;> rfl

variable (c : Dev nD) (i : grid0.Coords) (B : Bufs) (h1 : ¬cInit i) (h2 : ¬cPh0 i) (h3 : ¬cN1 i) (h4 : cPh1 i) (h5 : ¬cN2 i) (h6 : ¬cPh2 i) (X : Ins F) (xhq : Vec F S10000x2048 .bf16) (xde : Vec F S1x2048 .f32) (xmt : Vec F S64x2048 .f32) (xmn : Vec F S2048x64 .bf16)

theorem coverD (y : S64x2048.Idx) :
    ∃ pc ∈ (runD c i B h1 h2 h3 h4 h5 h6 X xhq xde xmt xmn).1, y ∈ pc.1.set :=
  View.cover_of_tiledL (runD c i B h1 h2 h3 h4 h5 h6 X xhq xde xmt xmn).1 S64x2048.size (by sl_kernel_rfl) y

theorem mtD_read (f : B.a24.view.ty.Contents (Elt F)) :
    B.a24.view.read (Elt F) (B.a24.view.writes (Elt F) f (runD c i B h1 h2 h3 h4 h5 h6 X xhq xde xmt xmn).1)
      = k0_pay6 (View.readAt (Elt F) B.a22.view (Rect.unit (s := S10000x2048) (k0_off2 i) S2000x2048.size (k0_off2_inb i h4)).toLoadRect (B.w22.unread xhq)) xmn X.x15 X.x16 xmt := by
  rw [View.read_writes_eq_canon _ _ _ (coverD c i B h1 h2 h3 h4 h5 h6 X xhq xde xmt xmn)]
  unfold runD; dsimp only; sl_unfold_words
  rw [View.canon_unit_zero hz2]
  simp only [View.readAt_eq_ld, B.w25.read_unread, B.w16.read_unread, B.w17.read_unread, B.w24.read_unread,
    View.ld_unit_zero (S := S2048x64) hz2, View.ld_unit_zero (S := S64x64) hz2, View.ld_unit_zero (S := S1x64) hz2, View.ld_unit_zero (S := S64x2048) hz2]

theorem gD1 (t : Fin cfg0.N) (ht : 26 ≤ t.val ∧ t.val ≤ 29) : ¬cInit (grid0.coords t) := fun h => by have := (hcInit t).mp h; omega
theorem gD2 (t : Fin cfg0.N) (ht : 26 ≤ t.val ∧ t.val ≤ 29) : ¬cPh0 (grid0.coords t) := fun h => by have := (hcPh0 t).mp h; omega
theorem gD3 (t : Fin cfg0.N) (ht : 26 ≤ t.val ∧ t.val ≤ 29) : ¬cN1 (grid0.coords t) := fun h => by have := (hcN1 t).mp h; omega
theorem gD4 (t : Fin cfg0.N) (ht : 26 ≤ t.val ∧ t.val ≤ 29) : cPh1 (grid0.coords t) := (hcPh1 t).mpr ⟨by omega, by omega⟩
theorem gD5 (t : Fin cfg0.N) (ht : 26 ≤ t.val ∧ t.val ≤ 29) : ¬cN2 (grid0.coords t) := fun h => by have := (hcN2 t).mp h; omega
theorem gD6 (t : Fin cfg0.N) (ht : 26 ≤ t.val ∧ t.val ≤ 29) : ¬cPh2 (grid0.coords t) := fun h => by have := (hcPh2 t).mp h; omega

theorem mtD_at (c : Dev nD) (t : Fin cfg0.N) (ht : 26 ≤ t.val ∧ t.val ≤ 29) (xhq : Vec F S10000x2048 .bf16) (hok : HqOk m c 25 xhq)
    (f : scMt.view.ty.Contents (Elt F)) :
    scMt.view.read (Elt F) (scMt.view.writes (Elt F) f (runD c (grid0.coords t) (bufs t) (gD1 t ht) (gD2 t ht) (gD3 t ht) (gD4 t ht) (gD5 t ht) (gD6 t ht) (ins m c t) xhq (DE m c) (mt1At m c (t.val - 26) (by omega)) (MN1 m c)).1)
      = mt1At m c (t.val + 1 - 26) (by omega) := by
  refine (mtD_read c (grid0.coords t) (bufs t) (gD1 t ht) (gD2 t ht) (gD3 t ht) (gD4 t ht) (gD5 t ht) (gD6 t ht) (ins m c t) xhq (DE m c) (mt1At m c (t.val - 26) (by omega)) (MN1 m c) f).trans ?_
  rw [hq_read2000 m c scHq (Memref.isWhole_whole _) xhq hok (t.val - 25) (by omega) (k0_off2 (grid0.coords t)) (k0_off2_inb (grid0.coords t) (gD4 t ht)) (off2_eq t (by omega) (by omega))]
  exact (mt1At_stepD m c t ht).symm

set_option maxHeartbeats 4000000 in
/-- The body obligation in control case D: the invariant before the point and the run's stores give the invariant after it. -/
theorem sound_D (c : Dev nD) (t : Fin cfg0.N) (ht : 26 ≤ t.val ∧ t.val ≤ 29) :
    bodyPre m c t ⊢ wp frame (wpE (defs₀ (F := F)) Variants.none c none) Set.univ (bodyAt0 t) (fun _ => bodyPost m c t) := by
  refine sound_of m c t ?_
  unfold bodyAt0
  rw [PhiS_scat1 m c t.val (by omega) (by omega), PhiS_scat1 m c (t.val + 1) (by omega) (by omega)]
  rw [Dat.leavesExact_idle (dats m 0 c) 19 t (idle19 t (by omega)) (noFlush19 t (by omega) (by omega))]
  rw [Dat.leavesExact_idle (dats m 0 c) 20 t (idle20 t (by omega)) (noFlush20 t (by omega))]
  unfold PhiScat1 hqHeld
  iintro ⟨⟨⟨⟨%hq, Hhq, %hok⟩, Hde, Hmt, Hmn⟩, Hg⟩, Ho, Hin, ⟨%d19, H19⟩, ⟨%d20, H20⟩⟩
  iapply ((runD c (grid0.coords t) (bufs t) (gD1 t ht) (gD2 t ht) (gD3 t ht) (gD4 t ht) (gD5 t ht) (gD6 t ht) (ins m c t) hq (DE m c) (mt1At m c (t.val - 26) (by omega)) (MN1 m c)).2 _ _ Set.univ _)
  isplitl [Hin]; · iexact Hin
  isplitl [H19]; · iexact H19
  isplitl [H20]; · iexact H20
  isplitl [Hhq]; · iexact Hhq
  isplitl [Hde]; · iexact Hde
  isplitl [Hmt]; · iexact Hmt
  isplitl [Hmn]; · iexact Hmn
  iintro ⟨Hin, H19, H20, Hhq, Hde, ⟨%e24, Hmt⟩, Hmn⟩
  isplitl [Hhq Hde Hmt Hmn Hg]
  · isplitl [Hhq Hde Hmt Hmn]
    · isplitl [Hhq]
      · iexists hq; isplitl [Hhq]; · iexact Hhq
        ipureintro; exact hok
      isplitl [Hde]; · iexact Hde
      isplitl [Hmt]
      · unfold owns; iexists _; isplitr
        swap; · iexact Hmt
        ipureintro; exact mtD_at m c t ht hq hok e24
      iexact Hmn
    iexact Hg
  isplitl [Ho]; · iexact Ho
  isplitl [Hin]; · iexact Hin
  isplitl [H19]; · iexists _; iexact H19
  iexists _; iexact H20

end Cert.Kernel.Hand

end
-- ==== Proof.KRunE.lean ====
import proofs.«108041_g40587440947829_cont_sun_m_1101_23_alg».proof.Proof.KSched

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Control case E: the body runs to its end; the lists are the stores it makes to each written buffer, newest first. -/
noncomputable def runE (c : Dev nD) (i : grid0.Coords) (B : Bufs)
    (h1 : ¬cInit i) (h2 : ¬cPh0 i) (h3 : ¬cN1 i) (h4 : ¬cPh1 i) (h5 : cN2 i) (h6 : cPh2 i)
    (X : Ins F) (xhq : Vec F S10000x2048 .bf16) (xde : Vec F S1x2048 .f32) (xmt : Vec F S64x2048 .f32) (xmn : Vec F S2048x64 .bf16) :
    Σ' (L21 : List (View.Piece (Elt F) S400x2 .f32)), { L25 : List (View.Piece (Elt F) S2048x64 .bf16) //
      ∀ (xi19 : Vec F S400x32 .f32) (E : Set ℕ) (K : PUnit → sProp 𝕄),
        iprop(insOwned c B X ∗ owns (c : Thread nD τ) B.a20 fullShare xi19 ∗ (∃ d, owns (c : Thread nD τ) B.a21 fullShare d) ∗ owns (c : Thread nD τ) B.a22 fullShare xhq ∗ owns (c : Thread nD τ) B.a23 fullShare xde ∗ owns (c : Thread nD τ) B.a24 fullShare xmt ∗ owns (c : Thread nD τ) B.a25 fullShare xmn
            ∗ (iprop(insOwned c B X ∗ owns (c : Thread nD τ) B.a20 fullShare xi19 ∗ (∃ f, B.a21.view.loc (c : Thread nD τ) ↦[B.a21.view.set]{fullShare} B.a21.view.writes (Elt F) f L21) ∗ owns (c : Thread nD τ) B.a22 fullShare xhq ∗ owns (c : Thread nD τ) B.a23 fullShare xde ∗ owns (c : Thread nD τ) B.a24 fullShare xmt ∗ (∃ f, B.a25.view.loc (c : Thread nD τ) ↦[B.a25.view.set]{fullShare} B.a25.view.writes (Elt F) f L25)) -∗ K ⟨⟩))
          ⊢ wp frame (wpE (defs₀ (F := F)) Variants.none c none) E (body i B) K } := by
  refine ⟨?_, ?_, fun xi19 E K => ?run⟩
  case run =>
    simp only [body, cc0__kernel_eq_skeleton]; unfold cc0__kernel_skel
    unfold insOwned owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, ⟨%f19, %hf19, H19⟩, ⟨%d20, %f20, %hf20, H20⟩, ⟨%f21, %hf21, H21⟩, ⟨%f22, %hf22, H22⟩, ⟨%f23, %hf23, H23⟩, ⟨%f24, %hf24, H24⟩, Hk⟩
    obtain rfl := B.w1.eq_unread hf0; obtain rfl := B.w2.eq_unread hf1; obtain rfl := B.w3.eq_unread hf2; obtain rfl := B.w4.eq_unread hf3; obtain rfl := B.w5.eq_unread hf4; obtain rfl := B.w6.eq_unread hf5; obtain rfl := B.w7.eq_unread hf6; obtain rfl := B.w8.eq_unread hf7; obtain rfl := B.w9.eq_unread hf8; obtain rfl := B.w10.eq_unread hf9; obtain rfl := B.w11.eq_unread hf10; obtain rfl := B.w12.eq_unread hf11; obtain rfl := B.w13.eq_unread hf12; obtain rfl := B.w14.eq_unread hf13; obtain rfl := B.w15.eq_unread hf14; obtain rfl := B.w16.eq_unread hf15; obtain rfl := B.w17.eq_unread hf16; obtain rfl := B.w18.eq_unread hf17; obtain rfl := B.w19.eq_unread hf18; obtain rfl := B.w20.eq_unread hf19; obtain rfl := B.w21.eq_unread hf20; obtain rfl := B.w22.eq_unread hf21; obtain rfl := B.w23.eq_unread hf22; obtain rfl := B.w24.eq_unread hf23; obtain rfl := B.w25.eq_unread hf24
    sl_exec (disch := first | exact h1 | exact h2 | exact h3 | exact h4 | exact h5 | exact h6)
    sl_step
    iapply Hk
    isplitl [H0 H1 H2 H3 H4 H5 H6 H7 H8 H9 H10 H11 H12 H13 H14 H15 H16 H17 H18]
    ·
      isplitl [H0]; · iapply ownsU c B.w1; iexact H0
      isplitl [H1]; · iapply ownsU c B.w2; iexact H1
      isplitl [H2]; · iapply ownsU c B.w3; iexact H2
      isplitl [H3]; · iapply ownsU c B.w4; iexact H3
      isplitl [H4]; · iapply ownsU c B.w5; iexact H4
      isplitl [H5]; · iapply ownsU c B.w6; iexact H5
      isplitl [H6]; · iapply ownsU c B.w7; iexact H6
      isplitl [H7]; · iapply ownsU c B.w8; iexact H7
      isplitl [H8]; · iapply ownsU c B.w9; iexact H8
      isplitl [H9]; · iapply ownsU c B.w10; iexact H9
      isplitl [H10]; · iapply ownsU c B.w11; iexact H10
      isplitl [H11]; · iapply ownsU c B.w12; iexact H11
      isplitl [H12]; · iapply ownsU c B.w13; iexact H12
      isplitl [H13]; · iapply ownsU c B.w14; iexact H13
      isplitl [H14]; · iapply ownsU c B.w15; iexact H14
      isplitl [H15]; · iapply ownsU c B.w16; iexact H15
      isplitl [H16]; · iapply ownsU c B.w17; iexact H16
      isplitl [H17]; · iapply ownsU c B.w18; iexact H17
      iapply ownsU c B.w19; iexact H18
    isplitl [H19]; · iapply ownsU c B.w20; iexact H19
    isplitl [H20]
    · iexists _; iexact H20
    isplitl [H21]; · iapply ownsU c B.w22; iexact H21
    isplitl [H22]; · iapply ownsU c B.w23; iexact H22
    isplitl [H23]; · iapply ownsU c B.w24; iexact H23
    iexists _; iexact H24

end Cert.Kernel.Hand

end
-- ==== Proof.KCaseE.lean ====
import proofs.«108041_g40587440947829_cont_sun_m_1101_23_alg».proof.Proof.KData
import proofs.«108041_g40587440947829_cont_sun_m_1101_23_alg».proof.Proof.KHq
import proofs.«108041_g40587440947829_cont_sun_m_1101_23_alg».proof.Proof.KRunE
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD) (i : grid0.Coords) (B : Bufs) (h1 : ¬cInit i) (h2 : ¬cPh0 i) (h3 : ¬cN1 i) (h4 : ¬cPh1 i) (h5 : cN2 i) (h6 : cPh2 i) (X : Ins F) (xhq : Vec F S10000x2048 .bf16) (xde : Vec F S1x2048 .f32) (xmt : Vec F S64x2048 .f32) (xmn : Vec F S2048x64 .bf16)

theorem coverE25 (y : S2048x64.Idx) :
    ∃ pc ∈ (runE c i B h1 h2 h3 h4 h5 h6 X xhq xde xmt xmn).2.1, y ∈ pc.1.set :=
  View.cover_of_tiledL (runE c i B h1 h2 h3 h4 h5 h6 X xhq xde xmt xmn).2.1 S2048x64.size (by sl_kernel_rfl) y

theorem coverE21 (y : S400x2.Idx) :
    ∃ pc ∈ (runE c i B h1 h2 h3 h4 h5 h6 X xhq xde xmt xmn).1, y ∈ pc.1.set :=
  View.cover_of_tiledL (runE c i B h1 h2 h3 h4 h5 h6 X xhq xde xmt xmn).1 S400x2.size (by sl_kernel_rfl) y

theorem readE25 (f : B.a25.view.ty.Contents (Elt F)) :
    B.a25.view.read (Elt F) (B.a25.view.writes (Elt F) f (runE c i B h1 h2 h3 h4 h5 h6 X xhq xde xmt xmn).2.1) = k0_pay7 X.x4 xde xmt := by
  rw [View.read_writes_eq_canon _ _ _ (coverE25 c i B h1 h2 h3 h4 h5 h6 X xhq xde xmt xmn)]
  unfold runE
  dsimp only
  try sl_unfold_words
  rw [View.canon_unit_zero hz2]
  simp only [View.readAt_eq_ld, B.w5.read_unread, B.w23.read_unread, B.w24.read_unread,
    View.ld_unit_zero (S := S1x2048) hz2, View.ld_unit_zero (S := S64x2048) hz2]

theorem readE21 (f : B.a21.view.ty.Contents (Elt F)) :
    B.a21.view.read (Elt F) (B.a21.view.writes (Elt F) f (runE c i B h1 h2 h3 h4 h5 h6 X xhq xde xmt xmn).1)
      = k0_pay8 (View.readAt (Elt F) B.a22.view (Rect.unit (s := S10000x2048) (k0_off3 i) S400x2048.size (k0_off3_inb i h6)).toLoadRect (B.w22.unread xhq))
          (k0_pay7 X.x4 xde xmt) X.x17 X.x18 := by
  rw [View.read_writes_eq_canon _ _ _ (coverE21 c i B h1 h2 h3 h4 h5 h6 X xhq xde xmt xmn)]
  unfold runE
  dsimp only
  try sl_unfold_words
  rw [View.canon_unit_zero hz2]
  rw [View.readCov_unit_zero (S := S2048x64) _ hz2]
  simp only [View.readAt_eq_ld, B.w5.read_unread, B.w23.read_unread, B.w24.read_unread, B.w18.read_unread, B.w19.read_unread, B.w22.read_unread,
    View.ld_unit_zero (S := S1x2048) hz2, View.ld_unit_zero (S := S64x2048) hz2, View.ld_unit_zero (S := S64x2) hz2, View.ld_unit_zero (S := S1x2) hz2]

theorem mt1At_E (c : Dev nD) (n : ℕ) (hn : n = 30) (h : n - 26 < 5) : mt1At m c (n - 26) h = MT2 m c := by
  subst hn; rfl

theorem MN2_E (c : Dev nD) (t : Fin cfg0.N) (ht : t.val = 30) :
    k0_pay7 (bWr m c t) (DE m c) (MT2 m c) = MN2 m c := by
  obtain ⟨n, hn⟩ := t
  dsimp only at ht
  subst ht
  rfl

theorem out20_E (c : Dev nD) (t : Fin cfg0.N) (ht : t.val = 30) (hq : Vec F S10000x2048 .bf16) (hok : HqOk m c 25 hq)
    (arg22 : Memref sig .tc .vmem S10000x2048 .bf16) (harg22 : arg22.IsWhole) (inb) :
    k0_pay8 (View.readAt (Elt F) arg22.view (Rect.unit (s := S10000x2048) (k0_off3 (grid0.coords t)) S400x2048.size inb).toLoadRect (harg22.unread hq))
        (k0_pay7 (bWr m c t) (DE m c) (MT2 m c)) (bHdW m c t) (bHdb m c t) = after20 m c t := by
  rw [hq_read400 m c arg22 harg22 hq hok (t.val - 30) (by omega) (k0_off3 (grid0.coords t)) inb (off3_eq t (by omega)), MN2_E m c t ht]
  unfold after20
  rw [dif_pos (by omega)]
  obtain ⟨n, hn⟩ := t
  dsimp only at ht
  subst ht
  rfl

set_option maxHeartbeats 4000000 in
/-- The body obligation in control case E: the invariant before the point and the run's stores give the invariant after it. -/
theorem sound_E (c : Dev nD) (t : Fin cfg0.N) (ht : t.val = 30) :
    bodyPre m c t ⊢ wp frame (wpE (defs₀ (F := F)) Variants.none c none) Set.univ (bodyAt0 t) (fun _ => bodyPost m c t) := by
  have hG1 : ¬cInit (grid0.coords t) := fun h => by have h' := (hcInit t).mp h; omega
  have hG2 : ¬cPh0 (grid0.coords t) := fun h => by have h' := (hcPh0 t).mp h; omega
  have hG3 : ¬cN1 (grid0.coords t) := fun h => by have h' := (hcN1 t).mp h; omega
  have hG4 : ¬cPh1 (grid0.coords t) := fun h => by have h' := (hcPh1 t).mp h; omega
  have hG5 : cN2 (grid0.coords t) := (hcN2 t).mpr ht
  have hG6 : cPh2 (grid0.coords t) := (hcPh2 t).mpr (by omega)
  refine sound_of m c t ?_
  unfold bodyAt0
  rw [PhiS_scat1 m c t.val (by omega) (by omega), PhiS_scat2 m c (t.val + 1) (by omega)]
  rw [Dat.leavesExact_idle (dats m 0 c) 19 t (idle19 t (by omega)) (noFlush19 t (by omega) (by omega))]
  rw [show (dats m 0 c).leavesExact 20 t = owns (c : Thread nD τ) (ms20 t) fullShare ((dats m 0 c).after 20 t) from by
    unfold Dat.leavesExact; rw [live20 t (by omega)], after_20]
  unfold PhiScat1 PhiScat2 hqHeld
  rw [mt1At_E m c t.val ht]
  iintro ⟨⟨⟨⟨%hq, Hhq, %hok⟩, Hde, Hmt, Hmn⟩, Hg⟩, Ho, Hin, ⟨%d19, H19⟩, ⟨%d20, H20⟩⟩
  iapply ((runE c (grid0.coords t) (bufs t) hG1 hG2 hG3 hG4 hG5 hG6 (ins m c t) hq (DE m c) (MT2 m c) (MN1 m c)).2.2 _ Set.univ _)
  isplitl [Hin]; · iexact Hin
  isplitl [H19]; · iexact H19
  isplitl [H20]; · iexists _; iexact H20
  isplitl [Hhq]; · iexact Hhq
  isplitl [Hde]; · iexact Hde
  isplitl [Hmt]; · iexact Hmt
  isplitl [Hmn]; · iexact Hmn
  iintro ⟨Hin, H19, ⟨%e20, H20⟩, Hhq, Hde, Hmt, ⟨%e25, Hmn⟩⟩
  isplitl [Hhq Hde Hmt Hmn Hg]
  · isplitl [Hhq Hde Hmt Hmn]
    · isplitl [Hhq]
      · iexists hq
        isplitl [Hhq]; · iexact Hhq
        ipureintro; exact hok
      isplitl [Hde]; · iexact Hde
      isplitl [Hmt]; · iexact Hmt
      unfold owns; iexists _; isplitr
      swap; · iexact Hmn
      ipureintro
      exact (readE25 c (grid0.coords t) (bufs t) hG1 hG2 hG3 hG4 hG5 hG6 (ins m c t) hq (DE m c) (MT2 m c) (MN1 m c) e25).trans (MN2_E m c t ht)
    iexact Hg
  isplitl [Ho]; · iexact Ho
  isplitl [Hin]; · iexact Hin
  isplitl [H19]; · iexists _; iexact H19
  unfold owns; iexists _; isplitr
  swap; · iexact H20
  ipureintro
  exact (readE21 c (grid0.coords t) (bufs t) hG1 hG2 hG3 hG4 hG5 hG6 (ins m c t) hq (DE m c) (MT2 m c) (MN1 m c) e20).trans (out20_E m c t ht hq hok scHq (Memref.isWhole_whole _) _)

end Cert.Kernel.Hand

end
-- ==== Proof.KRunF.lean ====
import proofs.«108041_g40587440947829_cont_sun_m_1101_23_alg».proof.Proof.KSched

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Control case F: the body runs to its end; the lists are the stores it makes to each written buffer, newest first. -/
noncomputable def runF (c : Dev nD) (i : grid0.Coords) (B : Bufs)
    (h1 : ¬cInit i) (h2 : ¬cPh0 i) (h3 : ¬cN1 i) (h4 : ¬cPh1 i) (h5 : ¬cN2 i) (h6 : cPh2 i)
    (X : Ins F) (xhq : Vec F S10000x2048 .bf16) (xde : Vec F S1x2048 .f32) (xmt : Vec F S64x2048 .f32) (xmn : Vec F S2048x64 .bf16) :
    { L20 : List (View.Piece (Elt F) S400x2 .f32) //
      ∀ (xi19 : Vec F S400x32 .f32) (E : Set ℕ) (K : PUnit → sProp 𝕄),
        iprop(insOwned c B X ∗ owns (c : Thread nD τ) B.a20 fullShare xi19 ∗ (∃ d, owns (c : Thread nD τ) B.a21 fullShare d) ∗ owns (c : Thread nD τ) B.a22 fullShare xhq ∗ owns (c : Thread nD τ) B.a23 fullShare xde ∗ owns (c : Thread nD τ) B.a24 fullShare xmt ∗ owns (c : Thread nD τ) B.a25 fullShare xmn
            ∗ (iprop(insOwned c B X ∗ owns (c : Thread nD τ) B.a20 fullShare xi19 ∗ (∃ f, B.a21.view.loc (c : Thread nD τ) ↦[B.a21.view.set]{fullShare} B.a21.view.writes (Elt F) f L20) ∗ owns (c : Thread nD τ) B.a22 fullShare xhq ∗ owns (c : Thread nD τ) B.a23 fullShare xde ∗ owns (c : Thread nD τ) B.a24 fullShare xmt ∗ owns (c : Thread nD τ) B.a25 fullShare xmn) -∗ K ⟨⟩))
          ⊢ wp frame (wpE (defs₀ (F := F)) Variants.none c none) E (body i B) K } := by
  refine ⟨?_, fun xi19 E K => ?run⟩
  case run =>
    simp only [body, cc0__kernel_eq_skeleton]; unfold cc0__kernel_skel
    unfold insOwned owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, ⟨%f19, %hf19, H19⟩, ⟨%d20, %f20, %hf20, H20⟩, ⟨%f21, %hf21, H21⟩, ⟨%f22, %hf22, H22⟩, ⟨%f23, %hf23, H23⟩, ⟨%f24, %hf24, H24⟩, Hk⟩
    obtain rfl := B.w1.eq_unread hf0; obtain rfl := B.w2.eq_unread hf1; obtain rfl := B.w3.eq_unread hf2; obtain rfl := B.w4.eq_unread hf3; obtain rfl := B.w5.eq_unread hf4; obtain rfl := B.w6.eq_unread hf5; obtain rfl := B.w7.eq_unread hf6; obtain rfl := B.w8.eq_unread hf7; obtain rfl := B.w9.eq_unread hf8; obtain rfl := B.w10.eq_unread hf9; obtain rfl := B.w11.eq_unread hf10; obtain rfl := B.w12.eq_unread hf11; obtain rfl := B.w13.eq_unread hf12; obtain rfl := B.w14.eq_unread hf13; obtain rfl := B.w15.eq_unread hf14; obtain rfl := B.w16.eq_unread hf15; obtain rfl := B.w17.eq_unread hf16; obtain rfl := B.w18.eq_unread hf17; obtain rfl := B.w19.eq_unread hf18; obtain rfl := B.w20.eq_unread hf19
    obtain rfl := B.w21.eq_unread hf20; obtain rfl := B.w22.eq_unread hf21; obtain rfl := B.w23.eq_unread hf22; obtain rfl := B.w24.eq_unread hf23; obtain rfl := B.w25.eq_unread hf24
    sl_exec (disch := first | exact h1 | exact h2 | exact h3 | exact h4 | exact h5 | exact h6)
    sl_step
    iapply Hk
    isplitl [H0 H1 H2 H3 H4 H5 H6 H7 H8 H9 H10 H11 H12 H13 H14 H15 H16 H17 H18]
    ·
      isplitl [H0]; · iapply ownsU c B.w1; iexact H0
      isplitl [H1]; · iapply ownsU c B.w2; iexact H1
      isplitl [H2]; · iapply ownsU c B.w3; iexact H2
      isplitl [H3]; · iapply ownsU c B.w4; iexact H3
      isplitl [H4]; · iapply ownsU c B.w5; iexact H4
      isplitl [H5]; · iapply ownsU c B.w6; iexact H5
      isplitl [H6]; · iapply ownsU c B.w7; iexact H6
      isplitl [H7]; · iapply ownsU c B.w8; iexact H7
      isplitl [H8]; · iapply ownsU c B.w9; iexact H8
      isplitl [H9]; · iapply ownsU c B.w10; iexact H9
      isplitl [H10]; · iapply ownsU c B.w11; iexact H10
      isplitl [H11]; · iapply ownsU c B.w12; iexact H11
      isplitl [H12]; · iapply ownsU c B.w13; iexact H12
      isplitl [H13]; · iapply ownsU c B.w14; iexact H13
      isplitl [H14]; · iapply ownsU c B.w15; iexact H14
      isplitl [H15]; · iapply ownsU c B.w16; iexact H15
      isplitl [H16]; · iapply ownsU c B.w17; iexact H16
      isplitl [H17]; · iapply ownsU c B.w18; iexact H17
      iapply ownsU c B.w19; iexact H18
    isplitl [H19]; · iapply ownsU c B.w20; iexact H19
    isplitl [H20]
    · iexists _; iexact H20
    isplitl [H21]; · iapply ownsU c B.w22; iexact H21
    isplitl [H22]; · iapply ownsU c B.w23; iexact H22
    isplitl [H23]; · iapply ownsU c B.w24; iexact H23
    iapply ownsU c B.w25; iexact H24

end Cert.Kernel.Hand

end
-- ==== Proof.KBefore19.lean ====
import proofs.«108041_g40587440947829_cont_sun_m_1101_23_alg».proof.Proof.KData
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

theorem fetch19 (t : Fin cfg0.N) : (cfg0.win 19).fetch t = false := (cfg0.win 19).fetch_out rfl t

theorem clip19 : ∀ (t : Fin cfg0.N) (a : Fin (cfg0.win 19).block.rank), (cfg0.win 19).clip (grid0.coords t) a = none := by
  decide +kernel

theorem before19_step (c : Dev nD) (n : ℕ) (h : n + 1 < cfg0.N) (d) :
    (dats m 0 c).before 19 ⟨n + 1, h⟩ d
      = if (cfg0.win 19).flush ⟨n, Nat.lt_of_succ_lt h⟩ then d else (dats m 0 c).left 19 ⟨n, Nat.lt_of_succ_lt h⟩ d :=
  (dats m 0 c).before_of_pos 19 ⟨n + 1, h⟩ (Nat.succ_ne_zero n) (fetch19 _) d

theorem kept19 (c : Dev nD) (t : Fin cfg0.N) (d) : (dats m 0 c).kept 19 t d = after19 m c t := by
  unfold Dat.kept
  rw [Pipeline.fill_of_clip_none 19 _ (clip19 t) d ((dats m 0 c).after 19 t), Window.fill_cut, after_19]

theorem before19_25 (c : Dev nD) (h : 25 < cfg0.N) (d) :
    (dats m 0 c).before 19 ⟨25, h⟩ d = gTile m c (pt 24 (by omega)) := by
  rw [before19_step m c 24 h d, noFlush19_24 ⟨24, Nat.lt_of_succ_lt h⟩ rfl, if_neg Bool.false_ne_true]
  have hl : (dats m 0 c).left 19 ⟨24, Nat.lt_of_succ_lt h⟩ d = (dats m 0 c).kept 19 ⟨24, Nat.lt_of_succ_lt h⟩ d := by
    unfold Dat.left; rw [live19 ⟨24, Nat.lt_of_succ_lt h⟩ (show (24 : ℕ) < 25 by omega)]
  rw [hl, kept19 m c _ d]
  unfold after19
  rw [dif_pos (show (24 : ℕ) < 25 by omega)]

theorem before19_from25 (c : Dev nD) :
    ∀ n, 25 ≤ n → ∀ (h : n < cfg0.N) (d), (dats m 0 c).before 19 ⟨n, h⟩ d = gTile m c (pt 24 (by omega)) := by
  intro n hn
  induction n, hn using Nat.le_induction with
  | base => intro h d; exact before19_25 m c h d
  | succ n hn ih =>
    intro h d
    have h54 : n < 54 := by have h' := h; rw [N55] at h'; omega
    rw [before19_step m c n h d, noFlush19 ⟨n, Nat.lt_of_succ_lt h⟩ hn h54, if_neg Bool.false_ne_true]
    have hl : (dats m 0 c).left 19 ⟨n, Nat.lt_of_succ_lt h⟩ d = (dats m 0 c).before 19 ⟨n, Nat.lt_of_succ_lt h⟩ d := by
      unfold Dat.left; rw [idle19 ⟨n, Nat.lt_of_succ_lt h⟩ hn]
    rw [hl]
    exact ih (Nat.lt_of_succ_lt h) d

theorem before19_kept (c : Dev nD) (t : Fin cfg0.N) (ht : 25 ≤ t.val) (d) :
    (dats m 0 c).before 19 t d = gTile m c (pt 24 (by omega)) :=
  before19_from25 m c t.val ht t.isLt d

end Cert.Kernel.Hand

end
-- ==== Proof.KCaseF.lean ====
import proofs.«108041_g40587440947829_cont_sun_m_1101_23_alg».proof.Proof.KRunF
import proofs.«108041_g40587440947829_cont_sun_m_1101_23_alg».proof.Proof.KHq
import proofs.«108041_g40587440947829_cont_sun_m_1101_23_alg».proof.Proof.KBefore19
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (c : Dev nD) (i : grid0.Coords) (B : Bufs) (h1 : ¬cInit i) (h2 : ¬cPh0 i) (h3 : ¬cN1 i) (h4 : ¬cPh1 i) (h5 : ¬cN2 i) (h6 : cPh2 i) (X : Ins F) (xhq : Vec F S10000x2048 .bf16) (xde : Vec F S1x2048 .f32) (xmt : Vec F S64x2048 .f32) (xmn : Vec F S2048x64 .bf16)

theorem cover_F (y : S400x2.Idx) :
    ∃ pc ∈ (runF c i B h1 h2 h3 h4 h5 h6 X xhq xde xmt xmn).1, y ∈ pc.1.set :=
  View.cover_of_tiledL (runF c i B h1 h2 h3 h4 h5 h6 X xhq xde xmt xmn).1 S400x2.size (by sl_kernel_rfl) y

theorem read_F (f : B.a21.view.ty.Contents (Elt F)) :
    B.a21.view.read (Elt F) (B.a21.view.writes (Elt F) f (runF c i B h1 h2 h3 h4 h5 h6 X xhq xde xmt xmn).1)
      = k0_pay8 (View.readAt (Elt F) B.a22.view (Rect.unit (s := S10000x2048) (k0_off3 i) S400x2048.size (k0_off3_inb i h6)).toLoadRect (B.w22.unread xhq)) xmn X.x17 X.x18 := by
  rw [View.read_writes_eq_canon _ _ _ (cover_F c i B h1 h2 h3 h4 h5 h6 X xhq xde xmt xmn)]
  unfold runF; dsimp only; sl_unfold_words
  rw [View.canon_unit_zero hz2]
  have e25 : View.readAt (Elt F) B.a25.view (Rect.unit ![0, 0] S2048x64.size inb_S2048x64_S2048x64_0_0).toLoadRect (B.w25.unread xmn) = xmn := by
    rw [View.readAt_eq_ld, B.w25.read_unread, View.ld_unit_zero (S := S2048x64) hz2]
  have e18 : View.readAt (Elt F) B.a18.view (Rect.unit ![0, 0] S64x2.size inb_S64x2_S64x2_0_0).toLoadRect (B.w18.unread X.x17) = X.x17 := by
    rw [View.readAt_eq_ld, B.w18.read_unread, View.ld_unit_zero (S := S64x2) hz2]
  have e19 : View.readAt (Elt F) B.a19.view (Rect.unit ![0, 0] S1x2.size inb_S1x2_S1x2_0_0).toLoadRect (B.w19.unread X.x18) = X.x18 := by
    rw [View.readAt_eq_ld, B.w19.read_unread, View.ld_unit_zero (S := S1x2) hz2]
  rw [e25, e18, e19]

theorem g1_F (t : Fin cfg0.N) (ht : 31 ≤ t.val) : ¬cInit (grid0.coords t) := fun h => by have := (hcInit t).mp h; omega
theorem g2_F (t : Fin cfg0.N) (ht : 31 ≤ t.val) : ¬cPh0 (grid0.coords t) := fun h => by have := (hcPh0 t).mp h; omega
theorem g3_F (t : Fin cfg0.N) (ht : 31 ≤ t.val) : ¬cN1 (grid0.coords t) := fun h => by have := (hcN1 t).mp h; omega
theorem g4_F (t : Fin cfg0.N) (ht : 31 ≤ t.val) : ¬cPh1 (grid0.coords t) := fun h => by have := (hcPh1 t).mp h; omega
theorem g5_F (t : Fin cfg0.N) (ht : 31 ≤ t.val) : ¬cN2 (grid0.coords t) := fun h => by have := (hcN2 t).mp h; omega
theorem g6_F (t : Fin cfg0.N) (ht : 31 ≤ t.val) : cPh2 (grid0.coords t) := (hcPh2 t).mpr (by omega)

abbrev runAt_F (c : Dev nD) (t : Fin cfg0.N) (ht : 31 ≤ t.val) (hq : Vec F S10000x2048 .bf16) :=
  runF c (grid0.coords t) (bufs t) (g1_F t ht) (g2_F t ht) (g3_F t ht) (g4_F t ht) (g5_F t ht) (g6_F t ht) (ins m c t) hq (DE m c) (MT2 m c) (MN2 m c)

theorem after20_F (c : Dev nD) (t : Fin cfg0.N) (ht : 30 ≤ t.val) :
    after20 m c t = k0_pay8 (hqS400 m c (t.val - 30) (by have := lt_of_lt_of_eq t.isLt N55; omega)) (MN2 m c) (bHdW m c t) (bHdb m c t) := by
  have hN : t.val < 55 := lt_of_lt_of_eq t.isLt N55
  have e : pt (30 + (t.val - 30)) (by omega) = t := Fin.ext (by show 30 + (t.val - 30) = t.val; omega)
  unfold after20
  rw [dif_pos ht]
  unfold outTile
  rw [e]

theorem out20_F (c : Dev nD) (t : Fin cfg0.N) (ht : 31 ≤ t.val) (hq : Vec F S10000x2048 .bf16) (hok : HqOk m c 25 hq)
    (f : (ms20 t).view.ty.Contents (Elt F)) :
    (ms20 t).view.read (Elt F) ((ms20 t).view.writes (Elt F) f (runAt_F m c t ht hq).1) = after20 m c t := by
  have hN : t.val < 55 := lt_of_lt_of_eq t.isLt N55
  refine (read_F c (grid0.coords t) (bufs t) (g1_F t ht) (g2_F t ht) (g3_F t ht) (g4_F t ht) (g5_F t ht) (g6_F t ht) (ins m c t) hq (DE m c) (MT2 m c) (MN2 m c) f).trans ?_
  rw [hq_read400 m c scHq (Memref.isWhole_whole _) hq hok (t.val - 30) (by omega) _ _ (off3_eq t (by omega))]
  rw [after20_F m c t (by omega)]

theorem leaves19_F (c : Dev nD) (t : Fin cfg0.N) (ht : 31 ≤ t.val) (d) :
    owns (c : Thread nD τ) (ms19 t) fullShare ((dats m 0 c).before 19 t d) ⊢ (dats m 0 c).leavesExact 19 t := by
  have hN : t.val < 55 := lt_of_lt_of_eq t.isLt N55
  by_cases h54 : t.val = 54
  · rw [show (dats m 0 c).leavesExact 19 t = owns (c : Thread nD τ) (ms19 t) fullShare ((dats m 0 c).after 19 t) from by
        unfold Dat.leavesExact; rw [idle19 t (by omega), flush19_last t h54], after_19]
    rw [before19_kept m c t (by omega) d]
    rw [show after19 m c t = gTile m c (pt 24 (by omega)) from by unfold after19; rw [dif_neg (by omega)]]
  · rw [Dat.leavesExact_idle (dats m 0 c) 19 t (idle19 t (by omega)) (noFlush19 t (by omega) (by omega))]
    iintro H
    iexists d
    iexact H

set_option maxHeartbeats 4000000 in
/-- The body obligation in control case F: the invariant before the point and the run's stores give the invariant after it. -/
theorem sound_F (c : Dev nD) (t : Fin cfg0.N) (ht : 31 ≤ t.val) :
    bodyPre m c t ⊢ wp frame (wpE (defs₀ (F := F)) Variants.none c none) Set.univ (bodyAt0 t) (fun _ => bodyPost m c t) := by
  have hN : t.val < 55 := lt_of_lt_of_eq t.isLt N55
  refine sound_of m c t ?_
  unfold bodyAt0
  rw [PhiS_scat2 m c t.val ht, PhiS_scat2 m c (t.val + 1) (by omega)]
  rw [show (dats m 0 c).leavesExact 20 t = owns (c : Thread nD τ) (ms20 t) fullShare ((dats m 0 c).after 20 t) from by
        unfold Dat.leavesExact; rw [live20 t (by omega)], after_20]
  iintro ⟨⟨⟨⟨%hq, Hhq, %hok⟩, Hde, Hmt, Hmn⟩, Hg⟩, Ho, Hin, ⟨%d19, H19⟩, ⟨%d20, H20⟩⟩
  iapply ((runAt_F m c t ht hq).2 _ Set.univ _)
  isplitl [Hin]; · iexact Hin
  isplitl [H19]; · iexact H19
  isplitl [H20]; · iexists _; iexact H20
  isplitl [Hhq]; · iexact Hhq
  isplitl [Hde]; · iexact Hde
  isplitl [Hmt]; · iexact Hmt
  isplitl [Hmn]; · iexact Hmn
  iintro ⟨Hin, H19, ⟨%e20, H20⟩, Hhq, Hde, Hmt, Hmn⟩
  isplitl [Hhq Hde Hmt Hmn Hg]
  · isplitl [Hhq Hde Hmt Hmn]
    · isplitl [Hhq]
      · iexists hq
        isplitl [Hhq]; · iexact Hhq
        ipureintro; exact hok
      isplitl [Hde]; · iexact Hde
      isplitl [Hmt]; · iexact Hmt
      iexact Hmn
    iexact Hg
  isplitl [Ho]; · iexact Ho
  isplitl [Hin]; · iexact Hin
  isplitl [H19]; · iapply (leaves19_F m c t ht d19); iexact H19
  unfold owns; iexists _; isplitr
  swap; · iexact H20
  ipureintro; exact out20_F m c t ht hq hok _

end Cert.Kernel.Hand

end
-- ==== Proof.KBody.lean ====
import proofs.«108041_g40587440947829_cont_sun_m_1101_23_alg».proof.Proof.KCaseA
import proofs.«108041_g40587440947829_cont_sun_m_1101_23_alg».proof.Proof.KCaseB
import proofs.«108041_g40587440947829_cont_sun_m_1101_23_alg».proof.Proof.KCaseC
import proofs.«108041_g40587440947829_cont_sun_m_1101_23_alg».proof.Proof.KCaseD
import proofs.«108041_g40587440947829_cont_sun_m_1101_23_alg».proof.Proof.KCaseE
import proofs.«108041_g40587440947829_cont_sun_m_1101_23_alg».proof.Proof.KCaseF

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every grid point falls in one of the six control cases. -/
theorem sound_body (c : Dev nD) (t : Fin cfg0.N) :
    bodyPre m c t ⊢ wp frame (wpE (defs₀ (F := F)) Variants.none c none) Set.univ (bodyAt0 t) (fun _ => bodyPost m c t) := by
  have hN : t.val < 55 := lt_of_lt_of_eq t.isLt N55
  by_cases h0 : t.val = 0
  · exact sound_A m c t h0
  by_cases h24 : t.val ≤ 24
  · exact sound_B m c t ⟨by omega, h24⟩
  by_cases e25 : t.val = 25
  · exact sound_C m c t e25
  by_cases h29 : t.val ≤ 29
  · exact sound_D m c t ⟨by omega, h29⟩
  by_cases e30 : t.val = 30
  · exact sound_E m c t e30
  · exact sound_F m c t (by omega)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 from rfl, PhiS_zero]
  try exact Idealize.SL.BI.Entails.refl _

theorem hout (c : Dev nD) : (dats m 0 c).Φ (Fin.last cfg0.N) ⊢ Pipeline.ΦA spec0 c := by
  have e : (dats m 0 c).Φ (Fin.last cfg0.N) = PhiS m c 55 := by
    dsimp only [dats]; rw [Fin.val_last, N55]
  rw [e, PhiS_scat2 m c 55 (by omega), PhiA_eq]
  iintro ⟨⟨⟨%hq, H0, -⟩, H1, H2, H3⟩, Hg⟩
  isplitl [H0 H1 H2 H3]
  · isplitl [H0]; · iexists _; iexact H0
    isplitl [H1]; · iexists _; iexact H1
    isplitl [H2]; · iexists _; iexact H2
    iexists _; iexact H3
  iexact Hg

set_option backward.isDefEq.respectTransparency.types false in
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

end Cert.Kernel.Hand

end
-- ==== Proof.KISched.lean ====
import proofs.«108041_g40587440947829_cont_sun_m_1101_23_alg».proof.Proof.Gen.KernelIdeal.Frame
import proofs.«108041_g40587440947829_cont_sun_m_1101_23_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cInit (i : grid0.Coords) : Prop := (Scalar.cmpi .ne (Scalar.extui (Scalar.cmpi .eq (BitVec.ofNat 32 (i 0).val) 0#32)) 0#32) = 1#1

abbrev cPh0 (i : grid0.Coords) : Prop := k0_cond2 i = 1#1

abbrev cN1 (i : grid0.Coords) : Prop := (Scalar.cmpi .ne (Scalar.extui (Scalar.cmpi .eq (BitVec.ofNat 32 (i 0).val) 25#32)) 0#32) = 1#1

abbrev cPh1 (i : grid0.Coords) : Prop := k0_cond4 i = 1#1

abbrev cN2 (i : grid0.Coords) : Prop := (Scalar.cmpi .ne (Scalar.extui (Scalar.cmpi .eq (BitVec.ofNat 32 (i 0).val) 30#32)) 0#32) = 1#1

abbrev cPh2 (i : grid0.Coords) : Prop := k0_cond6 i = 1#1

theorem hcInit : ∀ t : Fin cfg0.N, cInit (grid0.coords t) ↔ t.val = 0 :=
  (by decide +kernel : ∀ t : Fin grid0.N, cInit (grid0.coords t) ↔ t.val = 0)
theorem hcPh0 : ∀ t : Fin cfg0.N, cPh0 (grid0.coords t) ↔ t.val < 25 :=
  (by decide +kernel : ∀ t : Fin grid0.N, cPh0 (grid0.coords t) ↔ t.val < 25)
theorem hcN1 : ∀ t : Fin cfg0.N, cN1 (grid0.coords t) ↔ t.val = 25 :=
  (by decide +kernel : ∀ t : Fin grid0.N, cN1 (grid0.coords t) ↔ t.val = 25)
theorem hcPh1 : ∀ t : Fin cfg0.N, cPh1 (grid0.coords t) ↔ (25 ≤ t.val ∧ t.val < 30) :=
  (by decide +kernel : ∀ t : Fin grid0.N, cPh1 (grid0.coords t) ↔ (25 ≤ t.val ∧ t.val < 30))
theorem hcN2 : ∀ t : Fin cfg0.N, cN2 (grid0.coords t) ↔ t.val = 30 :=
  (by decide +kernel : ∀ t : Fin grid0.N, cN2 (grid0.coords t) ↔ t.val = 30)
theorem hcPh2 : ∀ t : Fin cfg0.N, cPh2 (grid0.coords t) ↔ 30 ≤ t.val :=
  (by decide +kernel : ∀ t : Fin grid0.N, cPh2 (grid0.coords t) ↔ 30 ≤ t.val)

theorem off1_eq : ∀ t : Fin cfg0.N, k0_off1 (grid0.coords t) = ![400 * t.val, 0] :=
  (by decide +kernel : ∀ t : Fin grid0.N, k0_off1 (grid0.coords t) = ![400 * t.val, 0])
theorem off2_eq : ∀ t : Fin cfg0.N, 25 ≤ t.val → t.val < 30 → k0_off2 (grid0.coords t) = ![2000 * (t.val - 25), 0] :=
  (by decide +kernel : ∀ t : Fin grid0.N, 25 ≤ t.val → t.val < 30 → k0_off2 (grid0.coords t) = ![2000 * (t.val - 25), 0])
theorem off3_eq : ∀ t : Fin cfg0.N, 30 ≤ t.val → k0_off3 (grid0.coords t) = ![400 * (t.val - 30), 0] :=
  (by decide +kernel : ∀ t : Fin grid0.N, 30 ≤ t.val → k0_off3 (grid0.coords t) = ![400 * (t.val - 30), 0])

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
theorem live9 : ∀ t : Fin cfg0.N, cfg0.idle 9 (grid0.coords t) = false := by decide +kernel
theorem live10 : ∀ t : Fin cfg0.N, cfg0.idle 10 (grid0.coords t) = false := by decide +kernel
theorem live11 : ∀ t : Fin cfg0.N, cfg0.idle 11 (grid0.coords t) = false := by decide +kernel
theorem live12 : ∀ t : Fin cfg0.N, cfg0.idle 12 (grid0.coords t) = false := by decide +kernel
theorem live13 : ∀ t : Fin cfg0.N, cfg0.idle 13 (grid0.coords t) = false := by decide +kernel
theorem live14 : ∀ t : Fin cfg0.N, cfg0.idle 14 (grid0.coords t) = false := by decide +kernel
theorem live15 : ∀ t : Fin cfg0.N, cfg0.idle 15 (grid0.coords t) = false := by decide +kernel
theorem live16 : ∀ t : Fin cfg0.N, cfg0.idle 16 (grid0.coords t) = false := by decide +kernel
theorem live17 : ∀ t : Fin cfg0.N, cfg0.idle 17 (grid0.coords t) = false := by decide +kernel
theorem live18 : ∀ t : Fin cfg0.N, cfg0.idle 18 (grid0.coords t) = false := by decide +kernel

theorem live19 : ∀ t : Fin cfg0.N, t.val < 25 → cfg0.idle 19 (grid0.coords t) = false := by decide +kernel
theorem idle19 : ∀ t : Fin cfg0.N, 25 ≤ t.val → cfg0.idle 19 (grid0.coords t) = true := by decide +kernel

theorem noFlush19 : ∀ t : Fin cfg0.N, 25 ≤ t.val → t.val < 54 → (cfg0.win 19).flush t = false := by decide +kernel
theorem flush19_last : ∀ t : Fin cfg0.N, t.val = 54 → (cfg0.win 19).flush t = true := by decide +kernel

theorem noFlush19_24 : ∀ t : Fin cfg0.N, t.val = 24 → (cfg0.win 19).flush t = false := by decide +kernel

theorem idle20 : ∀ t : Fin cfg0.N, t.val < 30 → cfg0.idle 20 (grid0.coords t) = true := by decide +kernel
theorem noFlush20 : ∀ t : Fin cfg0.N, t.val < 30 → (cfg0.win 20).flush t = false := by decide +kernel
theorem live20 : ∀ t : Fin cfg0.N, 30 ≤ t.val → cfg0.idle 20 (grid0.coords t) = false := by decide +kernel

abbrev ms0 (t : Fin cfg0.N) : Memref sig .tc .vmem S400x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S400x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x1 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x32 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x32 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S16x32 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x32 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S64x64 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x64 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S64x32 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x32 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S32x64 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S1x64 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S64x64 .f32 := win0_15.stage (cfg0.slots t 15)
abbrev hs15 (t : Fin cfg0.N) : (ms15 t).IsWhole := hstage0_15 ((cfg0.slots t 15).cast nbuf0_15)
abbrev ms16 (t : Fin cfg0.N) : Memref sig .tc .vmem S1x64 .f32 := win0_16.stage (cfg0.slots t 16)
abbrev hs16 (t : Fin cfg0.N) : (ms16 t).IsWhole := hstage0_16 ((cfg0.slots t 16).cast nbuf0_16)
abbrev ms17 (t : Fin cfg0.N) : Memref sig .tc .vmem S64x2 .f32 := win0_17.stage (cfg0.slots t 17)
abbrev hs17 (t : Fin cfg0.N) : (ms17 t).IsWhole := hstage0_17 ((cfg0.slots t 17).cast nbuf0_17)
abbrev ms18 (t : Fin cfg0.N) : Memref sig .tc .vmem S1x2 .f32 := win0_18.stage (cfg0.slots t 18)
abbrev hs18 (t : Fin cfg0.N) : (ms18 t).IsWhole := hstage0_18 ((cfg0.slots t 18).cast nbuf0_18)
abbrev ms19 (t : Fin cfg0.N) : Memref sig .tc .vmem S400x32 .f32 := win0_19.stage (cfg0.slots t 19)
abbrev hs19 (t : Fin cfg0.N) : (ms19 t).IsWhole := hstage0_19 ((cfg0.slots t 19).cast nbuf0_19)
abbrev ms20 (t : Fin cfg0.N) : Memref sig .tc .vmem S400x2 .f32 := win0_20.stage (cfg0.slots t 20)
abbrev hs20 (t : Fin cfg0.N) : (ms20 t).IsWhole := hstage0_20 ((cfg0.slots t 20).cast nbuf0_20)

abbrev scHq : Memref sig .tc .vmem S10000x2048 .bf16 := Memref.whole cc0_scratch0
abbrev scDe : Memref sig .tc .vmem S1x2048 .f32 := Memref.whole cc0_scratch1
abbrev scMt : Memref sig .tc .vmem S64x2048 .f32 := Memref.whole cc0_scratch2
abbrev scMn : Memref sig .tc .vmem S2048x64 .bf16 := Memref.whole cc0_scratch3

theorem PhiA_eq (c : Dev nD) :
    (Pipeline.ΦA spec0 c : sProp 𝕄)
      = iprop(iprop((∃ d, owns (c : Thread nD τ) scHq fullShare d) ∗ (∃ d, owns (c : Thread nD τ) scDe fullShare d)
          ∗ (∃ d, owns (c : Thread nD τ) scMt fullShare d) ∗ (∃ d, owns (c : Thread nD τ) scMn fullShare d)) ∗ (∃ r, prngReg c r)) := by
  unfold Pipeline.ΦA; rw [scopedRest0_eq]; simp only [scHq, scDe, scMt, scMn, owns_whole]; try rfl

/-- The body's twenty-five buffer arguments, each a whole buffer. -/
structure Bufs where
  a1 : Memref sig .tc .vmem S400x2048 .f32
  w1 : a1.IsWhole
  a2 : Memref sig .tc .vmem S400x128 .f32
  w2 : a2.IsWhole
  a3 : Memref sig .tc .vmem S400x16 .f32
  w3 : a3.IsWhole
  a4 : Memref sig .tc .vmem S2048x1 .bf16
  w4 : a4.IsWhole
  a5 : Memref sig .tc .vmem S1x2048 .f32
  w5 : a5.IsWhole
  a6 : Memref sig .tc .vmem S128x32 .f32
  w6 : a6.IsWhole
  a7 : Memref sig .tc .vmem S1x32 .f32
  w7 : a7.IsWhole
  a8 : Memref sig .tc .vmem S16x32 .f32
  w8 : a8.IsWhole
  a9 : Memref sig .tc .vmem S1x32 .f32
  w9 : a9.IsWhole
  a10 : Memref sig .tc .vmem S64x64 .f32
  w10 : a10.IsWhole
  a11 : Memref sig .tc .vmem S1x64 .f32
  w11 : a11.IsWhole
  a12 : Memref sig .tc .vmem S64x32 .f32
  w12 : a12.IsWhole
  a13 : Memref sig .tc .vmem S1x32 .f32
  w13 : a13.IsWhole
  a14 : Memref sig .tc .vmem S32x64 .f32
  w14 : a14.IsWhole
  a15 : Memref sig .tc .vmem S1x64 .f32
  w15 : a15.IsWhole
  a16 : Memref sig .tc .vmem S64x64 .f32
  w16 : a16.IsWhole
  a17 : Memref sig .tc .vmem S1x64 .f32
  w17 : a17.IsWhole
  a18 : Memref sig .tc .vmem S64x2 .f32
  w18 : a18.IsWhole
  a19 : Memref sig .tc .vmem S1x2 .f32
  w19 : a19.IsWhole
  a20 : Memref sig .tc .vmem S400x32 .f32
  w20 : a20.IsWhole
  a21 : Memref sig .tc .vmem S400x2 .f32
  w21 : a21.IsWhole
  a22 : Memref sig .tc .vmem S10000x2048 .bf16
  w22 : a22.IsWhole
  a23 : Memref sig .tc .vmem S1x2048 .f32
  w23 : a23.IsWhole
  a24 : Memref sig .tc .vmem S64x2048 .f32
  w24 : a24.IsWhole
  a25 : Memref sig .tc .vmem S2048x64 .bf16
  w25 : a25.IsWhole

/-- The contents of the nineteen buffers the body only reads. -/
structure Ins (F : FTy → Type) where
  x0 : Vec F S400x2048 .f32
  x1 : Vec F S400x128 .f32
  x2 : Vec F S400x16 .f32
  x3 : Vec F S2048x1 .bf16
  x4 : Vec F S1x2048 .f32
  x5 : Vec F S128x32 .f32
  x6 : Vec F S1x32 .f32
  x7 : Vec F S16x32 .f32
  x8 : Vec F S1x32 .f32
  x9 : Vec F S64x64 .f32
  x10 : Vec F S1x64 .f32
  x11 : Vec F S64x32 .f32
  x12 : Vec F S1x32 .f32
  x13 : Vec F S32x64 .f32
  x14 : Vec F S1x64 .f32
  x15 : Vec F S64x64 .f32
  x16 : Vec F S1x64 .f32
  x17 : Vec F S64x2 .f32
  x18 : Vec F S1x2 .f32

/-- The body's buffers at grid point `t`. -/
abbrev bufs (t : Fin cfg0.N) : Bufs :=
  ⟨ms0 t, hs0 t, ms1 t, hs1 t, ms2 t, hs2 t, ms3 t, hs3 t, ms4 t, hs4 t, ms5 t, hs5 t, ms6 t, hs6 t, ms7 t, hs7 t, ms8 t, hs8 t, ms9 t, hs9 t, ms10 t, hs10 t, ms11 t, hs11 t, ms12 t, hs12 t, ms13 t, hs13 t, ms14 t, hs14 t, ms15 t, hs15 t, ms16 t, hs16 t, ms17 t, hs17 t, ms18 t, hs18 t, ms19 t, hs19 t, ms20 t, hs20 t, scHq, Memref.isWhole_whole _, scDe, Memref.isWhole_whole _, scMt, Memref.isWhole_whole _, scMn, Memref.isWhole_whole _⟩

/-- The kernel body over a bundle of buffers. -/
abbrev body (i : grid0.Coords) (B : Bufs) : Prog (TpuEff nD τ sig (Elt F) Λ₀ .tc) PUnit :=
  cc0__kernel i B.a1 B.w1 B.a2 B.w2 B.a3 B.w3 B.a4 B.w4 B.a5 B.w5 B.a6 B.w6 B.a7 B.w7 B.a8 B.w8 B.a9 B.w9 B.a10 B.w10 B.a11 B.w11 B.a12 B.w12 B.a13 B.w13 B.a14 B.w14 B.a15 B.w15 B.a16 B.w16 B.a17 B.w17 B.a18 B.w18 B.a19 B.w19 B.a20 B.w20 B.a21 B.w21 B.a22 B.w22 B.a23 B.w23 B.a24 B.w24 B.a25 B.w25

/-- Every read-only buffer owned whole, at its contents. -/
def insOwned (c : Dev nD) (B : Bufs) (X : Ins F) : sProp 𝕄 :=
  iprop(owns (c : Thread nD τ) B.a1 fullShare X.x0 ∗ owns (c : Thread nD τ) B.a2 fullShare X.x1 ∗ owns (c : Thread nD τ) B.a3 fullShare X.x2 ∗ owns (c : Thread nD τ) B.a4 fullShare X.x3 ∗ owns (c : Thread nD τ) B.a5 fullShare X.x4 ∗ owns (c : Thread nD τ) B.a6 fullShare X.x5 ∗ owns (c : Thread nD τ) B.a7 fullShare X.x6 ∗ owns (c : Thread nD τ) B.a8 fullShare X.x7 ∗ owns (c : Thread nD τ) B.a9 fullShare X.x8 ∗ owns (c : Thread nD τ) B.a10 fullShare X.x9 ∗ owns (c : Thread nD τ) B.a11 fullShare X.x10 ∗ owns (c : Thread nD τ) B.a12 fullShare X.x11 ∗ owns (c : Thread nD τ) B.a13 fullShare X.x12 ∗ owns (c : Thread nD τ) B.a14 fullShare X.x13 ∗ owns (c : Thread nD τ) B.a15 fullShare X.x14 ∗ owns (c : Thread nD τ) B.a16 fullShare X.x15 ∗ owns (c : Thread nD τ) B.a17 fullShare X.x16 ∗ owns (c : Thread nD τ) B.a18 fullShare X.x17 ∗ owns (c : Thread nD τ) B.a19 fullShare X.x18)

theorem hz2 : (![0, 0] : Fin 2 → ℕ) = fun _ => 0 := funext fun a => by fin_cases a <;> rfl

/-- A whole buffer holding the raw contents that read `x` is owned at `x`. -/
theorem ownsU (c : Dev nD) {S : Shape} {e : EltTy} {a : Memref sig .tc .vmem S e} (w : a.IsWhole) (x : Vec F S e) :
    (a.view.loc (c : Thread nD τ) ↦[a.view.set]{fullShare} w.unread x : sProp 𝕄)
      ⊢ iprop(∃ f, ⌜a.view.read (Elt F) f = x⌝ ∗ (a.view.loc (c : Thread nD τ) ↦[a.view.set]{fullShare} f)) := by
  iintro H; iexists _; isplitr; · ipureintro; exact w.read_unread _
  iexact H

end Cert.KernelIdeal.Hand

end
-- ==== Proof.KIRunA.lean ====
import proofs.«108041_g40587440947829_cont_sun_m_1101_23_alg».proof.Proof.KISched

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Control case A: the body runs to its end; the lists are the stores it makes to each written buffer, newest first. -/
noncomputable def runA (c : Dev nD) (i : grid0.Coords) (B : Bufs)
    (h1 : cInit i) (h2 : cPh0 i) (h3 : ¬cN1 i) (h4 : ¬cPh1 i) (h5 : ¬cN2 i) (h6 : ¬cPh2 i)
    (X : Ins F) (xhq : Vec F S10000x2048 .bf16) :
    Σ' (L20 : List (View.Piece (Elt F) S400x32 .f32)) (L22 : List (View.Piece (Elt F) S10000x2048 .bf16)) (L23 : List (View.Piece (Elt F) S1x2048 .f32)), { L24 : List (View.Piece (Elt F) S64x2048 .f32) //
      ∀ (xi20 : Vec F S400x2 .f32) (xmn : Vec F S2048x64 .bf16) (E : Set ℕ) (K : PUnit → sProp 𝕄),
        iprop(insOwned c B X
            ∗ (∃ d, owns (c : Thread nD τ) B.a20 fullShare d) ∗ owns (c : Thread nD τ) B.a21 fullShare xi20
            ∗ owns (c : Thread nD τ) B.a22 fullShare xhq ∗ (∃ d, owns (c : Thread nD τ) B.a23 fullShare d) ∗ (∃ d, owns (c : Thread nD τ) B.a24 fullShare d) ∗ owns (c : Thread nD τ) B.a25 fullShare xmn
            ∗ (iprop(insOwned c B X
              ∗ (∃ f, B.a20.view.loc (c : Thread nD τ) ↦[B.a20.view.set]{fullShare} B.a20.view.writes (Elt F) f L20) ∗ owns (c : Thread nD τ) B.a21 fullShare xi20
              ∗ (B.a22.view.loc (c : Thread nD τ) ↦[B.a22.view.set]{fullShare} B.a22.view.writes (Elt F) (B.w22.unread xhq) L22)
              ∗ (∃ f, B.a23.view.loc (c : Thread nD τ) ↦[B.a23.view.set]{fullShare} B.a23.view.writes (Elt F) f L23)
              ∗ (∃ f, B.a24.view.loc (c : Thread nD τ) ↦[B.a24.view.set]{fullShare} B.a24.view.writes (Elt F) f L24)
              ∗ owns (c : Thread nD τ) B.a25 fullShare xmn) -∗ K ⟨⟩))
          ⊢ wp frame (wpE (defs₀ (F := F)) Variants.none c none) E (body i B) K } := by
  refine ⟨?_, ?_, ?_, ?_, fun xi20 xmn E K => ?run⟩
  case run =>
    simp only [body, cc0__kernel_eq_skeleton]; unfold cc0__kernel_skel
    unfold insOwned owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, ⟨%d19, %f19, -, H19⟩, ⟨%f20, %hf20, H20⟩, ⟨%f21, %hf21, H21⟩, ⟨%d22, %f22, -, H22⟩, ⟨%d23, %f23, -, H23⟩, ⟨%f24, %hf24, H24⟩, Hk⟩
    obtain rfl := B.w1.eq_unread hf0; obtain rfl := B.w2.eq_unread hf1; obtain rfl := B.w3.eq_unread hf2; obtain rfl := B.w4.eq_unread hf3; obtain rfl := B.w5.eq_unread hf4; obtain rfl := B.w6.eq_unread hf5; obtain rfl := B.w7.eq_unread hf6; obtain rfl := B.w8.eq_unread hf7; obtain rfl := B.w9.eq_unread hf8; obtain rfl := B.w10.eq_unread hf9; obtain rfl := B.w11.eq_unread hf10; obtain rfl := B.w12.eq_unread hf11; obtain rfl := B.w13.eq_unread hf12; obtain rfl := B.w14.eq_unread hf13; obtain rfl := B.w15.eq_unread hf14; obtain rfl := B.w16.eq_unread hf15; obtain rfl := B.w17.eq_unread hf16; obtain rfl := B.w18.eq_unread hf17; obtain rfl := B.w19.eq_unread hf18
    obtain rfl := B.w21.eq_unread hf20; obtain rfl := B.w22.eq_unread hf21; obtain rfl := B.w25.eq_unread hf24
    sl_exec (disch := first | exact h1 | exact h2 | exact h3 | exact h4 | exact h5 | exact h6)
    sl_step
    iapply Hk
    isplitl [H0 H1 H2 H3 H4 H5 H6 H7 H8 H9 H10 H11 H12 H13 H14 H15 H16 H17 H18]
    ·
      isplitl [H0]; · iapply ownsU c B.w1; iexact H0
      isplitl [H1]; · iapply ownsU c B.w2; iexact H1
      isplitl [H2]; · iapply ownsU c B.w3; iexact H2
      isplitl [H3]; · iapply ownsU c B.w4; iexact H3
      isplitl [H4]; · iapply ownsU c B.w5; iexact H4
      isplitl [H5]; · iapply ownsU c B.w6; iexact H5
      isplitl [H6]; · iapply ownsU c B.w7; iexact H6
      isplitl [H7]; · iapply ownsU c B.w8; iexact H7
      isplitl [H8]; · iapply ownsU c B.w9; iexact H8
      isplitl [H9]; · iapply ownsU c B.w10; iexact H9
      isplitl [H10]; · iapply ownsU c B.w11; iexact H10
      isplitl [H11]; · iapply ownsU c B.w12; iexact H11
      isplitl [H12]; · iapply ownsU c B.w13; iexact H12
      isplitl [H13]; · iapply ownsU c B.w14; iexact H13
      isplitl [H14]; · iapply ownsU c B.w15; iexact H14
      isplitl [H15]; · iapply ownsU c B.w16; iexact H15
      isplitl [H16]; · iapply ownsU c B.w17; iexact H16
      isplitl [H17]; · iapply ownsU c B.w18; iexact H17
      iapply ownsU c B.w19; iexact H18
    isplitl [H19]
    · iexists _; iexact H19
    isplitl [H20]; · iapply ownsU c B.w21; iexact H20
    isplitl [H21]
    · iexact H21
    isplitl [H22]
    · iexists _; iexact H22
    isplitl [H23]
    · iexists _; iexact H23
    iapply ownsU c B.w25; iexact H24

end Cert.KernelIdeal.Hand

end
-- ==== Proof.KIState.lean ====
import proofs.«108041_g40587440947829_cont_sun_m_1101_23_alg».proof.Proof.KISched
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ)

theorem N55 : cfg0.N = 55 := N_0

abbrev pt (n : ℕ) (h : n < 55) : Fin cfg0.N := ⟨n, lt_of_lt_of_eq h N55.symm⟩

abbrev bH (c : Dev nD) (t : Fin cfg0.N) : Vec F S400x2048 .f32 := iblk m c 0 t
abbrev bX (c : Dev nD) (t : Fin cfg0.N) : Vec F S400x128 .f32 := iblk m c 1 t
abbrev bZ (c : Dev nD) (t : Fin cfg0.N) : Vec F S400x16 .f32 := iblk m c 2 t
abbrev bWc (c : Dev nD) (t : Fin cfg0.N) : Vec F S2048x1 .bf16 := iblk m c 3 t
abbrev bWr (c : Dev nD) (t : Fin cfg0.N) : Vec F S1x2048 .f32 := iblk m c 4 t
abbrev bPsiW (c : Dev nD) (t : Fin cfg0.N) : Vec F S128x32 .f32 := iblk m c 5 t
abbrev bPsib (c : Dev nD) (t : Fin cfg0.N) : Vec F S1x32 .f32 := iblk m c 6 t
abbrev bPhiW (c : Dev nD) (t : Fin cfg0.N) : Vec F S16x32 .f32 := iblk m c 7 t
abbrev bPhib (c : Dev nD) (t : Fin cfg0.N) : Vec F S1x32 .f32 := iblk m c 8 t
abbrev bG1W (c : Dev nD) (t : Fin cfg0.N) : Vec F S64x64 .f32 := iblk m c 9 t
abbrev bG1b (c : Dev nD) (t : Fin cfg0.N) : Vec F S1x64 .f32 := iblk m c 10 t
abbrev bG2W (c : Dev nD) (t : Fin cfg0.N) : Vec F S64x32 .f32 := iblk m c 11 t
abbrev bG2b (c : Dev nD) (t : Fin cfg0.N) : Vec F S1x32 .f32 := iblk m c 12 t
abbrev bC1W (c : Dev nD) (t : Fin cfg0.N) : Vec F S32x64 .f32 := iblk m c 13 t
abbrev bC1b (c : Dev nD) (t : Fin cfg0.N) : Vec F S1x64 .f32 := iblk m c 14 t
abbrev bC2W (c : Dev nD) (t : Fin cfg0.N) : Vec F S64x64 .f32 := iblk m c 15 t
abbrev bC2b (c : Dev nD) (t : Fin cfg0.N) : Vec F S1x64 .f32 := iblk m c 16 t
abbrev bHdW (c : Dev nD) (t : Fin cfg0.N) : Vec F S64x2 .f32 := iblk m c 17 t
abbrev bHdb (c : Dev nD) (t : Fin cfg0.N) : Vec F S1x2 .f32 := iblk m c 18 t

abbrev hsTile (c : Dev nD) (t : Fin cfg0.N) : Vec F S400x2048 .bf16 := k0_pay11 (bH m c t) (bWc m c t)

abbrev hqTile (c : Dev nD) (t : Fin cfg0.N) : Vec F S400x2048 .bf16 := k0_pay12 (bH m c t) (bWc m c t)

abbrev z400x32 : FVec F S400x32 .f32 := constant S400x32 .f32 0x00000000#32
abbrev z64x2048 : FVec F S64x2048 .f32 := constant S64x2048 .f32 0x00000000#32

abbrev x1Tile (c : Dev nD) (t : Fin cfg0.N) : Vec F S400x32 .f32 := k0_pay13 (bX m c t) (bPsiW m c t) (bPsib m c t)

abbrev gTile (c : Dev nD) (t : Fin cfg0.N) : Vec F S400x32 .f32 :=
  k0_pay15 (x1Tile m c t) (bZ m c t) (bPhiW m c t) z400x32 (bPhib m c t) (bG1W m c t) (bG1b m c t) (bG2W m c t) (bG2b m c t)

abbrev xcTile (c : Dev nD) (t : Fin cfg0.N) : Vec F S400x64 .bf16 :=
  k0_pay16 (x1Tile m c t) (bZ m c t) (bPhiW m c t) z400x32 (bPhib m c t) (bG1W m c t) (bG1b m c t) (bG2W m c t) (bG2b m c t) (bC1W m c t) (bC1b m c t)

def deAt (c : Dev nD) : (n : ℕ) → n < 55 → Vec F S1x2048 .f32
  | 0, h => k0_pay10 (bH m c (pt 0 h)) (k0_pay1 (F := F))
  | n + 1, h => k0_pay10 (bH m c (pt (n + 1) h)) (deAt c n (Nat.lt_of_succ_lt h))

def mt0At (c : Dev nD) : (n : ℕ) → n < 55 → Vec F S64x2048 .f32
  | 0, h => k0_pay3 (hsTile m c (pt 0 h)) (xcTile m c (pt 0 h)) (k0_pay2 (F := F)) z64x2048
  | n + 1, h => k0_pay3 (hsTile m c (pt (n + 1) h)) (xcTile m c (pt (n + 1) h)) (mt0At c n (Nat.lt_of_succ_lt h)) z64x2048

abbrev DE (c : Dev nD) : Vec F S1x2048 .f32 := deAt m c 24 (by omega)

abbrev MT1 (c : Dev nD) : Vec F S64x2048 .f32 := mt0At m c 24 (by omega)

abbrev MN1 (c : Dev nD) : Vec F S2048x64 .bf16 := k0_pay4 (bWr m c (pt 25 (by omega))) (DE m c) (MT1 m c)

def hqRow (c : Dev nD) (r : Fin 10000) (j : Fin 2048) : Elt F .bf16 :=
  hqTile m c (pt (r.val / 400) (by have := r.isLt; omega)) (ValueIdx.ix2 (⟨r.val % 400, Nat.mod_lt _ (by omega)⟩ : Fin 400) j)

def hqS2000 (c : Dev nD) (i : ℕ) (hi : i < 5) : Vec F S2000x2048 .bf16 :=
  fun y => hqRow m c ⟨2000 * i + (y 0).val, by have h1 : (y 0).val < 2000 := (y 0).isLt; omega⟩ ⟨(y 1).val, (y 1).isLt⟩

abbrev hqS400 (c : Dev nD) (k : ℕ) (hk : k < 25) : Vec F S400x2048 .bf16 := hqTile m c (pt k (by omega))

def HqOk (c : Dev nD) (n : ℕ) (hq : Vec F S10000x2048 .bf16) : Prop :=
  ∀ (r : Fin 10000) (j : Fin 2048), r.val < 400 * n → hq (ValueIdx.ix2 r j) = hqRow m c r j

def mt1At (c : Dev nD) : (i : ℕ) → i < 5 → Vec F S64x2048 .f32
  | 0, h => k0_pay6 (hqS2000 m c 0 h) (MN1 m c) (bC2W m c (pt 25 (by omega))) (bC2b m c (pt 25 (by omega))) (k0_pay5 (F := F))
  | i + 1, h => k0_pay6 (hqS2000 m c (i + 1) h) (MN1 m c) (bC2W m c (pt (26 + i) (by omega))) (bC2b m c (pt (26 + i) (by omega))) (mt1At c i (Nat.lt_of_succ_lt h))

abbrev MT2 (c : Dev nD) : Vec F S64x2048 .f32 := mt1At m c 4 (by omega)

abbrev MN2 (c : Dev nD) : Vec F S2048x64 .bf16 := k0_pay7 (bWr m c (pt 30 (by omega))) (DE m c) (MT2 m c)

abbrev outTile (c : Dev nD) (k : ℕ) (hk : k < 25) : Vec F S400x2 .f32 :=
  k0_pay8 (hqS400 m c k hk) (MN2 m c) (bHdW m c (pt (30 + k) (by omega))) (bHdb m c (pt (30 + k) (by omega)))

def after19 (c : Dev nD) (t : Fin cfg0.N) : Vec F S400x32 .f32 :=
  if h : t.val < 25 then gTile m c t else gTile m c (pt 24 (by omega))

def after20 (c : Dev nD) (t : Fin cfg0.N) : Vec F S400x2 .f32 :=
  if h : 30 ≤ t.val then outTile m c (t.val - 30) (by have h1 := t.isLt; have h2 : cfg0.N = 55 := N55; omega) else outTile m c 0 (by omega)

/-- The contents of the read-only buffers at grid point `t`. -/
abbrev ins (c : Dev nD) (t : Fin cfg0.N) : Ins F :=
  ⟨bH m c t, bX m c t, bZ m c t, bWc m c t, bWr m c t, bPsiW m c t, bPsib m c t, bPhiW m c t, bPhib m c t, bG1W m c t, bG1b m c t, bG2W m c t, bG2b m c t, bC1W m c t, bC1b m c t, bC2W m c t, bC2b m c t, bHdW m c t, bHdb m c t⟩

end Cert.KernelIdeal.Hand

end
-- ==== Proof.KIData.lean ====
import proofs.«108041_g40587440947829_cont_sun_m_1101_23_alg».proof.Proof.KIState

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev hqHeld (c : Dev nD) (n : ℕ) : sProp 𝕄 :=
  iprop(∃ hq : Vec F S10000x2048 .bf16, owns (c : Thread nD τ) scHq fullShare hq ∗ ⌜HqOk m c n hq⌝)

abbrev PhiStream (c : Dev nD) (n : ℕ) (h1 : 1 ≤ n) (h25 : n ≤ 25) : sProp 𝕄 :=
  iprop(iprop(hqHeld m c n ∗ owns (c : Thread nD τ) scDe fullShare (deAt m c (n - 1) (by omega))
      ∗ owns (c : Thread nD τ) scMt fullShare (mt0At m c (n - 1) (by omega)) ∗ (∃ d, owns (c : Thread nD τ) scMn fullShare d))
    ∗ (∃ r, prngReg c r))

abbrev PhiScat1 (c : Dev nD) (n : ℕ) (h26 : 26 ≤ n) (h30 : n ≤ 30) : sProp 𝕄 :=
  iprop(iprop(hqHeld m c 25 ∗ owns (c : Thread nD τ) scDe fullShare (DE m c)
      ∗ owns (c : Thread nD τ) scMt fullShare (mt1At m c (n - 26) (by omega)) ∗ owns (c : Thread nD τ) scMn fullShare (MN1 m c))
    ∗ (∃ r, prngReg c r))

abbrev PhiScat2 (c : Dev nD) : sProp 𝕄 :=
  iprop(iprop(hqHeld m c 25 ∗ owns (c : Thread nD τ) scDe fullShare (DE m c)
      ∗ owns (c : Thread nD τ) scMt fullShare (MT2 m c) ∗ owns (c : Thread nD τ) scMn fullShare (MN2 m c))
    ∗ (∃ r, prngReg c r))

def PhiS (c : Dev nD) (n : ℕ) : sProp 𝕄 :=
  if h0 : n = 0 then Pipeline.ΦA spec0 c
  else if h25 : n ≤ 25 then PhiStream m c n (by omega) h25
  else if h30 : n ≤ 30 then PhiScat1 m c n (by omega) h30
  else PhiScat2 m c

theorem PhiS_zero (c : Dev nD) : PhiS m c 0 = Pipeline.ΦA spec0 c := by unfold PhiS; rw [dif_pos rfl]
theorem PhiS_stream (c : Dev nD) (n : ℕ) (h1 : 1 ≤ n) (h25 : n ≤ 25) : PhiS m c n = PhiStream m c n h1 h25 := by
  unfold PhiS; rw [dif_neg (by omega), dif_pos h25]
theorem PhiS_scat1 (c : Dev nD) (n : ℕ) (h26 : 26 ≤ n) (h30 : n ≤ 30) : PhiS m c n = PhiScat1 m c n h26 h30 := by
  unfold PhiS; rw [dif_neg (by omega), dif_neg (by omega), dif_pos h30]
theorem PhiS_scat2 (c : Dev nD) (n : ℕ) (h31 : 31 ≤ n) : PhiS m c n = PhiScat2 m c := by
  unfold PhiS; rw [dif_neg (by omega), dif_neg (by omega), dif_neg (by omega)]

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => after19 m c t
    | ⟨20, _⟩ => after20 m c t
    | ⟨_ + 21, h⟩ => absurd h (Nat.not_lt.2 (Nat.le_add_left _ _))
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := by
  dsimp only [dats]; simp only [Fin.val_succ]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = after19 m c t := by dsimp only [dats]
theorem after_20 (c : Dev nD) (t : Fin cfg0.N) : (dats m 0 c).after 20 t = after20 m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d
theorem before_18 (c : Dev nD) (t : Fin cfg0.N) (d) : (dats m 0 c).before 18 t d = iblk m c 18 t :=
  before0_18_of m (dats m 0 c) (A_eq m c 18) (after_18 m c) t d

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d))
    ∗ (∃ d, owns (c : Thread nD τ) (ms19 t) fullShare ((dats m 0 c).before 19 t d))
    ∗ (∃ d, owns (c : Thread nD τ) (ms20 t) fullShare ((dats m 0 c).before 20 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t)

/-- Before a point the nineteen read-only blocks are held at their contents, whatever the point. -/
theorem bodyPre_to (c : Dev nD) (t : Fin cfg0.N) :
    bodyPre m c t ⊢ iprop(PhiS m c t.val ∗ (dats m 0 c).owesAt () t.castSucc ∗ insOwned c (bufs t) (ins m c t)
      ∗ (∃ d, owns (c : Thread nD τ) (ms19 t) fullShare ((dats m 0 c).before 19 t d))
      ∗ (∃ d, owns (c : Thread nD τ) (ms20 t) fullShare ((dats m 0 c).before 20 t d))) := by
  unfold bodyPre insOwned
  simp only [before_0, before_1, before_2, before_3, before_4, before_5, before_6, before_7, before_8, before_9, before_10, before_11, before_12, before_13, before_14, before_15, before_16, before_17, before_18]
  rw [Phi_castSucc]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, H19, H20⟩
  isplitl [HΦ]; · iexact HΦ
  isplitl [Ho]; · iexact Ho
  isplitl [H0 H1 H2 H3 H4 H5 H6 H7 H8 H9 H10 H11 H12 H13 H14 H15 H16 H17 H18]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  isplitl [H19]; · iexact H19
  iexact H20

/-- After a point the nineteen read-only blocks are owed back as they were held. -/
theorem bodyPost_of (c : Dev nD) (t : Fin cfg0.N) :
    iprop(PhiS m c (t.val + 1) ∗ (dats m 0 c).owesAt () t.castSucc ∗ insOwned c (bufs t) (ins m c t)
      ∗ (dats m 0 c).leavesExact 19 t ∗ (dats m 0 c).leavesExact 20 t) ⊢ bodyPost m c t := by
  unfold bodyPost insOwned
  rw [Phi_succ, show (dats m 0 c).owesAt () t.succ = (dats m 0 c).owesAt () t.castSucc from rfl]
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  rw [show (dats m 0 c).leavesExact 4 t = owns (c : Thread nD τ) (ms4 t) fullShare ((dats m 0 c).after 4 t) from by
    unfold Dat.leavesExact; rw [live4 t], after_4]
  rw [show (dats m 0 c).leavesExact 5 t = owns (c : Thread nD τ) (ms5 t) fullShare ((dats m 0 c).after 5 t) from by
    unfold Dat.leavesExact; rw [live5 t], after_5]
  rw [show (dats m 0 c).leavesExact 6 t = owns (c : Thread nD τ) (ms6 t) fullShare ((dats m 0 c).after 6 t) from by
    unfold Dat.leavesExact; rw [live6 t], after_6]
  rw [show (dats m 0 c).leavesExact 7 t = owns (c : Thread nD τ) (ms7 t) fullShare ((dats m 0 c).after 7 t) from by
    unfold Dat.leavesExact; rw [live7 t], after_7]
  rw [show (dats m 0 c).leavesExact 8 t = owns (c : Thread nD τ) (ms8 t) fullShare ((dats m 0 c).after 8 t) from by
    unfold Dat.leavesExact; rw [live8 t], after_8]
  rw [show (dats m 0 c).leavesExact 9 t = owns (c : Thread nD τ) (ms9 t) fullShare ((dats m 0 c).after 9 t) from by
    unfold Dat.leavesExact; rw [live9 t], after_9]
  rw [show (dats m 0 c).leavesExact 10 t = owns (c : Thread nD τ) (ms10 t) fullShare ((dats m 0 c).after 10 t) from by
    unfold Dat.leavesExact; rw [live10 t], after_10]
  rw [show (dats m 0 c).leavesExact 11 t = owns (c : Thread nD τ) (ms11 t) fullShare ((dats m 0 c).after 11 t) from by
    unfold Dat.leavesExact; rw [live11 t], after_11]
  rw [show (dats m 0 c).leavesExact 12 t = owns (c : Thread nD τ) (ms12 t) fullShare ((dats m 0 c).after 12 t) from by
    unfold Dat.leavesExact; rw [live12 t], after_12]
  rw [show (dats m 0 c).leavesExact 13 t = owns (c : Thread nD τ) (ms13 t) fullShare ((dats m 0 c).after 13 t) from by
    unfold Dat.leavesExact; rw [live13 t], after_13]
  rw [show (dats m 0 c).leavesExact 14 t = owns (c : Thread nD τ) (ms14 t) fullShare ((dats m 0 c).after 14 t) from by
    unfold Dat.leavesExact; rw [live14 t], after_14]
  rw [show (dats m 0 c).leavesExact 15 t = owns (c : Thread nD τ) (ms15 t) fullShare ((dats m 0 c).after 15 t) from by
    unfold Dat.leavesExact; rw [live15 t], after_15]
  rw [show (dats m 0 c).leavesExact 16 t = owns (c : Thread nD τ) (ms16 t) fullShare ((dats m 0 c).after 16 t) from by
    unfold Dat.leavesExact; rw [live16 t], after_16]
  rw [show (dats m 0 c).leavesExact 17 t = owns (c : Thread nD τ) (ms17 t) fullShare ((dats m 0 c).after 17 t) from by
    unfold Dat.leavesExact; rw [live17 t], after_17]
  rw [show (dats m 0 c).leavesExact 18 t = owns (c : Thread nD τ) (ms18 t) fullShare ((dats m 0 c).after 18 t) from by
    unfold Dat.leavesExact; rw [live18 t], after_18]
  simp only [after_0, after_1, after_2, after_3, after_4, after_5, after_6, after_7, after_8, after_9, after_10, after_11, after_12, after_13, after_14, after_15, after_16, after_17, after_18]
  iintro ⟨HΦ, Ho, ⟨H0, H1, H2, H3, H4, H5, H6, H7, H8, H9, H10, H11, H12, H13, H14, H15, H16, H17, H18⟩, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The body obligation at a point reduces to what the point does to the invariant and to the two output blocks. -/
theorem sound_of (c : Dev nD) (t : Fin cfg0.N)
    (h : iprop(PhiS m c t.val ∗ (dats m 0 c).owesAt () t.castSucc ∗ insOwned c (bufs t) (ins m c t)
        ∗ (∃ d, owns (c : Thread nD τ) (ms19 t) fullShare ((dats m 0 c).before 19 t d))
        ∗ (∃ d, owns (c : Thread nD τ) (ms20 t) fullShare ((dats m 0 c).before 20 t d)))
      ⊢ wp frame (wpE (defs₀ (F := F)) Variants.none c none) Set.univ (bodyAt0 t) (fun _ => iprop(PhiS m c (t.val + 1)
        ∗ (dats m 0 c).owesAt () t.castSucc ∗ insOwned c (bufs t) (ins m c t) ∗ (dats m 0 c).leavesExact 19 t ∗ (dats m 0 c).leavesExact 20 t))) :
    bodyPre m c t ⊢ wp frame (wpE (defs₀ (F := F)) Variants.none c none) Set.univ (bodyAt0 t) (fun _ => bodyPost m c t) :=
  (bodyPre_to m c t).trans (h.trans (wp_mono _ _ _ fun _ => bodyPost_of m c t))

end Cert.KernelIdeal.Hand

end
-- ==== Proof.KIHq.lean ====
import proofs.«108041_g40587440947829_cont_sun_m_1101_23_alg».proof.Proof.KIData
import Idealize.ShloMosaic.Lib.WholeRead
import Idealize.ShloMosaic.Lib.WritesUnit
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

theorem hqRow_tile (c : Dev nD) (k : ℕ) (hk : k < 25) (a : Fin 400) (j : Fin 2048) (r : Fin 10000)
    (hr : r.val = 400 * k + a.val) :
    hqRow m c r j = hqTile m c (pt k (by omega)) (ValueIdx.ix2 a j) := by
  have ha : a.val < 400 := a.isLt
  have e1 : r.val / 400 = k := by omega
  have e2 : r.val % 400 = a.val := by omega
  have key : ∀ (q : ℕ) (hq : q < 55) (b : ℕ) (hb : b < 400), q = k → b = a.val →
      hqTile m c (pt q hq) (ValueIdx.ix2 (⟨b, hb⟩ : Fin 400) j) = hqTile m c (pt k (by omega)) (ValueIdx.ix2 a j) := by
    intro q hq b hb eq eb
    subst eq; subst eb
    rfl
  unfold hqRow
  exact key _ _ _ _ e1 e2

theorem hq_read2000 (c : Dev nD) (arg22 : Memref sig .tc .vmem S10000x2048 .bf16) (harg22 : arg22.IsWhole)
    (xhq : Vec F S10000x2048 .bf16) (hok : HqOk m c 25 xhq) (i : ℕ) (hi : i < 5) (off : Fin 2 → Nat)
    (inb : ∀ a, off a + S2000x2048.size a ≤ S10000x2048.size a) (hoff : off = ![2000 * i, 0]) :
    View.readAt (Elt F) arg22.view (Rect.unit (s := S10000x2048) off S2000x2048.size inb).toLoadRect (harg22.unread xhq)
      = hqS2000 m c i hi := by
  subst hoff
  funext y
  have h0 : (y 0).val < 2000 := (y 0).isLt
  have h1 : (y 1).val < 2048 := (y 1).isLt
  have hidx : (Rect.unit (s := S10000x2048) ![2000 * i, 0] S2000x2048.size inb).toLoadRect.idx y
      = ValueIdx.ix2 (⟨2000 * i + (y 0).val, by omega⟩ : Fin 10000) (⟨(y 1).val, h1⟩ : Fin 2048) :=
    funext fun a => Fin.ext (by
      match a with
      | ⟨0, _⟩ => show 2000 * i + 1 * (y 0).val = 2000 * i + (y 0).val; omega
      | ⟨1, _⟩ => show 0 + 1 * (y 1).val = (y 1).val; omega)
  rw [harg22.readAt_unread, hidx, hok _ _ (show 2000 * i + (y 0).val < 400 * 25 by omega)]
  unfold hqS2000
  rfl

theorem hq_read400 (c : Dev nD) (arg22 : Memref sig .tc .vmem S10000x2048 .bf16) (harg22 : arg22.IsWhole)
    (xhq : Vec F S10000x2048 .bf16) (hok : HqOk m c 25 xhq) (k : ℕ) (hk : k < 25) (off : Fin 2 → Nat)
    (inb : ∀ a, off a + S400x2048.size a ≤ S10000x2048.size a) (hoff : off = ![400 * k, 0]) :
    View.readAt (Elt F) arg22.view (Rect.unit (s := S10000x2048) off S400x2048.size inb).toLoadRect (harg22.unread xhq)
      = hqS400 m c k hk := by
  subst hoff
  funext y
  have h0 : (y 0).val < 400 := (y 0).isLt
  have h1 : (y 1).val < 2048 := (y 1).isLt
  have hidx : (Rect.unit (s := S10000x2048) ![400 * k, 0] S400x2048.size inb).toLoadRect.idx y
      = ValueIdx.ix2 (⟨400 * k + (y 0).val, by omega⟩ : Fin 10000) (⟨(y 1).val, h1⟩ : Fin 2048) :=
    funext fun a => Fin.ext (by
      match a with
      | ⟨0, _⟩ => show 400 * k + 1 * (y 0).val = 400 * k + (y 0).val; omega
      | ⟨1, _⟩ => show 0 + 1 * (y 1).val = (y 1).val; omega)
  rw [harg22.readAt_unread, hidx, hok _ _ (show 400 * k + (y 0).val < 400 * 25 by omega),
    hqRow_tile m c k hk ⟨(y 0).val, h0⟩ ⟨(y 1).val, h1⟩ _ rfl]
  exact congrArg (hqTile m c (pt k (by omega))) (ValueIdx.eq_ix2 y).symm

theorem hq_store (c : Dev nD) (arg22 : Memref sig .tc .vmem S10000x2048 .bf16) (harg22 : arg22.IsWhole)
    (xhq : Vec F S10000x2048 .bf16) (n : ℕ) (hn : n < 25) (hok : HqOk m c n xhq) (off : Fin 2 → Nat)
    (inb : ∀ a, off a + S400x2048.size a ≤ S10000x2048.size a) (hoff : off = ![400 * n, 0]) :
    HqOk m c (n + 1) (arg22.view.read (Elt F) (arg22.view.writes (Elt F) (harg22.unread xhq)
      [⟨Rect.unit (s := S10000x2048) off S400x2048.size inb, hqTile m c (pt n (by omega))⟩])) := by
  intro r j hr
  by_cases h : r.val < 400 * n
  · refine (View.read_writes_cons_rows_of_not_mem arg22.view (harg22.unread xhq) inb _ [] (ValueIdx.ix2 r j) hoff
      (W := 400) rfl (Or.inl h)).trans ?_
    rw [View.writes_nil, harg22.read_unread]
    exact hok r j h
  · have hlt : r.val - 400 * n < 400 := by omega
    refine (View.read_writes_cons_rows_of_mem arg22.view (harg22.unread xhq) inb _ [] (ValueIdx.ix2 r j)
      (ValueIdx.ix2 (⟨r.val - 400 * n, hlt⟩ : Fin 400) j) hoff
      (show r.val = 400 * n + (r.val - 400 * n) by omega) rfl).trans ?_
    exact (hqRow_tile m c n hn ⟨r.val - 400 * n, hlt⟩ j r (show r.val = 400 * n + (r.val - 400 * n) by omega)).symm

end Cert.KernelIdeal.Hand

end
-- ==== Proof.KICaseA.lean ====
import proofs.«108041_g40587440947829_cont_sun_m_1101_23_alg».proof.Proof.KIRunA
import proofs.«108041_g40587440947829_cont_sun_m_1101_23_alg».proof.Proof.KIHq
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem h055A : 0 < 55 := by decide

variable (c : Dev nD) (i : grid0.Coords) (B : Bufs) (h1 : cInit i) (h2 : cPh0 i) (h3 : ¬cN1 i) (h4 : ¬cPh1 i) (h5 : ¬cN2 i) (h6 : ¬cPh2 i) (X : Ins F) (xhq : Vec F S10000x2048 .bf16)

theorem readA20 (f) :
    B.a20.view.read (Elt F) (B.a20.view.writes (Elt F) f (runA c i B h1 h2 h3 h4 h5 h6 X xhq).1)
      = k0_pay15 (k0_pay13 X.x1 X.x5 X.x6) X.x2 X.x7 z400x32 X.x8 X.x9 X.x10 X.x11 X.x12 := by
  rw [View.read_writes_eq_canon _ _ _ (View.cover_of_tiledL _ S400x32.size (by sl_kernel_rfl))]
  unfold runA
  dsimp only
  sl_unfold_words
  rw [View.canon_unit_zero hz2]
  simp only [View.readAt_eq_ld, Memref.IsWhole.read_unread, View.ld_unit_zero (S := S400x128) hz2, View.ld_unit_zero (S := S128x32) hz2, View.ld_unit_zero (S := S1x32) hz2, View.ld_unit_zero (S := S400x16) hz2, View.ld_unit_zero (S := S16x32) hz2, View.ld_unit_zero (S := S64x64) hz2, View.ld_unit_zero (S := S1x64) hz2, View.ld_unit_zero (S := S64x32) hz2]

theorem readA23 (f) :
    B.a23.view.read (Elt F) (B.a23.view.writes (Elt F) f (runA c i B h1 h2 h3 h4 h5 h6 X xhq).2.2.1)
      = k0_pay10 X.x0 (k0_pay1 (F := F)) := by
  rw [View.read_writes_eq_canon _ _ _ (View.cover_of_tiledL _ S1x2048.size (by sl_kernel_rfl))]
  unfold runA
  dsimp only
  sl_unfold_words
  rw [View.canon_cons_unit_zero (S := S1x2048) hz2]
  simp only [View.readAt_eq_ld, Memref.IsWhole.read_unread, View.readCov_unit_zero (S := S1x2048) _ hz2, View.ld_unit_zero (S := S400x2048) hz2]

theorem readA24 (f) :
    B.a24.view.read (Elt F) (B.a24.view.writes (Elt F) f (runA c i B h1 h2 h3 h4 h5 h6 X xhq).2.2.2.1)
      = k0_pay3 (k0_pay11 X.x0 X.x3) (k0_pay16 (k0_pay13 X.x1 X.x5 X.x6) X.x2 X.x7 z400x32 X.x8 X.x9 X.x10 X.x11 X.x12 X.x13 X.x14) (k0_pay2 (F := F)) z64x2048 := by
  rw [View.read_writes_eq_canon _ _ _ (View.cover_of_tiledL _ S64x2048.size (by sl_kernel_rfl))]
  unfold runA
  dsimp only
  sl_unfold_words
  rw [View.canon_cons_unit_zero (S := S64x2048) hz2]
  simp only [View.readAt_eq_ld, Memref.IsWhole.read_unread, View.readCov_unit_zero (S := S64x2048) _ hz2, View.ld_unit_zero (S := S400x2048) hz2, View.ld_unit_zero (S := S2048x1) hz2, View.ld_unit_zero (S := S400x128) hz2, View.ld_unit_zero (S := S128x32) hz2, View.ld_unit_zero (S := S1x32) hz2, View.ld_unit_zero (S := S400x16) hz2, View.ld_unit_zero (S := S16x32) hz2, View.ld_unit_zero (S := S64x64) hz2, View.ld_unit_zero (S := S1x64) hz2, View.ld_unit_zero (S := S64x32) hz2, View.ld_unit_zero (S := S32x64) hz2]

theorem hqA
    (hoff : k0_off1 i = ![400 * 0, 0]) (hx0 : X.x0 = bH m c (pt 0 h055A)) (hx3 : X.x3 = bWc m c (pt 0 h055A)) :
    HqOk m c (0 + 1) (B.a22.view.read (Elt F) (B.a22.view.writes (Elt F) (B.w22.unread xhq) (runA c i B h1 h2 h3 h4 h5 h6 X xhq).2.1)) := by
  have h0 : HqOk m c 0 xhq := fun r j h => absurd h (by omega)
  have key := hq_store m c B.a22 B.w22 xhq 0 (by omega) h0 (k0_off1 i) (k0_off1_inb i h2) hoff
  unfold runA
  dsimp only
  sl_unfold_words
  simp only [View.readAt_eq_ld, Memref.IsWhole.read_unread, View.ld_unit_zero (S := S400x2048) hz2, View.ld_unit_zero (S := S2048x1) hz2]
  rw [hx0, hx3]
  exact key

theorem deAt_zeroA (c : Dev nD) (h : 0 < 55) : deAt m c 0 h = k0_pay10 (bH m c (pt 0 h)) (k0_pay1 (F := F)) := by
  unfold deAt; rfl

theorem mt0At_zeroA (c : Dev nD) (h : 0 < 55) :
    mt0At m c 0 h = k0_pay3 (hsTile m c (pt 0 h)) (xcTile m c (pt 0 h)) (k0_pay2 (F := F)) z64x2048 := by
  unfold mt0At; rfl

set_option maxHeartbeats 4000000 in
/-- The body obligation in control case A: the invariant before the point and the run's stores give the invariant after it. -/
theorem sound_A (c : Dev nD) (t : Fin cfg0.N) (ht : t.val = 0) :
    bodyPre m c t ⊢ wp frame (wpE (defs₀ (F := F)) Variants.none c none) Set.univ (bodyAt0 t) (fun _ => bodyPost m c t) := by
  have et : t = pt 0 h055A := Fin.ext ht
  have hg1 : cInit (grid0.coords t) := (hcInit t).mpr ht
  have hg2 : cPh0 (grid0.coords t) := (hcPh0 t).mpr (by omega)
  have hg3 : ¬cN1 (grid0.coords t) := fun h => absurd ((hcN1 t).mp h) (by omega)
  have hg4 : ¬cPh1 (grid0.coords t) := fun h => absurd ((hcPh1 t).mp h) (by omega)
  have hg5 : ¬cN2 (grid0.coords t) := fun h => absurd ((hcN2 t).mp h) (by omega)
  have hg6 : ¬cPh2 (grid0.coords t) := fun h => absurd ((hcPh2 t).mp h) (by omega)
  have eΦ0 : PhiS m c t.val = Pipeline.ΦA spec0 c := by rw [ht]; exact PhiS_zero m c
  have eΦ1 : PhiS m c (t.val + 1)
      = iprop(iprop(hqHeld m c 1 ∗ owns (c : Thread nD τ) scDe fullShare (deAt m c 0 (by omega))
          ∗ owns (c : Thread nD τ) scMt fullShare (mt0At m c 0 (by omega)) ∗ (∃ d, owns (c : Thread nD τ) scMn fullShare d))
        ∗ (∃ r, prngReg c r)) := by
    rw [ht]; exact PhiS_stream m c 1 (le_refl 1) (by omega)
  refine sound_of m c t ?_
  unfold bodyAt0
  rw [eΦ0, eΦ1, PhiA_eq]
  rw [show (dats m 0 c).leavesExact 19 t = owns (c : Thread nD τ) (ms19 t) fullShare ((dats m 0 c).after 19 t) from by
    unfold Dat.leavesExact; rw [live19 t (by omega)], after_19]
  rw [show after19 m c t = gTile m c t from by unfold after19; exact dif_pos (by omega)]
  rw [Dat.leavesExact_idle (dats m 0 c) 20 t (idle20 t (by omega)) (noFlush20 t (by omega))]
  iintro ⟨⟨⟨⟨%dhq, Hhq⟩, ⟨%dde, Hde⟩, ⟨%dmt, Hmt⟩, ⟨%dmn, Hmn⟩⟩, Hg⟩, Ho, Hin, ⟨%d19, H19⟩, ⟨%d20, H20⟩⟩
  iapply ((runA c (grid0.coords t) (bufs t) hg1 hg2 hg3 hg4 hg5 hg6 (ins m c t) dhq).2.2.2.2 ((dats m 0 c).before 20 t d20) dmn Set.univ _)
  isplitl [Hin]; · iexact Hin
  isplitl [H19]; · iexists _; iexact H19
  isplitl [H20]; · iexact H20
  isplitl [Hhq]; · iexact Hhq
  isplitl [Hde]; · iexists _; iexact Hde
  isplitl [Hmt]; · iexists _; iexact Hmt
  isplitl [Hmn]; · iexact Hmn
  iintro ⟨Hin, ⟨%e19, H19⟩, H20, Hhq, ⟨%ede, Hde⟩, ⟨%emt, Hmt⟩, Hmn⟩
  isplitl [Hhq Hde Hmt Hmn Hg]
  · isplitl [Hhq Hde Hmt Hmn]
    · isplitl [Hhq]
      · iexists _
        isplitl [Hhq]
        · unfold owns; iexists _; isplitr
          swap; · iexact Hhq
          ipureintro; rfl
        · ipureintro
          exact hqA m c (grid0.coords t) (bufs t) hg1 hg2 hg3 hg4 hg5 hg6 (ins m c t) dhq (by rw [off1_eq t, ht]) (by subst et; rfl) (by subst et; rfl)
      isplitl [Hde]
      · unfold owns; iexists _; isplitr
        swap; · iexact Hde
        ipureintro
        refine (readA23 c (grid0.coords t) (bufs t) hg1 hg2 hg3 hg4 hg5 hg6 (ins m c t) dhq _).trans ?_
        subst et
        dsimp only [ins]
        exact (deAt_zeroA m c _).symm
      isplitl [Hmt]
      · unfold owns; iexists _; isplitr
        swap; · iexact Hmt
        ipureintro
        refine (readA24 c (grid0.coords t) (bufs t) hg1 hg2 hg3 hg4 hg5 hg6 (ins m c t) dhq _).trans ?_
        subst et
        dsimp only [ins]
        exact (mt0At_zeroA m c _).symm
      · iexists _; iexact Hmn
    · iexact Hg
  isplitl [Ho]; · iexact Ho
  isplitl [Hin]; · iexact Hin
  isplitl [H19]
  · unfold owns; iexists _; isplitr
    swap; · iexact H19
    ipureintro
    refine (readA20 c (grid0.coords t) (bufs t) hg1 hg2 hg3 hg4 hg5 hg6 (ins m c t) dhq _).trans ?_
    dsimp only [ins] <;> rfl
  iexists _; iexact H20

end Cert.KernelIdeal.Hand

end
-- ==== Proof.KIRunB.lean ====
import proofs.«108041_g40587440947829_cont_sun_m_1101_23_alg».proof.Proof.KISched

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Control case B: the body runs to its end; the lists are the stores it makes to each written buffer, newest first. -/
noncomputable def runB (c : Dev nD) (i : grid0.Coords) (B : Bufs)
    (h1 : ¬cInit i) (h2 : cPh0 i) (h3 : ¬cN1 i) (h4 : ¬cPh1 i) (h5 : ¬cN2 i) (h6 : ¬cPh2 i)
    (X : Ins F) (xhq : Vec F S10000x2048 .bf16) (xde : Vec F S1x2048 .f32) (xmt : Vec F S64x2048 .f32) :
    Σ' (L19 : List (View.Piece (Elt F) S400x32 .f32)) (LHq : List (View.Piece (Elt F) S10000x2048 .bf16)) (LDe : List (View.Piece (Elt F) S1x2048 .f32)), { LMt : List (View.Piece (Elt F) S64x2048 .f32) //
      ∀ (xi20 : Vec F S400x2 .f32) (xmn : Vec F S2048x64 .bf16) (E : Set ℕ) (K : PUnit → sProp 𝕄),
        iprop(insOwned c B X ∗ (∃ d, owns (c : Thread nD τ) B.a20 fullShare d) ∗ owns (c : Thread nD τ) B.a21 fullShare xi20
            ∗ owns (c : Thread nD τ) B.a22 fullShare xhq ∗ owns (c : Thread nD τ) B.a23 fullShare xde ∗ owns (c : Thread nD τ) B.a24 fullShare xmt ∗ owns (c : Thread nD τ) B.a25 fullShare xmn
            ∗ (iprop(insOwned c B X ∗ (∃ f, B.a20.view.loc (c : Thread nD τ) ↦[B.a20.view.set]{fullShare} B.a20.view.writes (Elt F) f L19) ∗ owns (c : Thread nD τ) B.a21 fullShare xi20
              ∗ (B.a22.view.loc (c : Thread nD τ) ↦[B.a22.view.set]{fullShare} B.a22.view.writes (Elt F) (B.w22.unread xhq) LHq) ∗ (∃ f, B.a23.view.loc (c : Thread nD τ) ↦[B.a23.view.set]{fullShare} B.a23.view.writes (Elt F) f LDe) ∗ (∃ f, B.a24.view.loc (c : Thread nD τ) ↦[B.a24.view.set]{fullShare} B.a24.view.writes (Elt F) f LMt) ∗ owns (c : Thread nD τ) B.a25 fullShare xmn) -∗ K ⟨⟩))
          ⊢ wp frame (wpE (defs₀ (F := F)) Variants.none c none) E (body i B) K } := by
  refine ⟨?_, ?_, ?_, ?_, fun xi20 xmn E K => ?run⟩
  case run =>
    simp only [body, cc0__kernel_eq_skeleton]; unfold cc0__kernel_skel
    simp only [k0_part1_eq_skeleton, k0_part2_eq_skeleton]
    unfold insOwned owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, ⟨%d19, %f19, %hf19, H19⟩, ⟨%f20, %hf20, H20⟩, ⟨%f21, %hf21, H21⟩, ⟨%f22, %hf22, H22⟩, ⟨%f23, %hf23, H23⟩, ⟨%f24, %hf24, H24⟩, Hk⟩
    obtain rfl := B.w1.eq_unread hf0; obtain rfl := B.w2.eq_unread hf1; obtain rfl := B.w3.eq_unread hf2; obtain rfl := B.w4.eq_unread hf3; obtain rfl := B.w5.eq_unread hf4; obtain rfl := B.w6.eq_unread hf5; obtain rfl := B.w7.eq_unread hf6; obtain rfl := B.w8.eq_unread hf7; obtain rfl := B.w9.eq_unread hf8; obtain rfl := B.w10.eq_unread hf9; obtain rfl := B.w11.eq_unread hf10; obtain rfl := B.w12.eq_unread hf11; obtain rfl := B.w13.eq_unread hf12; obtain rfl := B.w14.eq_unread hf13; obtain rfl := B.w15.eq_unread hf14; obtain rfl := B.w16.eq_unread hf15; obtain rfl := B.w17.eq_unread hf16; obtain rfl := B.w18.eq_unread hf17; obtain rfl := B.w19.eq_unread hf18
    obtain rfl := B.w20.eq_unread hf19; obtain rfl := B.w21.eq_unread hf20; obtain rfl := B.w22.eq_unread hf21; obtain rfl := B.w23.eq_unread hf22; obtain rfl := B.w24.eq_unread hf23; obtain rfl := B.w25.eq_unread hf24
    sl_exec (disch := first | exact h1 | exact h2 | exact h3 | exact h4 | exact h5 | exact h6)
    sl_step
    iapply Hk
    isplitl [H0 H1 H2 H3 H4 H5 H6 H7 H8 H9 H10 H11 H12 H13 H14 H15 H16 H17 H18]
    ·
      isplitl [H0]; · iapply ownsU c B.w1; iexact H0
      isplitl [H1]; · iapply ownsU c B.w2; iexact H1
      isplitl [H2]; · iapply ownsU c B.w3; iexact H2
      isplitl [H3]; · iapply ownsU c B.w4; iexact H3
      isplitl [H4]; · iapply ownsU c B.w5; iexact H4
      isplitl [H5]; · iapply ownsU c B.w6; iexact H5
      isplitl [H6]; · iapply ownsU c B.w7; iexact H6
      isplitl [H7]; · iapply ownsU c B.w8; iexact H7
      isplitl [H8]; · iapply ownsU c B.w9; iexact H8
      isplitl [H9]; · iapply ownsU c B.w10; iexact H9
      isplitl [H10]; · iapply ownsU c B.w11; iexact H10
      isplitl [H11]; · iapply ownsU c B.w12; iexact H11
      isplitl [H12]; · iapply ownsU c B.w13; iexact H12
      isplitl [H13]; · iapply ownsU c B.w14; iexact H13
      isplitl [H14]; · iapply ownsU c B.w15; iexact H14
      isplitl [H15]; · iapply ownsU c B.w16; iexact H15
      isplitl [H16]; · iapply ownsU c B.w17; iexact H16
      isplitl [H17]; · iapply ownsU c B.w18; iexact H17
      iapply ownsU c B.w19; iexact H18
    isplitl [H19]
    · iexists _; iexact H19
    isplitl [H20]; · iapply ownsU c B.w21; iexact H20
    isplitl [H21]
    · iexact H21
    isplitl [H22]
    · iexists _; iexact H22
    isplitl [H23]
    · iexists _; iexact H23
    iapply ownsU c B.w25; iexact H24

end Cert.KernelIdeal.Hand

end
-- ==== Proof.KICaseB.lean ====
import proofs.«108041_g40587440947829_cont_sun_m_1101_23_alg».proof.Proof.KIRunB
import proofs.«108041_g40587440947829_cont_sun_m_1101_23_alg».proof.Proof.KIData
import proofs.«108041_g40587440947829_cont_sun_m_1101_23_alg».proof.Proof.KIHq
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem deAt_succB (c : Dev nD) (n : ℕ) (h1 : 1 ≤ n) (h : n < 55) :
    deAt m c n h = k0_pay10 (bH m c (pt n h)) (deAt m c (n - 1) (by omega)) := by
  obtain ⟨k, rfl⟩ : ∃ k, n = k + 1 := ⟨n - 1, by omega⟩
  rfl

theorem mt0At_succB (c : Dev nD) (n : ℕ) (h1 : 1 ≤ n) (h : n < 55) :
    mt0At m c n h = k0_pay3 (hsTile m c (pt n h)) (xcTile m c (pt n h)) (mt0At m c (n - 1) (by omega)) (z64x2048 (F := F)) := by
  obtain ⟨k, rfl⟩ : ∃ k, n = k + 1 := ⟨n - 1, by omega⟩
  rfl

theorem gB1 (t : Fin cfg0.N) (h1 : 1 ≤ t.val) : ¬cInit (grid0.coords t) := fun h => by have := (hcInit t).mp h; omega
theorem gB2 (t : Fin cfg0.N) (h24 : t.val ≤ 24) : cPh0 (grid0.coords t) := (hcPh0 t).mpr (by omega)
theorem gB3 (t : Fin cfg0.N) (h24 : t.val ≤ 24) : ¬cN1 (grid0.coords t) := fun h => by have := (hcN1 t).mp h; omega
theorem gB4 (t : Fin cfg0.N) (h24 : t.val ≤ 24) : ¬cPh1 (grid0.coords t) := fun h => by have := (hcPh1 t).mp h; omega
theorem gB5 (t : Fin cfg0.N) (h24 : t.val ≤ 24) : ¬cN2 (grid0.coords t) := fun h => by have := (hcN2 t).mp h; omega
theorem gB6 (t : Fin cfg0.N) (h24 : t.val ≤ 24) : ¬cPh2 (grid0.coords t) := fun h => by have := (hcPh2 t).mp h; omega

variable (c : Dev nD) (i : grid0.Coords) (B : Bufs) (h1 : ¬cInit i) (h2 : cPh0 i) (h3 : ¬cN1 i) (h4 : ¬cPh1 i) (h5 : ¬cN2 i) (h6 : ¬cPh2 i) (X : Ins F) (xhq : Vec F S10000x2048 .bf16) (xde : Vec F S1x2048 .f32) (xmt : Vec F S64x2048 .f32)

theorem runB_gate
    (f : B.a20.view.ty.Contents (Elt F)) :
    B.a20.view.read (Elt F) (B.a20.view.writes (Elt F) f (runB c i B h1 h2 h3 h4 h5 h6 X xhq xde xmt).1)
      = k0_pay15 (k0_pay13 X.x1 X.x5 X.x6) X.x2 X.x7 (z400x32 (F := F)) X.x8 X.x9 X.x10 X.x11 X.x12 := by
  rw [View.read_writes_eq_canon _ _ _ (View.cover_of_tiledL _ S400x32.size (by sl_kernel_rfl))]
  unfold runB
  dsimp only
  try sl_unfold_words
  rw [View.canon_unit_zero hz2]
  simp only [View.readAt_eq_ld, B.w2.read_unread, B.w6.read_unread, B.w7.read_unread, B.w3.read_unread, B.w8.read_unread, B.w9.read_unread, B.w10.read_unread, B.w11.read_unread, B.w12.read_unread, B.w13.read_unread, View.ld_unit_zero (S := S400x128) hz2, View.ld_unit_zero (S := S128x32) hz2, View.ld_unit_zero (S := S1x32) hz2, View.ld_unit_zero (S := S400x16) hz2, View.ld_unit_zero (S := S16x32) hz2, View.ld_unit_zero (S := S64x64) hz2, View.ld_unit_zero (S := S1x64) hz2, View.ld_unit_zero (S := S64x32) hz2]

theorem runB_de
    (f : B.a23.view.ty.Contents (Elt F)) :
    B.a23.view.read (Elt F) (B.a23.view.writes (Elt F) f (runB c i B h1 h2 h3 h4 h5 h6 X xhq xde xmt).2.2.1)
      = k0_pay10 X.x0 xde := by
  rw [View.read_writes_eq_canon _ _ _ (View.cover_of_tiledL _ S1x2048.size (by sl_kernel_rfl))]
  unfold runB
  dsimp only
  try sl_unfold_words
  rw [View.canon_unit_zero hz2]
  simp only [View.readAt_eq_ld, B.w1.read_unread, B.w23.read_unread, View.ld_unit_zero (S := S400x2048) hz2, View.ld_unit_zero (S := S1x2048) hz2]

theorem runB_mt
    (f : B.a24.view.ty.Contents (Elt F)) :
    B.a24.view.read (Elt F) (B.a24.view.writes (Elt F) f (runB c i B h1 h2 h3 h4 h5 h6 X xhq xde xmt).2.2.2.1)
      = k0_pay3 (k0_pay11 X.x0 X.x3) (k0_pay16 (k0_pay13 X.x1 X.x5 X.x6) X.x2 X.x7 (z400x32 (F := F)) X.x8 X.x9 X.x10 X.x11 X.x12 X.x13 X.x14) xmt (z64x2048 (F := F)) := by
  rw [View.read_writes_eq_canon _ _ _ (View.cover_of_tiledL _ S64x2048.size (by sl_kernel_rfl))]
  unfold runB
  dsimp only
  try sl_unfold_words
  rw [View.canon_unit_zero hz2]
  simp only [View.readAt_eq_ld, B.w1.read_unread, B.w4.read_unread, B.w2.read_unread, B.w6.read_unread, B.w7.read_unread, B.w3.read_unread, B.w8.read_unread, B.w9.read_unread, B.w10.read_unread, B.w11.read_unread, B.w12.read_unread, B.w13.read_unread, B.w14.read_unread, B.w15.read_unread, B.w24.read_unread, View.ld_unit_zero (S := S400x2048) hz2, View.ld_unit_zero (S := S2048x1) hz2, View.ld_unit_zero (S := S400x128) hz2, View.ld_unit_zero (S := S128x32) hz2, View.ld_unit_zero (S := S1x32) hz2, View.ld_unit_zero (S := S400x16) hz2, View.ld_unit_zero (S := S16x32) hz2, View.ld_unit_zero (S := S64x64) hz2, View.ld_unit_zero (S := S1x64) hz2, View.ld_unit_zero (S := S64x32) hz2, View.ld_unit_zero (S := S32x64) hz2, View.ld_unit_zero (S := S64x2048) hz2]

theorem runB_hq :
    (runB c i B h1 h2 h3 h4 h5 h6 X xhq xde xmt).2.1
      = [⟨Rect.unit (s := S10000x2048) (k0_off1 i) S400x2048.size (k0_off1_inb i h2), k0_pay12 X.x0 X.x3⟩] := by
  unfold runB
  dsimp only
  try sl_unfold_words
  simp only [View.readAt_eq_ld, B.w1.read_unread, B.w4.read_unread, View.ld_unit_zero (S := S400x2048) hz2, View.ld_unit_zero (S := S2048x1) hz2]

set_option maxHeartbeats 4000000 in
/-- The body obligation in control case B: the invariant before the point and the run's stores give the invariant after it. -/
theorem sound_B (c : Dev nD) (t : Fin cfg0.N) (ht : 1 ≤ t.val ∧ t.val ≤ 24) :
    bodyPre m c t ⊢ wp frame (wpE (defs₀ (F := F)) Variants.none c none) Set.univ (bodyAt0 t) (fun _ => bodyPost m c t) := by
  have h1 : 1 ≤ t.val := ht.1
  have h24 : t.val ≤ 24 := ht.2
  have hlt : t.val - 1 < 55 := by omega
  refine sound_of m c t ?_
  unfold bodyAt0
  rw [PhiS_stream m c t.val h1 (by omega), PhiS_stream m c (t.val + 1) (by omega) (by omega)]
  rw [show (dats m 0 c).leavesExact 19 t = owns (c : Thread nD τ) (ms19 t) fullShare ((dats m 0 c).after 19 t) from by
    unfold Dat.leavesExact; rw [live19 t (by omega)], after_19,
    show after19 m c t = gTile m c t from by unfold after19; rw [dif_pos (show t.val < 25 by omega)]]
  rw [Dat.leavesExact_idle (dats m 0 c) 20 t (idle20 t (by omega)) (noFlush20 t (by omega))]
  iintro ⟨⟨⟨⟨%hq, Hhq, %hok⟩, Hde, Hmt, ⟨%dmn, Hmn⟩⟩, Hg⟩, Ho, Hin, ⟨%d19, H19⟩, ⟨%d20, H20⟩⟩
  iapply ((runB c (grid0.coords t) (bufs t) (gB1 t h1) (gB2 t h24) (gB3 t h24) (gB4 t h24) (gB5 t h24) (gB6 t h24) (ins m c t) hq (deAt m c (t.val - 1) hlt) (mt0At m c (t.val - 1) hlt)).2.2.2.2 _ _ Set.univ _)
  isplitl [Hin]; · iexact Hin
  isplitl [H19]; · iexists _; iexact H19
  isplitl [H20]; · iexact H20
  isplitl [Hhq]; · iexact Hhq
  isplitl [Hde]; · iexact Hde
  isplitl [Hmt]; · iexact Hmt
  isplitl [Hmn]; · iexact Hmn
  iintro ⟨Hin, ⟨%e19, H19⟩, H20, Hhq, ⟨%ede, Hde⟩, ⟨%emt, Hmt⟩, Hmn⟩
  isplitl [Hhq Hde Hmt Hmn Hg]
  · isplitl [Hhq Hde Hmt Hmn]
    · isplitl [Hhq]
      · iexists _; isplitl [Hhq]
        · unfold owns; iexists _; isplitr
          swap; · iexact Hhq
          ipureintro; rfl
        ipureintro
        rw [runB_hq]
        dsimp only [bufs, ins]
        exact hq_store m c scHq (Memref.isWhole_whole cc0_scratch0) hq t.val (by omega) hok _ _ (off1_eq t)
      isplitl [Hde]
      · unfold owns; iexists _; isplitr
        swap; · iexact Hde
        ipureintro
        refine (runB_de c (grid0.coords t) (bufs t) (gB1 t h1) (gB2 t h24) (gB3 t h24) (gB4 t h24) (gB5 t h24) (gB6 t h24) (ins m c t) hq (deAt m c (t.val - 1) hlt) (mt0At m c (t.val - 1) hlt) ede).trans ?_
        dsimp only [ins]
        exact (deAt_succB m c t.val h1 (by omega)).symm
      isplitl [Hmt]
      · unfold owns; iexists _; isplitr
        swap; · iexact Hmt
        ipureintro
        refine (runB_mt c (grid0.coords t) (bufs t) (gB1 t h1) (gB2 t h24) (gB3 t h24) (gB4 t h24) (gB5 t h24) (gB6 t h24) (ins m c t) hq (deAt m c (t.val - 1) hlt) (mt0At m c (t.val - 1) hlt) emt).trans ?_
        dsimp only [ins]
        exact (mt0At_succB m c t.val h1 (by omega)).symm
      iexists _; iexact Hmn
    iexact Hg
  isplitl [Ho]; · iexact Ho
  isplitl [Hin]; · iexact Hin
  isplitl [H19]
  · unfold owns; iexists _; isplitr
    swap; · iexact H19
    ipureintro
    refine (runB_gate c (grid0.coords t) (bufs t) (gB1 t h1) (gB2 t h24) (gB3 t h24) (gB4 t h24) (gB5 t h24) (gB6 t h24) (ins m c t) hq (deAt m c (t.val - 1) hlt) (mt0At m c (t.val - 1) hlt) e19).trans ?_
    dsimp only [ins] <;> rfl
  iexists _; iexact H20

end Cert.KernelIdeal.Hand

end
-- ==== Proof.KIRunC.lean ====
import proofs.«108041_g40587440947829_cont_sun_m_1101_23_alg».proof.Proof.KISched

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Control case C: the body runs to its end; the lists are the stores it makes to each written buffer, newest first. -/
noncomputable def runC (c : Dev nD) (i : grid0.Coords) (B : Bufs)
    (h1 : ¬cInit i) (h2 : ¬cPh0 i) (h3 : cN1 i) (h4 : cPh1 i) (h5 : ¬cN2 i) (h6 : ¬cPh2 i)
    (X : Ins F) (xhq : Vec F S10000x2048 .bf16) (xde : Vec F S1x2048 .f32) (xmt : Vec F S64x2048 .f32) :
    Σ' (L24 : List (View.Piece (Elt F) S64x2048 .f32)), { L25 : List (View.Piece (Elt F) S2048x64 .bf16) //
      ∀ (xi19 : Vec F S400x32 .f32) (xi20 : Vec F S400x2 .f32) (E : Set ℕ) (K : PUnit → sProp 𝕄),
        iprop(insOwned c B X ∗ owns (c : Thread nD τ) B.a20 fullShare xi19 ∗ owns (c : Thread nD τ) B.a21 fullShare xi20 ∗ owns (c : Thread nD τ) B.a22 fullShare xhq ∗ owns (c : Thread nD τ) B.a23 fullShare xde ∗ owns (c : Thread nD τ) B.a24 fullShare xmt ∗ (∃ d, owns (c : Thread nD τ) B.a25 fullShare d)
            ∗ (iprop(insOwned c B X ∗ owns (c : Thread nD τ) B.a20 fullShare xi19 ∗ owns (c : Thread nD τ) B.a21 fullShare xi20 ∗ owns (c : Thread nD τ) B.a22 fullShare xhq ∗ owns (c : Thread nD τ) B.a23 fullShare xde ∗ (∃ f, B.a24.view.loc (c : Thread nD τ) ↦[B.a24.view.set]{fullShare} B.a24.view.writes (Elt F) f L24) ∗ (∃ f, B.a25.view.loc (c : Thread nD τ) ↦[B.a25.view.set]{fullShare} B.a25.view.writes (Elt F) f L25)) -∗ K ⟨⟩))
          ⊢ wp frame (wpE (defs₀ (F := F)) Variants.none c none) E (body i B) K } := by
  refine ⟨?_, ?_, fun xi19 xi20 E K => ?run⟩
  case run =>
    simp only [body, cc0__kernel_eq_skeleton]; unfold cc0__kernel_skel
    unfold insOwned owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, ⟨%f19, %hf19, H19⟩, ⟨%f20, %hf20, H20⟩, ⟨%f21, %hf21, H21⟩, ⟨%f22, %hf22, H22⟩, ⟨%f23, %hf23, H23⟩, ⟨%d24, %f24, %hf24, H24⟩, Hk⟩
    obtain rfl := B.w1.eq_unread hf0; obtain rfl := B.w2.eq_unread hf1; obtain rfl := B.w3.eq_unread hf2; obtain rfl := B.w4.eq_unread hf3; obtain rfl := B.w5.eq_unread hf4; obtain rfl := B.w6.eq_unread hf5; obtain rfl := B.w7.eq_unread hf6; obtain rfl := B.w8.eq_unread hf7; obtain rfl := B.w9.eq_unread hf8; obtain rfl := B.w10.eq_unread hf9; obtain rfl := B.w11.eq_unread hf10; obtain rfl := B.w12.eq_unread hf11; obtain rfl := B.w13.eq_unread hf12
    obtain rfl := B.w14.eq_unread hf13; obtain rfl := B.w15.eq_unread hf14; obtain rfl := B.w16.eq_unread hf15; obtain rfl := B.w17.eq_unread hf16; obtain rfl := B.w18.eq_unread hf17; obtain rfl := B.w19.eq_unread hf18; obtain rfl := B.w20.eq_unread hf19; obtain rfl := B.w21.eq_unread hf20; obtain rfl := B.w22.eq_unread hf21; obtain rfl := B.w23.eq_unread hf22; obtain rfl := B.w24.eq_unread hf23; obtain rfl := B.w25.eq_unread hf24
    sl_exec (disch := first | exact h1 | exact h2 | exact h3 | exact h4 | exact h5 | exact h6)
    sl_step
    iapply Hk
    isplitl [H0 H1 H2 H3 H4 H5 H6 H7 H8 H9 H10 H11 H12 H13 H14 H15 H16 H17 H18]
    ·
      isplitl [H0]; · iapply ownsU c B.w1; iexact H0
      isplitl [H1]; · iapply ownsU c B.w2; iexact H1
      isplitl [H2]; · iapply ownsU c B.w3; iexact H2
      isplitl [H3]; · iapply ownsU c B.w4; iexact H3
      isplitl [H4]; · iapply ownsU c B.w5; iexact H4
      isplitl [H5]; · iapply ownsU c B.w6; iexact H5
      isplitl [H6]; · iapply ownsU c B.w7; iexact H6
      isplitl [H7]; · iapply ownsU c B.w8; iexact H7
      isplitl [H8]; · iapply ownsU c B.w9; iexact H8
      isplitl [H9]; · iapply ownsU c B.w10; iexact H9
      isplitl [H10]; · iapply ownsU c B.w11; iexact H10
      isplitl [H11]; · iapply ownsU c B.w12; iexact H11
      isplitl [H12]; · iapply ownsU c B.w13; iexact H12
      isplitl [H13]; · iapply ownsU c B.w14; iexact H13
      isplitl [H14]; · iapply ownsU c B.w15; iexact H14
      isplitl [H15]; · iapply ownsU c B.w16; iexact H15
      isplitl [H16]; · iapply ownsU c B.w17; iexact H16
      isplitl [H17]; · iapply ownsU c B.w18; iexact H17
      iapply ownsU c B.w19; iexact H18
    isplitl [H19]; · iapply ownsU c B.w20; iexact H19
    isplitl [H20]; · iapply ownsU c B.w21; iexact H20
    isplitl [H21]; · iapply ownsU c B.w22; iexact H21
    isplitl [H22]; · iapply ownsU c B.w23; iexact H22
    isplitl [H23]
    · iexists _; iexact H23
    iexists _; iexact H24

end Cert.KernelIdeal.Hand

end
-- ==== Proof.KICaseC.lean ====
import proofs.«108041_g40587440947829_cont_sun_m_1101_23_alg».proof.Proof.KIHq
import proofs.«108041_g40587440947829_cont_sun_m_1101_23_alg».proof.Proof.KIRunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (B : Bufs) (h1 : ¬cInit i) (h2 : ¬cPh0 i) (h3 : cN1 i) (h4 : cPh1 i) (h5 : ¬cN2 i) (h6 : ¬cPh2 i) (X : Ins F) (xhq : Vec F S10000x2048 .bf16) (xde : Vec F S1x2048 .f32) (xmt : Vec F S64x2048 .f32)

theorem runC_mn
    (f : B.a25.view.ty.Contents (Elt F)) :
    B.a25.view.read (Elt F) (B.a25.view.writes (Elt F) f (runC c i B h1 h2 h3 h4 h5 h6 X xhq xde xmt).2.1)
      = k0_pay4 X.x4 xde xmt := by
  rw [View.read_writes_eq_canon _ _ _ (View.cover_of_tiledL _ S2048x64.size (by sl_kernel_rfl))]
  unfold runC
  dsimp only
  sl_unfold_words
  rw [View.canon_unit_zero hz2]
  simp only [View.readAt_eq_ld, B.w5.read_unread, B.w23.read_unread, B.w24.read_unread,
    View.ld_unit_zero (S := S1x2048) hz2, View.ld_unit_zero (S := S64x2048) hz2]

theorem runC_mt
    (f : B.a24.view.ty.Contents (Elt F)) :
    B.a24.view.read (Elt F) (B.a24.view.writes (Elt F) f (runC c i B h1 h2 h3 h4 h5 h6 X xhq xde xmt).1)
      = k0_pay6 (View.readAt (Elt F) B.a22.view (Rect.unit (s := S10000x2048) (k0_off2 i) S2000x2048.size (k0_off2_inb i h4)).toLoadRect (B.w22.unread xhq))
          (k0_pay4 X.x4 xde xmt) X.x15 X.x16 (k0_pay5 (F := F)) := by
  rw [View.read_writes_eq_canon _ _ _ (View.cover_of_tiledL _ S64x2048.size (by sl_kernel_rfl))]
  unfold runC
  dsimp only
  sl_unfold_words
  rw [View.canon_cons_unit_zero (S := S64x2048) hz2]
  simp only [View.readAt_eq_ld, B.w5.read_unread, B.w23.read_unread, B.w24.read_unread, B.w16.read_unread, B.w17.read_unread,
    View.ld_unit_zero (S := S1x2048) hz2, View.ld_unit_zero (S := S64x2048) hz2, View.ld_unit_zero (S := S64x64) hz2, View.ld_unit_zero (S := S1x64) hz2,
    View.readCov_unit_zero (S := S2048x64) _ hz2, View.readCov_unit_zero (S := S64x2048) _ hz2]

variable (m : (ℓ : Loc nD τ sig) → Buf (Elt F) ℓ) (ρ : Dev nD → PrngReg)

theorem mt1At_zero_C (c : Dev nD) (h : 0 < 5) :
    mt1At m c 0 h = k0_pay6 (hqS2000 m c 0 h) (MN1 m c) (bC2W m c (pt 25 (by omega))) (bC2b m c (pt 25 (by omega))) (k0_pay5 (F := F)) := by
  rw [mt1At]

set_option maxHeartbeats 1000000 in
/-- The body obligation in control case C: the invariant before the point and the run's stores give the invariant after it. -/
theorem sound_C (c : Dev nD) (t : Fin cfg0.N) (ht : t.val = 25) :
    bodyPre m c t ⊢ wp frame (wpE (defs₀ (F := F)) Variants.none c none) Set.univ (bodyAt0 t) (fun _ => bodyPost m c t) := by
  refine sound_of m c t ?_
  unfold bodyAt0
  rw [show PhiS m c t.val = PhiStream m c 25 (by omega) (by omega) from by rw [ht]; exact PhiS_stream m c 25 _ _]
  rw [show PhiS m c (t.val + 1) = PhiScat1 m c 26 (by omega) (by omega) from by rw [ht]; exact PhiS_scat1 m c 26 _ _]
  rw [Dat.leavesExact_idle (dats m 0 c) 19 t (idle19 t (by omega)) (noFlush19 t (by omega) (by omega))]
  rw [Dat.leavesExact_idle (dats m 0 c) 20 t (idle20 t (by omega)) (noFlush20 t (by omega))]
  have g1 : ¬cInit (grid0.coords t) := fun h => by have := (hcInit t).mp h; omega
  have g2 : ¬cPh0 (grid0.coords t) := fun h => by have := (hcPh0 t).mp h; omega
  have g3 : cN1 (grid0.coords t) := (hcN1 t).mpr ht
  have g4 : cPh1 (grid0.coords t) := (hcPh1 t).mpr ⟨by omega, by omega⟩
  have g5 : ¬cN2 (grid0.coords t) := fun h => by have := (hcN2 t).mp h; omega
  have g6 : ¬cPh2 (grid0.coords t) := fun h => by have := (hcPh2 t).mp h; omega
  have et : t = pt 25 (by decide) := Fin.ext ht
  unfold PhiStream PhiScat1 hqHeld
  iintro ⟨⟨⟨⟨%hq, Hhq, %hok⟩, Hde, Hmt, ⟨%dmn, Hmn⟩⟩, Hg⟩, Ho, Hin, ⟨%d19, H19⟩, ⟨%d20, H20⟩⟩
  iapply ((runC c (grid0.coords t) (bufs t) g1 g2 g3 g4 g5 g6 (ins m c t) hq (DE m c) (MT1 m c)).2.2 _ _ Set.univ _)
  isplitl [Hin]; · iexact Hin
  isplitl [H19]; · iexact H19
  isplitl [H20]; · iexact H20
  isplitl [Hhq]; · iexact Hhq
  isplitl [Hde]; · iexact Hde
  isplitl [Hmt]; · iexact Hmt
  isplitl [Hmn]; · iexists _; iexact Hmn
  iintro ⟨Hin, H19, H20, Hhq, Hde, ⟨%e24, Hmt⟩, ⟨%e25, Hmn⟩⟩
  isplitl [Hhq Hde Hmt Hmn Hg]
  · isplitr [Hg]
    swap; · iexact Hg
    isplitl [Hhq]
    · iexists hq; isplitl [Hhq]; · iexact Hhq
      ipureintro; exact hok
    isplitl [Hde]; · iexact Hde
    isplitl [Hmt]
    · unfold owns; iexists _; isplitr
      swap; · iexact Hmt
      ipureintro
      refine (runC_mt c (grid0.coords t) (bufs t) g1 g2 g3 g4 g5 g6 (ins m c t) hq (DE m c) (MT1 m c) e24).trans ?_
      rw [hq_read2000 m c scHq (Memref.isWhole_whole _) hq hok 0 (by omega) (k0_off2 (grid0.coords t)) (k0_off2_inb (grid0.coords t) g4) (by rw [off2_eq t (by omega) (by omega), ht])]
      subst et
      exact (mt1At_zero_C m c _).symm
    unfold owns; iexists _; isplitr
    swap; · iexact Hmn
    ipureintro
    refine (runC_mn c (grid0.coords t) (bufs t) g1 g2 g3 g4 g5 g6 (ins m c t) hq (DE m c) (MT1 m c) e25).trans ?_
    subst et
    rfl
  isplitl [Ho]; · iexact Ho
  isplitl [Hin]; · iexact Hin
  isplitl [H19]; · iexists _; iexact H19
  iexists _; iexact H20

end Cert.KernelIdeal.Hand

end
-- ==== Proof.KIRunD.lean ====
import proofs.«108041_g40587440947829_cont_sun_m_1101_23_alg».proof.Proof.KISched

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Control case D: the body runs to its end; the lists are the stores it makes to each written buffer, newest first. -/
noncomputable def runD (c : Dev nD) (i : grid0.Coords) (B : Bufs)
    (h1 : ¬cInit i) (h2 : ¬cPh0 i) (h3 : ¬cN1 i) (h4 : cPh1 i) (h5 : ¬cN2 i) (h6 : ¬cPh2 i)
    (X : Ins F) (xhq : Vec F S10000x2048 .bf16) (xde : Vec F S1x2048 .f32) (xmt : Vec F S64x2048 .f32) (xmn : Vec F S2048x64 .bf16) :
    { L24 : List (View.Piece (Elt F) S64x2048 .f32) //
      ∀ (xi19 : Vec F S400x32 .f32) (xi20 : Vec F S400x2 .f32) (E : Set ℕ) (K : PUnit → sProp 𝕄),
        iprop(insOwned c B X ∗ owns (c : Thread nD τ) B.a20 fullShare xi19 ∗ owns (c : Thread nD τ) B.a21 fullShare xi20
            ∗ owns (c : Thread nD τ) B.a22 fullShare xhq ∗ owns (c : Thread nD τ) B.a23 fullShare xde ∗ owns (c : Thread nD τ) B.a24 fullShare xmt ∗ owns (c : Thread nD τ) B.a25 fullShare xmn
            ∗ (iprop(insOwned c B X ∗ owns (c : Thread nD τ) B.a20 fullShare xi19 ∗ owns (c : Thread nD τ) B.a21 fullShare xi20
              ∗ owns (c : Thread nD τ) B.a22 fullShare xhq ∗ owns (c : Thread nD τ) B.a23 fullShare xde ∗ (∃ f, B.a24.view.loc (c : Thread nD τ) ↦[B.a24.view.set]{fullShare} B.a24.view.writes (Elt F) f L24) ∗ owns (c : Thread nD τ) B.a25 fullShare xmn) -∗ K ⟨⟩))
          ⊢ wp frame (wpE (defs₀ (F := F)) Variants.none c none) E (body i B) K } := by
  refine ⟨?_, fun xi19 xi20 E K => ?run⟩
  case run =>
    simp only [body, cc0__kernel_eq_skeleton]; unfold cc0__kernel_skel
    unfold insOwned owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, ⟨%f19, %hf19, H19⟩, ⟨%f20, %hf20, H20⟩, ⟨%f21, %hf21, H21⟩, ⟨%f22, %hf22, H22⟩, ⟨%f23, %hf23, H23⟩, ⟨%f24, %hf24, H24⟩, Hk⟩
    obtain rfl := B.w1.eq_unread hf0; obtain rfl := B.w2.eq_unread hf1; obtain rfl := B.w3.eq_unread hf2; obtain rfl := B.w4.eq_unread hf3; obtain rfl := B.w5.eq_unread hf4; obtain rfl := B.w6.eq_unread hf5; obtain rfl := B.w7.eq_unread hf6; obtain rfl := B.w8.eq_unread hf7; obtain rfl := B.w9.eq_unread hf8; obtain rfl := B.w10.eq_unread hf9; obtain rfl := B.w11.eq_unread hf10; obtain rfl := B.w12.eq_unread hf11; obtain rfl := B.w13.eq_unread hf12; obtain rfl := B.w14.eq_unread hf13; obtain rfl := B.w15.eq_unread hf14; obtain rfl := B.w16.eq_unread hf15; obtain rfl := B.w17.eq_unread hf16; obtain rfl := B.w18.eq_unread hf17; obtain rfl := B.w19.eq_unread hf18; obtain rfl := B.w20.eq_unread hf19; obtain rfl := B.w21.eq_unread hf20
    obtain rfl := B.w22.eq_unread hf21; obtain rfl := B.w23.eq_unread hf22; obtain rfl := B.w24.eq_unread hf23; obtain rfl := B.w25.eq_unread hf24
    sl_exec (disch := first | exact h1 | exact h2 | exact h3 | exact h4 | exact h5 | exact h6)
    sl_step
    iapply Hk
    isplitl [H0 H1 H2 H3 H4 H5 H6 H7 H8 H9 H10 H11 H12 H13 H14 H15 H16 H17 H18]
    ·
      isplitl [H0]; · iapply ownsU c B.w1; iexact H0
      isplitl [H1]; · iapply ownsU c B.w2; iexact H1
      isplitl [H2]; · iapply ownsU c B.w3; iexact H2
      isplitl [H3]; · iapply ownsU c B.w4; iexact H3
      isplitl [H4]; · iapply ownsU c B.w5; iexact H4
      isplitl [H5]; · iapply ownsU c B.w6; iexact H5
      isplitl [H6]; · iapply ownsU c B.w7; iexact H6
      isplitl [H7]; · iapply ownsU c B.w8; iexact H7
      isplitl [H8]; · iapply ownsU c B.w9; iexact H8
      isplitl [H9]; · iapply ownsU c B.w10; iexact H9
      isplitl [H10]; · iapply ownsU c B.w11; iexact H10
      isplitl [H11]; · iapply ownsU c B.w12; iexact H11
      isplitl [H12]; · iapply ownsU c B.w13; iexact H12
      isplitl [H13]; · iapply ownsU c B.w14; iexact H13
      isplitl [H14]; · iapply ownsU c B.w15; iexact H14
      isplitl [H15]; · iapply ownsU c B.w16; iexact H15
      isplitl [H16]; · iapply ownsU c B.w17; iexact H16
      isplitl [H17]; · iapply ownsU c B.w18; iexact H17
      iapply ownsU c B.w19; iexact H18
    isplitl [H19]; · iapply ownsU c B.w20; iexact H19
    isplitl [H20]; · iapply ownsU c B.w21; iexact H20
    isplitl [H21]; · iapply ownsU c B.w22; iexact H21
    isplitl [H22]; · iapply ownsU c B.w23; iexact H22
    isplitl [H23]
    · iexists _; iexact H23
    iapply ownsU c B.w25; iexact H24

end Cert.KernelIdeal.Hand

end
-- ==== Proof.KICaseD.lean ====
import proofs.«108041_g40587440947829_cont_sun_m_1101_23_alg».proof.Proof.KIRunD
import proofs.«108041_g40587440947829_cont_sun_m_1101_23_alg».proof.Proof.KIData
import proofs.«108041_g40587440947829_cont_sun_m_1101_23_alg».proof.Proof.KIHq
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mt1At_stepD (c : Dev nD) (t : Fin cfg0.N) (ht : 26 ≤ t.val ∧ t.val ≤ 29) :
    mt1At m c (t.val + 1 - 26) (by omega)
      = k0_pay6 (hqS2000 m c (t.val - 25) (by omega)) (MN1 m c) (bC2W m c t) (bC2b m c t) (mt1At m c (t.val - 26) (by omega)) := by
  obtain ⟨n, hn⟩ := t
  have h4 : n = 26 ∨ n = 27 ∨ n = 28 ∨ n = 29 := by simp only at ht; omega
  rcases h4 with rfl | rfl | rfl | rfl <;> rfl

variable (c : Dev nD) (i : grid0.Coords) (B : Bufs) (h1 : ¬cInit i) (h2 : ¬cPh0 i) (h3 : ¬cN1 i) (h4 : cPh1 i) (h5 : ¬cN2 i) (h6 : ¬cPh2 i) (X : Ins F) (xhq : Vec F S10000x2048 .bf16) (xde : Vec F S1x2048 .f32) (xmt : Vec F S64x2048 .f32) (xmn : Vec F S2048x64 .bf16)

theorem coverD (y : S64x2048.Idx) :
    ∃ pc ∈ (runD c i B h1 h2 h3 h4 h5 h6 X xhq xde xmt xmn).1, y ∈ pc.1.set :=
  View.cover_of_tiledL (runD c i B h1 h2 h3 h4 h5 h6 X xhq xde xmt xmn).1 S64x2048.size (by sl_kernel_rfl) y

theorem mtD_read (f : B.a24.view.ty.Contents (Elt F)) :
    B.a24.view.read (Elt F) (B.a24.view.writes (Elt F) f (runD c i B h1 h2 h3 h4 h5 h6 X xhq xde xmt xmn).1)
      = k0_pay6 (View.readAt (Elt F) B.a22.view (Rect.unit (s := S10000x2048) (k0_off2 i) S2000x2048.size (k0_off2_inb i h4)).toLoadRect (B.w22.unread xhq)) xmn X.x15 X.x16 xmt := by
  rw [View.read_writes_eq_canon _ _ _ (coverD c i B h1 h2 h3 h4 h5 h6 X xhq xde xmt xmn)]
  unfold runD; dsimp only; sl_unfold_words
  rw [View.canon_unit_zero hz2]
  simp only [View.readAt_eq_ld, B.w25.read_unread, B.w16.read_unread, B.w17.read_unread, B.w24.read_unread,
    View.ld_unit_zero (S := S2048x64) hz2, View.ld_unit_zero (S := S64x64) hz2, View.ld_unit_zero (S := S1x64) hz2, View.ld_unit_zero (S := S64x2048) hz2]

theorem gD1 (t : Fin cfg0.N) (ht : 26 ≤ t.val ∧ t.val ≤ 29) : ¬cInit (grid0.coords t) := fun h => by have := (hcInit t).mp h; omega
theorem gD2 (t : Fin cfg0.N) (ht : 26 ≤ t.val ∧ t.val ≤ 29) : ¬cPh0 (grid0.coords t) := fun h => by have := (hcPh0 t).mp h; omega
theorem gD3 (t : Fin cfg0.N) (ht : 26 ≤ t.val ∧ t.val ≤ 29) : ¬cN1 (grid0.coords t) := fun h => by have := (hcN1 t).mp h; omega
theorem gD4 (t : Fin cfg0.N) (ht : 26 ≤ t.val ∧ t.val ≤ 29) : cPh1 (grid0.coords t) := (hcPh1 t).mpr ⟨by omega, by omega⟩
theorem gD5 (t : Fin cfg0.N) (ht : 26 ≤ t.val ∧ t.val ≤ 29) : ¬cN2 (grid0.coords t) := fun h => by have := (hcN2 t).mp h; omega
theorem gD6 (t : Fin cfg0.N) (ht : 26 ≤ t.val ∧ t.val ≤ 29) : ¬cPh2 (grid0.coords t) := fun h => by have := (hcPh2 t).mp h; omega

theorem mtD_at (c : Dev nD) (t : Fin cfg0.N) (ht : 26 ≤ t.val ∧ t.val ≤ 29) (xhq : Vec F S10000x2048 .bf16) (hok : HqOk m c 25 xhq)
    (f : scMt.view.ty.Contents (Elt F)) :
    scMt.view.read (Elt F) (scMt.view.writes (Elt F) f (runD c (grid0.coords t) (bufs t) (gD1 t ht) (gD2 t ht) (gD3 t ht) (gD4 t ht) (gD5 t ht) (gD6 t ht) (ins m c t) xhq (DE m c) (mt1At m c (t.val - 26) (by omega)) (MN1 m c)).1)
      = mt1At m c (t.val + 1 - 26) (by omega) := by
  refine (mtD_read c (grid0.coords t) (bufs t) (gD1 t ht) (gD2 t ht) (gD3 t ht) (gD4 t ht) (gD5 t ht) (gD6 t ht) (ins m c t) xhq (DE m c) (mt1At m c (t.val - 26) (by omega)) (MN1 m c) f).trans ?_
  rw [hq_read2000 m c scHq (Memref.isWhole_whole _) xhq hok (t.val - 25) (by omega) (k0_off2 (grid0.coords t)) (k0_off2_inb (grid0.coords t) (gD4 t ht)) (off2_eq t (by omega) (by omega))]
  exact (mt1At_stepD m c t ht).symm

set_option maxHeartbeats 4000000 in
/-- The body obligation in control case D: the invariant before the point and the run's stores give the invariant after it. -/
theorem sound_D (c : Dev nD) (t : Fin cfg0.N) (ht : 26 ≤ t.val ∧ t.val ≤ 29) :
    bodyPre m c t ⊢ wp frame (wpE (defs₀ (F := F)) Variants.none c none) Set.univ (bodyAt0 t) (fun _ => bodyPost m c t) := by
  refine sound_of m c t ?_
  unfold bodyAt0
  rw [PhiS_scat1 m c t.val (by omega) (by omega), PhiS_scat1 m c (t.val + 1) (by omega) (by omega)]
  rw [Dat.leavesExact_idle (dats m 0 c) 19 t (idle19 t (by omega)) (noFlush19 t (by omega) (by omega))]
  rw [Dat.leavesExact_idle (dats m 0 c) 20 t (idle20 t (by omega)) (noFlush20 t (by omega))]
  unfold PhiScat1 hqHeld
  iintro ⟨⟨⟨⟨%hq, Hhq, %hok⟩, Hde, Hmt, Hmn⟩, Hg⟩, Ho, Hin, ⟨%d19, H19⟩, ⟨%d20, H20⟩⟩
  iapply ((runD c (grid0.coords t) (bufs t) (gD1 t ht) (gD2 t ht) (gD3 t ht) (gD4 t ht) (gD5 t ht) (gD6 t ht) (ins m c t) hq (DE m c) (mt1At m c (t.val - 26) (by omega)) (MN1 m c)).2 _ _ Set.univ _)
  isplitl [Hin]; · iexact Hin
  isplitl [H19]; · iexact H19
  isplitl [H20]; · iexact H20
  isplitl [Hhq]; · iexact Hhq
  isplitl [Hde]; · iexact Hde
  isplitl [Hmt]; · iexact Hmt
  isplitl [Hmn]; · iexact Hmn
  iintro ⟨Hin, H19, H20, Hhq, Hde, ⟨%e24, Hmt⟩, Hmn⟩
  isplitl [Hhq Hde Hmt Hmn Hg]
  · isplitl [Hhq Hde Hmt Hmn]
    · isplitl [Hhq]
      · iexists hq; isplitl [Hhq]; · iexact Hhq
        ipureintro; exact hok
      isplitl [Hde]; · iexact Hde
      isplitl [Hmt]
      · unfold owns; iexists _; isplitr
        swap; · iexact Hmt
        ipureintro; exact mtD_at m c t ht hq hok e24
      iexact Hmn
    iexact Hg
  isplitl [Ho]; · iexact Ho
  isplitl [Hin]; · iexact Hin
  isplitl [H19]; · iexists _; iexact H19
  iexists _; iexact H20

end Cert.KernelIdeal.Hand

end
-- ==== Proof.KIRunE.lean ====
import proofs.«108041_g40587440947829_cont_sun_m_1101_23_alg».proof.Proof.KISched

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Control case E: the body runs to its end; the lists are the stores it makes to each written buffer, newest first. -/
noncomputable def runE (c : Dev nD) (i : grid0.Coords) (B : Bufs)
    (h1 : ¬cInit i) (h2 : ¬cPh0 i) (h3 : ¬cN1 i) (h4 : ¬cPh1 i) (h5 : cN2 i) (h6 : cPh2 i)
    (X : Ins F) (xhq : Vec F S10000x2048 .bf16) (xde : Vec F S1x2048 .f32) (xmt : Vec F S64x2048 .f32) (xmn : Vec F S2048x64 .bf16) :
    Σ' (L21 : List (View.Piece (Elt F) S400x2 .f32)), { L25 : List (View.Piece (Elt F) S2048x64 .bf16) //
      ∀ (xi19 : Vec F S400x32 .f32) (E : Set ℕ) (K : PUnit → sProp 𝕄),
        iprop(insOwned c B X ∗ owns (c : Thread nD τ) B.a20 fullShare xi19 ∗ (∃ d, owns (c : Thread nD τ) B.a21 fullShare d) ∗ owns (c : Thread nD τ) B.a22 fullShare xhq ∗ owns (c : Thread nD τ) B.a23 fullShare xde ∗ owns (c : Thread nD τ) B.a24 fullShare xmt ∗ owns (c : Thread nD τ) B.a25 fullShare xmn
            ∗ (iprop(insOwned c B X ∗ owns (c : Thread nD τ) B.a20 fullShare xi19 ∗ (∃ f, B.a21.view.loc (c : Thread nD τ) ↦[B.a21.view.set]{fullShare} B.a21.view.writes (Elt F) f L21) ∗ owns (c : Thread nD τ) B.a22 fullShare xhq ∗ owns (c : Thread nD τ) B.a23 fullShare xde ∗ owns (c : Thread nD τ) B.a24 fullShare xmt ∗ (∃ f, B.a25.view.loc (c : Thread nD τ) ↦[B.a25.view.set]{fullShare} B.a25.view.writes (Elt F) f L25)) -∗ K ⟨⟩))
          ⊢ wp frame (wpE (defs₀ (F := F)) Variants.none c none) E (body i B) K } := by
  refine ⟨?_, ?_, fun xi19 E K => ?run⟩
  case run =>
    simp only [body, cc0__kernel_eq_skeleton]; unfold cc0__kernel_skel
    unfold insOwned owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, ⟨%f19, %hf19, H19⟩, ⟨%d20, %f20, %hf20, H20⟩, ⟨%f21, %hf21, H21⟩, ⟨%f22, %hf22, H22⟩, ⟨%f23, %hf23, H23⟩, ⟨%f24, %hf24, H24⟩, Hk⟩
    obtain rfl := B.w1.eq_unread hf0; obtain rfl := B.w2.eq_unread hf1; obtain rfl := B.w3.eq_unread hf2; obtain rfl := B.w4.eq_unread hf3; obtain rfl := B.w5.eq_unread hf4; obtain rfl := B.w6.eq_unread hf5; obtain rfl := B.w7.eq_unread hf6; obtain rfl := B.w8.eq_unread hf7; obtain rfl := B.w9.eq_unread hf8; obtain rfl := B.w10.eq_unread hf9; obtain rfl := B.w11.eq_unread hf10; obtain rfl := B.w12.eq_unread hf11; obtain rfl := B.w13.eq_unread hf12; obtain rfl := B.w14.eq_unread hf13; obtain rfl := B.w15.eq_unread hf14; obtain rfl := B.w16.eq_unread hf15; obtain rfl := B.w17.eq_unread hf16; obtain rfl := B.w18.eq_unread hf17; obtain rfl := B.w19.eq_unread hf18; obtain rfl := B.w20.eq_unread hf19; obtain rfl := B.w21.eq_unread hf20; obtain rfl := B.w22.eq_unread hf21; obtain rfl := B.w23.eq_unread hf22; obtain rfl := B.w24.eq_unread hf23; obtain rfl := B.w25.eq_unread hf24
    sl_exec (disch := first | exact h1 | exact h2 | exact h3 | exact h4 | exact h5 | exact h6)
    sl_step
    iapply Hk
    isplitl [H0 H1 H2 H3 H4 H5 H6 H7 H8 H9 H10 H11 H12 H13 H14 H15 H16 H17 H18]
    ·
      isplitl [H0]; · iapply ownsU c B.w1; iexact H0
      isplitl [H1]; · iapply ownsU c B.w2; iexact H1
      isplitl [H2]; · iapply ownsU c B.w3; iexact H2
      isplitl [H3]; · iapply ownsU c B.w4; iexact H3
      isplitl [H4]; · iapply ownsU c B.w5; iexact H4
      isplitl [H5]; · iapply ownsU c B.w6; iexact H5
      isplitl [H6]; · iapply ownsU c B.w7; iexact H6
      isplitl [H7]; · iapply ownsU c B.w8; iexact H7
      isplitl [H8]; · iapply ownsU c B.w9; iexact H8
      isplitl [H9]; · iapply ownsU c B.w10; iexact H9
      isplitl [H10]; · iapply ownsU c B.w11; iexact H10
      isplitl [H11]; · iapply ownsU c B.w12; iexact H11
      isplitl [H12]; · iapply ownsU c B.w13; iexact H12
      isplitl [H13]; · iapply ownsU c B.w14; iexact H13
      isplitl [H14]; · iapply ownsU c B.w15; iexact H14
      isplitl [H15]; · iapply ownsU c B.w16; iexact H15
      isplitl [H16]; · iapply ownsU c B.w17; iexact H16
      isplitl [H17]; · iapply ownsU c B.w18; iexact H17
      iapply ownsU c B.w19; iexact H18
    isplitl [H19]; · iapply ownsU c B.w20; iexact H19
    isplitl [H20]
    · iexists _; iexact H20
    isplitl [H21]; · iapply ownsU c B.w22; iexact H21
    isplitl [H22]; · iapply ownsU c B.w23; iexact H22
    isplitl [H23]; · iapply ownsU c B.w24; iexact H23
    iexists _; iexact H24

end Cert.KernelIdeal.Hand

end
-- ==== Proof.KICaseE.lean ====
import proofs.«108041_g40587440947829_cont_sun_m_1101_23_alg».proof.Proof.KIData
import proofs.«108041_g40587440947829_cont_sun_m_1101_23_alg».proof.Proof.KIHq
import proofs.«108041_g40587440947829_cont_sun_m_1101_23_alg».proof.Proof.KIRunE
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD) (i : grid0.Coords) (B : Bufs) (h1 : ¬cInit i) (h2 : ¬cPh0 i) (h3 : ¬cN1 i) (h4 : ¬cPh1 i) (h5 : cN2 i) (h6 : cPh2 i) (X : Ins F) (xhq : Vec F S10000x2048 .bf16) (xde : Vec F S1x2048 .f32) (xmt : Vec F S64x2048 .f32) (xmn : Vec F S2048x64 .bf16)

theorem coverE25 (y : S2048x64.Idx) :
    ∃ pc ∈ (runE c i B h1 h2 h3 h4 h5 h6 X xhq xde xmt xmn).2.1, y ∈ pc.1.set :=
  View.cover_of_tiledL (runE c i B h1 h2 h3 h4 h5 h6 X xhq xde xmt xmn).2.1 S2048x64.size (by sl_kernel_rfl) y

theorem coverE21 (y : S400x2.Idx) :
    ∃ pc ∈ (runE c i B h1 h2 h3 h4 h5 h6 X xhq xde xmt xmn).1, y ∈ pc.1.set :=
  View.cover_of_tiledL (runE c i B h1 h2 h3 h4 h5 h6 X xhq xde xmt xmn).1 S400x2.size (by sl_kernel_rfl) y

theorem readE25 (f : B.a25.view.ty.Contents (Elt F)) :
    B.a25.view.read (Elt F) (B.a25.view.writes (Elt F) f (runE c i B h1 h2 h3 h4 h5 h6 X xhq xde xmt xmn).2.1) = k0_pay7 X.x4 xde xmt := by
  rw [View.read_writes_eq_canon _ _ _ (coverE25 c i B h1 h2 h3 h4 h5 h6 X xhq xde xmt xmn)]
  unfold runE
  dsimp only
  try sl_unfold_words
  rw [View.canon_unit_zero hz2]
  simp only [View.readAt_eq_ld, B.w5.read_unread, B.w23.read_unread, B.w24.read_unread,
    View.ld_unit_zero (S := S1x2048) hz2, View.ld_unit_zero (S := S64x2048) hz2]

theorem readE21 (f : B.a21.view.ty.Contents (Elt F)) :
    B.a21.view.read (Elt F) (B.a21.view.writes (Elt F) f (runE c i B h1 h2 h3 h4 h5 h6 X xhq xde xmt xmn).1)
      = k0_pay8 (View.readAt (Elt F) B.a22.view (Rect.unit (s := S10000x2048) (k0_off3 i) S400x2048.size (k0_off3_inb i h6)).toLoadRect (B.w22.unread xhq))
          (k0_pay7 X.x4 xde xmt) X.x17 X.x18 := by
  rw [View.read_writes_eq_canon _ _ _ (coverE21 c i B h1 h2 h3 h4 h5 h6 X xhq xde xmt xmn)]
  unfold runE
  dsimp only
  try sl_unfold_words
  rw [View.canon_unit_zero hz2]
  rw [View.readCov_unit_zero (S := S2048x64) _ hz2]
  simp only [View.readAt_eq_ld, B.w5.read_unread, B.w23.read_unread, B.w24.read_unread, B.w18.read_unread, B.w19.read_unread, B.w22.read_unread,
    View.ld_unit_zero (S := S1x2048) hz2, View.ld_unit_zero (S := S64x2048) hz2, View.ld_unit_zero (S := S64x2) hz2, View.ld_unit_zero (S := S1x2) hz2]

theorem mt1At_E (c : Dev nD) (n : ℕ) (hn : n = 30) (h : n - 26 < 5) : mt1At m c (n - 26) h = MT2 m c := by
  subst hn; rfl

theorem MN2_E (c : Dev nD) (t : Fin cfg0.N) (ht : t.val = 30) :
    k0_pay7 (bWr m c t) (DE m c) (MT2 m c) = MN2 m c := by
  obtain ⟨n, hn⟩ := t
  dsimp only at ht
  subst ht
  rfl

theorem out20_E (c : Dev nD) (t : Fin cfg0.N) (ht : t.val = 30) (hq : Vec F S10000x2048 .bf16) (hok : HqOk m c 25 hq)
    (arg22 : Memref sig .tc .vmem S10000x2048 .bf16) (harg22 : arg22.IsWhole) (inb) :
    k0_pay8 (View.readAt (Elt F) arg22.view (Rect.unit (s := S10000x2048) (k0_off3 (grid0.coords t)) S400x2048.size inb).toLoadRect (harg22.unread hq))
        (k0_pay7 (bWr m c t) (DE m c) (MT2 m c)) (bHdW m c t) (bHdb m c t) = after20 m c t := by
  rw [hq_read400 m c arg22 harg22 hq hok (t.val - 30) (by omega) (k0_off3 (grid0.coords t)) inb (off3_eq t (by omega)), MN2_E m c t ht]
  unfold after20
  rw [dif_pos (by omega)]
  obtain ⟨n, hn⟩ := t
  dsimp only at ht
  subst ht
  rfl

set_option maxHeartbeats 4000000 in
/-- The body obligation in control case E: the invariant before the point and the run's stores give the invariant after it. -/
theorem sound_E (c : Dev nD) (t : Fin cfg0.N) (ht : t.val = 30) :
    bodyPre m c t ⊢ wp frame (wpE (defs₀ (F := F)) Variants.none c none) Set.univ (bodyAt0 t) (fun _ => bodyPost m c t) := by
  have hG1 : ¬cInit (grid0.coords t) := fun h => by have h' := (hcInit t).mp h; omega
  have hG2 : ¬cPh0 (grid0.coords t) := fun h => by have h' := (hcPh0 t).mp h; omega
  have hG3 : ¬cN1 (grid0.coords t) := fun h => by have h' := (hcN1 t).mp h; omega
  have hG4 : ¬cPh1 (grid0.coords t) := fun h => by have h' := (hcPh1 t).mp h; omega
  have hG5 : cN2 (grid0.coords t) := (hcN2 t).mpr ht
  have hG6 : cPh2 (grid0.coords t) := (hcPh2 t).mpr (by omega)
  refine sound_of m c t ?_
  unfold bodyAt0
  rw [PhiS_scat1 m c t.val (by omega) (by omega), PhiS_scat2 m c (t.val + 1) (by omega)]
  rw [Dat.leavesExact_idle (dats m 0 c) 19 t (idle19 t (by omega)) (noFlush19 t (by omega) (by omega))]
  rw [show (dats m 0 c).leavesExact 20 t = owns (c : Thread nD τ) (ms20 t) fullShare ((dats m 0 c).after 20 t) from by
    unfold Dat.leavesExact; rw [live20 t (by omega)], after_20]
  unfold PhiScat1 PhiScat2 hqHeld
  rw [mt1At_E m c t.val ht]
  iintro ⟨⟨⟨⟨%hq, Hhq, %hok⟩, Hde, Hmt, Hmn⟩, Hg⟩, Ho, Hin, ⟨%d19, H19⟩, ⟨%d20, H20⟩⟩
  iapply ((runE c (grid0.coords t) (bufs t) hG1 hG2 hG3 hG4 hG5 hG6 (ins m c t) hq (DE m c) (MT2 m c) (MN1 m c)).2.2 _ Set.univ _)
  isplitl [Hin]; · iexact Hin
  isplitl [H19]; · iexact H19
  isplitl [H20]; · iexists _; iexact H20
  isplitl [Hhq]; · iexact Hhq
  isplitl [Hde]; · iexact Hde
  isplitl [Hmt]; · iexact Hmt
  isplitl [Hmn]; · iexact Hmn
  iintro ⟨Hin, H19, ⟨%e20, H20⟩, Hhq, Hde, Hmt, ⟨%e25, Hmn⟩⟩
  isplitl [Hhq Hde Hmt Hmn Hg]
  · isplitl [Hhq Hde Hmt Hmn]
    · isplitl [Hhq]
      · iexists hq
        isplitl [Hhq]; · iexact Hhq
        ipureintro; exact hok
      isplitl [Hde]; · iexact Hde
      isplitl [Hmt]; · iexact Hmt
      unfold owns; iexists _; isplitr
      swap; · iexact Hmn
      ipureintro
      exact (readE25 c (grid0.coords t) (bufs t) hG1 hG2 hG3 hG4 hG5 hG6 (ins m c t) hq (DE m c) (MT2 m c) (MN1 m c) e25).trans (MN2_E m c t ht)
    iexact Hg
  isplitl [Ho]; · iexact Ho
  isplitl [Hin]; · iexact Hin
  isplitl [H19]; · iexists _; iexact H19
  unfold owns; iexists _; isplitr
  swap; · iexact H20
  ipureintro
  exact (readE21 c (grid0.coords t) (bufs t) hG1 hG2 hG3 hG4 hG5 hG6 (ins m c t) hq (DE m c) (MT2 m c) (MN1 m c) e20).trans (out20_E m c t ht hq hok scHq (Memref.isWhole_whole _) _)

end Cert.KernelIdeal.Hand

end
-- ==== Proof.KIRunF.lean ====
import proofs.«108041_g40587440947829_cont_sun_m_1101_23_alg».proof.Proof.KISched

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Control case F: the body runs to its end; the lists are the stores it makes to each written buffer, newest first. -/
noncomputable def runF (c : Dev nD) (i : grid0.Coords) (B : Bufs)
    (h1 : ¬cInit i) (h2 : ¬cPh0 i) (h3 : ¬cN1 i) (h4 : ¬cPh1 i) (h5 : ¬cN2 i) (h6 : cPh2 i)
    (X : Ins F) (xhq : Vec F S10000x2048 .bf16) (xde : Vec F S1x2048 .f32) (xmt : Vec F S64x2048 .f32) (xmn : Vec F S2048x64 .bf16) :
    { L20 : List (View.Piece (Elt F) S400x2 .f32) //
      ∀ (xi19 : Vec F S400x32 .f32) (E : Set ℕ) (K : PUnit → sProp 𝕄),
        iprop(insOwned c B X ∗ owns (c : Thread nD τ) B.a20 fullShare xi19 ∗ (∃ d, owns (c : Thread nD τ) B.a21 fullShare d) ∗ owns (c : Thread nD τ) B.a22 fullShare xhq ∗ owns (c : Thread nD τ) B.a23 fullShare xde ∗ owns (c : Thread nD τ) B.a24 fullShare xmt ∗ owns (c : Thread nD τ) B.a25 fullShare xmn
            ∗ (iprop(insOwned c B X ∗ owns (c : Thread nD τ) B.a20 fullShare xi19 ∗ (∃ f, B.a21.view.loc (c : Thread nD τ) ↦[B.a21.view.set]{fullShare} B.a21.view.writes (Elt F) f L20) ∗ owns (c : Thread nD τ) B.a22 fullShare xhq ∗ owns (c : Thread nD τ) B.a23 fullShare xde ∗ owns (c : Thread nD τ) B.a24 fullShare xmt ∗ owns (c : Thread nD τ) B.a25 fullShare xmn) -∗ K ⟨⟩))
          ⊢ wp frame (wpE (defs₀ (F := F)) Variants.none c none) E (body i B) K } := by
  refine ⟨?_, fun xi19 E K => ?run⟩
  case run =>
    simp only [body, cc0__kernel_eq_skeleton]; unfold cc0__kernel_skel
    unfold insOwned owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, ⟨%f19, %hf19, H19⟩, ⟨%d20, %f20, %hf20, H20⟩, ⟨%f21, %hf21, H21⟩, ⟨%f22, %hf22, H22⟩, ⟨%f23, %hf23, H23⟩, ⟨%f24, %hf24, H24⟩, Hk⟩
    obtain rfl := B.w1.eq_unread hf0; obtain rfl := B.w2.eq_unread hf1; obtain rfl := B.w3.eq_unread hf2; obtain rfl := B.w4.eq_unread hf3; obtain rfl := B.w5.eq_unread hf4; obtain rfl := B.w6.eq_unread hf5; obtain rfl := B.w7.eq_unread hf6; obtain rfl := B.w8.eq_unread hf7; obtain rfl := B.w9.eq_unread hf8; obtain rfl := B.w10.eq_unread hf9; obtain rfl := B.w11.eq_unread hf10; obtain rfl := B.w12.eq_unread hf11; obtain rfl := B.w13.eq_unread hf12; obtain rfl := B.w14.eq_unread hf13; obtain rfl := B.w15.eq_unread hf14; obtain rfl := B.w16.eq_unread hf15; obtain rfl := B.w17.eq_unread hf16; obtain rfl := B.w18.eq_unread hf17; obtain rfl := B.w19.eq_unread hf18; obtain rfl := B.w20.eq_unread hf19
    obtain rfl := B.w21.eq_unread hf20; obtain rfl := B.w22.eq_unread hf21; obtain rfl := B.w23.eq_unread hf22; obtain rfl := B.w24.eq_unread hf23; obtain rfl := B.w25.eq_unread hf24
    sl_exec (disch := first | exact h1 | exact h2 | exact h3 | exact h4 | exact h5 | exact h6)
    sl_step
    iapply Hk
    isplitl [H0 H1 H2 H3 H4 H5 H6 H7 H8 H9 H10 H11 H12 H13 H14 H15 H16 H17 H18]
    ·
      isplitl [H0]; · iapply ownsU c B.w1; iexact H0
      isplitl [H1]; · iapply ownsU c B.w2; iexact H1
      isplitl [H2]; · iapply ownsU c B.w3; iexact H2
      isplitl [H3]; · iapply ownsU c B.w4; iexact H3
      isplitl [H4]; · iapply ownsU c B.w5; iexact H4
      isplitl [H5]; · iapply ownsU c B.w6; iexact H5
      isplitl [H6]; · iapply ownsU c B.w7; iexact H6
      isplitl [H7]; · iapply ownsU c B.w8; iexact H7
      isplitl [H8]; · iapply ownsU c B.w9; iexact H8
      isplitl [H9]; · iapply ownsU c B.w10; iexact H9
      isplitl [H10]; · iapply ownsU c B.w11; iexact H10
      isplitl [H11]; · iapply ownsU c B.w12; iexact H11
      isplitl [H12]; · iapply ownsU c B.w13; iexact H12
      isplitl [H13]; · iapply ownsU c B.w14; iexact H13
      isplitl [H14]; · iapply ownsU c B.w15; iexact H14
      isplitl [H15]; · iapply ownsU c B.w16; iexact H15
      isplitl [H16]; · iapply ownsU c B.w17; iexact H16
      isplitl [H17]; · iapply ownsU c B.w18; iexact H17
      iapply ownsU c B.w19; iexact H18
    isplitl [H19]; · iapply ownsU c B.w20; iexact H19
    isplitl [H20]
    · iexists _; iexact H20
    isplitl [H21]; · iapply ownsU c B.w22; iexact H21
    isplitl [H22]; · iapply ownsU c B.w23; iexact H22
    isplitl [H23]; · iapply ownsU c B.w24; iexact H23
    iapply ownsU c B.w25; iexact H24

end Cert.KernelIdeal.Hand

end
-- ==== Proof.KIBefore19.lean ====
import proofs.«108041_g40587440947829_cont_sun_m_1101_23_alg».proof.Proof.KIData
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

theorem fetch19 (t : Fin cfg0.N) : (cfg0.win 19).fetch t = false := (cfg0.win 19).fetch_out rfl t

theorem clip19 : ∀ (t : Fin cfg0.N) (a : Fin (cfg0.win 19).block.rank), (cfg0.win 19).clip (grid0.coords t) a = none := by
  decide +kernel

theorem before19_step (c : Dev nD) (n : ℕ) (h : n + 1 < cfg0.N) (d) :
    (dats m 0 c).before 19 ⟨n + 1, h⟩ d
      = if (cfg0.win 19).flush ⟨n, Nat.lt_of_succ_lt h⟩ then d else (dats m 0 c).left 19 ⟨n, Nat.lt_of_succ_lt h⟩ d :=
  (dats m 0 c).before_of_pos 19 ⟨n + 1, h⟩ (Nat.succ_ne_zero n) (fetch19 _) d

theorem kept19 (c : Dev nD) (t : Fin cfg0.N) (d) : (dats m 0 c).kept 19 t d = after19 m c t := by
  unfold Dat.kept
  rw [Pipeline.fill_of_clip_none 19 _ (clip19 t) d ((dats m 0 c).after 19 t), Window.fill_cut, after_19]

theorem before19_25 (c : Dev nD) (h : 25 < cfg0.N) (d) :
    (dats m 0 c).before 19 ⟨25, h⟩ d = gTile m c (pt 24 (by omega)) := by
  rw [before19_step m c 24 h d, noFlush19_24 ⟨24, Nat.lt_of_succ_lt h⟩ rfl, if_neg Bool.false_ne_true]
  have hl : (dats m 0 c).left 19 ⟨24, Nat.lt_of_succ_lt h⟩ d = (dats m 0 c).kept 19 ⟨24, Nat.lt_of_succ_lt h⟩ d := by
    unfold Dat.left; rw [live19 ⟨24, Nat.lt_of_succ_lt h⟩ (show (24 : ℕ) < 25 by omega)]
  rw [hl, kept19 m c _ d]
  unfold after19
  rw [dif_pos (show (24 : ℕ) < 25 by omega)]

theorem before19_from25 (c : Dev nD) :
    ∀ n, 25 ≤ n → ∀ (h : n < cfg0.N) (d), (dats m 0 c).before 19 ⟨n, h⟩ d = gTile m c (pt 24 (by omega)) := by
  intro n hn
  induction n, hn using Nat.le_induction with
  | base => intro h d; exact before19_25 m c h d
  | succ n hn ih =>
    intro h d
    have h54 : n < 54 := by have h' := h; rw [N55] at h'; omega
    rw [before19_step m c n h d, noFlush19 ⟨n, Nat.lt_of_succ_lt h⟩ hn h54, if_neg Bool.false_ne_true]
    have hl : (dats m 0 c).left 19 ⟨n, Nat.lt_of_succ_lt h⟩ d = (dats m 0 c).before 19 ⟨n, Nat.lt_of_succ_lt h⟩ d := by
      unfold Dat.left; rw [idle19 ⟨n, Nat.lt_of_succ_lt h⟩ hn]
    rw [hl]
    exact ih (Nat.lt_of_succ_lt h) d

theorem before19_kept (c : Dev nD) (t : Fin cfg0.N) (ht : 25 ≤ t.val) (d) :
    (dats m 0 c).before 19 t d = gTile m c (pt 24 (by omega)) :=
  before19_from25 m c t.val ht t.isLt d

end Cert.KernelIdeal.Hand

end
-- ==== Proof.KICaseF.lean ====
import proofs.«108041_g40587440947829_cont_sun_m_1101_23_alg».proof.Proof.KIRunF
import proofs.«108041_g40587440947829_cont_sun_m_1101_23_alg».proof.Proof.KIHq
import proofs.«108041_g40587440947829_cont_sun_m_1101_23_alg».proof.Proof.KIBefore19
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (c : Dev nD) (i : grid0.Coords) (B : Bufs) (h1 : ¬cInit i) (h2 : ¬cPh0 i) (h3 : ¬cN1 i) (h4 : ¬cPh1 i) (h5 : ¬cN2 i) (h6 : cPh2 i) (X : Ins F) (xhq : Vec F S10000x2048 .bf16) (xde : Vec F S1x2048 .f32) (xmt : Vec F S64x2048 .f32) (xmn : Vec F S2048x64 .bf16)

theorem cover_F (y : S400x2.Idx) :
    ∃ pc ∈ (runF c i B h1 h2 h3 h4 h5 h6 X xhq xde xmt xmn).1, y ∈ pc.1.set :=
  View.cover_of_tiledL (runF c i B h1 h2 h3 h4 h5 h6 X xhq xde xmt xmn).1 S400x2.size (by sl_kernel_rfl) y

theorem read_F (f : B.a21.view.ty.Contents (Elt F)) :
    B.a21.view.read (Elt F) (B.a21.view.writes (Elt F) f (runF c i B h1 h2 h3 h4 h5 h6 X xhq xde xmt xmn).1)
      = k0_pay8 (View.readAt (Elt F) B.a22.view (Rect.unit (s := S10000x2048) (k0_off3 i) S400x2048.size (k0_off3_inb i h6)).toLoadRect (B.w22.unread xhq)) xmn X.x17 X.x18 := by
  rw [View.read_writes_eq_canon _ _ _ (cover_F c i B h1 h2 h3 h4 h5 h6 X xhq xde xmt xmn)]
  unfold runF; dsimp only; sl_unfold_words
  rw [View.canon_unit_zero hz2]
  have e25 : View.readAt (Elt F) B.a25.view (Rect.unit ![0, 0] S2048x64.size inb_S2048x64_S2048x64_0_0).toLoadRect (B.w25.unread xmn) = xmn := by
    rw [View.readAt_eq_ld, B.w25.read_unread, View.ld_unit_zero (S := S2048x64) hz2]
  have e18 : View.readAt (Elt F) B.a18.view (Rect.unit ![0, 0] S64x2.size inb_S64x2_S64x2_0_0).toLoadRect (B.w18.unread X.x17) = X.x17 := by
    rw [View.readAt_eq_ld, B.w18.read_unread, View.ld_unit_zero (S := S64x2) hz2]
  have e19 : View.readAt (Elt F) B.a19.view (Rect.unit ![0, 0] S1x2.size inb_S1x2_S1x2_0_0).toLoadRect (B.w19.unread X.x18) = X.x18 := by
    rw [View.readAt_eq_ld, B.w19.read_unread, View.ld_unit_zero (S := S1x2) hz2]
  rw [e25, e18, e19]

theorem g1_F (t : Fin cfg0.N) (ht : 31 ≤ t.val) : ¬cInit (grid0.coords t) := fun h => by have := (hcInit t).mp h; omega
theorem g2_F (t : Fin cfg0.N) (ht : 31 ≤ t.val) : ¬cPh0 (grid0.coords t) := fun h => by have := (hcPh0 t).mp h; omega
theorem g3_F (t : Fin cfg0.N) (ht : 31 ≤ t.val) : ¬cN1 (grid0.coords t) := fun h => by have := (hcN1 t).mp h; omega
theorem g4_F (t : Fin cfg0.N) (ht : 31 ≤ t.val) : ¬cPh1 (grid0.coords t) := fun h => by have := (hcPh1 t).mp h; omega
theorem g5_F (t : Fin cfg0.N) (ht : 31 ≤ t.val) : ¬cN2 (grid0.coords t) := fun h => by have := (hcN2 t).mp h; omega
theorem g6_F (t : Fin cfg0.N) (ht : 31 ≤ t.val) : cPh2 (grid0.coords t) := (hcPh2 t).mpr (by omega)

abbrev runAt_F (c : Dev nD) (t : Fin cfg0.N) (ht : 31 ≤ t.val) (hq : Vec F S10000x2048 .bf16) :=
  runF c (grid0.coords t) (bufs t) (g1_F t ht) (g2_F t ht) (g3_F t ht) (g4_F t ht) (g5_F t ht) (g6_F t ht) (ins m c t) hq (DE m c) (MT2 m c) (MN2 m c)

theorem after20_F (c : Dev nD) (t : Fin cfg0.N) (ht : 30 ≤ t.val) :
    after20 m c t = k0_pay8 (hqS400 m c (t.val - 30) (by have := lt_of_lt_of_eq t.isLt N55; omega)) (MN2 m c) (bHdW m c t) (bHdb m c t) := by
  have hN : t.val < 55 := lt_of_lt_of_eq t.isLt N55
  have e : pt (30 + (t.val - 30)) (by omega) = t := Fin.ext (by show 30 + (t.val - 30) = t.val; omega)
  unfold after20
  rw [dif_pos ht]
  unfold outTile
  rw [e]

theorem out20_F (c : Dev nD) (t : Fin cfg0.N) (ht : 31 ≤ t.val) (hq : Vec F S10000x2048 .bf16) (hok : HqOk m c 25 hq)
    (f : (ms20 t).view.ty.Contents (Elt F)) :
    (ms20 t).view.read (Elt F) ((ms20 t).view.writes (Elt F) f (runAt_F m c t ht hq).1) = after20 m c t := by
  have hN : t.val < 55 := lt_of_lt_of_eq t.isLt N55
  refine (read_F c (grid0.coords t) (bufs t) (g1_F t ht) (g2_F t ht) (g3_F t ht) (g4_F t ht) (g5_F t ht) (g6_F t ht) (ins m c t) hq (DE m c) (MT2 m c) (MN2 m c) f).trans ?_
  rw [hq_read400 m c scHq (Memref.isWhole_whole _) hq hok (t.val - 30) (by omega) _ _ (off3_eq t (by omega))]
  rw [after20_F m c t (by omega)]

theorem leaves19_F (c : Dev nD) (t : Fin cfg0.N) (ht : 31 ≤ t.val) (d) :
    owns (c : Thread nD τ) (ms19 t) fullShare ((dats m 0 c).before 19 t d) ⊢ (dats m 0 c).leavesExact 19 t := by
  have hN : t.val < 55 := lt_of_lt_of_eq t.isLt N55
  by_cases h54 : t.val = 54
  · rw [show (dats m 0 c).leavesExact 19 t = owns (c : Thread nD τ) (ms19 t) fullShare ((dats m 0 c).after 19 t) from by
        unfold Dat.leavesExact; rw [idle19 t (by omega), flush19_last t h54], after_19]
    rw [before19_kept m c t (by omega) d]
    rw [show after19 m c t = gTile m c (pt 24 (by omega)) from by unfold after19; rw [dif_neg (by omega)]]
  · rw [Dat.leavesExact_idle (dats m 0 c) 19 t (idle19 t (by omega)) (noFlush19 t (by omega) (by omega))]
    iintro H
    iexists d
    iexact H

set_option maxHeartbeats 4000000 in
/-- The body obligation in control case F: the invariant before the point and the run's stores give the invariant after it. -/
theorem sound_F (c : Dev nD) (t : Fin cfg0.N) (ht : 31 ≤ t.val) :
    bodyPre m c t ⊢ wp frame (wpE (defs₀ (F := F)) Variants.none c none) Set.univ (bodyAt0 t) (fun _ => bodyPost m c t) := by
  have hN : t.val < 55 := lt_of_lt_of_eq t.isLt N55
  refine sound_of m c t ?_
  unfold bodyAt0
  rw [PhiS_scat2 m c t.val ht, PhiS_scat2 m c (t.val + 1) (by omega)]
  rw [show (dats m 0 c).leavesExact 20 t = owns (c : Thread nD τ) (ms20 t) fullShare ((dats m 0 c).after 20 t) from by
        unfold Dat.leavesExact; rw [live20 t (by omega)], after_20]
  iintro ⟨⟨⟨⟨%hq, Hhq, %hok⟩, Hde, Hmt, Hmn⟩, Hg⟩, Ho, Hin, ⟨%d19, H19⟩, ⟨%d20, H20⟩⟩
  iapply ((runAt_F m c t ht hq).2 _ Set.univ _)
  isplitl [Hin]; · iexact Hin
  isplitl [H19]; · iexact H19
  isplitl [H20]; · iexists _; iexact H20
  isplitl [Hhq]; · iexact Hhq
  isplitl [Hde]; · iexact Hde
  isplitl [Hmt]; · iexact Hmt
  isplitl [Hmn]; · iexact Hmn
  iintro ⟨Hin, H19, ⟨%e20, H20⟩, Hhq, Hde, Hmt, Hmn⟩
  isplitl [Hhq Hde Hmt Hmn Hg]
  · isplitl [Hhq Hde Hmt Hmn]
    · isplitl [Hhq]
      · iexists hq
        isplitl [Hhq]; · iexact Hhq
        ipureintro; exact hok
      isplitl [Hde]; · iexact Hde
      isplitl [Hmt]; · iexact Hmt
      iexact Hmn
    iexact Hg
  isplitl [Ho]; · iexact Ho
  isplitl [Hin]; · iexact Hin
  isplitl [H19]; · iapply (leaves19_F m c t ht d19); iexact H19
  unfold owns; iexists _; isplitr
  swap; · iexact H20
  ipureintro; exact out20_F m c t ht hq hok _

end Cert.KernelIdeal.Hand

end
-- ==== Proof.KIBody.lean ====
import proofs.«108041_g40587440947829_cont_sun_m_1101_23_alg».proof.Proof.KICaseA
import proofs.«108041_g40587440947829_cont_sun_m_1101_23_alg».proof.Proof.KICaseB
import proofs.«108041_g40587440947829_cont_sun_m_1101_23_alg».proof.Proof.KICaseC
import proofs.«108041_g40587440947829_cont_sun_m_1101_23_alg».proof.Proof.KICaseD
import proofs.«108041_g40587440947829_cont_sun_m_1101_23_alg».proof.Proof.KICaseE
import proofs.«108041_g40587440947829_cont_sun_m_1101_23_alg».proof.Proof.KICaseF

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every grid point falls in one of the six control cases. -/
theorem sound_body (c : Dev nD) (t : Fin cfg0.N) :
    bodyPre m c t ⊢ wp frame (wpE (defs₀ (F := F)) Variants.none c none) Set.univ (bodyAt0 t) (fun _ => bodyPost m c t) := by
  have hN : t.val < 55 := lt_of_lt_of_eq t.isLt N55
  by_cases h0 : t.val = 0
  · exact sound_A m c t h0
  by_cases h24 : t.val ≤ 24
  · exact sound_B m c t ⟨by omega, h24⟩
  by_cases e25 : t.val = 25
  · exact sound_C m c t e25
  by_cases h29 : t.val ≤ 29
  · exact sound_D m c t ⟨by omega, h29⟩
  by_cases e30 : t.val = 30
  · exact sound_E m c t e30
  · exact sound_F m c t (by omega)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 from rfl, PhiS_zero]
  try exact Idealize.SL.BI.Entails.refl _

theorem hout (c : Dev nD) : (dats m 0 c).Φ (Fin.last cfg0.N) ⊢ Pipeline.ΦA spec0 c := by
  have e : (dats m 0 c).Φ (Fin.last cfg0.N) = PhiS m c 55 := by
    dsimp only [dats]; rw [Fin.val_last, N55]
  rw [e, PhiS_scat2 m c 55 (by omega), PhiA_eq]
  iintro ⟨⟨⟨%hq, H0, -⟩, H1, H2, H3⟩, Hg⟩
  isplitl [H0 H1 H2 H3]
  · isplitl [H0]; · iexists _; iexact H0
    isplitl [H1]; · iexists _; iexact H1
    isplitl [H2]; · iexists _; iexact H2
    iexists _; iexact H3
  iexact Hg

set_option backward.isDefEq.respectTransparency.types false in
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

end Cert.KernelIdeal.Hand

end
-- ==== Proof.Spec.lean ====
import Idealize.ShloMosaic.PureOps.Ideal
import Idealize.ShloMosaic.Lib.ValueIdx

noncomputable section

namespace Cert.Spec

open Idealize.ShloMosaic

structure Inp where
  x : Fin 10000 → Fin 128 → EReal
  z : Fin 10000 → Fin 16 → EReal
  H : Fin 10000 → Fin 2048 → EReal
  w : Fin 2048 → EReal
  psiW : Fin 128 → Fin 32 → EReal
  psib : Fin 32 → EReal
  phiW : Fin 16 → Fin 32 → EReal
  phib : Fin 32 → EReal
  g1W : Fin 64 → Fin 64 → EReal
  g1b : Fin 64 → EReal
  g2W : Fin 64 → Fin 32 → EReal
  g2b : Fin 32 → EReal
  c1W : Fin 32 → Fin 64 → EReal
  c1b : Fin 64 → EReal
  c2W : Fin 64 → Fin 64 → EReal
  c2b : Fin 64 → EReal
  hdW : Fin 64 → Fin 2 → EReal
  hdb : Fin 2 → EReal

variable (I : Inp) (eps one : EReal)

def x1 (r : Fin 10000) (k : Fin 32) : EReal := (∑ a, I.x r a * I.psiW a k) + I.psib k
def z1 (r : Fin 10000) (k : Fin 32) : EReal := (∑ a, I.z r a * I.phiW a k) + I.phib k

def cat (r : Fin 10000) (c : Fin 64) : EReal :=
  if h : c.val < 32 then x1 I r ⟨c.val, h⟩ else z1 I r ⟨c.val - 32, by omega⟩
def gh (r : Fin 10000) (c : Fin 64) : EReal := max ((∑ a, cat I r a * I.g1W a c) + I.g1b c) 0

def gate (r : Fin 10000) (k : Fin 32) : EReal := Ideal.logistic ((∑ a, gh I r a * I.g2W a k) + I.g2b k)
def fused (r : Fin 10000) (k : Fin 32) : EReal := gate I r k * z1 I r k + (one - gate I r k) * x1 I r k

def Dv (r : Fin 10000) : EReal := ∑ j, I.H r j * I.w j

def s (r : Fin 10000) : EReal := Ideal.rsqrt (Dv I r + eps)

def De (j : Fin 2048) : EReal := ∑ r, I.H r j

def q (j : Fin 2048) : EReal := Ideal.div (I.w j) (De I j + eps)

def lin {n : Nat} (h : Fin 10000 → Fin n → EReal) (W : Fin n → Fin 64 → EReal) (b : Fin 64 → EReal)
    (r : Fin 10000) (d : Fin 64) : EReal := (∑ a, h r a * W a d) + b d

def convR (X : Fin 10000 → Fin 64 → EReal) (r : Fin 10000) (d : Fin 64) : EReal :=
  (∑ j, I.H r j * ((∑ r', I.H r' j * (X r' d * s I eps r')) * q I eps j)) * s I eps r

def convK (X : Fin 10000 → Fin 64 → EReal) (r : Fin 10000) (d : Fin 64) : EReal :=
  ∑ j, (I.H r j * s I eps r) * ((∑ r', X r' d * (I.H r' j * s I eps r')) * q I eps j)

def relu (Y : Fin 10000 → Fin 64 → EReal) (r : Fin 10000) (d : Fin 64) : EReal := max (Y r d) 0

def h1R : Fin 10000 → Fin 64 → EReal := relu (convR I eps (lin (fused I one) I.c1W I.c1b))
def h2R : Fin 10000 → Fin 64 → EReal := relu (convR I eps (lin (h1R I eps one) I.c2W I.c2b))

def logitsR (r : Fin 10000) (o : Fin 2) : EReal := (∑ d, h2R I eps one r d * I.hdW d o) + I.hdb o

def h1K : Fin 10000 → Fin 64 → EReal := relu (convK I eps (lin (fused I one) I.c1W I.c1b))
def h2K : Fin 10000 → Fin 64 → EReal := relu (convK I eps (lin (h1K I eps one) I.c2W I.c2b))

def logitsK (r : Fin 10000) (o : Fin 2) : EReal := (∑ d, h2K I eps one r d * I.hdW d o) + I.hdb o

def arr2 {n0 n1 : Nat} (f : Fin n0 → Fin n1 → EReal) : (⟨2, ![n0, n1]⟩ : Shape).Idx → EReal :=
  fun j => f (j 0) (j 1)

theorem arr2_ix2 {n0 n1 : Nat} (f : Fin n0 → Fin n1 → EReal) (a : Fin n0) (b : Fin n1) :
    arr2 f (ValueIdx.ix2 a b) = f a b := rfl

def ofArrays
    (a0 : (⟨2, ![10000, 128]⟩ : Shape).Idx → EReal) (a1 : (⟨2, ![10000, 16]⟩ : Shape).Idx → EReal)
    (a2 : (⟨2, ![10000, 2048]⟩ : Shape).Idx → EReal) (a3 : (⟨1, ![2048]⟩ : Shape).Idx → EReal)
    (a4 : (⟨2, ![128, 32]⟩ : Shape).Idx → EReal) (a5 : (⟨1, ![32]⟩ : Shape).Idx → EReal)
    (a6 : (⟨2, ![16, 32]⟩ : Shape).Idx → EReal) (a7 : (⟨1, ![32]⟩ : Shape).Idx → EReal)
    (a8 : (⟨2, ![64, 64]⟩ : Shape).Idx → EReal) (a9 : (⟨1, ![64]⟩ : Shape).Idx → EReal)
    (a10 : (⟨2, ![64, 32]⟩ : Shape).Idx → EReal) (a11 : (⟨1, ![32]⟩ : Shape).Idx → EReal)
    (a12 : (⟨2, ![32, 64]⟩ : Shape).Idx → EReal) (a13 : (⟨1, ![64]⟩ : Shape).Idx → EReal)
    (a14 : (⟨2, ![64, 64]⟩ : Shape).Idx → EReal) (a15 : (⟨1, ![64]⟩ : Shape).Idx → EReal)
    (a16 : (⟨2, ![64, 2]⟩ : Shape).Idx → EReal) (a17 : (⟨1, ![2]⟩ : Shape).Idx → EReal) : Inp where
  x r a := a0 (ValueIdx.ix2 r a)
  z r a := a1 (ValueIdx.ix2 r a)
  H r j := a2 (ValueIdx.ix2 r j)
  w j := a3 (ValueIdx.ix1 j)
  psiW a k := a4 (ValueIdx.ix2 a k)
  psib k := a5 (ValueIdx.ix1 k)
  phiW a k := a6 (ValueIdx.ix2 a k)
  phib k := a7 (ValueIdx.ix1 k)
  g1W a c := a8 (ValueIdx.ix2 a c)
  g1b c := a9 (ValueIdx.ix1 c)
  g2W a k := a10 (ValueIdx.ix2 a k)
  g2b k := a11 (ValueIdx.ix1 k)
  c1W a d := a12 (ValueIdx.ix2 a d)
  c1b d := a13 (ValueIdx.ix1 d)
  c2W a d := a14 (ValueIdx.ix2 a d)
  c2b d := a15 (ValueIdx.ix1 d)
  hdW d o := a16 (ValueIdx.ix2 d o)
  hdb o := a17 (ValueIdx.ix1 o)

abbrev epsI : EReal := Ideal.ofBits .f32 0x3089705F#32

abbrev oneI : EReal := Ideal.ofBits .f32 0x3F800000#32

end Cert.Spec

end
-- ==== Proof.KVBlocks.lean ====
import proofs.«108041_g40587440947829_cont_sun_m_1101_23_alg».proof.Proof.KIState
import proofs.«108041_g40587440947829_cont_sun_m_1101_23_alg».proof.Proof.Spec
import Idealize.ShloMosaic.Lib.Pipeline.Value
import Idealize.ShloMosaic.Lib.ValueIdx

set_option maxRecDepth 16384

noncomputable section

namespace Cert.KernelIdeal.KV

open Cert.KernelIdeal Cert.KernelIdeal.Gen Cert.KernelIdeal.Hand
open Idealize.ShloMosaic Idealize.ShloMosaic.TcCoe Idealize.ShloMosaic.ValueIdx
open Idealize.SL Idealize.SL.Sem

variable (m : (ℓ : Loc nD τ sig) → Buf (Elt Ideal) ℓ) (c : Dev nD)

abbrev inpK : Cert.Spec.Inp :=
  Cert.Spec.ofArrays
    (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))
    (m ((c.tc : Thread nD τ).loc main_arg12)) (m ((c.tc : Thread nD τ).loc main_arg13))
    (m ((c.tc : Thread nD τ).loc main_arg14)) (m ((c.tc : Thread nD τ).loc main_arg15))
    (m ((c.tc : Thread nD τ).loc main_arg16)) (m ((c.tc : Thread nD τ).loc main_arg17))

abbrev rowOf (t : ℕ) (ht : t < 25) (a : Fin 400) : Fin 10000 :=
  ⟨400 * t + a.val, by have := a.isLt; omega⟩

theorem eq_ix2_of_coords {N0 N1 : ℕ} (y : (⟨2, ![N0, N1]⟩ : Shape).Idx) (a : Fin N0) (k : Fin N1)
    (h0 : (y 0).val = a.val) (h1 : (y 1).val = k.val) : y = ix2 a k := by
  funext b
  apply Fin.ext
  match b with
  | ⟨0, _⟩ => exact h0
  | ⟨1, _⟩ => exact h1

theorem idx_stream : ∀ t : Fin cfg0.N,
    (win0_0.index t (0 : Fin 2) = min t.val 24 ∧ win0_0.index t (1 : Fin 2) = 0)
    ∧ (win0_1.index t (0 : Fin 2) = min t.val 24 ∧ win0_1.index t (1 : Fin 2) = 0)
    ∧ (win0_2.index t (0 : Fin 2) = min t.val 24 ∧ win0_2.index t (1 : Fin 2) = 0) :=
  (by decide +kernel : ∀ t : Fin grid0.N, _)

theorem idx3 (t : Fin cfg0.N) : win0_3.index t (0 : Fin 2) = 0 ∧ win0_3.index t (1 : Fin 2) = 0 := ⟨rfl, rfl⟩
theorem idx4 (t : Fin cfg0.N) : win0_4.index t (0 : Fin 2) = 0 ∧ win0_4.index t (1 : Fin 2) = 0 := ⟨rfl, rfl⟩
theorem idx5 (t : Fin cfg0.N) : win0_5.index t (0 : Fin 2) = 0 ∧ win0_5.index t (1 : Fin 2) = 0 := ⟨rfl, rfl⟩
theorem idx6 (t : Fin cfg0.N) : win0_6.index t (0 : Fin 2) = 0 ∧ win0_6.index t (1 : Fin 2) = 0 := ⟨rfl, rfl⟩
theorem idx7 (t : Fin cfg0.N) : win0_7.index t (0 : Fin 2) = 0 ∧ win0_7.index t (1 : Fin 2) = 0 := ⟨rfl, rfl⟩
theorem idx8 (t : Fin cfg0.N) : win0_8.index t (0 : Fin 2) = 0 ∧ win0_8.index t (1 : Fin 2) = 0 := ⟨rfl, rfl⟩
theorem idx9 (t : Fin cfg0.N) : win0_9.index t (0 : Fin 2) = 0 ∧ win0_9.index t (1 : Fin 2) = 0 := ⟨rfl, rfl⟩
theorem idx10 (t : Fin cfg0.N) : win0_10.index t (0 : Fin 2) = 0 ∧ win0_10.index t (1 : Fin 2) = 0 := ⟨rfl, rfl⟩
theorem idx11 (t : Fin cfg0.N) : win0_11.index t (0 : Fin 2) = 0 ∧ win0_11.index t (1 : Fin 2) = 0 := ⟨rfl, rfl⟩
theorem idx12 (t : Fin cfg0.N) : win0_12.index t (0 : Fin 2) = 0 ∧ win0_12.index t (1 : Fin 2) = 0 := ⟨rfl, rfl⟩
theorem idx13 (t : Fin cfg0.N) : win0_13.index t (0 : Fin 2) = 0 ∧ win0_13.index t (1 : Fin 2) = 0 := ⟨rfl, rfl⟩
theorem idx14 (t : Fin cfg0.N) : win0_14.index t (0 : Fin 2) = 0 ∧ win0_14.index t (1 : Fin 2) = 0 := ⟨rfl, rfl⟩
theorem idx15 (t : Fin cfg0.N) : win0_15.index t (0 : Fin 2) = 0 ∧ win0_15.index t (1 : Fin 2) = 0 := ⟨rfl, rfl⟩
theorem idx16 (t : Fin cfg0.N) : win0_16.index t (0 : Fin 2) = 0 ∧ win0_16.index t (1 : Fin 2) = 0 := ⟨rfl, rfl⟩
theorem idx17 (t : Fin cfg0.N) : win0_17.index t (0 : Fin 2) = 0 ∧ win0_17.index t (1 : Fin 2) = 0 := ⟨rfl, rfl⟩
theorem idx18 (t : Fin cfg0.N) : win0_18.index t (0 : Fin 2) = 0 ∧ win0_18.index t (1 : Fin 2) = 0 := ⟨rfl, rfl⟩

theorem bH_apply (t : Fin cfg0.N) (ht : t.val < 25) (a : Fin 400) (j : Fin 2048) :
    bH m c t (ix2 a j) = (inpK m c).H (rowOf t.val ht a) j := by
  obtain ⟨⟨e0, e1⟩, -, -⟩ := idx_stream t
  show V m c main_arg2 (((cfg0.win 0).blk t).view.emb (ix2 a j))
    = m ((c.tc : Thread nD τ).loc main_arg2) (ix2 (rowOf t.val ht a) j)
  rw [V_main_arg2]
  refine congrArg _ (eq_ix2_of_coords _ (rowOf t.val ht a) j ?_ ?_)
  · show win0_0.index t (0 : Fin 2) * 400 + 1 * a.val = 400 * t.val + a.val
    rw [e0]; omega
  · show win0_0.index t (1 : Fin 2) * 2048 + 1 * j.val = j.val
    rw [e1]; omega

theorem bX_apply (t : Fin cfg0.N) (ht : t.val < 25) (a : Fin 400) (k : Fin 128) :
    bX m c t (ix2 a k) = (inpK m c).x (rowOf t.val ht a) k := by
  obtain ⟨-, ⟨e0, e1⟩, -⟩ := idx_stream t
  show V m c main_arg0 (((cfg0.win 1).blk t).view.emb (ix2 a k))
    = m ((c.tc : Thread nD τ).loc main_arg0) (ix2 (rowOf t.val ht a) k)
  rw [V_main_arg0]
  refine congrArg _ (eq_ix2_of_coords _ (rowOf t.val ht a) k ?_ ?_)
  · show win0_1.index t (0 : Fin 2) * 400 + 1 * a.val = 400 * t.val + a.val
    rw [e0]; omega
  · show win0_1.index t (1 : Fin 2) * 128 + 1 * k.val = k.val
    rw [e1]; omega

theorem bZ_apply (t : Fin cfg0.N) (ht : t.val < 25) (a : Fin 400) (k : Fin 16) :
    bZ m c t (ix2 a k) = (inpK m c).z (rowOf t.val ht a) k := by
  obtain ⟨-, -, e0, e1⟩ := idx_stream t
  show V m c main_arg1 (((cfg0.win 2).blk t).view.emb (ix2 a k))
    = m ((c.tc : Thread nD τ).loc main_arg1) (ix2 (rowOf t.val ht a) k)
  rw [V_main_arg1]
  refine congrArg _ (eq_ix2_of_coords _ (rowOf t.val ht a) k ?_ ?_)
  · show win0_2.index t (0 : Fin 2) * 400 + 1 * a.val = 400 * t.val + a.val
    rw [e0]; omega
  · show win0_2.index t (1 : Fin 2) * 16 + 1 * k.val = k.val
    rw [e1]; omega

theorem bPsiW_apply (t : Fin cfg0.N) (a : Fin 128) (k : Fin 32) :
    bPsiW m c t (ix2 a k) = (inpK m c).psiW a k := by
  obtain ⟨e0, e1⟩ := idx5 t
  show V m c main_arg4 (((cfg0.win 5).blk t).view.emb (ix2 a k))
    = m ((c.tc : Thread nD τ).loc main_arg4) (ix2 a k)
  rw [V_main_arg4]
  refine congrArg _ (eq_ix2_of_coords _ a k ?_ ?_)
  · show win0_5.index t (0 : Fin 2) * 128 + 1 * a.val = a.val
    rw [e0]; omega
  · show win0_5.index t (1 : Fin 2) * 32 + 1 * k.val = k.val
    rw [e1]; omega

theorem bPhiW_apply (t : Fin cfg0.N) (a : Fin 16) (k : Fin 32) :
    bPhiW m c t (ix2 a k) = (inpK m c).phiW a k := by
  obtain ⟨e0, e1⟩ := idx7 t
  show V m c main_arg6 (((cfg0.win 7).blk t).view.emb (ix2 a k))
    = m ((c.tc : Thread nD τ).loc main_arg6) (ix2 a k)
  rw [V_main_arg6]
  refine congrArg _ (eq_ix2_of_coords _ a k ?_ ?_)
  · show win0_7.index t (0 : Fin 2) * 16 + 1 * a.val = a.val
    rw [e0]; omega
  · show win0_7.index t (1 : Fin 2) * 32 + 1 * k.val = k.val
    rw [e1]; omega

theorem bG1W_apply (t : Fin cfg0.N) (a : Fin 64) (k : Fin 64) :
    bG1W m c t (ix2 a k) = (inpK m c).g1W a k := by
  obtain ⟨e0, e1⟩ := idx9 t
  show V m c main_arg8 (((cfg0.win 9).blk t).view.emb (ix2 a k))
    = m ((c.tc : Thread nD τ).loc main_arg8) (ix2 a k)
  rw [V_main_arg8]
  refine congrArg _ (eq_ix2_of_coords _ a k ?_ ?_)
  · show win0_9.index t (0 : Fin 2) * 64 + 1 * a.val = a.val
    rw [e0]; omega
  · show win0_9.index t (1 : Fin 2) * 64 + 1 * k.val = k.val
    rw [e1]; omega

theorem bG2W_apply (t : Fin cfg0.N) (a : Fin 64) (k : Fin 32) :
    bG2W m c t (ix2 a k) = (inpK m c).g2W a k := by
  obtain ⟨e0, e1⟩ := idx11 t
  show V m c main_arg10 (((cfg0.win 11).blk t).view.emb (ix2 a k))
    = m ((c.tc : Thread nD τ).loc main_arg10) (ix2 a k)
  rw [V_main_arg10]
  refine congrArg _ (eq_ix2_of_coords _ a k ?_ ?_)
  · show win0_11.index t (0 : Fin 2) * 64 + 1 * a.val = a.val
    rw [e0]; omega
  · show win0_11.index t (1 : Fin 2) * 32 + 1 * k.val = k.val
    rw [e1]; omega

theorem bC1W_apply (t : Fin cfg0.N) (a : Fin 32) (k : Fin 64) :
    bC1W m c t (ix2 a k) = (inpK m c).c1W a k := by
  obtain ⟨e0, e1⟩ := idx13 t
  show V m c main_arg12 (((cfg0.win 13).blk t).view.emb (ix2 a k))
    = m ((c.tc : Thread nD τ).loc main_arg12) (ix2 a k)
  rw [V_main_arg12]
  refine congrArg _ (eq_ix2_of_coords _ a k ?_ ?_)
  · show win0_13.index t (0 : Fin 2) * 32 + 1 * a.val = a.val
    rw [e0]; omega
  · show win0_13.index t (1 : Fin 2) * 64 + 1 * k.val = k.val
    rw [e1]; omega

theorem bC2W_apply (t : Fin cfg0.N) (a : Fin 64) (k : Fin 64) :
    bC2W m c t (ix2 a k) = (inpK m c).c2W a k := by
  obtain ⟨e0, e1⟩ := idx15 t
  show V m c main_arg14 (((cfg0.win 15).blk t).view.emb (ix2 a k))
    = m ((c.tc : Thread nD τ).loc main_arg14) (ix2 a k)
  rw [V_main_arg14]
  refine congrArg _ (eq_ix2_of_coords _ a k ?_ ?_)
  · show win0_15.index t (0 : Fin 2) * 64 + 1 * a.val = a.val
    rw [e0]; omega
  · show win0_15.index t (1 : Fin 2) * 64 + 1 * k.val = k.val
    rw [e1]; omega

theorem bHdW_apply (t : Fin cfg0.N) (a : Fin 64) (k : Fin 2) :
    bHdW m c t (ix2 a k) = (inpK m c).hdW a k := by
  obtain ⟨e0, e1⟩ := idx17 t
  show V m c main_arg16 (((cfg0.win 17).blk t).view.emb (ix2 a k))
    = m ((c.tc : Thread nD τ).loc main_arg16) (ix2 a k)
  rw [V_main_arg16]
  refine congrArg _ (eq_ix2_of_coords _ a k ?_ ?_)
  · show win0_17.index t (0 : Fin 2) * 64 + 1 * a.val = a.val
    rw [e0]; omega
  · show win0_17.index t (1 : Fin 2) * 2 + 1 * k.val = k.val
    rw [e1]; omega

theorem row_at (n : ℕ) (x : (⟨1, ![n]⟩ : Shape).Idx → EReal)
    (h : (⟨1, ![n]⟩ : Shape).ShapeCasts ⟨2, ![1, n]⟩) (k : Fin n) :
    shapeCast (⟨2, ![1, n]⟩ : Shape) x h (ix2 (0 : Fin 1) k) = x (ix1 k) := by
  refine shapeCast_apply x h _ _ ?_
  rw [Shape.rowMajor_val_one, Shape.rowMajor_val_two]
  show k.val = 0 * _ + k.val
  omega

theorem col_at (n : ℕ) (x : (⟨1, ![n]⟩ : Shape).Idx → EReal)
    (h : (⟨1, ![n]⟩ : Shape).ShapeCasts ⟨2, ![n, 1]⟩) (k : Fin n) :
    shapeCast (⟨2, ![n, 1]⟩ : Shape) x h (ix2 k (0 : Fin 1)) = x (ix1 k) := by
  refine shapeCast_apply x h _ _ ?_
  rw [Shape.rowMajor_val_one, Shape.rowMajor_val_two]
  show k.val = k.val * 1 + 0
  omega

theorem V_main_v1 : (V m c main_v1 : S2048x1.Idx → EReal)
    = shapeCast S2048x1 (m ((c.tc : Thread nD τ).loc main_arg3) : S2048.Idx → EReal)
        shapeCasts_S2048_S2048x1 := by
  dsimp only [Gen.V, Gen.hostOps0]; after_results; rfl

theorem V_main_v2 : (V m c main_v2 : S1x2048.Idx → EReal)
    = shapeCast S1x2048 (m ((c.tc : Thread nD τ).loc main_arg3) : S2048.Idx → EReal)
        shapeCasts_S2048_S1x2048 := by
  dsimp only [Gen.V, Gen.hostOps0]; after_results; rfl

theorem V_main_v3 : (V m c main_v3 : S1x32.Idx → EReal)
    = shapeCast S1x32 (m ((c.tc : Thread nD τ).loc main_arg5) : S32.Idx → EReal)
        shapeCasts_S32_S1x32 := by
  dsimp only [Gen.V, Gen.hostOps0]; after_results; rfl

theorem V_main_v4 : (V m c main_v4 : S1x32.Idx → EReal)
    = shapeCast S1x32 (m ((c.tc : Thread nD τ).loc main_arg7) : S32.Idx → EReal)
        shapeCasts_S32_S1x32 := by
  dsimp only [Gen.V, Gen.hostOps0]; after_results; rfl

theorem V_main_v5 : (V m c main_v5 : S1x64.Idx → EReal)
    = shapeCast S1x64 (m ((c.tc : Thread nD τ).loc main_arg9) : S64.Idx → EReal)
        shapeCasts_S64_S1x64 := by
  dsimp only [Gen.V, Gen.hostOps0]; after_results; rfl

theorem V_main_v6 : (V m c main_v6 : S1x32.Idx → EReal)
    = shapeCast S1x32 (m ((c.tc : Thread nD τ).loc main_arg11) : S32.Idx → EReal)
        shapeCasts_S32_S1x32 := by
  dsimp only [Gen.V, Gen.hostOps0]; after_results; rfl

theorem V_main_v7 : (V m c main_v7 : S1x64.Idx → EReal)
    = shapeCast S1x64 (m ((c.tc : Thread nD τ).loc main_arg13) : S64.Idx → EReal)
        shapeCasts_S64_S1x64 := by
  dsimp only [Gen.V, Gen.hostOps0]; after_results; rfl

theorem V_main_v8 : (V m c main_v8 : S1x64.Idx → EReal)
    = shapeCast S1x64 (m ((c.tc : Thread nD τ).loc main_arg15) : S64.Idx → EReal)
        shapeCasts_S64_S1x64 := by
  dsimp only [Gen.V, Gen.hostOps0]; after_results; rfl

theorem V_main_v9 : (V m c main_v9 : S1x2.Idx → EReal)
    = shapeCast S1x2 (m ((c.tc : Thread nD τ).loc main_arg17) : S2.Idx → EReal)
        shapeCasts_S2_S1x2 := by
  dsimp only [Gen.V, Gen.hostOps0]; after_results; rfl

theorem bWc_apply (t : Fin cfg0.N) (j : Fin 2048) :
    bWc m c t (ix2 j (0 : Fin 1)) = (inpK m c).w j := by
  obtain ⟨e0, e1⟩ := idx3 t
  show V m c main_v1 (((cfg0.win 3).blk t).view.emb (ix2 j (0 : Fin 1)))
    = m ((c.tc : Thread nD τ).loc main_arg3) (ix1 j)
  rw [V_main_v1]
  refine (congrArg _ (eq_ix2_of_coords _ j (0 : Fin 1) ?_ ?_)).trans (col_at 2048 _ _ j)
  · show win0_3.index t (0 : Fin 2) * 2048 + 1 * j.val = j.val
    rw [e0]; omega
  · show win0_3.index t (1 : Fin 2) * 1 + 1 * 0 = 0
    rw [e1]

theorem bWr_apply (t : Fin cfg0.N) (j : Fin 2048) :
    bWr m c t (ix2 (0 : Fin 1) j) = (inpK m c).w j := by
  obtain ⟨e0, e1⟩ := idx4 t
  show V m c main_v2 (((cfg0.win 4).blk t).view.emb (ix2 (0 : Fin 1) j))
    = m ((c.tc : Thread nD τ).loc main_arg3) (ix1 j)
  rw [V_main_v2]
  refine (congrArg _ (eq_ix2_of_coords _ (0 : Fin 1) j ?_ ?_)).trans (row_at 2048 _ _ j)
  · show win0_4.index t (0 : Fin 2) * 1 + 1 * 0 = 0
    rw [e0]
  · show win0_4.index t (1 : Fin 2) * 2048 + 1 * j.val = j.val
    rw [e1]; omega

theorem bPsib_apply (t : Fin cfg0.N) (k : Fin 32) :
    bPsib m c t (ix2 (0 : Fin 1) k) = (inpK m c).psib k := by
  obtain ⟨e0, e1⟩ := idx6 t
  show V m c main_v3 (((cfg0.win 6).blk t).view.emb (ix2 (0 : Fin 1) k))
    = m ((c.tc : Thread nD τ).loc main_arg5) (ix1 k)
  rw [V_main_v3]
  refine (congrArg _ (eq_ix2_of_coords _ (0 : Fin 1) k ?_ ?_)).trans (row_at 32 _ _ k)
  · show win0_6.index t (0 : Fin 2) * 1 + 1 * 0 = 0
    rw [e0]
  · show win0_6.index t (1 : Fin 2) * 32 + 1 * k.val = k.val
    rw [e1]; omega

theorem bPhib_apply (t : Fin cfg0.N) (k : Fin 32) :
    bPhib m c t (ix2 (0 : Fin 1) k) = (inpK m c).phib k := by
  obtain ⟨e0, e1⟩ := idx8 t
  show V m c main_v4 (((cfg0.win 8).blk t).view.emb (ix2 (0 : Fin 1) k))
    = m ((c.tc : Thread nD τ).loc main_arg7) (ix1 k)
  rw [V_main_v4]
  refine (congrArg _ (eq_ix2_of_coords _ (0 : Fin 1) k ?_ ?_)).trans (row_at 32 _ _ k)
  · show win0_8.index t (0 : Fin 2) * 1 + 1 * 0 = 0
    rw [e0]
  · show win0_8.index t (1 : Fin 2) * 32 + 1 * k.val = k.val
    rw [e1]; omega

theorem bG1b_apply (t : Fin cfg0.N) (k : Fin 64) :
    bG1b m c t (ix2 (0 : Fin 1) k) = (inpK m c).g1b k := by
  obtain ⟨e0, e1⟩ := idx10 t
  show V m c main_v5 (((cfg0.win 10).blk t).view.emb (ix2 (0 : Fin 1) k))
    = m ((c.tc : Thread nD τ).loc main_arg9) (ix1 k)
  rw [V_main_v5]
  refine (congrArg _ (eq_ix2_of_coords _ (0 : Fin 1) k ?_ ?_)).trans (row_at 64 _ _ k)
  · show win0_10.index t (0 : Fin 2) * 1 + 1 * 0 = 0
    rw [e0]
  · show win0_10.index t (1 : Fin 2) * 64 + 1 * k.val = k.val
    rw [e1]; omega

theorem bG2b_apply (t : Fin cfg0.N) (k : Fin 32) :
    bG2b m c t (ix2 (0 : Fin 1) k) = (inpK m c).g2b k := by
  obtain ⟨e0, e1⟩ := idx12 t
  show V m c main_v6 (((cfg0.win 12).blk t).view.emb (ix2 (0 : Fin 1) k))
    = m ((c.tc : Thread nD τ).loc main_arg11) (ix1 k)
  rw [V_main_v6]
  refine (congrArg _ (eq_ix2_of_coords _ (0 : Fin 1) k ?_ ?_)).trans (row_at 32 _ _ k)
  · show win0_12.index t (0 : Fin 2) * 1 + 1 * 0 = 0
    rw [e0]
  · show win0_12.index t (1 : Fin 2) * 32 + 1 * k.val = k.val
    rw [e1]; omega

theorem bC1b_apply (t : Fin cfg0.N) (k : Fin 64) :
    bC1b m c t (ix2 (0 : Fin 1) k) = (inpK m c).c1b k := by
  obtain ⟨e0, e1⟩ := idx14 t
  show V m c main_v7 (((cfg0.win 14).blk t).view.emb (ix2 (0 : Fin 1) k))
    = m ((c.tc : Thread nD τ).loc main_arg13) (ix1 k)
  rw [V_main_v7]
  refine (congrArg _ (eq_ix2_of_coords _ (0 : Fin 1) k ?_ ?_)).trans (row_at 64 _ _ k)
  · show win0_14.index t (0 : Fin 2) * 1 + 1 * 0 = 0
    rw [e0]
  · show win0_14.index t (1 : Fin 2) * 64 + 1 * k.val = k.val
    rw [e1]; omega

theorem bC2b_apply (t : Fin cfg0.N) (k : Fin 64) :
    bC2b m c t (ix2 (0 : Fin 1) k) = (inpK m c).c2b k := by
  obtain ⟨e0, e1⟩ := idx16 t
  show V m c main_v8 (((cfg0.win 16).blk t).view.emb (ix2 (0 : Fin 1) k))
    = m ((c.tc : Thread nD τ).loc main_arg15) (ix1 k)
  rw [V_main_v8]
  refine (congrArg _ (eq_ix2_of_coords _ (0 : Fin 1) k ?_ ?_)).trans (row_at 64 _ _ k)
  · show win0_16.index t (0 : Fin 2) * 1 + 1 * 0 = 0
    rw [e0]
  · show win0_16.index t (1 : Fin 2) * 64 + 1 * k.val = k.val
    rw [e1]; omega

theorem bHdb_apply (t : Fin cfg0.N) (k : Fin 2) :
    bHdb m c t (ix2 (0 : Fin 1) k) = (inpK m c).hdb k := by
  obtain ⟨e0, e1⟩ := idx18 t
  show V m c main_v9 (((cfg0.win 18).blk t).view.emb (ix2 (0 : Fin 1) k))
    = m ((c.tc : Thread nD τ).loc main_arg17) (ix1 k)
  rw [V_main_v9]
  refine (congrArg _ (eq_ix2_of_coords _ (0 : Fin 1) k ?_ ?_)).trans (row_at 2 _ _ k)
  · show win0_18.index t (0 : Fin 2) * 1 + 1 * 0 = 0
    rw [e0]
  · show win0_18.index t (1 : Fin 2) * 2 + 1 * k.val = k.val
    rw [e1]; omega

end Cert.KernelIdeal.KV

end
-- ==== Proof.KVTiles.lean ====
import proofs.«108041_g40587440947829_cont_sun_m_1101_23_alg».proof.Proof.KIState
import proofs.«108041_g40587440947829_cont_sun_m_1101_23_alg».proof.Proof.Spec
import proofs.«108041_g40587440947829_cont_sun_m_1101_23_alg».proof.Proof.KVBlocks
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV.Tiles

open Cert.KernelIdeal Cert.KernelIdeal.Gen Cert.KernelIdeal.Hand
open Idealize.ShloMosaic Idealize.ShloMosaic.TcCoe Idealize.ShloMosaic.ValueIdx
open Idealize.SL Idealize.SL.Sem

theorem matmul_zero_ix2 {A K B : ℕ} {φ₁ φ₂ : FTy}
    (D : DotDims ⟨2, ![A, K]⟩ ⟨2, ![K, B]⟩ ⟨2, ![A, B]⟩) (hr : D.contr.rank = 1) (hs : D.contr.size ⟨0, by omega⟩ = K)
    (l0 : ∀ (i : (⟨2, ![A, B]⟩ : Shape).Idx) (q : D.contr.Idx), (D.lhsIdx i q 0).val = (i 0).val)
    (l1 : ∀ (i : (⟨2, ![A, B]⟩ : Shape).Idx) (q : D.contr.Idx), (D.lhsIdx i q 1).val = (q ⟨0, by omega⟩).val)
    (r0 : ∀ (i : (⟨2, ![A, B]⟩ : Shape).Idx) (q : D.contr.Idx), (D.rhsIdx i q 0).val = (q ⟨0, by omega⟩).val)
    (r1 : ∀ (i : (⟨2, ![A, B]⟩ : Shape).Idx) (q : D.contr.Idx), (D.rhsIdx i q 1).val = (i 1).val)
    (lhs : FVec Ideal ⟨2, ![A, K]⟩ φ₁) (rhs : FVec Ideal ⟨2, ![K, B]⟩ φ₂) (p : Fin A) (q : Fin B) :
    FloatOps.matmul D none lhs rhs (constant (F := Ideal) ⟨2, ![A, B]⟩ .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact l0 _ _
    | ⟨1, _⟩ => exact (l1 _ _).trans hk)
  have er : D.rhsIdx (ix2 p q) ((contrEquiv1 D K hr hs).symm k) = ix2 k q := funext fun a => Fin.ext (by
    match a with
    | ⟨0, _⟩ => exact (r0 _ _).trans hk
    | ⟨1, _⟩ => exact r1 _ _)
  rw [el, er]

theorem lhs_deg_0 (i : S400x1.Idx) (q : dot_S400x2048_S2048x1_S400x1_1_0_0_1_n_n.contr.Idx) :
    (dot_S400x2048_S2048x1_S400x1_1_0_0_1_n_n.lhsIdx i q 0).val = (i 0).val := by
  unfold DotDims.lhsIdx
  rw [dif_neg (show ¬(0 : Fin S400x2048.rank) ∈ dot_S400x2048_S2048x1_S400x1_1_0_0_1_n_n.lhsBatch by decide), dif_pos (show (0 : Fin S400x2048.rank) ∈ dot_S400x2048_S2048x1_S400x1_1_0_0_1_n_n.lhsNonContracting by decide)]
  rfl
theorem lhs_deg_1 (i : S400x1.Idx) (q : dot_S400x2048_S2048x1_S400x1_1_0_0_1_n_n.contr.Idx) :
    (dot_S400x2048_S2048x1_S400x1_1_0_0_1_n_n.lhsIdx i q 1).val = (q ⟨0, by decide⟩).val :=
  dot_S400x2048_S2048x1_S400x1_1_0_0_1_n_n.lhsIdx_val_of_single rfl i q
theorem rhs_deg_0 (i : S400x1.Idx) (q : dot_S400x2048_S2048x1_S400x1_1_0_0_1_n_n.contr.Idx) :
    (dot_S400x2048_S2048x1_S400x1_1_0_0_1_n_n.rhsIdx i q 0).val = (q ⟨0, by decide⟩).val :=
  dot_S400x2048_S2048x1_S400x1_1_0_0_1_n_n.rhsIdx_val_of_single rfl i q
theorem rhs_deg_1 (i : S400x1.Idx) (q : dot_S400x2048_S2048x1_S400x1_1_0_0_1_n_n.contr.Idx) :
    (dot_S400x2048_S2048x1_S400x1_1_0_0_1_n_n.rhsIdx i q 1).val = (i 1).val := by
  unfold DotDims.rhsIdx
  rw [dif_neg (show ¬(1 : Fin S2048x1.rank) ∈ dot_S400x2048_S2048x1_S400x1_1_0_0_1_n_n.rhsBatch by decide), dif_pos (show (1 : Fin S2048x1.rank) ∈ dot_S400x2048_S2048x1_S400x1_1_0_0_1_n_n.rhsNonContracting by decide)]
  rfl

theorem mm_deg {φ₁ φ₂ : FTy} (l : FVec Ideal S400x2048 φ₁) (r : FVec Ideal S2048x1 φ₂) (p : Fin 400) (q : Fin 1) :
    matmul dot_S400x2048_S2048x1_S400x1_1_0_0_1_n_n none l r (constant (F := Ideal) S400x1 .f32 0x00000000#32) (ix2 p q)
      = ∑ k : Fin 2048, l (ix2 p k) * r (ix2 k q) :=
  matmul_zero_ix2 dot_S400x2048_S2048x1_S400x1_1_0_0_1_n_n rfl rfl lhs_deg_0 lhs_deg_1 rhs_deg_0 rhs_deg_1 l r p q

theorem lhs_psi_0 (i : S400x32.Idx) (q : dot_S400x128_S128x32_S400x32_1_0_0_1_n_n.contr.Idx) :
    (dot_S400x128_S128x32_S400x32_1_0_0_1_n_n.lhsIdx i q 0).val = (i 0).val := by
  unfold DotDims.lhsIdx
  rw [dif_neg (show ¬(0 : Fin S400x128.rank) ∈ dot_S400x128_S128x32_S400x32_1_0_0_1_n_n.lhsBatch by decide), dif_pos (show (0 : Fin S400x128.rank) ∈ dot_S400x128_S128x32_S400x32_1_0_0_1_n_n.lhsNonContracting by decide)]
  rfl
theorem lhs_psi_1 (i : S400x32.Idx) (q : dot_S400x128_S128x32_S400x32_1_0_0_1_n_n.contr.Idx) :
    (dot_S400x128_S128x32_S400x32_1_0_0_1_n_n.lhsIdx i q 1).val = (q ⟨0, by decide⟩).val :=
  dot_S400x128_S128x32_S400x32_1_0_0_1_n_n.lhsIdx_val_of_single rfl i q
theorem rhs_psi_0 (i : S400x32.Idx) (q : dot_S400x128_S128x32_S400x32_1_0_0_1_n_n.contr.Idx) :
    (dot_S400x128_S128x32_S400x32_1_0_0_1_n_n.rhsIdx i q 0).val = (q ⟨0, by decide⟩).val :=
  dot_S400x128_S128x32_S400x32_1_0_0_1_n_n.rhsIdx_val_of_single rfl i q
theorem rhs_psi_1 (i : S400x32.Idx) (q : dot_S400x128_S128x32_S400x32_1_0_0_1_n_n.contr.Idx) :
    (dot_S400x128_S128x32_S400x32_1_0_0_1_n_n.rhsIdx i q 1).val = (i 1).val := by
  unfold DotDims.rhsIdx
  rw [dif_neg (show ¬(1 : Fin S128x32.rank) ∈ dot_S400x128_S128x32_S400x32_1_0_0_1_n_n.rhsBatch by decide), dif_pos (show (1 : Fin S128x32.rank) ∈ dot_S400x128_S128x32_S400x32_1_0_0_1_n_n.rhsNonContracting by decide)]
  rfl
theorem mm_psi {φ₁ φ₂ : FTy} (l : FVec Ideal S400x128 φ₁) (r : FVec Ideal S128x32 φ₂) (p : Fin 400) (q : Fin 32) :
    matmul dot_S400x128_S128x32_S400x32_1_0_0_1_n_n none l r (constant (F := Ideal) S400x32 .f32 0x00000000#32) (ix2 p q)
      = ∑ k : Fin 128, l (ix2 p k) * r (ix2 k q) :=
  matmul_zero_ix2 dot_S400x128_S128x32_S400x32_1_0_0_1_n_n rfl rfl lhs_psi_0 lhs_psi_1 rhs_psi_0 rhs_psi_1 l r p q

theorem lhs_phi_0 (i : S400x32.Idx) (q : dot_S400x16_S16x32_S400x32_1_0_0_1_n_n.contr.Idx) :
    (dot_S400x16_S16x32_S400x32_1_0_0_1_n_n.lhsIdx i q 0).val = (i 0).val := by
  unfold DotDims.lhsIdx
  rw [dif_neg (show ¬(0 : Fin S400x16.rank) ∈ dot_S400x16_S16x32_S400x32_1_0_0_1_n_n.lhsBatch by decide), dif_pos (show (0 : Fin S400x16.rank) ∈ dot_S400x16_S16x32_S400x32_1_0_0_1_n_n.lhsNonContracting by decide)]
  rfl
theorem lhs_phi_1 (i : S400x32.Idx) (q : dot_S400x16_S16x32_S400x32_1_0_0_1_n_n.contr.Idx) :
    (dot_S400x16_S16x32_S400x32_1_0_0_1_n_n.lhsIdx i q 1).val = (q ⟨0, by decide⟩).val :=
  dot_S400x16_S16x32_S400x32_1_0_0_1_n_n.lhsIdx_val_of_single rfl i q
theorem rhs_phi_0 (i : S400x32.Idx) (q : dot_S400x16_S16x32_S400x32_1_0_0_1_n_n.contr.Idx) :
    (dot_S400x16_S16x32_S400x32_1_0_0_1_n_n.rhsIdx i q 0).val = (q ⟨0, by decide⟩).val :=
  dot_S400x16_S16x32_S400x32_1_0_0_1_n_n.rhsIdx_val_of_single rfl i q
theorem rhs_phi_1 (i : S400x32.Idx) (q : dot_S400x16_S16x32_S400x32_1_0_0_1_n_n.contr.Idx) :
    (dot_S400x16_S16x32_S400x32_1_0_0_1_n_n.rhsIdx i q 1).val = (i 1).val := by
  unfold DotDims.rhsIdx
  rw [dif_neg (show ¬(1 : Fin S16x32.rank) ∈ dot_S400x16_S16x32_S400x32_1_0_0_1_n_n.rhsBatch by decide), dif_pos (show (1 : Fin S16x32.rank) ∈ dot_S400x16_S16x32_S400x32_1_0_0_1_n_n.rhsNonContracting by decide)]
  rfl
theorem mm_phi {φ₁ φ₂ : FTy} (l : FVec Ideal S400x16 φ₁) (r : FVec Ideal S16x32 φ₂) (p : Fin 400) (q : Fin 32) :
    matmul dot_S400x16_S16x32_S400x32_1_0_0_1_n_n none l r (constant (F := Ideal) S400x32 .f32 0x00000000#32) (ix2 p q)
      = ∑ k : Fin 16, l (ix2 p k) * r (ix2 k q) :=
  matmul_zero_ix2 dot_S400x16_S16x32_S400x32_1_0_0_1_n_n rfl rfl lhs_phi_0 lhs_phi_1 rhs_phi_0 rhs_phi_1 l r p q

theorem lhs_g1_0 (i : S400x64.Idx) (q : dot_S400x64_S64x64_S400x64_1_0_0_1_n_n.contr.Idx) :
    (dot_S400x64_S64x64_S400x64_1_0_0_1_n_n.lhsIdx i q 0).val = (i 0).val := by
  unfold DotDims.lhsIdx
  rw [dif_neg (show ¬(0 : Fin S400x64.rank) ∈ dot_S400x64_S64x64_S400x64_1_0_0_1_n_n.lhsBatch by decide), dif_pos (show (0 : Fin S400x64.rank) ∈ dot_S400x64_S64x64_S400x64_1_0_0_1_n_n.lhsNonContracting by decide)]
  rfl
theorem lhs_g1_1 (i : S400x64.Idx) (q : dot_S400x64_S64x64_S400x64_1_0_0_1_n_n.contr.Idx) :
    (dot_S400x64_S64x64_S400x64_1_0_0_1_n_n.lhsIdx i q 1).val = (q ⟨0, by decide⟩).val :=
  dot_S400x64_S64x64_S400x64_1_0_0_1_n_n.lhsIdx_val_of_single rfl i q
theorem rhs_g1_0 (i : S400x64.Idx) (q : dot_S400x64_S64x64_S400x64_1_0_0_1_n_n.contr.Idx) :
    (dot_S400x64_S64x64_S400x64_1_0_0_1_n_n.rhsIdx i q 0).val = (q ⟨0, by decide⟩).val :=
  dot_S400x64_S64x64_S400x64_1_0_0_1_n_n.rhsIdx_val_of_single rfl i q
theorem rhs_g1_1 (i : S400x64.Idx) (q : dot_S400x64_S64x64_S400x64_1_0_0_1_n_n.contr.Idx) :
    (dot_S400x64_S64x64_S400x64_1_0_0_1_n_n.rhsIdx i q 1).val = (i 1).val := by
  unfold DotDims.rhsIdx
  rw [dif_neg (show ¬(1 : Fin S64x64.rank) ∈ dot_S400x64_S64x64_S400x64_1_0_0_1_n_n.rhsBatch by decide), dif_pos (show (1 : Fin S64x64.rank) ∈ dot_S400x64_S64x64_S400x64_1_0_0_1_n_n.rhsNonContracting by decide)]
  rfl
theorem mm_g1 {φ₁ φ₂ : FTy} (l : FVec Ideal S400x64 φ₁) (r : FVec Ideal S64x64 φ₂) (p : Fin 400) (q : Fin 64) :
    matmul dot_S400x64_S64x64_S400x64_1_0_0_1_n_n none l r (constant (F := Ideal) S400x64 .f32 0x00000000#32) (ix2 p q)
      = ∑ k : Fin 64, l (ix2 p k) * r (ix2 k q) :=
  matmul_zero_ix2 dot_S400x64_S64x64_S400x64_1_0_0_1_n_n rfl rfl lhs_g1_0 lhs_g1_1 rhs_g1_0 rhs_g1_1 l r p q

theorem lhs_g2_0 (i : S400x32.Idx) (q : dot_S400x64_S64x32_S400x32_1_0_0_1_n_n.contr.Idx) :
    (dot_S400x64_S64x32_S400x32_1_0_0_1_n_n.lhsIdx i q 0).val = (i 0).val := by
  unfold DotDims.lhsIdx
  rw [dif_neg (show ¬(0 : Fin S400x64.rank) ∈ dot_S400x64_S64x32_S400x32_1_0_0_1_n_n.lhsBatch by decide), dif_pos (show (0 : Fin S400x64.rank) ∈ dot_S400x64_S64x32_S400x32_1_0_0_1_n_n.lhsNonContracting by decide)]
  rfl
theorem lhs_g2_1 (i : S400x32.Idx) (q : dot_S400x64_S64x32_S400x32_1_0_0_1_n_n.contr.Idx) :
    (dot_S400x64_S64x32_S400x32_1_0_0_1_n_n.lhsIdx i q 1).val = (q ⟨0, by decide⟩).val :=
  dot_S400x64_S64x32_S400x32_1_0_0_1_n_n.lhsIdx_val_of_single rfl i q
theorem rhs_g2_0 (i : S400x32.Idx) (q : dot_S400x64_S64x32_S400x32_1_0_0_1_n_n.contr.Idx) :
    (dot_S400x64_S64x32_S400x32_1_0_0_1_n_n.rhsIdx i q 0).val = (q ⟨0, by decide⟩).val :=
  dot_S400x64_S64x32_S400x32_1_0_0_1_n_n.rhsIdx_val_of_single rfl i q
theorem rhs_g2_1 (i : S400x32.Idx) (q : dot_S400x64_S64x32_S400x32_1_0_0_1_n_n.contr.Idx) :
    (dot_S400x64_S64x32_S400x32_1_0_0_1_n_n.rhsIdx i q 1).val = (i 1).val := by
  unfold DotDims.rhsIdx
  rw [dif_neg (show ¬(1 : Fin S64x32.rank) ∈ dot_S400x64_S64x32_S400x32_1_0_0_1_n_n.rhsBatch by decide), dif_pos (show (1 : Fin S64x32.rank) ∈ dot_S400x64_S64x32_S400x32_1_0_0_1_n_n.rhsNonContracting by decide)]
  rfl
theorem mm_g2 {φ₁ φ₂ : FTy} (l : FVec Ideal S400x64 φ₁) (r : FVec Ideal S64x32 φ₂) (p : Fin 400) (q : Fin 32) :
    matmul dot_S400x64_S64x32_S400x32_1_0_0_1_n_n none l r (constant (F := Ideal) S400x32 .f32 0x00000000#32) (ix2 p q)
      = ∑ k : Fin 64, l (ix2 p k) * r (ix2 k q) :=
  matmul_zero_ix2 dot_S400x64_S64x32_S400x32_1_0_0_1_n_n rfl rfl lhs_g2_0 lhs_g2_1 rhs_g2_0 rhs_g2_1 l r p q

theorem lhs_c1_0 (i : S400x64.Idx) (q : dot_S400x32_S32x64_S400x64_1_0_0_1_n_n.contr.Idx) :
    (dot_S400x32_S32x64_S400x64_1_0_0_1_n_n.lhsIdx i q 0).val = (i 0).val := by
  unfold DotDims.lhsIdx
  rw [dif_neg (show ¬(0 : Fin S400x32.rank) ∈ dot_S400x32_S32x64_S400x64_1_0_0_1_n_n.lhsBatch by decide), dif_pos (show (0 : Fin S400x32.rank) ∈ dot_S400x32_S32x64_S400x64_1_0_0_1_n_n.lhsNonContracting by decide)]
  rfl
theorem lhs_c1_1 (i : S400x64.Idx) (q : dot_S400x32_S32x64_S400x64_1_0_0_1_n_n.contr.Idx) :
    (dot_S400x32_S32x64_S400x64_1_0_0_1_n_n.lhsIdx i q 1).val = (q ⟨0, by decide⟩).val :=
  dot_S400x32_S32x64_S400x64_1_0_0_1_n_n.lhsIdx_val_of_single rfl i q
theorem rhs_c1_0 (i : S400x64.Idx) (q : dot_S400x32_S32x64_S400x64_1_0_0_1_n_n.contr.Idx) :
    (dot_S400x32_S32x64_S400x64_1_0_0_1_n_n.rhsIdx i q 0).val = (q ⟨0, by decide⟩).val :=
  dot_S400x32_S32x64_S400x64_1_0_0_1_n_n.rhsIdx_val_of_single rfl i q
theorem rhs_c1_1 (i : S400x64.Idx) (q : dot_S400x32_S32x64_S400x64_1_0_0_1_n_n.contr.Idx) :
    (dot_S400x32_S32x64_S400x64_1_0_0_1_n_n.rhsIdx i q 1).val = (i 1).val := by
  unfold DotDims.rhsIdx
  rw [dif_neg (show ¬(1 : Fin S32x64.rank) ∈ dot_S400x32_S32x64_S400x64_1_0_0_1_n_n.rhsBatch by decide), dif_pos (show (1 : Fin S32x64.rank) ∈ dot_S400x32_S32x64_S400x64_1_0_0_1_n_n.rhsNonContracting by decide)]
  rfl
theorem mm_c1 {φ₁ φ₂ : FTy} (l : FVec Ideal S400x32 φ₁) (r : FVec Ideal S32x64 φ₂) (p : Fin 400) (q : Fin 64) :
    matmul dot_S400x32_S32x64_S400x64_1_0_0_1_n_n none l r (constant (F := Ideal) S400x64 .f32 0x00000000#32) (ix2 p q)
      = ∑ k : Fin 32, l (ix2 p k) * r (ix2 k q) :=
  matmul_zero_ix2 dot_S400x32_S32x64_S400x64_1_0_0_1_n_n rfl rfl lhs_c1_0 lhs_c1_1 rhs_c1_0 rhs_c1_1 l r p q

theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem cat_apply (u v : FVec Ideal S400x32 .f32) (a : Fin 400) (c : Fin 64) :
    concatenate S400x64 1 [⟨S400x32, u⟩, ⟨S400x32, v⟩] Facts₀.concatenates_S400x32_S400x32_S400x64_d1 (ix2 a c)
      = if h : c.val < 32 then u (ix2 a ⟨c.val, h⟩) else v (ix2 a ⟨c.val - 32, by have := c.isLt; omega⟩) := by
  split
  · next h =>
    refine concatenate_pair_apply_left (1 : Fin S400x64.rank) u v _ (ix2 a c) rfl (ix2 a ⟨c.val, h⟩) fun b => ?_
    match b with
    | ⟨0, _⟩ => rfl
    | ⟨1, _⟩ => rfl
  · next h =>
    refine concatenate_pair_apply_right (1 : Fin S400x64.rank) u v _ (ix2 a c) rfl rfl (ix2 a ⟨c.val - 32, by have := c.isLt; omega⟩) (fun b hb => ?_) ?_
    · match b with
      | ⟨0, _⟩ => rfl
      | ⟨1, _⟩ => exact absurd rfl hb
    · show c.val - 32 + 32 = c.val
      omega

theorem rsqrt_apply {s : Shape} {φ : FTy} (x : FVec Ideal s φ) (i : s.Idx) : rsqrt x i = Ideal.rsqrt (x i) := rfl
theorem logistic_apply {s : Shape} {φ : FTy} (x : FVec Ideal s φ) (i : s.Idx) : logistic x i = Ideal.logistic (x i) := rfl

theorem pay13_apply (x : Vec Ideal S400x128 .f32) (W : Vec Ideal S128x32 .f32) (b : Vec Ideal S1x32 .f32)
    (a : Fin 400) (k : Fin 32) :
    k0_pay13 x W b (ix2 a k) = (∑ j : Fin 128, x (ix2 a j) * W (ix2 j k)) + b (ix2 (0 : Fin 1) k) := by
  unfold k0_pay13
  rw [addf_apply, mm_psi, broadcastTo_1b_ab_apply, shapeCast_self]

theorem pay14_apply (z : Vec Ideal S400x16 .f32) (W : Vec Ideal S16x32 .f32) (b : Vec Ideal S1x32 .f32)
    (a : Fin 400) (k : Fin 32) :
    k0_pay14 z W (constant (F := Ideal) S400x32 .f32 0x00000000#32) b (ix2 a k)
      = (∑ j : Fin 16, z (ix2 a j) * W (ix2 j k)) + b (ix2 (0 : Fin 1) k) := by
  unfold k0_pay14
  rw [addf_apply, mm_phi, broadcastTo_1b_ab_apply, shapeCast_self]

theorem pay11_apply (H : Vec Ideal S400x2048 .f32) (w : Vec Ideal S2048x1 .bf16) (a : Fin 400) (j : Fin 2048) :
    k0_pay11 H w (ix2 a j)
      = H (ix2 a j) * Ideal.rsqrt ((∑ k : Fin 2048, H (ix2 a k) * w (ix2 k (0 : Fin 1))) + Cert.Spec.epsI) := by
  unfold k0_pay11 k0_pay9
  rw [mulf_apply, truncf_apply, broadcastTo_col_apply, truncf_apply, rsqrt_apply, addf_apply, mm_deg, broadcast_apply,
    shapeCast_self]
  rfl

theorem pay12_apply (H : Vec Ideal S400x2048 .f32) (w : Vec Ideal S2048x1 .bf16) (a : Fin 400) (j : Fin 2048) :
    k0_pay12 H w (ix2 a j)
      = H (ix2 a j) * Ideal.rsqrt ((∑ k : Fin 2048, H (ix2 a k) * w (ix2 k (0 : Fin 1))) + Cert.Spec.epsI) := by
  unfold k0_pay12
  rw [shapeCast_self, pay11_apply]

def catK (u v : FVec Ideal S400x32 .f32) (a : Fin 400) (c : Fin 64) : EReal :=
  if h : c.val < 32 then u (ix2 a ⟨c.val, h⟩) else v (ix2 a ⟨c.val - 32, by have := c.isLt; omega⟩)

def ghK (u v : FVec Ideal S400x32 .f32) (g1W : Vec Ideal S64x64 .f32) (g1b : Vec Ideal S1x64 .f32) (a : Fin 400) (c : Fin 64) :
    EReal :=
  max ((∑ c' : Fin 64, catK u v a c' * g1W (ix2 c' c)) + g1b (ix2 (0 : Fin 1) c)) 0

theorem pay15_apply (u : FVec Ideal S400x32 .f32) (z : Vec Ideal S400x16 .f32) (phiW : Vec Ideal S16x32 .f32)
    (phib : Vec Ideal S1x32 .f32) (g1W : Vec Ideal S64x64 .f32) (g1b : Vec Ideal S1x64 .f32)
    (g2W : Vec Ideal S64x32 .f32) (g2b : Vec Ideal S1x32 .f32) (a : Fin 400) (k : Fin 32) :
    k0_pay15 u z phiW (constant (F := Ideal) S400x32 .f32 0x00000000#32) phib g1W g1b g2W g2b (ix2 a k)
      = Ideal.logistic ((∑ c : Fin 64,
          ghK u (k0_pay14 z phiW (constant (F := Ideal) S400x32 .f32 0x00000000#32) phib) g1W g1b a c * g2W (ix2 c k))
          + g2b (ix2 (0 : Fin 1) k)) := by
  unfold k0_pay15
  rw [logistic_apply, addf_apply, mm_g2, broadcastTo_1b_ab_apply, shapeCast_self g2b]
  refine congrArg Ideal.logistic (congrArg (fun s => s + g2b (ix2 (0 : Fin 1) k))
    (Finset.sum_congr rfl fun c _ => congrArg (fun s => s * g2W (ix2 c k)) ?_))
  rw [maximumf_apply, addf_apply, mm_g1, broadcastTo_1b_ab_apply, shapeCast_self g1b, broadcast_apply]
  unfold ghK
  refine congrArg₂ max (congrArg (fun s => s + g1b (ix2 (0 : Fin 1) c))
    (Finset.sum_congr rfl fun c' _ => ?_)) Ideal.ofBits_zero_f32
  rw [cat_apply]
  rfl

theorem pay16_apply (u : FVec Ideal S400x32 .f32) (z : Vec Ideal S400x16 .f32) (phiW : Vec Ideal S16x32 .f32)
    (phib : Vec Ideal S1x32 .f32) (g1W : Vec Ideal S64x64 .f32) (g1b : Vec Ideal S1x64 .f32)
    (g2W : Vec Ideal S64x32 .f32) (g2b : Vec Ideal S1x32 .f32) (c1W : Vec Ideal S32x64 .f32) (c1b : Vec Ideal S1x64 .f32)
    (a : Fin 400) (d : Fin 64) :
    k0_pay16 u z phiW (constant (F := Ideal) S400x32 .f32 0x00000000#32) phib g1W g1b g2W g2b c1W c1b (ix2 a d)
      = (∑ k : Fin 32,
          (k0_pay15 u z phiW (constant (F := Ideal) S400x32 .f32 0x00000000#32) phib g1W g1b g2W g2b (ix2 a k)
              * k0_pay14 z phiW (constant (F := Ideal) S400x32 .f32 0x00000000#32) phib (ix2 a k)
            + (Cert.Spec.oneI
                - k0_pay15 u z phiW (constant (F := Ideal) S400x32 .f32 0x00000000#32) phib g1W g1b g2W g2b (ix2 a k))
              * u (ix2 a k)) * c1W (ix2 k d))
          + c1b (ix2 (0 : Fin 1) d) := by
  unfold k0_pay16
  rw [truncf_apply, addf_apply, mm_c1, broadcastTo_1b_ab_apply, shapeCast_self c1b]
  rfl

variable (m : (ℓ : Loc nD τ sig) → Buf (Elt Ideal) ℓ) (c : Dev nD)

theorem z1Tile_apply (t : Fin cfg0.N) (ht : t.val < 25) (a : Fin 400) (k : Fin 32) :
    k0_pay14 (bZ m c t) (bPhiW m c t) (constant (F := Ideal) S400x32 .f32 0x00000000#32) (bPhib m c t) (ix2 a k)
      = Cert.Spec.z1 (inpK m c) (rowOf t.val ht a) k := by
  refine (pay14_apply (bZ m c t) (bPhiW m c t) (bPhib m c t) a k).trans ?_
  unfold Cert.Spec.z1
  refine congrArg₂ (· + ·) (Finset.sum_congr rfl fun j _ => ?_) (bPhib_apply m c t k)
  exact congrArg₂ (· * ·) (bZ_apply m c t ht a j) (bPhiW_apply m c t j k)

theorem x1Tile_apply' (t : Fin cfg0.N) (ht : t.val < 25) (a : Fin 400) (k : Fin 32) :
    x1Tile m c t (ix2 a k) = Cert.Spec.x1 (inpK m c) (rowOf t.val ht a) k := by
  refine (pay13_apply (bX m c t) (bPsiW m c t) (bPsib m c t) a k).trans ?_
  unfold Cert.Spec.x1
  refine congrArg₂ (· + ·) (Finset.sum_congr rfl fun j _ => ?_) (bPsib_apply m c t k)
  exact congrArg₂ (· * ·) (bX_apply m c t ht a j) (bPsiW_apply m c t j k)

theorem catK_eq (t : Fin cfg0.N) (ht : t.val < 25) (a : Fin 400) (e : Fin 64) :
    catK (x1Tile m c t)
        (k0_pay14 (bZ m c t) (bPhiW m c t) (constant (F := Ideal) S400x32 .f32 0x00000000#32) (bPhib m c t)) a e
      = Cert.Spec.cat (inpK m c) (rowOf t.val ht a) e := by
  unfold catK Cert.Spec.cat
  by_cases h : e.val < 32
  · rw [dif_pos h, dif_pos h]
    exact x1Tile_apply' m c t ht a ⟨e.val, h⟩
  · rw [dif_neg h, dif_neg h]
    exact z1Tile_apply m c t ht a ⟨e.val - 32, by have := e.isLt; omega⟩

theorem ghK_eq (t : Fin cfg0.N) (ht : t.val < 25) (a : Fin 400) (e : Fin 64) :
    ghK (x1Tile m c t)
        (k0_pay14 (bZ m c t) (bPhiW m c t) (constant (F := Ideal) S400x32 .f32 0x00000000#32) (bPhib m c t))
        (bG1W m c t) (bG1b m c t) a e
      = Cert.Spec.gh (inpK m c) (rowOf t.val ht a) e := by
  unfold ghK Cert.Spec.gh
  refine congrArg (fun s => max s 0) (congrArg₂ (· + ·) (Finset.sum_congr rfl fun e' _ => ?_) (bG1b_apply m c t e))
  exact congrArg₂ (· * ·) (catK_eq m c t ht a e') (bG1W_apply m c t e' e)

end Cert.KernelIdeal.KV.Tiles

namespace Cert.KernelIdeal.KV

open Cert.KernelIdeal Cert.KernelIdeal.Gen Cert.KernelIdeal.Hand
open Idealize.ShloMosaic Idealize.ShloMosaic.TcCoe Idealize.ShloMosaic.ValueIdx
open Idealize.SL Idealize.SL.Sem
open Cert.KernelIdeal.KV.Tiles

variable (m : (ℓ : Loc nD τ sig) → Buf (Elt Ideal) ℓ) (c : Dev nD)

theorem x1Tile_apply (t : Fin cfg0.N) (ht : t.val < 25) (a : Fin 400) (k : Fin 32) :
    x1Tile m c t (ValueIdx.ix2 a k) = Cert.Spec.x1 (inpK m c) (rowOf t.val ht a) k :=
  x1Tile_apply' m c t ht a k

theorem gTile_apply (t : Fin cfg0.N) (ht : t.val < 25) (a : Fin 400) (k : Fin 32) :
    gTile m c t (ValueIdx.ix2 a k) = Cert.Spec.gate (inpK m c) (rowOf t.val ht a) k := by
  refine (pay15_apply (x1Tile m c t) (bZ m c t) (bPhiW m c t) (bPhib m c t) (bG1W m c t) (bG1b m c t) (bG2W m c t)
    (bG2b m c t) a k).trans ?_
  unfold Cert.Spec.gate
  refine congrArg Ideal.logistic (congrArg₂ (· + ·) (Finset.sum_congr rfl fun e _ => ?_) (bG2b_apply m c t k))
  exact congrArg₂ (· * ·) (ghK_eq m c t ht a e) (bG2W_apply m c t e k)

theorem xcTile_apply (t : Fin cfg0.N) (ht : t.val < 25) (a : Fin 400) (d : Fin 64) :
    xcTile m c t (ValueIdx.ix2 a d)
      = Cert.Spec.lin (Cert.Spec.fused (inpK m c) Cert.Spec.oneI) (inpK m c).c1W (inpK m c).c1b (rowOf t.val ht a) d := by
  refine (pay16_apply (x1Tile m c t) (bZ m c t) (bPhiW m c t) (bPhib m c t) (bG1W m c t) (bG1b m c t) (bG2W m c t)
    (bG2b m c t) (bC1W m c t) (bC1b m c t) a d).trans ?_
  unfold Cert.Spec.lin
  refine congrArg₂ (· + ·) (Finset.sum_congr rfl fun k _ => ?_) (bC1b_apply m c t d)
  refine congrArg₂ (· * ·) ?_ (bC1W_apply m c t k d)
  unfold Cert.Spec.fused
  have hg := gTile_apply m c t ht a k
  have hz := z1Tile_apply m c t ht a k
  have hx := x1Tile_apply m c t ht a k
  exact congrArg₂ (· + ·) (congrArg₂ (· * ·) hg hz) (congrArg₂ (· * ·) (congrArg (fun s => Cert.Spec.oneI - s) hg) hx)

theorem hsTile_apply (t : Fin cfg0.N) (ht : t.val < 25) (a : Fin 400) (j : Fin 2048) :
    hsTile m c t (ValueIdx.ix2 a j)
      = (inpK m c).H (rowOf t.val ht a) j * Cert.Spec.s (inpK m c) Cert.Spec.epsI (rowOf t.val ht a) := by
  refine (pay11_apply (bH m c t) (bWc m c t) a j).trans ?_
  unfold Cert.Spec.s Cert.Spec.Dv
  refine congrArg₂ (· * ·) (bH_apply m c t ht a j)
    (congrArg Ideal.rsqrt (congrArg (fun s => s + Cert.Spec.epsI) (Finset.sum_congr rfl fun k _ => ?_)))
  exact congrArg₂ (· * ·) (bH_apply m c t ht a k) (bWc_apply m c t k)

theorem hqTile_apply (t : Fin cfg0.N) (ht : t.val < 25) (a : Fin 400) (j : Fin 2048) :
    hqTile m c t (ValueIdx.ix2 a j)
      = (inpK m c).H (rowOf t.val ht a) j * Cert.Spec.s (inpK m c) Cert.Spec.epsI (rowOf t.val ht a) :=
  (pay12_apply (bH m c t) (bWc m c t) a j).trans ((pay11_apply (bH m c t) (bWc m c t) a j).symm.trans
    (hsTile_apply m c t ht a j))

theorem hqRow_eq (r : Fin 10000) (j : Fin 2048) :
    hqRow m c r j = (inpK m c).H r j * Cert.Spec.s (inpK m c) Cert.Spec.epsI r := by
  have hlt : r.val / 400 < 25 := by have := r.isLt; omega
  have hr : rowOf (r.val / 400) hlt ⟨r.val % 400, Nat.mod_lt _ (by omega)⟩ = r := Fin.ext (Nat.div_add_mod r.val 400)
  have key : ∀ r' : Fin 10000, r' = r →
      (inpK m c).H r' j * Cert.Spec.s (inpK m c) Cert.Spec.epsI r'
        = (inpK m c).H r j * Cert.Spec.s (inpK m c) Cert.Spec.epsI r := fun _ h => h ▸ rfl
  unfold hqRow
  exact (hqTile_apply m c (pt (r.val / 400) (by have := r.isLt; omega)) hlt ⟨r.val % 400, Nat.mod_lt _ (by omega)⟩ j).trans
    (key _ hr)

end Cert.KernelIdeal.KV

end
-- ==== Proof.KVAccum.lean ====
import proofs.«108041_g40587440947829_cont_sun_m_1101_23_alg».proof.Proof.KIState
import proofs.«108041_g40587440947829_cont_sun_m_1101_23_alg».proof.Proof.Spec
import proofs.«108041_g40587440947829_cont_sun_m_1101_23_alg».proof.Proof.KVBlocks
import proofs.«108041_g40587440947829_cont_sun_m_1101_23_alg».proof.Proof.KVTiles
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

set_option maxRecDepth 16384

noncomputable section

namespace Cert.KernelIdeal.KV.Accum

open Cert.KernelIdeal Cert.KernelIdeal.Gen Cert.KernelIdeal.Hand
open Idealize.ShloMosaic Idealize.ShloMosaic.TcCoe Idealize.ShloMosaic.ValueIdx
open Idealize.SL Idealize.SL.Sem

theorem ofBits_one_bf16 : Ideal.ofBits .bf16 0x3F80#16 = 1 := IdealRules.sign_bit.ideal_onePat .bf16

section DegreeProduct

theorem rhs_deg_0 (i : S1x2048.Idx) (q : dot_S1x400_S400x2048_S1x2048_1_0_0_1_n_n.contr.Idx) :
    (dot_S1x400_S400x2048_S1x2048_1_0_0_1_n_n.rhsIdx i q 0).val = (q ⟨0, by decide⟩).val :=
  dot_S1x400_S400x2048_S1x2048_1_0_0_1_n_n.rhsIdx_val_of_single rfl i q
theorem rhs_deg_1 (i : S1x2048.Idx) (q : dot_S1x400_S400x2048_S1x2048_1_0_0_1_n_n.contr.Idx) :
    (dot_S1x400_S400x2048_S1x2048_1_0_0_1_n_n.rhsIdx i q 1).val = (i 1).val := by
  unfold DotDims.rhsIdx
  rw [dif_neg (show ¬(1 : Fin S400x2048.rank) ∈ dot_S1x400_S400x2048_S1x2048_1_0_0_1_n_n.rhsBatch by decide), dif_pos (show (1 : Fin S400x2048.rank) ∈ dot_S1x400_S400x2048_S1x2048_1_0_0_1_n_n.rhsNonContracting by decide)]
  rfl

theorem onesProduct_apply (x : FVec Ideal S400x2048 .bf16) (j : Fin 2048) :
    matmul (F := Ideal) dot_S1x400_S400x2048_S1x2048_1_0_0_1_n_n none
        (broadcast S1x400 (Scalar.ofBits (F := Ideal) .bf16 0x3F80#16)) x (constant (F := Ideal) S1x2048 .f32 0x00000000#32) (ix2 (0 : Fin 1) j)
      = ∑ a : Fin 400, x (ix2 a j) := by
  simp only [matmul]
  rw [Ideal.matmul_constant_zero_apply, ← Equiv.sum_comp (contrEquiv1 dot_S1x400_S400x2048_S1x2048_1_0_0_1_n_n 400 rfl rfl).symm]
  refine Finset.sum_congr rfl fun k _ => ?_
  have hk := contrEquiv1_symm_val dot_S1x400_S400x2048_S1x2048_1_0_0_1_n_n 400 rfl rfl k
  have er : dot_S1x400_S400x2048_S1x2048_1_0_0_1_n_n.rhsIdx (ix2 (0 : Fin 1) j) ((contrEquiv1 dot_S1x400_S400x2048_S1x2048_1_0_0_1_n_n 400 rfl rfl).symm k) = ix2 k j := funext fun a => Fin.ext (by
    match a with
    | ⟨0, _⟩ => exact (rhs_deg_0 _ _).trans hk
    | ⟨1, _⟩ => exact rhs_deg_1 _ _)
  rw [er, broadcast_apply]
  show Ideal.ofBits .bf16 0x3F80#16 * _ = _
  rw [ofBits_one_bf16, one_mul]

end DegreeProduct

section AggregateProduct

theorem lhs_agg_0 (i : S64x2048.Idx) (q : dot_S400x64_S400x2048_S64x2048_0_0_1_1_n_n.contr.Idx) :
    (dot_S400x64_S400x2048_S64x2048_0_0_1_1_n_n.lhsIdx i q 0).val = (q ⟨0, by decide⟩).val :=
  dot_S400x64_S400x2048_S64x2048_0_0_1_1_n_n.lhsIdx_val_of_single rfl i q
theorem lhs_agg_1 (i : S64x2048.Idx) (q : dot_S400x64_S400x2048_S64x2048_0_0_1_1_n_n.contr.Idx) :
    (dot_S400x64_S400x2048_S64x2048_0_0_1_1_n_n.lhsIdx i q 1).val = (i 0).val := by
  unfold DotDims.lhsIdx
  rw [dif_neg (show ¬(1 : Fin S400x64.rank) ∈ dot_S400x64_S400x2048_S64x2048_0_0_1_1_n_n.lhsBatch by decide), dif_pos (show (1 : Fin S400x64.rank) ∈ dot_S400x64_S400x2048_S64x2048_0_0_1_1_n_n.lhsNonContracting by decide)]
  rfl
theorem rhs_agg_0 (i : S64x2048.Idx) (q : dot_S400x64_S400x2048_S64x2048_0_0_1_1_n_n.contr.Idx) :
    (dot_S400x64_S400x2048_S64x2048_0_0_1_1_n_n.rhsIdx i q 0).val = (q ⟨0, by decide⟩).val :=
  dot_S400x64_S400x2048_S64x2048_0_0_1_1_n_n.rhsIdx_val_of_single rfl i q
theorem rhs_agg_1 (i : S64x2048.Idx) (q : dot_S400x64_S400x2048_S64x2048_0_0_1_1_n_n.contr.Idx) :
    (dot_S400x64_S400x2048_S64x2048_0_0_1_1_n_n.rhsIdx i q 1).val = (i 1).val := by
  unfold DotDims.rhsIdx
  rw [dif_neg (show ¬(1 : Fin S400x2048.rank) ∈ dot_S400x64_S400x2048_S64x2048_0_0_1_1_n_n.rhsBatch by decide), dif_pos (show (1 : Fin S400x2048.rank) ∈ dot_S400x64_S400x2048_S64x2048_0_0_1_1_n_n.rhsNonContracting by decide)]
  rfl

theorem rowsProduct_apply (xl : FVec Ideal S400x64 .bf16) (xr : FVec Ideal S400x2048 .bf16) (d : Fin 64) (j : Fin 2048) :
    matmul (F := Ideal) dot_S400x64_S400x2048_S64x2048_0_0_1_1_n_n none xl xr (constant (F := Ideal) S64x2048 .f32 0x00000000#32) (ix2 d j)
      = ∑ a : Fin 400, xl (ix2 a d) * xr (ix2 a j) := by
  simp only [matmul]
  rw [Ideal.matmul_constant_zero_apply, ← Equiv.sum_comp (contrEquiv1 dot_S400x64_S400x2048_S64x2048_0_0_1_1_n_n 400 rfl rfl).symm]
  refine Finset.sum_congr rfl fun k _ => ?_
  have hk := contrEquiv1_symm_val dot_S400x64_S400x2048_S64x2048_0_0_1_1_n_n 400 rfl rfl k
  have el : dot_S400x64_S400x2048_S64x2048_0_0_1_1_n_n.lhsIdx (ix2 d j) ((contrEquiv1 dot_S400x64_S400x2048_S64x2048_0_0_1_1_n_n 400 rfl rfl).symm k) = ix2 k d := funext fun a => Fin.ext (by
    match a with
    | ⟨0, _⟩ => exact (lhs_agg_0 _ _).trans hk
    | ⟨1, _⟩ => exact lhs_agg_1 _ _)
  have er : dot_S400x64_S400x2048_S64x2048_0_0_1_1_n_n.rhsIdx (ix2 d j) ((contrEquiv1 dot_S400x64_S400x2048_S64x2048_0_0_1_1_n_n 400 rfl rfl).symm k) = ix2 k j := funext fun a => Fin.ext (by
    match a with
    | ⟨0, _⟩ => exact (rhs_agg_0 _ _).trans hk
    | ⟨1, _⟩ => exact rhs_agg_1 _ _)
  rw [el, er]

end AggregateProduct

theorem pay1_apply (i : S1x2048.Idx) : k0_pay1 (F := Ideal) i = 0 := by
  simp only [k0_pay1, shapeCast_self, broadcast_apply]
  exact Ideal.ofBits_zero_f32

theorem pay2_apply (i : S64x2048.Idx) : k0_pay2 (F := Ideal) i = 0 := by
  simp only [k0_pay2, shapeCast_self, broadcast_apply]
  exact Ideal.ofBits_zero_f32

theorem pay10_apply (v20 : Vec Ideal S400x2048 .f32) (v29 : Vec Ideal S1x2048 .f32) (j : Fin 2048) :
    k0_pay10 v20 v29 (ix2 (0 : Fin 1) j) = v29 (ix2 (0 : Fin 1) j) + ∑ a : Fin 400, v20 (ix2 a j) := by
  simp only [k0_pay10, k0_pay9, shapeCast_self]
  rw [addf_apply, onesProduct_apply]
  rfl

theorem pay3_apply (v37 : FVec Ideal S400x2048 .bf16) (v85 : FVec Ideal S400x64 .bf16) (v86 : Vec Ideal S64x2048 .f32)
    (d : Fin 64) (j : Fin 2048) :
    k0_pay3 v37 v85 v86 (constant (F := Ideal) S64x2048 .f32 0x00000000#32) (ix2 d j)
      = v86 (ix2 d j) + ∑ a : Fin 400, v85 (ix2 a d) * v37 (ix2 a j) := by
  simp only [k0_pay3, shapeCast_self]
  rw [addf_apply, rowsProduct_apply]

theorem pay4_apply (v20 v22 : Vec Ideal S1x2048 .f32) (v26 : Vec Ideal S64x2048 .f32) (j : Fin 2048) (d : Fin 64) :
    k0_pay4 v20 v22 v26 (ix2 j d)
      = v26 (ix2 d j) * Ideal.div (v20 (ix2 (0 : Fin 1) j)) (v22 (ix2 (0 : Fin 1) j) + Cert.Spec.epsI) := by
  simp only [k0_pay4, shapeCast_self]
  rw [transpose_ix2_apply, truncf_apply, mulf_apply, broadcastTo_1b_ab_apply, divf_apply, addf_apply, broadcast_apply]
  rfl

def tileSum (f : Fin 10000 → EReal) (t : ℕ) : EReal :=
  if ht : t < 25 then ∑ a : Fin 400, f (rowOf t ht a) else 0

theorem tileSum_of_lt (f : Fin 10000 → EReal) {t : ℕ} (ht : t < 25) :
    tileSum f t = ∑ a : Fin 400, f (rowOf t ht a) := dif_pos ht

theorem sum_tileSum (f : Fin 10000 → EReal) : ∑ t ∈ Finset.range 25, tileSum f t = ∑ r : Fin 10000, f r := by
  rw [← Fin.sum_univ_eq_sum_range (fun t => tileSum f t) 25]
  rw [Finset.sum_congr rfl fun (t : Fin 25) _ => tileSum_of_lt f t.isLt, ← Fintype.sum_prod_type']
  refine Fintype.sum_equiv (finProdFinEquiv (m := 25) (n := 400)) _ _ fun x => congrArg f (Fin.ext ?_)
  show 400 * x.1.val + x.2.val = x.2.val + 400 * x.1.val
  omega

section Accumulators
variable (m : (ℓ : Loc nD τ sig) → Buf (Elt Ideal) ℓ) (c : Dev nD)

theorem deAt_apply (n : ℕ) (h : n < 25) (j : Fin 2048) :
    deAt m c n (by omega) (ix2 (0 : Fin 1) j)
      = ∑ t ∈ Finset.range (n + 1), tileSum (fun r => (inpK m c).H r j) t := by
  induction n with
  | zero =>
    rw [Finset.sum_range_one, tileSum_of_lt _ h]
    refine (pay10_apply (bH m c (pt 0 (by omega))) (k0_pay1 (F := Ideal)) j).trans ?_
    rw [pay1_apply, zero_add]
    exact Finset.sum_congr rfl fun a _ => bH_apply (m := m) (c := c) (pt 0 (by omega)) h a j
  | succ n ih =>
    rw [Finset.sum_range_succ, ← ih (by omega), tileSum_of_lt _ h]
    refine (pay10_apply (bH m c (pt (n + 1) (by omega))) (deAt m c n (by omega)) j).trans ?_
    exact congrArg (_ + ·) (Finset.sum_congr rfl fun a _ => bH_apply (m := m) (c := c) (pt (n + 1) (by omega)) h a j)

theorem mt0At_apply (n : ℕ) (h : n < 25) (d : Fin 64) (j : Fin 2048) :
    mt0At m c n (by omega) (ix2 d j)
      = ∑ t ∈ Finset.range (n + 1), tileSum (fun r =>
          Cert.Spec.lin (Cert.Spec.fused (inpK m c) Cert.Spec.oneI) (inpK m c).c1W (inpK m c).c1b r d
            * ((inpK m c).H r j * Cert.Spec.s (inpK m c) Cert.Spec.epsI r)) t := by
  induction n with
  | zero =>
    rw [Finset.sum_range_one, tileSum_of_lt _ h]
    refine (pay3_apply (hsTile m c (pt 0 (by omega))) (xcTile m c (pt 0 (by omega))) (k0_pay2 (F := Ideal)) d j).trans ?_
    rw [pay2_apply, zero_add]
    exact Finset.sum_congr rfl fun a _ =>
      congrArg₂ (· * ·) (xcTile_apply (m := m) (c := c) (pt 0 (by omega)) h a d) (hsTile_apply (m := m) (c := c) (pt 0 (by omega)) h a j)
  | succ n ih =>
    rw [Finset.sum_range_succ, ← ih (by omega), tileSum_of_lt _ h]
    refine (pay3_apply (hsTile m c (pt (n + 1) (by omega))) (xcTile m c (pt (n + 1) (by omega)))
      (mt0At m c n (by omega)) d j).trans ?_
    exact congrArg (_ + ·) (Finset.sum_congr rfl fun a _ =>
      congrArg₂ (· * ·) (xcTile_apply (m := m) (c := c) (pt (n + 1) (by omega)) h a d) (hsTile_apply (m := m) (c := c) (pt (n + 1) (by omega)) h a j))

end Accumulators

end Cert.KernelIdeal.KV.Accum

namespace Cert.KernelIdeal.KV

open Cert.KernelIdeal Cert.KernelIdeal.Gen Cert.KernelIdeal.Hand Cert.KernelIdeal.KV.Accum
open Idealize.ShloMosaic Idealize.ShloMosaic.TcCoe Idealize.ShloMosaic.ValueIdx
open Idealize.SL Idealize.SL.Sem

variable (m : (ℓ : Loc nD τ sig) → Buf (Elt Ideal) ℓ) (c : Dev nD)

theorem DE_apply (j : Fin 2048) : DE m c (ix2 (0 : Fin 1) j) = Cert.Spec.De (inpK m c) j :=
  (deAt_apply m c 24 (by omega) j).trans (sum_tileSum _)

theorem MT1_apply (d : Fin 64) (j : Fin 2048) :
    MT1 m c (ix2 d j)
      = ∑ r : Fin 10000, Cert.Spec.lin (Cert.Spec.fused (inpK m c) Cert.Spec.oneI) (inpK m c).c1W (inpK m c).c1b r d
          * ((inpK m c).H r j * Cert.Spec.s (inpK m c) Cert.Spec.epsI r) :=
  (mt0At_apply m c 24 (by omega) d j).trans (sum_tileSum _)

theorem MN1_apply (j : Fin 2048) (d : Fin 64) :
    MN1 m c (ix2 j d)
      = (∑ r : Fin 10000, Cert.Spec.lin (Cert.Spec.fused (inpK m c) Cert.Spec.oneI) (inpK m c).c1W (inpK m c).c1b r d
          * ((inpK m c).H r j * Cert.Spec.s (inpK m c) Cert.Spec.epsI r)) * Cert.Spec.q (inpK m c) Cert.Spec.epsI j := by
  refine (pay4_apply (bWr m c (pt 25 (by omega))) (DE m c) (MT1 m c) j d).trans ?_
  rw [MT1_apply, DE_apply, bWr_apply (m := m) (c := c)]
  rfl

end Cert.KernelIdeal.KV

end
-- ==== Proof.KVScatter1.lean ====
import proofs.«108041_g40587440947829_cont_sun_m_1101_23_alg».proof.Proof.KIState
import proofs.«108041_g40587440947829_cont_sun_m_1101_23_alg».proof.Proof.Spec
import proofs.«108041_g40587440947829_cont_sun_m_1101_23_alg».proof.Proof.KVBlocks
import proofs.«108041_g40587440947829_cont_sun_m_1101_23_alg».proof.Proof.KVTiles
import proofs.«108041_g40587440947829_cont_sun_m_1101_23_alg».proof.Proof.KVAccum
import Idealize.ShloMosaic.Lib.ValueIdx
import Idealize.ShloMosaic.Lib.ValueLayout
import Idealize.ShloMosaic.Lib.Pipeline.Value
import Idealize.ShloMosaic.PureOps.Ideal.Laws
import Mathlib.Logic.Equiv.Fin.Basic
import Mathlib.Algebra.BigOperators.Fin

set_option maxRecDepth 16384

noncomputable section

namespace Cert.KernelIdeal.KV.Scatter1

open Cert.KernelIdeal Cert.KernelIdeal.Gen Cert.KernelIdeal.Hand
open Idealize.ShloMosaic Idealize.ShloMosaic.TcCoe
open Idealize.SL Idealize.SL.Sem
open Idealize.ShloMosaic.ValueIdx

theorem lhs_scat_0 (i : S2000x64.Idx) (q : dot_S2000x2048_S2048x64_S2000x64_1_0_0_1_n_n.contr.Idx) :
    (dot_S2000x2048_S2048x64_S2000x64_1_0_0_1_n_n.lhsIdx i q 0).val = (i 0).val := by
  unfold DotDims.lhsIdx
  rw [dif_neg (show ¬(0 : Fin S2000x2048.rank) ∈ dot_S2000x2048_S2048x64_S2000x64_1_0_0_1_n_n.lhsBatch by decide), dif_pos (show (0 : Fin S2000x2048.rank) ∈ dot_S2000x2048_S2048x64_S2000x64_1_0_0_1_n_n.lhsNonContracting by decide)]
  rfl
theorem lhs_scat_1 (i : S2000x64.Idx) (q : dot_S2000x2048_S2048x64_S2000x64_1_0_0_1_n_n.contr.Idx) :
    (dot_S2000x2048_S2048x64_S2000x64_1_0_0_1_n_n.lhsIdx i q 1).val = (q ⟨0, by decide⟩).val :=
  dot_S2000x2048_S2048x64_S2000x64_1_0_0_1_n_n.lhsIdx_val_of_single rfl i q
theorem rhs_scat_0 (i : S2000x64.Idx) (q : dot_S2000x2048_S2048x64_S2000x64_1_0_0_1_n_n.contr.Idx) :
    (dot_S2000x2048_S2048x64_S2000x64_1_0_0_1_n_n.rhsIdx i q 0).val = (q ⟨0, by decide⟩).val :=
  dot_S2000x2048_S2048x64_S2000x64_1_0_0_1_n_n.rhsIdx_val_of_single rfl i q
theorem rhs_scat_1 (i : S2000x64.Idx) (q : dot_S2000x2048_S2048x64_S2000x64_1_0_0_1_n_n.contr.Idx) :
    (dot_S2000x2048_S2048x64_S2000x64_1_0_0_1_n_n.rhsIdx i q 1).val = (i 1).val := by
  unfold DotDims.rhsIdx
  rw [dif_neg (show ¬(1 : Fin S2048x64.rank) ∈ dot_S2000x2048_S2048x64_S2000x64_1_0_0_1_n_n.rhsBatch by decide), dif_pos (show (1 : Fin S2048x64.rank) ∈ dot_S2000x2048_S2048x64_S2000x64_1_0_0_1_n_n.rhsNonContracting by decide)]
  rfl

theorem mm_scat_apply {φ₁ φ₂ : FTy} (l : FVec Ideal S2000x2048 φ₁) (r : FVec Ideal S2048x64 φ₂) (p : Fin 2000) (q : Fin 64) :
    matmul dot_S2000x2048_S2048x64_S2000x64_1_0_0_1_n_n none l r (constant (F := Ideal) S2000x64 .f32 0x00000000#32) (ix2 p q)
      = ∑ k : Fin 2048, l (ix2 p k) * r (ix2 k q) :=
  Tiles.matmul_zero_ix2 dot_S2000x2048_S2048x64_S2000x64_1_0_0_1_n_n rfl rfl lhs_scat_0 lhs_scat_1 rhs_scat_0 rhs_scat_1 l r p q

theorem lhs_lin_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs_lin_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhs_lin_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhs_lin_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

theorem mm_lin_apply {φ₁ φ₂ : FTy} (l : FVec Ideal S2000x64 φ₁) (r : FVec Ideal S64x64 φ₂) (p : Fin 2000) (q : Fin 64) :
    matmul dot_S2000x64_S64x64_S2000x64_1_0_0_1_n_n none l r (constant (F := Ideal) S2000x64 .f32 0x00000000#32) (ix2 p q)
      = ∑ k : Fin 64, l (ix2 p k) * r (ix2 k q) :=
  Tiles.matmul_zero_ix2 dot_S2000x64_S64x64_S2000x64_1_0_0_1_n_n rfl rfl lhs_lin_0 lhs_lin_1 rhs_lin_0 rhs_lin_1 l r p q

theorem lhs_agg_1 (i : S64x2048.Idx) (q : dot_S2000x64_S2000x2048_S64x2048_0_0_1_1_n_n.contr.Idx) :
    (dot_S2000x64_S2000x2048_S64x2048_0_0_1_1_n_n.lhsIdx i q 1).val = (i 0).val := by
  unfold DotDims.lhsIdx
  rw [dif_neg (show ¬(1 : Fin S2000x64.rank) ∈ dot_S2000x64_S2000x2048_S64x2048_0_0_1_1_n_n.lhsBatch by decide), dif_pos (show (1 : Fin S2000x64.rank) ∈ dot_S2000x64_S2000x2048_S64x2048_0_0_1_1_n_n.lhsNonContracting by decide)]
  rfl
theorem lhs_agg_0 (i : S64x2048.Idx) (q : dot_S2000x64_S2000x2048_S64x2048_0_0_1_1_n_n.contr.Idx) :
    (dot_S2000x64_S2000x2048_S64x2048_0_0_1_1_n_n.lhsIdx i q 0).val = (q ⟨0, by decide⟩).val :=
  dot_S2000x64_S2000x2048_S64x2048_0_0_1_1_n_n.lhsIdx_val_of_single rfl i q
theorem rhs_agg_0 (i : S64x2048.Idx) (q : dot_S2000x64_S2000x2048_S64x2048_0_0_1_1_n_n.contr.Idx) :
    (dot_S2000x64_S2000x2048_S64x2048_0_0_1_1_n_n.rhsIdx i q 0).val = (q ⟨0, by decide⟩).val :=
  dot_S2000x64_S2000x2048_S64x2048_0_0_1_1_n_n.rhsIdx_val_of_single rfl i q
theorem rhs_agg_1 (i : S64x2048.Idx) (q : dot_S2000x64_S2000x2048_S64x2048_0_0_1_1_n_n.contr.Idx) :
    (dot_S2000x64_S2000x2048_S64x2048_0_0_1_1_n_n.rhsIdx i q 1).val = (i 1).val := by
  unfold DotDims.rhsIdx
  rw [dif_neg (show ¬(1 : Fin S2000x2048.rank) ∈ dot_S2000x64_S2000x2048_S64x2048_0_0_1_1_n_n.rhsBatch by decide), dif_pos (show (1 : Fin S2000x2048.rank) ∈ dot_S2000x64_S2000x2048_S64x2048_0_0_1_1_n_n.rhsNonContracting by decide)]
  rfl

theorem mm_agg_apply {φ₁ φ₂ : FTy} (l : FVec Ideal S2000x64 φ₁) (r : FVec Ideal S2000x2048 φ₂) (p : Fin 64) (q : Fin 2048) :
    matmul dot_S2000x64_S2000x2048_S64x2048_0_0_1_1_n_n none l r (constant (F := Ideal) S64x2048 .f32 0x00000000#32) (ix2 p q)
      = ∑ k : Fin 2000, l (ix2 k p) * r (ix2 k q) := by
  simp only [matmul]
  rw [Ideal.matmul_constant_zero_apply, ← Equiv.sum_comp (contrEquiv1 dot_S2000x64_S2000x2048_S64x2048_0_0_1_1_n_n 2000 rfl rfl).symm]
  refine Finset.sum_congr rfl fun k _ => ?_
  have hk := contrEquiv1_symm_val dot_S2000x64_S2000x2048_S64x2048_0_0_1_1_n_n 2000 rfl rfl k
  have el : dot_S2000x64_S2000x2048_S64x2048_0_0_1_1_n_n.lhsIdx (ix2 p q) ((contrEquiv1 dot_S2000x64_S2000x2048_S64x2048_0_0_1_1_n_n 2000 rfl rfl).symm k) = ix2 k p := funext fun a => Fin.ext (by
    match a with
    | ⟨0, _⟩ => exact (lhs_agg_0 _ _).trans hk
    | ⟨1, _⟩ => exact lhs_agg_1 _ _)
  have er : dot_S2000x64_S2000x2048_S64x2048_0_0_1_1_n_n.rhsIdx (ix2 p q) ((contrEquiv1 dot_S2000x64_S2000x2048_S64x2048_0_0_1_1_n_n 2000 rfl rfl).symm k) = ix2 k q := funext fun a => Fin.ext (by
    match a with
    | ⟨0, _⟩ => exact (rhs_agg_0 _ _).trans hk
    | ⟨1, _⟩ => exact rhs_agg_1 _ _)
  rw [el, er]

theorem pay5_apply (d : Fin 64) (j : Fin 2048) : (k0_pay5 (F := Ideal)) (ix2 d j) = 0 := by
  unfold k0_pay5
  rw [shapeCast_self]
  exact Ideal.ofBits_zero_f32

theorem pay6_apply (hs : FVec Ideal S2000x2048 .bf16) (mn : FVec Ideal S2048x64 .bf16) (W : FVec Ideal S64x64 .f32)
    (b : FVec Ideal S1x64 .f32) (acc : FVec Ideal S64x2048 .f32) (d : Fin 64) (j : Fin 2048) :
    k0_pay6 (F := Ideal) hs mn W b acc (ix2 d j)
      = acc (ix2 d j) + ∑ a : Fin 2000,
          ((∑ e : Fin 64, max (∑ k : Fin 2048, hs (ix2 a k) * mn (ix2 k e)) 0 * W (ix2 e d))
              + b (ix2 (0 : Fin 1) d)) * hs (ix2 a j) := by
  unfold k0_pay6
  rw [shapeCast_self, addf_apply, mm_agg_apply]
  refine congrArg (_ + ·) (Finset.sum_congr rfl fun a _ => ?_)
  rw [truncf_apply, addf_apply, mm_lin_apply, broadcastTo_1b_ab_apply, shapeCast_self]
  refine congrArg (· * _) (congrArg (· + _) (Finset.sum_congr rfl fun e _ => ?_))
  rw [maximumf_apply, mm_scat_apply, broadcast_apply]
  show max _ (Ideal.ofBits .f32 0x00000000#32) * _ = _
  rw [Ideal.ofBits_zero_f32]

theorem pay7_apply (wr : FVec Ideal S1x2048 .f32) (de : FVec Ideal S1x2048 .f32) (mt : FVec Ideal S64x2048 .f32)
    (j : Fin 2048) (d : Fin 64) :
    k0_pay7 (F := Ideal) wr de mt (ix2 j d)
      = mt (ix2 d j) * Ideal.div (wr (ix2 (0 : Fin 1) j)) (de (ix2 (0 : Fin 1) j) + Cert.Spec.epsI) := by
  unfold k0_pay7
  rw [shapeCast_self, transpose_ix2_apply, truncf_apply, mulf_apply, broadcastTo_1b_ab_apply, divf_apply,
    shapeCast_self, addf_apply, broadcast_apply]
  rfl

abbrev rowS (i : ℕ) (hi : i < 5) (a : Fin 2000) : Fin 10000 := ⟨2000 * i + a.val, by have := a.isLt; omega⟩

theorem sum_rows (f : Fin 10000 → EReal) :
    ∑ r : Fin 10000, f r
      = ∑ i : Fin 5, ∑ a : Fin 2000, f ⟨2000 * i.val + a.val, by have := i.isLt; have := a.isLt; omega⟩ := by
  rw [← Equiv.sum_comp (finProdFinEquiv : Fin 5 × Fin 2000 ≃ Fin 10000) f, Fintype.sum_prod_type]
  refine Finset.sum_congr rfl fun i _ => Finset.sum_congr rfl fun a _ => congrArg f (Fin.ext ?_)
  show a.val + 2000 * i.val = 2000 * i.val + a.val
  omega

theorem sum_rows5 (f : Fin 10000 → EReal) :
    ∑ r : Fin 10000, f r
      = (∑ a : Fin 2000, f (rowS 0 (by omega) a)) + (∑ a : Fin 2000, f (rowS 1 (by omega) a))
        + (∑ a : Fin 2000, f (rowS 2 (by omega) a)) + (∑ a : Fin 2000, f (rowS 3 (by omega) a))
        + (∑ a : Fin 2000, f (rowS 4 (by omega) a)) := by
  rw [sum_rows, Fin.sum_univ_five]
  rfl

variable (m : (ℓ : Loc nD τ sig) → Buf (Elt Ideal) ℓ) (c : Dev nD)

local notation "𝐈" => inpK m c

local notation "𝐗₂" => Cert.Spec.lin (Cert.Spec.h1K (inpK m c) Cert.Spec.epsI Cert.Spec.oneI) (Cert.Spec.Inp.c2W (inpK m c)) (Cert.Spec.Inp.c2b (inpK m c))

local notation "𝐗₁" => Cert.Spec.lin (Cert.Spec.fused (inpK m c) Cert.Spec.oneI) (Cert.Spec.Inp.c1W (inpK m c)) (Cert.Spec.Inp.c1b (inpK m c))

theorem X2_eq (r : Fin 10000) (d : Fin 64) :
    𝐗₂ r d
      = (∑ e : Fin 64,
            max (∑ k : Fin 2048, (𝐈.H r k * Cert.Spec.s 𝐈 Cert.Spec.epsI r)
                * ((∑ r' : Fin 10000, 𝐗₁ r' e * (𝐈.H r' k * Cert.Spec.s 𝐈 Cert.Spec.epsI r')) * Cert.Spec.q 𝐈 Cert.Spec.epsI k)) 0
              * 𝐈.c2W e d)
          + 𝐈.c2b d := rfl

theorem hqS2000_apply (i : ℕ) (hi : i < 5) (a : Fin 2000) (k : Fin 2048) :
    hqS2000 m c i hi (ix2 a k)
      = 𝐈.H (rowS i hi a) k * Cert.Spec.s 𝐈 Cert.Spec.epsI (rowS i hi a) :=
  hqRow_eq m c (rowS i hi a) k

theorem row_term (i : ℕ) (hi : i < 5) (t : Fin cfg0.N) (a : Fin 2000) (d : Fin 64) (j : Fin 2048) :
    ((∑ e : Fin 64, max (∑ k : Fin 2048, hqS2000 m c i hi (ix2 a k) * MN1 m c (ix2 k e)) 0 * bC2W m c t (ix2 e d))
        + bC2b m c t (ix2 (0 : Fin 1) d)) * hqS2000 m c i hi (ix2 a j)
      = 𝐗₂ (rowS i hi a) d * (𝐈.H (rowS i hi a) j * Cert.Spec.s 𝐈 Cert.Spec.epsI (rowS i hi a)) := by
  rw [hqS2000_apply m c i hi a j, bC2b_apply m c t d, X2_eq m c (rowS i hi a) d]
  refine congrArg (· * _) (congrArg (· + _) (Finset.sum_congr rfl fun e _ => ?_))
  rw [bC2W_apply m c t e d]
  refine congrArg (· * _) (congrArg (max · 0) (Finset.sum_congr rfl fun k _ => ?_))
  rw [hqS2000_apply m c i hi a k, MN1_apply m c k e]

theorem mt1At_zero (h : 0 < 5) (d : Fin 64) (j : Fin 2048) :
    mt1At m c 0 h (ix2 d j)
      = ∑ a : Fin 2000, 𝐗₂ (rowS 0 h a) d * (𝐈.H (rowS 0 h a) j * Cert.Spec.s 𝐈 Cert.Spec.epsI (rowS 0 h a)) := by
  refine (pay6_apply (hqS2000 m c 0 h) (MN1 m c) (bC2W m c (pt 25 (by omega))) (bC2b m c (pt 25 (by omega)))
    (k0_pay5 (F := Ideal)) d j).trans ?_
  rw [pay5_apply, zero_add]
  exact Finset.sum_congr rfl fun a _ => row_term m c 0 h (pt 25 (by omega)) a d j

theorem mt1At_step (n i : ℕ) (hn : n = i + 1) (h : n < 5) (hi : i < 5) (d : Fin 64) (j : Fin 2048) :
    mt1At m c n h (ix2 d j)
      = mt1At m c i hi (ix2 d j)
        + ∑ a : Fin 2000, 𝐗₂ (rowS n h a) d * (𝐈.H (rowS n h a) j * Cert.Spec.s 𝐈 Cert.Spec.epsI (rowS n h a)) := by
  subst hn
  refine (pay6_apply (hqS2000 m c (i + 1) h) (MN1 m c) (bC2W m c (pt (26 + i) (by omega))) (bC2b m c (pt (26 + i) (by omega)))
    (mt1At m c i hi) d j).trans ?_
  exact congrArg (_ + ·) (Finset.sum_congr rfl fun a _ => row_term m c (i + 1) h (pt (26 + i) (by omega)) a d j)

end Cert.KernelIdeal.KV.Scatter1

namespace Cert.KernelIdeal.KV

open Cert.KernelIdeal Cert.KernelIdeal.Gen Cert.KernelIdeal.Hand
open Idealize.ShloMosaic Idealize.ShloMosaic.TcCoe
open Idealize.SL Idealize.SL.Sem
open Idealize.ShloMosaic.ValueIdx
open Cert.KernelIdeal.KV.Scatter1

variable (m : (ℓ : Loc nD τ sig) → Buf (Elt Ideal) ℓ) (c : Dev nD)

local notation "𝐈" => inpK m c

local notation "𝐗₂" => Cert.Spec.lin (Cert.Spec.h1K (inpK m c) Cert.Spec.epsI Cert.Spec.oneI) (Cert.Spec.Inp.c2W (inpK m c)) (Cert.Spec.Inp.c2b (inpK m c))

theorem MT2_apply (d : Fin 64) (j : Fin 2048) :
    MT2 m c (ValueIdx.ix2 d j)
      = ∑ r : Fin 10000, 𝐗₂ r d * (𝐈.H r j * Cert.Spec.s 𝐈 Cert.Spec.epsI r) := by
  rw [sum_rows5 (fun r => 𝐗₂ r d * (𝐈.H r j * Cert.Spec.s 𝐈 Cert.Spec.epsI r))]
  show mt1At m c 4 (by omega) (ix2 d j) = _
  rw [mt1At_step m c 4 3 rfl (by omega) (by omega) d j, mt1At_step m c 3 2 rfl (by omega) (by omega) d j,
    mt1At_step m c 2 1 rfl (by omega) (by omega) d j, mt1At_step m c 1 0 rfl (by omega) (by omega) d j,
    mt1At_zero m c (by omega) d j]

theorem MN2_apply (j : Fin 2048) (d : Fin 64) :
    MN2 m c (ValueIdx.ix2 j d)
      = (∑ r : Fin 10000, 𝐗₂ r d * (𝐈.H r j * Cert.Spec.s 𝐈 Cert.Spec.epsI r)) * Cert.Spec.q 𝐈 Cert.Spec.epsI j := by
  refine (pay7_apply (bWr m c (pt 30 (by omega))) (DE m c) (MT2 m c) j d).trans ?_
  rw [MT2_apply m c d j, bWr_apply m c (pt 30 (by omega)) j, DE_apply m c j]
  rfl

end Cert.KernelIdeal.KV

end
-- ==== Proof.KVFinal.lean ====
import proofs.«108041_g40587440947829_cont_sun_m_1101_23_alg».proof.Proof.KIBody
import proofs.«108041_g40587440947829_cont_sun_m_1101_23_alg».proof.Proof.Spec
import proofs.«108041_g40587440947829_cont_sun_m_1101_23_alg».proof.Proof.KVBlocks
import proofs.«108041_g40587440947829_cont_sun_m_1101_23_alg».proof.Proof.KVTiles
import proofs.«108041_g40587440947829_cont_sun_m_1101_23_alg».proof.Proof.KVScatter1
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.KV

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

private theorem lhs_scat_0 (i : S400x64.Idx) (q : dot_S400x2048_S2048x64_S400x64_1_0_0_1_n_n.contr.Idx) : (dot_S400x2048_S2048x64_S400x64_1_0_0_1_n_n.lhsIdx i q 0).val = (i 0).val := by
  unfold DotDims.lhsIdx
  rw [dif_neg (show ¬(0 : Fin S400x2048.rank) ∈ dot_S400x2048_S2048x64_S400x64_1_0_0_1_n_n.lhsBatch by decide), dif_pos (show (0 : Fin S400x2048.rank) ∈ dot_S400x2048_S2048x64_S400x64_1_0_0_1_n_n.lhsNonContracting by decide)]
  rfl
private theorem lhs_scat_1 (i : S400x64.Idx) (q : dot_S400x2048_S2048x64_S400x64_1_0_0_1_n_n.contr.Idx) : (dot_S400x2048_S2048x64_S400x64_1_0_0_1_n_n.lhsIdx i q 1).val = (q ⟨0, by decide⟩).val :=
  dot_S400x2048_S2048x64_S400x64_1_0_0_1_n_n.lhsIdx_val_of_single rfl i q
private theorem rhs_scat_0 (i : S400x64.Idx) (q : dot_S400x2048_S2048x64_S400x64_1_0_0_1_n_n.contr.Idx) : (dot_S400x2048_S2048x64_S400x64_1_0_0_1_n_n.rhsIdx i q 0).val = (q ⟨0, by decide⟩).val :=
  dot_S400x2048_S2048x64_S400x64_1_0_0_1_n_n.rhsIdx_val_of_single rfl i q
private theorem rhs_scat_1 (i : S400x64.Idx) (q : dot_S400x2048_S2048x64_S400x64_1_0_0_1_n_n.contr.Idx) : (dot_S400x2048_S2048x64_S400x64_1_0_0_1_n_n.rhsIdx i q 1).val = (i 1).val := by
  unfold DotDims.rhsIdx
  rw [dif_neg (show ¬(1 : Fin S2048x64.rank) ∈ dot_S400x2048_S2048x64_S400x64_1_0_0_1_n_n.rhsBatch by decide), dif_pos (show (1 : Fin S2048x64.rank) ∈ dot_S400x2048_S2048x64_S400x64_1_0_0_1_n_n.rhsNonContracting by decide)]
  rfl

private theorem scat_apply (L : FVec Ideal S400x2048 .bf16) (R : FVec Ideal S2048x64 .bf16) (a : Fin 400) (b : Fin 64) :
    matmul (F := Ideal) dot_S400x2048_S2048x64_S400x64_1_0_0_1_n_n none L R (constant (F := Ideal) S400x64 .f32 0x00000000#32) (ValueIdx.ix2 a b)
      = ∑ k : Fin 2048, L (ValueIdx.ix2 a k) * R (ValueIdx.ix2 k b) :=
  Tiles.matmul_zero_ix2 dot_S400x2048_S2048x64_S400x64_1_0_0_1_n_n rfl rfl lhs_scat_0 lhs_scat_1 rhs_scat_0 rhs_scat_1 L R a b

private theorem lhs_head_0 (i : S400x2.Idx) (q : dot_S400x64_S64x2_S400x2_1_0_0_1_n_n.contr.Idx) : (dot_S400x64_S64x2_S400x2_1_0_0_1_n_n.lhsIdx i q 0).val = (i 0).val := by
  unfold DotDims.lhsIdx
  rw [dif_neg (show ¬(0 : Fin S400x64.rank) ∈ dot_S400x64_S64x2_S400x2_1_0_0_1_n_n.lhsBatch by decide), dif_pos (show (0 : Fin S400x64.rank) ∈ dot_S400x64_S64x2_S400x2_1_0_0_1_n_n.lhsNonContracting by decide)]
  rfl
private theorem lhs_head_1 (i : S400x2.Idx) (q : dot_S400x64_S64x2_S400x2_1_0_0_1_n_n.contr.Idx) : (dot_S400x64_S64x2_S400x2_1_0_0_1_n_n.lhsIdx i q 1).val = (q ⟨0, by decide⟩).val :=
  dot_S400x64_S64x2_S400x2_1_0_0_1_n_n.lhsIdx_val_of_single rfl i q
private theorem rhs_head_0 (i : S400x2.Idx) (q : dot_S400x64_S64x2_S400x2_1_0_0_1_n_n.contr.Idx) : (dot_S400x64_S64x2_S400x2_1_0_0_1_n_n.rhsIdx i q 0).val = (q ⟨0, by decide⟩).val :=
  dot_S400x64_S64x2_S400x2_1_0_0_1_n_n.rhsIdx_val_of_single rfl i q
private theorem rhs_head_1 (i : S400x2.Idx) (q : dot_S400x64_S64x2_S400x2_1_0_0_1_n_n.contr.Idx) : (dot_S400x64_S64x2_S400x2_1_0_0_1_n_n.rhsIdx i q 1).val = (i 1).val := by
  unfold DotDims.rhsIdx
  rw [dif_neg (show ¬(1 : Fin S64x2.rank) ∈ dot_S400x64_S64x2_S400x2_1_0_0_1_n_n.rhsBatch by decide), dif_pos (show (1 : Fin S64x2.rank) ∈ dot_S400x64_S64x2_S400x2_1_0_0_1_n_n.rhsNonContracting by decide)]
  rfl

private theorem head_apply (L : FVec Ideal S400x64 .f32) (R : FVec Ideal S64x2 .f32) (a : Fin 400) (b : Fin 2) :
    matmul (F := Ideal) dot_S400x64_S64x2_S400x2_1_0_0_1_n_n none L R (constant (F := Ideal) S400x2 .f32 0x00000000#32) (ValueIdx.ix2 a b)
      = ∑ k : Fin 64, L (ValueIdx.ix2 a k) * R (ValueIdx.ix2 k b) :=
  Tiles.matmul_zero_ix2 dot_S400x64_S64x2_S400x2_1_0_0_1_n_n rfl rfl lhs_head_0 lhs_head_1 rhs_head_0 rhs_head_1 L R a b

private theorem pay8_apply (T : Vec Ideal S400x2048 .bf16) (M : Vec Ideal S2048x64 .bf16) (W : Vec Ideal S64x2 .f32) (bv : Vec Ideal S1x2 .f32)
    (a : Fin 400) (o : Fin 2) :
    k0_pay8 (F := Ideal) T M W bv (ValueIdx.ix2 a o)
      = (∑ d : Fin 64, max (∑ j : Fin 2048, T (ValueIdx.ix2 a j) * M (ValueIdx.ix2 j d)) 0 * W (ValueIdx.ix2 d o))
          + bv (ValueIdx.ix2 (0 : Fin 1) o) := by
  unfold k0_pay8
  rw [ValueIdx.addf_apply, head_apply, ValueIdx.broadcastTo_1b_ab_apply, shapeCast_self]
  simp only [ValueIdx.maximumf_apply, scat_apply, ValueIdx.broadcast_apply, Ideal.ofBits_def, Ideal.ofBits_zero_f32]

variable (m : (ℓ : Loc nD τ sig) → Buf (Elt Ideal) ℓ) (c : Dev nD)

theorem outTile_apply (k : ℕ) (hk : k < 25) (a : Fin 400) (o : Fin 2) :
    outTile m c k hk (ValueIdx.ix2 a o) = Cert.Spec.logitsK (inpK m c) Cert.Spec.epsI Cert.Spec.oneI (rowOf k hk a) o := by
  refine (pay8_apply _ _ _ _ a o).trans ?_
  rw [bHdb_apply]
  simp only [hqTile_apply m c (pt k (by omega)) hk, MN2_apply, bHdW_apply]
  rfl

private theorem outTile_idx (k : ℕ) (hk : k < 25) (y : S400x2.Idx) :
    outTile m c k hk y = Cert.Spec.logitsK (inpK m c) Cert.Spec.epsI Cert.Spec.oneI (rowOf k hk (y 0)) (y 1) := by
  rw [ValueIdx.eq_ix2 y]; exact outTile_apply m c k hk (y 0) (y 1)

private theorem flush20_iff : ∀ t : Fin cfg0.N, (cfg0.win 20).flush t = true ↔ 30 ≤ t.val :=
  (by decide +kernel : ∀ t : Fin grid0.N, win0_20.flush t = true ↔ 30 ≤ t.val)

private theorem index20 : ∀ t : Fin cfg0.N, win0_20.index t (0 : Fin 2) = t.val - 30 ∧ win0_20.index t (1 : Fin 2) = 0 :=
  (by decide +kernel : ∀ t : Fin grid0.N, win0_20.index t (0 : Fin 2) = t.val - 30 ∧ win0_20.index t (1 : Fin 2) = 0)

private theorem mem_blk20 (t : Fin cfg0.N) (i : S10000x2.Idx) :
    i ∈ ((cfg0.win 20).blk t).view.set ↔ ∀ a : Fin 2, win0_20.index t a * S400x2.size a ≤ (i a).val ∧ (i a).val < win0_20.index t a * S400x2.size a + S400x2.size a := by
  show i ∈ ((View.whole main_v10_1).slice (win0_20.rect t)).set ↔ _
  rw [View.set_slice_whole, Rect.mem_set_unit]
  exact Iff.rfl

private theorem flushed20_eq (t : Fin cfg0.N) (hf : (cfg0.win 20).flush t = true) :
    (dats m 0 c).flushed 20 t = ((cfg0.win 20).blk t).view.read (Elt Ideal) (Cert.Spec.arr2 (Cert.Spec.logitsK (inpK m c) Cert.Spec.epsI Cert.Spec.oneI)) := by
  have h30 : 30 ≤ t.val := (flush20_iff t).mp hf
  have hN : t.val < 55 := lt_of_lt_of_eq t.isLt N55
  obtain ⟨e0, e1⟩ := index20 t
  show (cfg0.win 20).cut (grid0.coords t) ((dats m 0 c).after 20 t) = _
  rw [after_20]
  unfold after20
  rw [dif_pos h30]
  funext y
  show outTile m c (t.val - 30) _ ((cfg0.win 20).xinj (grid0.coords t) y) = Cert.Spec.arr2 (Cert.Spec.logitsK (inpK m c) Cert.Spec.epsI Cert.Spec.oneI) (((cfg0.win 20).blk t).view.emb y)
  refine (outTile_idx m c _ _ _).trans ?_
  unfold Cert.Spec.arr2
  refine congrArg₂ (Cert.Spec.logitsK (inpK m c) Cert.Spec.epsI Cert.Spec.oneI) (Fin.ext ?_) (Fin.ext ?_)
  · show 400 * (t.val - 30) + (y 0).val = win0_20.index t (0 : Fin 2) * 400 + 1 * (y 0).val
    rw [e0]; omega
  · show (y 1).val = win0_20.index t (1 : Fin 2) * 2 + 1 * (y 1).val
    rw [e1]; omega

private theorem cover20 (i : S10000x2.Idx) : ∃ t : Fin cfg0.N, (cfg0.win 20).flush t = true ∧ i ∈ ((cfg0.win 20).blk t).view.set := by
  have h0 : (i 0).val < 10000 := (i 0).isLt
  have h1 : (i 1).val < 2 := (i 1).isLt
  have hq : 30 + (i 0).val / 400 < 55 := by omega
  obtain ⟨e0, e1⟩ := index20 (pt (30 + (i 0).val / 400) hq)
  have e0' : win0_20.index (pt (30 + (i 0).val / 400) hq) (0 : Fin 2) = 30 + (i 0).val / 400 - 30 := e0
  refine ⟨pt (30 + (i 0).val / 400) hq, (flush20_iff _).mpr (show 30 ≤ 30 + (i 0).val / 400 by omega), ?_⟩
  rw [mem_blk20]
  intro a
  match a with
  | ⟨0, _⟩ =>
    show win0_20.index (pt (30 + (i 0).val / 400) hq) (0 : Fin 2) * 400 ≤ (i 0).val ∧ (i 0).val < win0_20.index (pt (30 + (i 0).val / 400) hq) (0 : Fin 2) * 400 + 400
    rw [e0']; omega
  | ⟨1, _⟩ =>
    show win0_20.index (pt (30 + (i 0).val / 400) hq) (1 : Fin 2) * 2 ≤ (i 1).val ∧ (i 1).val < win0_20.index (pt (30 + (i 0).val / 400) hq) (1 : Fin 2) * 2 + 2
    rw [e1]; omega

theorem final20 : (dats m 0 c).arrAt 20 cfg0.N = Cert.Spec.arr2 (Cert.Spec.logitsK (inpK m c) Cert.Spec.epsI Cert.Spec.oneI) :=
  (dats m 0 c).arrAt_eq_of_cover 20 _ (flushed20_eq m c) cover20

private theorem flush19_iff : ∀ t : Fin cfg0.N, (cfg0.win 19).flush t = true ↔ (t.val < 24 ∨ t.val = 54) :=
  (by decide +kernel : ∀ t : Fin grid0.N, win0_19.flush t = true ↔ (t.val < 24 ∨ t.val = 54))

private theorem index19 : ∀ t : Fin cfg0.N, win0_19.index t (0 : Fin 2) = min t.val 24 ∧ win0_19.index t (1 : Fin 2) = 0 :=
  (by decide +kernel : ∀ t : Fin grid0.N, win0_19.index t (0 : Fin 2) = min t.val 24 ∧ win0_19.index t (1 : Fin 2) = 0)

private theorem mem_blk19 (t : Fin cfg0.N) (i : S10000x32.Idx) :
    i ∈ ((cfg0.win 19).blk t).view.set ↔ ∀ a : Fin 2, win0_19.index t a * S400x32.size a ≤ (i a).val ∧ (i a).val < win0_19.index t a * S400x32.size a + S400x32.size a := by
  show i ∈ ((View.whole main_v10_0).slice (win0_19.rect t)).set ↔ _
  rw [View.set_slice_whole, Rect.mem_set_unit]
  exact Iff.rfl

private theorem gTile_idx (t : Fin cfg0.N) (ht : t.val < 25) (y : S400x32.Idx) :
    gTile m c t y = Cert.Spec.gate (inpK m c) (rowOf t.val ht (y 0)) (y 1) := by
  rw [ValueIdx.eq_ix2 y]; exact gTile_apply m c t ht (y 0) (y 1)

private theorem flushed19_eq (t : Fin cfg0.N) (hf : (cfg0.win 19).flush t = true) :
    (dats m 0 c).flushed 19 t = ((cfg0.win 19).blk t).view.read (Elt Ideal) (Cert.Spec.arr2 (Cert.Spec.gate (inpK m c))) := by
  have hN : t.val < 55 := lt_of_lt_of_eq t.isLt N55
  obtain ⟨e0, e1⟩ := index19 t
  show (cfg0.win 19).cut (grid0.coords t) ((dats m 0 c).after 19 t) = _
  rw [after_19]
  unfold after19
  funext y
  rcases (flush19_iff t).mp hf with h | h
  · rw [dif_pos (show t.val < 25 by omega)]
    show gTile m c t ((cfg0.win 19).xinj (grid0.coords t) y) = Cert.Spec.arr2 (Cert.Spec.gate (inpK m c)) (((cfg0.win 19).blk t).view.emb y)
    refine (gTile_idx m c t (by omega) _).trans ?_
    unfold Cert.Spec.arr2
    refine congrArg₂ (Cert.Spec.gate (inpK m c)) (Fin.ext ?_) (Fin.ext ?_)
    · show 400 * t.val + (y 0).val = win0_19.index t (0 : Fin 2) * 400 + 1 * (y 0).val
      rw [e0]; omega
    · show (y 1).val = win0_19.index t (1 : Fin 2) * 32 + 1 * (y 1).val
      rw [e1]; omega
  · rw [dif_neg (show ¬ t.val < 25 by omega)]
    show gTile m c (pt 24 (by omega)) ((cfg0.win 19).xinj (grid0.coords t) y) = Cert.Spec.arr2 (Cert.Spec.gate (inpK m c)) (((cfg0.win 19).blk t).view.emb y)
    refine (gTile_idx m c (pt 24 (by omega)) (by show 24 < 25; omega) _).trans ?_
    unfold Cert.Spec.arr2
    refine congrArg₂ (Cert.Spec.gate (inpK m c)) (Fin.ext ?_) (Fin.ext ?_)
    · show 400 * 24 + (y 0).val = win0_19.index t (0 : Fin 2) * 400 + 1 * (y 0).val
      rw [e0]; omega
    · show (y 1).val = win0_19.index t (1 : Fin 2) * 32 + 1 * (y 1).val
      rw [e1]; omega

private theorem cover19 (i : S10000x32.Idx) : ∃ t : Fin cfg0.N, (cfg0.win 19).flush t = true ∧ i ∈ ((cfg0.win 19).blk t).view.set := by
  have h0 : (i 0).val < 10000 := (i 0).isLt
  have h1 : (i 1).val < 32 := (i 1).isLt
  by_cases hq : (i 0).val / 400 < 24
  · have hq' : (i 0).val / 400 < 55 := by omega
    obtain ⟨e0, e1⟩ := index19 (pt ((i 0).val / 400) hq')
    have e0' : win0_19.index (pt ((i 0).val / 400) hq') (0 : Fin 2) = min ((i 0).val / 400) 24 := e0
    refine ⟨pt ((i 0).val / 400) hq', (flush19_iff _).mpr (Or.inl hq), ?_⟩
    rw [mem_blk19]
    intro a
    match a with
    | ⟨0, _⟩ =>
      show win0_19.index (pt ((i 0).val / 400) hq') (0 : Fin 2) * 400 ≤ (i 0).val ∧ (i 0).val < win0_19.index (pt ((i 0).val / 400) hq') (0 : Fin 2) * 400 + 400
      rw [e0']; omega
    | ⟨1, _⟩ =>
      show win0_19.index (pt ((i 0).val / 400) hq') (1 : Fin 2) * 32 ≤ (i 1).val ∧ (i 1).val < win0_19.index (pt ((i 0).val / 400) hq') (1 : Fin 2) * 32 + 32
      rw [e1]; omega
  · obtain ⟨e0, e1⟩ := index19 (pt 54 (by omega))
    have e0' : win0_19.index (pt 54 (by omega)) (0 : Fin 2) = min 54 24 := e0
    refine ⟨pt 54 (by omega), (flush19_iff _).mpr (Or.inr rfl), ?_⟩
    rw [mem_blk19]
    intro a
    match a with
    | ⟨0, _⟩ =>
      show win0_19.index (pt 54 (by omega)) (0 : Fin 2) * 400 ≤ (i 0).val ∧ (i 0).val < win0_19.index (pt 54 (by omega)) (0 : Fin 2) * 400 + 400
      rw [e0']; omega
    | ⟨1, _⟩ =>
      show win0_19.index (pt 54 (by omega)) (1 : Fin 2) * 32 ≤ (i 1).val ∧ (i 1).val < win0_19.index (pt 54 (by omega)) (1 : Fin 2) * 32 + 32
      rw [e1]; omega

theorem final19 : (dats m 0 c).arrAt 19 cfg0.N = Cert.Spec.arr2 (Cert.Spec.gate (inpK m c)) :=
  (dats m 0 c).arrAt_eq_of_cover 19 _ (flushed19_eq m c) cover19

set_option maxHeartbeats 1260000 in
theorem value_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v10_1) = Cert.Spec.arr2 (Cert.Spec.logitsK (inpK m c) Cert.Spec.epsI Cert.Spec.oneI)
      ∧ r.2.mem ((c.tc : Thread nD τ).loc main_v10_0) = Cert.Spec.arr2 (Cert.Spec.gate (inpK m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).1 20).trans (final20 m c), ((h c).1 19).trans (final19 m c),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).1 0).trans (((dats m 0 c).arrAt_in 0 rfl _).trans ((A_eq m c 0).trans (V_main_arg2 m c))),
      ((h c).2 main_arg3 (Pipeline.mem_restRefs_of main_arg3 (by decide) (by decide))).trans (V_main_arg3 m c),
      ((h c).1 5).trans (((dats m 0 c).arrAt_in 5 rfl _).trans ((A_eq m c 5).trans (V_main_arg4 m c))),
      ((h c).2 main_arg5 (Pipeline.mem_restRefs_of main_arg5 (by decide) (by decide))).trans (V_main_arg5 m c),
      ((h c).1 7).trans (((dats m 0 c).arrAt_in 7 rfl _).trans ((A_eq m c 7).trans (V_main_arg6 m c))),
      ((h c).2 main_arg7 (Pipeline.mem_restRefs_of main_arg7 (by decide) (by decide))).trans (V_main_arg7 m c),
      ((h c).1 9).trans (((dats m 0 c).arrAt_in 9 rfl _).trans ((A_eq m c 9).trans (V_main_arg8 m c))),
      ((h c).2 main_arg9 (Pipeline.mem_restRefs_of main_arg9 (by decide) (by decide))).trans (V_main_arg9 m c),
      ((h c).1 11).trans (((dats m 0 c).arrAt_in 11 rfl _).trans ((A_eq m c 11).trans (V_main_arg10 m c))),
      ((h c).2 main_arg11 (Pipeline.mem_restRefs_of main_arg11 (by decide) (by decide))).trans (V_main_arg11 m c),
      ((h c).1 13).trans (((dats m 0 c).arrAt_in 13 rfl _).trans ((A_eq m c 13).trans (V_main_arg12 m c))),
      ((h c).2 main_arg13 (Pipeline.mem_restRefs_of main_arg13 (by decide) (by decide))).trans (V_main_arg13 m c),
      ((h c).1 15).trans (((dats m 0 c).arrAt_in 15 rfl _).trans ((A_eq m c 15).trans (V_main_arg14 m c))),
      ((h c).2 main_arg15 (Pipeline.mem_restRefs_of main_arg15 (by decide) (by decide))).trans (V_main_arg15 m c),
      ((h c).1 17).trans (((dats m 0 c).arrAt_in 17 rfl _).trans ((A_eq m c 17).trans (V_main_arg16 m c))),
      ((h c).2 main_arg17 (Pipeline.mem_restRefs_of main_arg17 (by decide) (by decide))).trans (V_main_arg17 m c)⟩) (run_main m ρ)

end Cert.KernelIdeal.KV

end
-- ==== Proof.RefGate.lean ====
import proofs.«108041_g40587440947829_cont_sun_m_1101_23_alg».proof.Proof.Gen.ReferenceIdeal.Read
import proofs.«108041_g40587440947829_cont_sun_m_1101_23_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.RefValue

open Idealize.ShloMosaic Idealize.ShloMosaic.TcCoe Idealize.SL.Sem
open Cert.ReferenceIdeal Cert.ReferenceIdeal.Gen
open Idealize.ShloMosaic.ValueIdx

theorem lidx_v0 (r : Fin 10000) (k : Fin 32) (a : Fin 128) : Read.lidx_main_v0 (ix2 r k) a = ix2 r a :=
  funext fun d => Fin.ext (by match d with | ⟨0, _⟩ => rfl | ⟨1, _⟩ => rfl)

theorem ridx_v0 (r : Fin 10000) (k : Fin 32) (a : Fin 128) : Read.ridx_main_v0 (ix2 r k) a = ix2 a k :=
  funext fun d => Fin.ext (by match d with | ⟨0, _⟩ => rfl | ⟨1, _⟩ => rfl)
theorem lidx_v4 (r : Fin 10000) (k : Fin 32) (a : Fin 16) : Read.lidx_main_v4 (ix2 r k) a = ix2 r a :=
  funext fun d => Fin.ext (by match d with | ⟨0, _⟩ => rfl | ⟨1, _⟩ => rfl)
theorem ridx_v4 (r : Fin 10000) (k : Fin 32) (a : Fin 16) : Read.ridx_main_v4 (ix2 r k) a = ix2 a k :=
  funext fun d => Fin.ext (by match d with | ⟨0, _⟩ => rfl | ⟨1, _⟩ => rfl)
theorem lidx_v9 (r : Fin 10000) (c : Fin 64) (a : Fin 64) : Read.lidx_main_v9 (ix2 r c) a = ix2 r a :=
  funext fun d => Fin.ext (by match d with | ⟨0, _⟩ => rfl | ⟨1, _⟩ => rfl)
theorem ridx_v9 (r : Fin 10000) (c : Fin 64) (a : Fin 64) : Read.ridx_main_v9 (ix2 r c) a = ix2 a c :=
  funext fun d => Fin.ext (by match d with | ⟨0, _⟩ => rfl | ⟨1, _⟩ => rfl)
theorem lidx_v14 (r : Fin 10000) (k : Fin 32) (a : Fin 64) : Read.lidx_main_v14 (ix2 r k) a = ix2 r a :=
  funext fun d => Fin.ext (by match d with | ⟨0, _⟩ => rfl | ⟨1, _⟩ => rfl)
theorem ridx_v14 (r : Fin 10000) (k : Fin 32) (a : Fin 64) : Read.ridx_main_v14 (ix2 r k) a = ix2 a k :=
  funext fun d => Fin.ext (by match d with | ⟨0, _⟩ => rfl | ⟨1, _⟩ => rfl)
theorem lidx_v29 (r : Fin 10000) (d : Fin 64) (a : Fin 32) : Read.lidx_main_v29 (ix2 r d) a = ix2 r a :=
  funext fun e => Fin.ext (by match e with | ⟨0, _⟩ => rfl | ⟨1, _⟩ => rfl)
theorem ridx_v29 (r : Fin 10000) (d : Fin 64) (a : Fin 32) : Read.ridx_main_v29 (ix2 r d) a = ix2 a d :=
  funext fun e => Fin.ext (by match e with | ⟨0, _⟩ => rfl | ⟨1, _⟩ => rfl)

theorem bias_v2 (r : Fin 10000) (k : Fin 32) : Read.idx_main_v1 (Read.idx_main_v2 (ix2 r k)) = ix1 k :=
  funext fun d => Fin.ext (by match d with | ⟨0, _⟩ => rfl)
theorem bias_v6 (r : Fin 10000) (k : Fin 32) : Read.idx_main_v5 (Read.idx_main_v6 (ix2 r k)) = ix1 k :=
  funext fun d => Fin.ext (by match d with | ⟨0, _⟩ => rfl)
theorem bias_v11 (r : Fin 10000) (c : Fin 64) : Read.idx_main_v10 (Read.idx_main_v11 (ix2 r c)) = ix1 c :=
  funext fun d => Fin.ext (by match d with | ⟨0, _⟩ => rfl)
theorem bias_v16 (r : Fin 10000) (k : Fin 32) : Read.idx_main_v15 (Read.idx_main_v16 (ix2 r k)) = ix1 k :=
  funext fun d => Fin.ext (by match d with | ⟨0, _⟩ => rfl)
theorem bias_v31 (r : Fin 10000) (d : Fin 64) : Read.idx_main_v30 (Read.idx_main_v31 (ix2 r d)) = ix1 d :=
  funext fun e => Fin.ext (by match e with | ⟨0, _⟩ => rfl)

variable (x0 : (⟨S10000x128, .f32⟩ : BufTy).Contents (Elt Ideal)) (x1 : (⟨S10000x16, .f32⟩ : BufTy).Contents (Elt Ideal)) (x2 : (⟨S10000x2048, .f32⟩ : BufTy).Contents (Elt Ideal)) (x3 : (⟨S2048, .f32⟩ : BufTy).Contents (Elt Ideal)) (x4 : (⟨S128x32, .f32⟩ : BufTy).Contents (Elt Ideal)) (x5 : (⟨S32, .f32⟩ : BufTy).Contents (Elt Ideal))
  (x6 : (⟨S16x32, .f32⟩ : BufTy).Contents (Elt Ideal)) (x7 : (⟨S32, .f32⟩ : BufTy).Contents (Elt Ideal)) (x8 : (⟨S64x64, .f32⟩ : BufTy).Contents (Elt Ideal)) (x9 : (⟨S64, .f32⟩ : BufTy).Contents (Elt Ideal)) (x10 : (⟨S64x32, .f32⟩ : BufTy).Contents (Elt Ideal)) (x11 : (⟨S32, .f32⟩ : BufTy).Contents (Elt Ideal))
  (x12 : (⟨S32x64, .f32⟩ : BufTy).Contents (Elt Ideal)) (x13 : (⟨S64, .f32⟩ : BufTy).Contents (Elt Ideal)) (x14 : (⟨S64x64, .f32⟩ : BufTy).Contents (Elt Ideal)) (x15 : (⟨S64, .f32⟩ : BufTy).Contents (Elt Ideal)) (x16 : (⟨S64x2, .f32⟩ : BufTy).Contents (Elt Ideal)) (x17 : (⟨S2, .f32⟩ : BufTy).Contents (Elt Ideal))

theorem ref_x1 (r : Fin 10000) (k : Fin 32) :
    Read.val_main_v3 (F := Ideal) x0 x4 x5 (ix2 r k) = Cert.Spec.x1 (Cert.Spec.ofArrays x0 x1 x2 x3 x4 x5 x6 x7 x8 x9 x10 x11 x12 x13 x14 x15 x16 x17) r k := by
  rw [Read.val_main_v3_apply, Read.val_main_v0_apply, Read.val_main_v2_apply, Read.val_main_v1_apply, bias_v2]
  simp only [lidx_v0, ridx_v0, Ideal.addf_def]
  rfl

theorem ref_z1 (r : Fin 10000) (k : Fin 32) :
    Read.val_main_v7 (F := Ideal) x1 x6 x7 (ix2 r k) = Cert.Spec.z1 (Cert.Spec.ofArrays x0 x1 x2 x3 x4 x5 x6 x7 x8 x9 x10 x11 x12 x13 x14 x15 x16 x17) r k := by
  rw [Read.val_main_v7_apply, Read.val_main_v4_apply, Read.val_main_v6_apply, Read.val_main_v5_apply, bias_v6]
  simp only [lidx_v4, ridx_v4, Ideal.addf_def]
  rfl

theorem ref_cat (r : Fin 10000) (c : Fin 64) :
    Read.val_main_v8 (F := Ideal) x0 x1 x4 x5 x6 x7 (ix2 r c) = Cert.Spec.cat (Cert.Spec.ofArrays x0 x1 x2 x3 x4 x5 x6 x7 x8 x9 x10 x11 x12 x13 x14 x15 x16 x17) r c := by
  unfold Read.val_main_v8 Cert.Spec.cat
  by_cases h : c.val < 32
  · rw [dif_pos h]
    refine (concatenate_pair_apply_left (t := S10000x64) (s₁ := S10000x32) (s₂ := S10000x32) 1 _ _ _ (ix2 r c) rfl (ix2 r (⟨c.val, h⟩ : Fin 32)) (fun b => by
      match b with
      | ⟨0, _⟩ => rfl
      | ⟨1, _⟩ => rfl)).trans ?_
    exact ref_x1 x0 x1 x2 x3 x4 x5 x6 x7 x8 x9 x10 x11 x12 x13 x14 x15 x16 x17 r ⟨c.val, h⟩
  · rw [dif_neg h]
    refine (concatenate_pair_apply_right (t := S10000x64) (s₁ := S10000x32) (s₂ := S10000x32) 1 _ _ _ (ix2 r c) rfl rfl (ix2 r (⟨c.val - 32, by omega⟩ : Fin 32))
      (fun b hb => by
        match b with
        | ⟨0, _⟩ => rfl
        | ⟨1, _⟩ => exact absurd rfl hb)
      (show (c.val - 32) + 32 = c.val by omega)).trans ?_
    exact ref_z1 x0 x1 x2 x3 x4 x5 x6 x7 x8 x9 x10 x11 x12 x13 x14 x15 x16 x17 r ⟨c.val - 32, by omega⟩

theorem ref_gh (r : Fin 10000) (c : Fin 64) :
    Read.val_main_v13 (F := Ideal) x0 x1 x4 x5 x6 x7 x8 x9 (ix2 r c) = Cert.Spec.gh (Cert.Spec.ofArrays x0 x1 x2 x3 x4 x5 x6 x7 x8 x9 x10 x11 x12 x13 x14 x15 x16 x17) r c := by
  rw [Read.val_main_v13_apply, Read.val_main_v12_apply, Read.val_main_v9_apply, Read.val_main_v11_apply,
    Read.val_main_v10_apply, Read.val_main_call0_v0_apply, Read.val_main_call0_cst_apply, bias_v11]
  simp only [lidx_v9, ridx_v9, ref_cat x0 x1 x2 x3 x4 x5 x6 x7 x8 x9 x10 x11 x12 x13 x14 x15 x16 x17,
    Ideal.maximumf_def, Ideal.addf_def, Ideal.ofBits_def, Ideal.ofBits_zero_f32]
  rfl

theorem ref_gate (r : Fin 10000) (k : Fin 32) :
    Read.val_main_v23 (F := Ideal) x0 x1 x4 x5 x6 x7 x8 x9 x10 x11 (ix2 r k) = Cert.Spec.gate (Cert.Spec.ofArrays x0 x1 x2 x3 x4 x5 x6 x7 x8 x9 x10 x11 x12 x13 x14 x15 x16 x17) r k := by
  rw [Read.val_main_v23_apply, Read.val_main_v22_apply, Read.val_main_cst_0_apply, Read.val_main_v21_apply,
    Read.val_main_v20_apply, Read.val_main_cst_apply, Read.val_main_v19_apply, Read.val_main_v18_apply,
    Read.val_main_v17_apply, Read.val_main_v14_apply, Read.val_main_v16_apply, Read.val_main_v15_apply, bias_v16]
  simp only [lidx_v14, ridx_v14, ref_gh x0 x1 x2 x3 x4 x5 x6 x7 x8 x9 x10 x11 x12 x13 x14 x15 x16 x17,
    Ideal.hostDivf_def, Ideal.addf_def, Ideal.hostUnary_exp_def, Ideal.hostNegf_def, Ideal.negf_def,
    Ideal.ofBits_def, Ideal.ofBits_one_f32]
  rfl

theorem ref_fused (r : Fin 10000) (k : Fin 32) :
    Read.val_main_v28 (F := Ideal) x0 x1 x4 x5 x6 x7 x8 x9 x10 x11 (ix2 r k)
      = Cert.Spec.fused (Cert.Spec.ofArrays x0 x1 x2 x3 x4 x5 x6 x7 x8 x9 x10 x11 x12 x13 x14 x15 x16 x17) Cert.Spec.oneI r k := by
  rw [Read.val_main_v28_apply, Read.val_main_v24_apply, Read.val_main_v27_apply, Read.val_main_v26_apply,
    Read.val_main_v25_apply, Read.val_main_cst_1_apply,
    ref_gate x0 x1 x2 x3 x4 x5 x6 x7 x8 x9 x10 x11 x12 x13 x14 x15 x16 x17,
    ref_z1 x0 x1 x2 x3 x4 x5 x6 x7 x8 x9 x10 x11 x12 x13 x14 x15 x16 x17,
    ref_x1 x0 x1 x2 x3 x4 x5 x6 x7 x8 x9 x10 x11 x12 x13 x14 x15 x16 x17]
  rfl

theorem ref_X1 (r : Fin 10000) (d : Fin 64) :
    Read.val_main_v32 (F := Ideal) x0 x1 x4 x5 x6 x7 x8 x9 x10 x11 x12 x13 (ix2 r d)
      = Cert.Spec.lin (Cert.Spec.fused (Cert.Spec.ofArrays x0 x1 x2 x3 x4 x5 x6 x7 x8 x9 x10 x11 x12 x13 x14 x15 x16 x17) Cert.Spec.oneI)
          (Cert.Spec.ofArrays x0 x1 x2 x3 x4 x5 x6 x7 x8 x9 x10 x11 x12 x13 x14 x15 x16 x17).c1W (Cert.Spec.ofArrays x0 x1 x2 x3 x4 x5 x6 x7 x8 x9 x10 x11 x12 x13 x14 x15 x16 x17).c1b r d := by
  rw [Read.val_main_v32_apply, Read.val_main_v29_apply, Read.val_main_v31_apply, Read.val_main_v30_apply, bias_v31]
  simp only [lidx_v29, ridx_v29, ref_fused x0 x1 x2 x3 x4 x5 x6 x7 x8 x9 x10 x11 x12 x13 x14 x15 x16 x17,
    Ideal.addf_def]
  rfl

end Cert.ReferenceIdeal.RefValue

end
-- ==== Proof.RefConv1.lean ====
import proofs.«108041_g40587440947829_cont_sun_m_1101_23_alg».proof.Proof.Gen.ReferenceIdeal.Read
import proofs.«108041_g40587440947829_cont_sun_m_1101_23_alg».proof.Proof.Spec
import Idealize.ShloMosaic.Lib.ValueIdx
import Idealize.ShloMosaic.PureOps.Ideal.Laws

noncomputable section

namespace Cert.ReferenceIdeal.RefValue

open Idealize.ShloMosaic Idealize.ShloMosaic.TcCoe Idealize.SL.Sem
open Cert.ReferenceIdeal Cert.ReferenceIdeal.Gen
open Idealize.ShloMosaic.ValueIdx

theorem idx36_ix (r : Fin 10000) (k : Fin 2048) :
    Read.idx_main_v36 (ix1 r) k = ix2 r k :=
  funext fun a => Fin.ext (by match a with | ⟨0, _⟩ => rfl | ⟨1, _⟩ => rfl)

theorem idx33_34_ix (r : Fin 10000) (k : Fin 2048) :
    Read.idx_main_v33 (Read.idx_main_v34 (ix2 r k)) = ix1 k :=
  funext fun a => Fin.ext (by match a with | ⟨0, _⟩ => rfl)

theorem idx37_ix (j : Fin 2048) (k : Fin 10000) :
    Read.idx_main_v37 (ix1 j) k = ix2 k j :=
  funext fun a => Fin.ext (by match a with | ⟨0, _⟩ => rfl | ⟨1, _⟩ => rfl)

theorem idx41_42_ix (r : Fin 10000) (d : Fin 64) :
    Read.idx_main_v41 (Read.idx_main_v42 (ix2 r d)) = ix1 r :=
  funext fun a => Fin.ext (by match a with | ⟨0, _⟩ => rfl)

theorem idx44_ix (j : Fin 2048) (k : Fin 10000) :
    Read.idx_main_v44 (ix2 j k) = ix2 k j :=
  funext fun a => Fin.ext (by match a with | ⟨0, _⟩ => rfl | ⟨1, _⟩ => rfl)

theorem lidx45_ix (j : Fin 2048) (d : Fin 64) (k : Fin 10000) :
    Read.lidx_main_v45 (ix2 j d) k = ix2 j k :=
  funext fun a => Fin.ext (by match a with | ⟨0, _⟩ => rfl | ⟨1, _⟩ => rfl)

theorem ridx45_ix (j : Fin 2048) (d : Fin 64) (k : Fin 10000) :
    Read.ridx_main_v45 (ix2 j d) k = ix2 k d :=
  funext fun a => Fin.ext (by match a with | ⟨0, _⟩ => rfl | ⟨1, _⟩ => rfl)

theorem idx49_50_ix (j : Fin 2048) (d : Fin 64) :
    Read.idx_main_v49 (Read.idx_main_v50 (ix2 j d)) = ix1 j :=
  funext fun a => Fin.ext (by match a with | ⟨0, _⟩ => rfl)

theorem lidx52_ix (r : Fin 10000) (d : Fin 64) (k : Fin 2048) :
    Read.lidx_main_v52 (ix2 r d) k = ix2 r k :=
  funext fun a => Fin.ext (by match a with | ⟨0, _⟩ => rfl | ⟨1, _⟩ => rfl)

theorem ridx52_ix (r : Fin 10000) (d : Fin 64) (k : Fin 2048) :
    Read.ridx_main_v52 (ix2 r d) k = ix2 k d :=
  funext fun a => Fin.ext (by match a with | ⟨0, _⟩ => rfl | ⟨1, _⟩ => rfl)

theorem idx53_54_ix (r : Fin 10000) (d : Fin 64) :
    Read.idx_main_v53 (Read.idx_main_v54 (ix2 r d)) = ix1 r :=
  funext fun a => Fin.ext (by match a with | ⟨0, _⟩ => rfl)

variable
  (x0 : (⟨S10000x128, .f32⟩ : BufTy).Contents (Elt Ideal))
  (x1 : (⟨S10000x16, .f32⟩ : BufTy).Contents (Elt Ideal))
  (x2 : (⟨S10000x2048, .f32⟩ : BufTy).Contents (Elt Ideal))
  (x3 : (⟨S2048, .f32⟩ : BufTy).Contents (Elt Ideal))
  (x4 : (⟨S128x32, .f32⟩ : BufTy).Contents (Elt Ideal))
  (x5 : (⟨S32, .f32⟩ : BufTy).Contents (Elt Ideal))
  (x6 : (⟨S16x32, .f32⟩ : BufTy).Contents (Elt Ideal))
  (x7 : (⟨S32, .f32⟩ : BufTy).Contents (Elt Ideal))
  (x8 : (⟨S64x64, .f32⟩ : BufTy).Contents (Elt Ideal))
  (x9 : (⟨S64, .f32⟩ : BufTy).Contents (Elt Ideal))
  (x10 : (⟨S64x32, .f32⟩ : BufTy).Contents (Elt Ideal))
  (x11 : (⟨S32, .f32⟩ : BufTy).Contents (Elt Ideal))
  (x12 : (⟨S32x64, .f32⟩ : BufTy).Contents (Elt Ideal))
  (x13 : (⟨S64, .f32⟩ : BufTy).Contents (Elt Ideal))
  (x14 : (⟨S64x64, .f32⟩ : BufTy).Contents (Elt Ideal))
  (x15 : (⟨S64, .f32⟩ : BufTy).Contents (Elt Ideal))
  (x16 : (⟨S64x2, .f32⟩ : BufTy).Contents (Elt Ideal))
  (x17 : (⟨S2, .f32⟩ : BufTy).Contents (Elt Ideal))

local notation "𝐈" => Cert.Spec.ofArrays x0 x1 x2 x3 x4 x5 x6 x7 x8 x9 x10 x11 x12 x13 x14 x15 x16 x17

local notation "𝐗" => Read.val_main_v32 (F := Ideal) x0 x1 x4 x5 x6 x7 x8 x9 x10 x11 x12 x13

theorem ref_Dv (r : Fin 10000) :
    Read.val_main_v36 (F := Ideal) x2 x3 (ix1 r) = Cert.Spec.Dv 𝐈 r := by
  rw [Read.val_main_v36_apply, Read.val_main_cst_2_apply, Ideal.ofBits_def, Ideal.ofBits_zero_f32, zero_add]
  unfold Cert.Spec.Dv
  refine Finset.sum_congr rfl fun k _ => ?_
  rw [idx36_ix, Read.val_main_v35_apply, Read.val_main_v34_apply, Read.val_main_v33_apply, idx33_34_ix,
    Ideal.mulf_def]
  rfl

theorem ref_s (r : Fin 10000) :
    Read.val_main_v40 (F := Ideal) x2 x3 (ix1 r) = Cert.Spec.s 𝐈 Cert.Spec.epsI r := by
  rw [Read.val_main_v40_apply, Read.val_main_v39_apply, ref_Dv x0 x1 x2 x3 x4 x5 x6 x7 x8 x9 x10 x11 x12 x13 x14 x15 x16 x17 r, Read.val_main_v38_apply,
    Read.val_main_cst_4_apply, Ideal.hostUnary_rsqrt_def, Ideal.addf_def, Ideal.ofBits_def]
  rfl

theorem ref_De (j : Fin 2048) :
    Read.val_main_v37 (F := Ideal) x2 (ix1 j) = Cert.Spec.De 𝐈 j := by
  rw [Read.val_main_v37_apply, Read.val_main_cst_3_apply, Ideal.ofBits_def, Ideal.ofBits_zero_f32, zero_add]
  unfold Cert.Spec.De
  refine Finset.sum_congr rfl fun k _ => ?_
  rw [idx37_ix]
  rfl

theorem ref_q (j : Fin 2048) :
    Read.val_main_v48 (F := Ideal) x2 x3 (ix1 j) = Cert.Spec.q 𝐈 Cert.Spec.epsI j := by
  rw [Read.val_main_v48_apply, Read.val_main_v47_apply, ref_De x0 x1 x2 x3 x4 x5 x6 x7 x8 x9 x10 x11 x12 x13 x14 x15 x16 x17 j, Read.val_main_v46_apply,
    Read.val_main_cst_5_apply, Ideal.hostDivf_def, Ideal.addf_def, Ideal.ofBits_def]
  rfl

theorem ref_scaled (k : Fin 10000) (d : Fin 64) :
    Read.val_main_v43 (F := Ideal) x0 x1 x2 x3 x4 x5 x6 x7 x8 x9 x10 x11 x12 x13 (ix2 k d)
      = 𝐗 (ix2 k d) * Cert.Spec.s 𝐈 Cert.Spec.epsI k := by
  rw [Read.val_main_v43_apply, Read.val_main_v42_apply, Read.val_main_v41_apply, idx41_42_ix,
    ref_s x0 x1 x2 x3 x4 x5 x6 x7 x8 x9 x10 x11 x12 x13 x14 x15 x16 x17 k, Ideal.mulf_def]

theorem ref_agg (j : Fin 2048) (d : Fin 64) :
    Read.val_main_v45 (F := Ideal) x0 x1 x2 x3 x4 x5 x6 x7 x8 x9 x10 x11 x12 x13 (ix2 j d)
      = ∑ k : Fin 10000, x2 (ix2 k j) * (𝐗 (ix2 k d) * Cert.Spec.s 𝐈 Cert.Spec.epsI k) := by
  rw [Read.val_main_v45_apply]
  refine Finset.sum_congr rfl fun k _ => ?_
  rw [lidx45_ix, ridx45_ix, Read.val_main_v44_apply, idx44_ix, ref_scaled x0 x1 x2 x3 x4 x5 x6 x7 x8 x9 x10 x11 x12 x13 x14 x15 x16 x17 k d]

theorem ref_weighted (j : Fin 2048) (d : Fin 64) :
    Read.val_main_v51 (F := Ideal) x0 x1 x2 x3 x4 x5 x6 x7 x8 x9 x10 x11 x12 x13 (ix2 j d)
      = (∑ k : Fin 10000, x2 (ix2 k j) * (𝐗 (ix2 k d) * Cert.Spec.s 𝐈 Cert.Spec.epsI k))
          * Cert.Spec.q 𝐈 Cert.Spec.epsI j := by
  rw [Read.val_main_v51_apply, ref_agg x0 x1 x2 x3 x4 x5 x6 x7 x8 x9 x10 x11 x12 x13 x14 x15 x16 x17 j d, Read.val_main_v50_apply, Read.val_main_v49_apply,
    idx49_50_ix, ref_q x0 x1 x2 x3 x4 x5 x6 x7 x8 x9 x10 x11 x12 x13 x14 x15 x16 x17 j, Ideal.mulf_def]

theorem ref_scatter (r : Fin 10000) (d : Fin 64) :
    Read.val_main_v52 (F := Ideal) x0 x1 x2 x3 x4 x5 x6 x7 x8 x9 x10 x11 x12 x13 (ix2 r d)
      = ∑ j : Fin 2048, x2 (ix2 r j)
          * ((∑ k : Fin 10000, x2 (ix2 k j) * (𝐗 (ix2 k d) * Cert.Spec.s 𝐈 Cert.Spec.epsI k))
              * Cert.Spec.q 𝐈 Cert.Spec.epsI j) := by
  rw [Read.val_main_v52_apply]
  refine Finset.sum_congr rfl fun j _ => ?_
  rw [lidx52_ix, ridx52_ix, ref_weighted x0 x1 x2 x3 x4 x5 x6 x7 x8 x9 x10 x11 x12 x13 x14 x15 x16 x17 j d]

theorem ref_conv1 (r : Fin 10000) (d : Fin 64) :
    Read.val_main_v55 (F := Ideal) x0 x1 x2 x3 x4 x5 x6 x7 x8 x9 x10 x11 x12 x13 (ix2 r d)
      = Cert.Spec.convR 𝐈 Cert.Spec.epsI (fun r' d' => 𝐗 (ix2 r' d')) r d := by
  rw [Read.val_main_v55_apply, ref_scatter x0 x1 x2 x3 x4 x5 x6 x7 x8 x9 x10 x11 x12 x13 x14 x15 x16 x17 r d, Read.val_main_v54_apply, Read.val_main_v53_apply,
    idx53_54_ix, ref_s x0 x1 x2 x3 x4 x5 x6 x7 x8 x9 x10 x11 x12 x13 x14 x15 x16 x17 r, Ideal.mulf_def]
  rfl

theorem ref_h1 (r : Fin 10000) (d : Fin 64) :
    Read.val_main_v56 (F := Ideal) x0 x1 x2 x3 x4 x5 x6 x7 x8 x9 x10 x11 x12 x13 (ix2 r d)
      = Cert.Spec.relu (Cert.Spec.convR 𝐈 Cert.Spec.epsI (fun r' d' => 𝐗 (ix2 r' d'))) r d := by
  rw [Read.val_main_v56_apply, ref_conv1 x0 x1 x2 x3 x4 x5 x6 x7 x8 x9 x10 x11 x12 x13 x14 x15 x16 x17 r d, Read.val_main_call1_v0_apply,
    Read.val_main_call1_cst_apply, Ideal.maximumf_def, Ideal.ofBits_def, Ideal.ofBits_zero_f32]
  rfl

end Cert.ReferenceIdeal.RefValue

end
-- ==== Proof.RefConv2.lean ====
import proofs.«108041_g40587440947829_cont_sun_m_1101_23_alg».proof.Proof.Gen.ReferenceIdeal.Read
import proofs.«108041_g40587440947829_cont_sun_m_1101_23_alg».proof.Proof.Spec
import Idealize.ShloMosaic.Lib.ValueIdx
import Idealize.ShloMosaic.PureOps.Ideal.Laws

noncomputable section

namespace Cert.ReferenceIdeal.RefValue

open Idealize.ShloMosaic Idealize.ShloMosaic.TcCoe Idealize.SL.Sem
open Cert.ReferenceIdeal Cert.ReferenceIdeal.Gen

variable (x0 : (⟨S10000x128, .f32⟩ : BufTy).Contents (Elt Ideal))
  (x1 : (⟨S10000x16, .f32⟩ : BufTy).Contents (Elt Ideal))
  (x2 : (⟨S10000x2048, .f32⟩ : BufTy).Contents (Elt Ideal))
  (x3 : (⟨S2048, .f32⟩ : BufTy).Contents (Elt Ideal))
  (x4 : (⟨S128x32, .f32⟩ : BufTy).Contents (Elt Ideal))
  (x5 : (⟨S32, .f32⟩ : BufTy).Contents (Elt Ideal))
  (x6 : (⟨S16x32, .f32⟩ : BufTy).Contents (Elt Ideal))
  (x7 : (⟨S32, .f32⟩ : BufTy).Contents (Elt Ideal))
  (x8 : (⟨S64x64, .f32⟩ : BufTy).Contents (Elt Ideal))
  (x9 : (⟨S64, .f32⟩ : BufTy).Contents (Elt Ideal))
  (x10 : (⟨S64x32, .f32⟩ : BufTy).Contents (Elt Ideal))
  (x11 : (⟨S32, .f32⟩ : BufTy).Contents (Elt Ideal))
  (x12 : (⟨S32x64, .f32⟩ : BufTy).Contents (Elt Ideal))
  (x13 : (⟨S64, .f32⟩ : BufTy).Contents (Elt Ideal))
  (x14 : (⟨S64x64, .f32⟩ : BufTy).Contents (Elt Ideal))
  (x15 : (⟨S64, .f32⟩ : BufTy).Contents (Elt Ideal))
  (x16 : (⟨S64x2, .f32⟩ : BufTy).Contents (Elt Ideal))
  (x17 : (⟨S2, .f32⟩ : BufTy).Contents (Elt Ideal))

local notation "𝐈" => (Cert.Spec.ofArrays x0 x1 x2 x3 x4 x5 x6 x7 x8 x9 x10 x11 x12 x13 x14 x15 x16 x17)

section Indices

variable (r : Fin 10000) (j : Fin 2048) (d : Fin 64) (o : Fin 2)

private theorem idx_Dv (k : Fin 2048) : Read.idx_main_v64 (ValueIdx.ix1 r) k = ValueIdx.ix2 r k := funext fun a => Fin.ext (by match a with | ⟨0, _⟩ => rfl | ⟨1, _⟩ => rfl)

private theorem idx_w (k : Fin 2048) : Read.idx_main_v61 (Read.idx_main_v62 (ValueIdx.ix2 r k)) = ValueIdx.ix1 k := funext fun a => Fin.ext (by match a with | ⟨0, _⟩ => rfl)

private theorem idx_De (k : Fin 10000) : Read.idx_main_v65 (ValueIdx.ix1 j) k = ValueIdx.ix2 k j := funext fun a => Fin.ext (by match a with | ⟨0, _⟩ => rfl | ⟨1, _⟩ => rfl)

private theorem lidx_X (k : Fin 64) : Read.lidx_main_v57 (ValueIdx.ix2 r d) k = ValueIdx.ix2 r k := funext fun a => Fin.ext (by match a with | ⟨0, _⟩ => rfl | ⟨1, _⟩ => rfl)

private theorem ridx_X (k : Fin 64) : Read.ridx_main_v57 (ValueIdx.ix2 r d) k = ValueIdx.ix2 k d := funext fun a => Fin.ext (by match a with | ⟨0, _⟩ => rfl | ⟨1, _⟩ => rfl)

private theorem idx_Xb : Read.idx_main_v58 (Read.idx_main_v59 (ValueIdx.ix2 r d)) = ValueIdx.ix1 d := funext fun a => Fin.ext (by match a with | ⟨0, _⟩ => rfl)

private theorem idx_s_in : Read.idx_main_v69 (Read.idx_main_v70 (ValueIdx.ix2 r d)) = ValueIdx.ix1 r := funext fun a => Fin.ext (by match a with | ⟨0, _⟩ => rfl)

private theorem lidx_agg (k : Fin 10000) : Read.lidx_main_v73 (ValueIdx.ix2 j d) k = ValueIdx.ix2 j k := funext fun a => Fin.ext (by match a with | ⟨0, _⟩ => rfl | ⟨1, _⟩ => rfl)

private theorem idx_Ht (k : Fin 10000) : Read.idx_main_v72 (ValueIdx.ix2 j k) = ValueIdx.ix2 k j := funext fun a => Fin.ext (by match a with | ⟨0, _⟩ => rfl | ⟨1, _⟩ => rfl)

private theorem ridx_agg (k : Fin 10000) : Read.ridx_main_v73 (ValueIdx.ix2 j d) k = ValueIdx.ix2 k d := funext fun a => Fin.ext (by match a with | ⟨0, _⟩ => rfl | ⟨1, _⟩ => rfl)

private theorem idx_q : Read.idx_main_v77 (Read.idx_main_v78 (ValueIdx.ix2 j d)) = ValueIdx.ix1 j := funext fun a => Fin.ext (by match a with | ⟨0, _⟩ => rfl)

private theorem lidx_sc (k : Fin 2048) : Read.lidx_main_v80 (ValueIdx.ix2 r d) k = ValueIdx.ix2 r k := funext fun a => Fin.ext (by match a with | ⟨0, _⟩ => rfl | ⟨1, _⟩ => rfl)

private theorem ridx_sc (k : Fin 2048) : Read.ridx_main_v80 (ValueIdx.ix2 r d) k = ValueIdx.ix2 k d := funext fun a => Fin.ext (by match a with | ⟨0, _⟩ => rfl | ⟨1, _⟩ => rfl)

private theorem idx_s_out : Read.idx_main_v81 (Read.idx_main_v82 (ValueIdx.ix2 r d)) = ValueIdx.ix1 r := funext fun a => Fin.ext (by match a with | ⟨0, _⟩ => rfl)

private theorem lidx_hd (k : Fin 64) : Read.lidx_main_v85 (ValueIdx.ix2 r o) k = ValueIdx.ix2 r k := funext fun a => Fin.ext (by match a with | ⟨0, _⟩ => rfl | ⟨1, _⟩ => rfl)

private theorem ridx_hd (k : Fin 64) : Read.ridx_main_v85 (ValueIdx.ix2 r o) k = ValueIdx.ix2 k o := funext fun a => Fin.ext (by match a with | ⟨0, _⟩ => rfl | ⟨1, _⟩ => rfl)

private theorem idx_hdb : Read.idx_main_v86 (Read.idx_main_v87 (ValueIdx.ix2 r o)) = ValueIdx.ix1 o := funext fun a => Fin.ext (by match a with | ⟨0, _⟩ => rfl)

end Indices

theorem ref_s2 (r : Fin 10000) :
    Read.val_main_v68 (F := Ideal) x2 x3 (ValueIdx.ix1 r) = Cert.Spec.s 𝐈 Cert.Spec.epsI r := by
  rw [Read.val_main_v68_apply, Read.val_main_v67_apply, Read.val_main_v64_apply, Read.val_main_v66_apply,
    Read.val_main_cst_8_apply, Read.val_main_cst_6_apply]
  simp only [Read.val_main_v63_apply, Read.val_main_v62_apply, Read.val_main_v61_apply, idx_Dv, idx_w,
    Ideal.hostUnary_rsqrt_def, Ideal.addf_def, Ideal.mulf_def, Ideal.ofBits_def, Ideal.ofBits_zero_f32, zero_add]
  rfl

theorem ref_q2 (j : Fin 2048) :
    Read.val_main_v76 (F := Ideal) x2 x3 (ValueIdx.ix1 j) = Cert.Spec.q 𝐈 Cert.Spec.epsI j := by
  rw [Read.val_main_v76_apply, Read.val_main_v75_apply, Read.val_main_v65_apply, Read.val_main_v74_apply,
    Read.val_main_cst_9_apply, Read.val_main_cst_7_apply]
  simp only [idx_De, Ideal.hostDivf_def, Ideal.addf_def, Ideal.ofBits_def, Ideal.ofBits_zero_f32, zero_add]
  rfl

theorem ref_X2 (r : Fin 10000) (d : Fin 64) :
    Read.val_main_v60 (F := Ideal) x0 x1 x2 x3 x4 x5 x6 x7 x8 x9 x10 x11 x12 x13 x14 x15 (ValueIdx.ix2 r d)
      = Cert.Spec.lin (fun (r' : Fin 10000) (d' : Fin 64) => Read.val_main_v56 (F := Ideal) x0 x1 x2 x3 x4 x5 x6 x7 x8 x9 x10 x11 x12 x13 (ValueIdx.ix2 r' d'))
          (Cert.Spec.Inp.c2W 𝐈) (Cert.Spec.Inp.c2b 𝐈) r d := by
  rw [Read.val_main_v60_apply, Read.val_main_v57_apply, Read.val_main_v59_apply, Read.val_main_v58_apply]
  simp only [lidx_X, ridx_X, idx_Xb, Ideal.addf_def]
  rfl

theorem ref_conv2 (r : Fin 10000) (d : Fin 64) :
    Read.val_main_v83 (F := Ideal) x0 x1 x2 x3 x4 x5 x6 x7 x8 x9 x10 x11 x12 x13 x14 x15 (ValueIdx.ix2 r d)
      = Cert.Spec.convR 𝐈 Cert.Spec.epsI
          (fun (r' : Fin 10000) (d' : Fin 64) => Read.val_main_v60 (F := Ideal) x0 x1 x2 x3 x4 x5 x6 x7 x8 x9 x10 x11 x12 x13 x14 x15 (ValueIdx.ix2 r' d')) r d := by
  rw [Read.val_main_v83_apply, Read.val_main_v80_apply, Read.val_main_v82_apply, Read.val_main_v81_apply]
  simp only [Read.val_main_v79_apply, Read.val_main_v78_apply, Read.val_main_v77_apply, Read.val_main_v73_apply,
    Read.val_main_v72_apply, Read.val_main_v71_apply, Read.val_main_v70_apply, Read.val_main_v69_apply,
    lidx_sc, ridx_sc, idx_s_out, idx_q, lidx_agg, idx_Ht, ridx_agg, idx_s_in,
    ref_s2 x0 x1 x2 x3 x4 x5 x6 x7 x8 x9 x10 x11 x12 x13 x14 x15 x16 x17, ref_q2 x0 x1 x2 x3 x4 x5 x6 x7 x8 x9 x10 x11 x12 x13 x14 x15 x16 x17, Ideal.mulf_def]
  rfl

theorem ref_h2 (r : Fin 10000) (d : Fin 64) :
    Read.val_main_v84 (F := Ideal) x0 x1 x2 x3 x4 x5 x6 x7 x8 x9 x10 x11 x12 x13 x14 x15 (ValueIdx.ix2 r d)
      = Cert.Spec.relu (Cert.Spec.convR 𝐈 Cert.Spec.epsI
          (fun (r' : Fin 10000) (d' : Fin 64) => Read.val_main_v60 (F := Ideal) x0 x1 x2 x3 x4 x5 x6 x7 x8 x9 x10 x11 x12 x13 x14 x15 (ValueIdx.ix2 r' d'))) r d := by
  rw [Read.val_main_v84_apply, Read.val_main_call2_v0_apply, Read.val_main_call2_cst_apply, ref_conv2]
  simp only [Ideal.maximumf_def, Ideal.ofBits_def, Ideal.ofBits_zero_f32]
  rfl

theorem ref_logits (r : Fin 10000) (o : Fin 2) :
    Read.val_main_v88 (F := Ideal) x0 x1 x2 x3 x4 x5 x6 x7 x8 x9 x10 x11 x12 x13 x14 x15 x16 x17 (ValueIdx.ix2 r o)
      = (∑ d : Fin 64, Read.val_main_v84 (F := Ideal) x0 x1 x2 x3 x4 x5 x6 x7 x8 x9 x10 x11 x12 x13 x14 x15 (ValueIdx.ix2 r d) * Cert.Spec.Inp.hdW 𝐈 d o)
          + Cert.Spec.Inp.hdb 𝐈 o := by
  rw [Read.val_main_v88_apply, Read.val_main_v85_apply, Read.val_main_v87_apply, Read.val_main_v86_apply]
  simp only [lidx_hd, ridx_hd, idx_hdb, Ideal.addf_def]
  rfl

end Cert.ReferenceIdeal.RefValue

end
-- ==== Proof.RefValue.lean ====
import proofs.«108041_g40587440947829_cont_sun_m_1101_23_alg».proof.Proof.RefGate
import proofs.«108041_g40587440947829_cont_sun_m_1101_23_alg».proof.Proof.RefConv1
import proofs.«108041_g40587440947829_cont_sun_m_1101_23_alg».proof.Proof.RefConv2

noncomputable section

namespace Cert.ReferenceIdeal.RefValue

open Idealize.ShloMosaic Idealize.ShloMosaic.TcCoe Idealize.SL.Sem
open Cert.ReferenceIdeal Cert.ReferenceIdeal.Gen
open Idealize.ShloMosaic.ValueIdx

section Stages

variable (x0 : (⟨S10000x128, .f32⟩ : BufTy).Contents (Elt Ideal)) (x1 : (⟨S10000x16, .f32⟩ : BufTy).Contents (Elt Ideal)) (x2 : (⟨S10000x2048, .f32⟩ : BufTy).Contents (Elt Ideal)) (x3 : (⟨S2048, .f32⟩ : BufTy).Contents (Elt Ideal)) (x4 : (⟨S128x32, .f32⟩ : BufTy).Contents (Elt Ideal)) (x5 : (⟨S32, .f32⟩ : BufTy).Contents (Elt Ideal)) (x6 : (⟨S16x32, .f32⟩ : BufTy).Contents (Elt Ideal)) (x7 : (⟨S32, .f32⟩ : BufTy).Contents (Elt Ideal)) (x8 : (⟨S64x64, .f32⟩ : BufTy).Contents (Elt Ideal)) (x9 : (⟨S64, .f32⟩ : BufTy).Contents (Elt Ideal)) (x10 : (⟨S64x32, .f32⟩ : BufTy).Contents (Elt Ideal)) (x11 : (⟨S32, .f32⟩ : BufTy).Contents (Elt Ideal)) (x12 : (⟨S32x64, .f32⟩ : BufTy).Contents (Elt Ideal)) (x13 : (⟨S64, .f32⟩ : BufTy).Contents (Elt Ideal)) (x14 : (⟨S64x64, .f32⟩ : BufTy).Contents (Elt Ideal)) (x15 : (⟨S64, .f32⟩ : BufTy).Contents (Elt Ideal)) (x16 : (⟨S64x2, .f32⟩ : BufTy).Contents (Elt Ideal)) (x17 : (⟨S2, .f32⟩ : BufTy).Contents (Elt Ideal))

local notation "𝐈" => Cert.Spec.ofArrays x0 x1 x2 x3 x4 x5 x6 x7 x8 x9 x10 x11 x12 x13 x14 x15 x16 x17

theorem X1_fn : (fun (r : Fin 10000) (d : Fin 64) => Read.val_main_v32 (F := Ideal) x0 x1 x4 x5 x6 x7 x8 x9 x10 x11 x12 x13 (ix2 r d))
    = Cert.Spec.lin (Cert.Spec.fused 𝐈 Cert.Spec.oneI) (Cert.Spec.Inp.c1W 𝐈) (Cert.Spec.Inp.c1b 𝐈) := by
  funext r d; exact ref_X1 x0 x1 x2 x3 x4 x5 x6 x7 x8 x9 x10 x11 x12 x13 x14 x15 x16 x17 r d

theorem H1_fn : (fun (r : Fin 10000) (d : Fin 64) => Read.val_main_v56 (F := Ideal) x0 x1 x2 x3 x4 x5 x6 x7 x8 x9 x10 x11 x12 x13 (ix2 r d))
    = Cert.Spec.h1R 𝐈 Cert.Spec.epsI Cert.Spec.oneI := by
  funext r d; rw [ref_h1 x0 x1 x2 x3 x4 x5 x6 x7 x8 x9 x10 x11 x12 x13 x14 x15 x16 x17 r d, X1_fn]; rfl

theorem X2_fn : (fun (r : Fin 10000) (d : Fin 64) => Read.val_main_v60 (F := Ideal) x0 x1 x2 x3 x4 x5 x6 x7 x8 x9 x10 x11 x12 x13 x14 x15 (ix2 r d))
    = Cert.Spec.lin (Cert.Spec.h1R 𝐈 Cert.Spec.epsI Cert.Spec.oneI) (Cert.Spec.Inp.c2W 𝐈) (Cert.Spec.Inp.c2b 𝐈) := by
  funext r d; rw [ref_X2 x0 x1 x2 x3 x4 x5 x6 x7 x8 x9 x10 x11 x12 x13 x14 x15 x16 x17 r d, H1_fn]

theorem H2_fn : (fun (r : Fin 10000) (d : Fin 64) => Read.val_main_v84 (F := Ideal) x0 x1 x2 x3 x4 x5 x6 x7 x8 x9 x10 x11 x12 x13 x14 x15 (ix2 r d))
    = Cert.Spec.h2R 𝐈 Cert.Spec.epsI Cert.Spec.oneI := by
  funext r d; rw [ref_h2 x0 x1 x2 x3 x4 x5 x6 x7 x8 x9 x10 x11 x12 x13 x14 x15 x16 x17 r d, X2_fn]; rfl

theorem logits_apply (r : Fin 10000) (o : Fin 2) :
    Read.val_main_v88 (F := Ideal) x0 x1 x2 x3 x4 x5 x6 x7 x8 x9 x10 x11 x12 x13 x14 x15 x16 x17 (ix2 r o) = Cert.Spec.logitsR 𝐈 Cert.Spec.epsI Cert.Spec.oneI r o := by
  rw [ref_logits x0 x1 x2 x3 x4 x5 x6 x7 x8 x9 x10 x11 x12 x13 x14 x15 x16 x17 r o]
  show (∑ d : Fin 64, (fun (r' : Fin 10000) (d' : Fin 64) => Read.val_main_v84 (F := Ideal) x0 x1 x2 x3 x4 x5 x6 x7 x8 x9 x10 x11 x12 x13 x14 x15 (ix2 r' d')) r d * Cert.Spec.Inp.hdW 𝐈 d o) + Cert.Spec.Inp.hdb 𝐈 o = _
  rw [H2_fn]; rfl

theorem logits_arr : Read.val_main_v88 (F := Ideal) x0 x1 x2 x3 x4 x5 x6 x7 x8 x9 x10 x11 x12 x13 x14 x15 x16 x17 = Cert.Spec.arr2 (Cert.Spec.logitsR 𝐈 Cert.Spec.epsI Cert.Spec.oneI) := by
  funext j
  obtain ⟨p, q, rfl⟩ : ∃ (p : Fin 10000) (q : Fin 2), j = ix2 p q := ⟨j 0, j 1, eq_ix2 j⟩
  exact logits_apply x0 x1 x2 x3 x4 x5 x6 x7 x8 x9 x10 x11 x12 x13 x14 x15 x16 x17 p q

theorem gate_arr : Read.val_main_v23 (F := Ideal) x0 x1 x4 x5 x6 x7 x8 x9 x10 x11 = Cert.Spec.arr2 (Cert.Spec.gate 𝐈) := by
  funext j
  obtain ⟨p, q, rfl⟩ : ∃ (p : Fin 10000) (q : Fin 32), j = ix2 p q := ⟨j 0, j 1, eq_ix2 j⟩
  exact ref_gate x0 x1 x2 x3 x4 x5 x6 x7 x8 x9 x10 x11 x12 x13 x14 x15 x16 x17 p q

end Stages

abbrev inpR (m : (ℓ : Loc nD τ sig) → Buf (Elt Ideal) ℓ) (c : Dev nD) : Cert.Spec.Inp :=
  Cert.Spec.ofArrays (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))

theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v88) = Cert.Spec.arr2 (Cert.Spec.logitsR (inpR m c) Cert.Spec.epsI Cert.Spec.oneI)
      ∧ r.2.mem ((c.tc : Thread nD τ).loc main_v23) = Cert.Spec.arr2 (Cert.Spec.gate (inpR m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c =>
      ⟨(h c).1.trans ((Read.val_main_v88_eq m c).trans (logits_arr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)))),
       (h c).2.1.trans ((Read.val_main_v23_eq (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))).trans (gate_arr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)))),
       (h c).2.2⟩)
    (Cert.ReferenceIdeal.Value.run (F := Ideal) m ρ)

end Cert.ReferenceIdeal.RefValue

end
-- ==== Proof.SpecAlgebra.lean ====
import proofs.«108041_g40587440947829_cont_sun_m_1101_23_alg».proof.Proof.Spec
import Mathlib.Data.EReal.Operations
import Mathlib.Algebra.BigOperators.Group.Finset.Basic

namespace Cert.Spec

open Idealize.ShloMosaic

theorem sum_mul_coe_of_nonneg {ι : Type*} (σ : ℝ) (hσ : 0 ≤ σ) (t : Finset ι) (a : ι → EReal) :
    (∑ i ∈ t, a i) * (σ : EReal) = ∑ i ∈ t, a i * (σ : EReal) := by
  classical
  induction t using Finset.induction_on with
  | empty => simp
  | insert i t hi ih =>
    rw [Finset.sum_insert hi, Finset.sum_insert hi,
      EReal.right_distrib_of_nonneg_of_ne_top (EReal.coe_nonneg.mpr hσ) (EReal.coe_ne_top σ), ih]

theorem rsqrt_nonneg_real (y : EReal) (h : 0 < y) :
    ∃ σ : ℝ, 0 ≤ σ ∧ Ideal.rsqrt y = (σ : EReal) := by
  induction y with
  | bot => exact absurd h not_lt_bot
  | top => exact ⟨0, le_rfl, by simp⟩
  | coe r =>
    have hr : 0 < r := EReal.coe_pos.mp h
    refine ⟨(Real.sqrt r)⁻¹, inv_nonneg.mpr (Real.sqrt_nonneg r), ?_⟩
    rw [Ideal.rsqrt_coe, if_neg (not_lt.mpr hr.le), if_neg hr.ne']

theorem s_nonneg_real (I : Inp) (eps : EReal) (r : Fin 10000) (h : 0 < Dv I r + eps) :
    ∃ σ : ℝ, 0 ≤ σ ∧ s I eps r = (σ : EReal) :=
  rsqrt_nonneg_real (Dv I r + eps) h

theorem agg_eq (I : Inp) (eps : EReal) (X : Fin 10000 → Fin 64 → EReal) (d : Fin 64)
    (j : Fin 2048) :
    (∑ r', X r' d * (I.H r' j * s I eps r')) = ∑ r', I.H r' j * (X r' d * s I eps r') :=
  Finset.sum_congr rfl (fun _ _ => mul_left_comm _ _ _)

theorem convK_eq_convR (I : Inp) (eps : EReal)
    (hs : ∀ r, ∃ σ : ℝ, 0 ≤ σ ∧ s I eps r = (σ : EReal))
    (X : Fin 10000 → Fin 64 → EReal) : convK I eps X = convR I eps X := by
  funext r d
  obtain ⟨σ, hσ, hsr⟩ := hs r
  unfold convK convR
  rw [hsr, sum_mul_coe_of_nonneg σ hσ]
  refine Finset.sum_congr rfl (fun j _ => ?_)
  rw [agg_eq I eps X d j, mul_right_comm]

theorem h1K_eq_h1R (I : Inp) (eps one : EReal)
    (hs : ∀ r, ∃ σ : ℝ, 0 ≤ σ ∧ s I eps r = (σ : EReal)) : h1K I eps one = h1R I eps one := by
  unfold h1K h1R
  rw [convK_eq_convR I eps hs]

theorem h2K_eq_h2R (I : Inp) (eps one : EReal)
    (hs : ∀ r, ∃ σ : ℝ, 0 ≤ σ ∧ s I eps r = (σ : EReal)) : h2K I eps one = h2R I eps one := by
  unfold h2K h2R
  rw [h1K_eq_h1R I eps one hs, convK_eq_convR I eps hs]

theorem logitsK_eq_logitsR (I : Inp) (eps one : EReal)
    (hs : ∀ r, ∃ σ : ℝ, 0 ≤ σ ∧ s I eps r = (σ : EReal)) :
    logitsK I eps one = logitsR I eps one := by
  funext r o
  unfold logitsK logitsR
  rw [h2K_eq_h2R I eps one hs]

end Cert.Spec
-- ==== Proof.PreDecode.lean ====
import proofs.«108041_g40587440947829_cont_sun_m_1101_23_alg».proof.Pre_finite_inputs
import proofs.«108041_g40587440947829_cont_sun_m_1101_23_alg».proof.Proof.Spec
import Idealize.ShloMosaic.Lib.ReduceAll
import Idealize.ShloMosaic.Lib.ValueIdx
import Idealize.ShloMosaic.PureOps.Ideal.Laws
import Idealize.ShloMosaic.Lib.StableHlo.Predicate

noncomputable section

namespace Cert.PreDecode

open Idealize.ShloMosaic Idealize.ShloMosaic.ValueIdx Idealize.ShloMosaic.StableHlo
open Cert.Pre_finite_inputs Cert.Pre_finite_inputs.Facts

theorem ij_eq_ix2 {n m : Nat} (p : Fin n) (q : Fin m) : Predicate.ij p q = ix2 p q := by
  funext d; match d with | ⟨0, _⟩ => rfl | ⟨1, _⟩ => rfl

theorem ofFin_eq_ix1 {n : Nat} (k : Fin n) : Shape.Idx.ofFin k = ix1 k := by
  funext d; match d with | ⟨0, _⟩ => rfl

instance : Subsingleton S_.Idx := ⟨fun a b => funext fun d => d.elim0⟩

section
variable [hP : Cert.Pre_finite_inputs.Facts]

def degMask (a2 : FVec Ideal S10000x2048 .f32) (a3 : FVec Ideal S2048 .f32) : IVec S10000 1 :=
  cmpf .ogt
    (addf
      (Host.reduceAdd
        (mulf a2 (broadcastInDim S10000x2048 ![0, 1] bcast_S1x2048_S10000x2048_0_1
          (broadcastInDim S1x2048 ![1] bcast_S2048_S1x2048_1 a3)))
        (constant S_ .f32 0x00000000#32) reducesTo_S10000x2048_S10000_d1 h_S_)
      (broadcastInDim S10000 ![] bcast_S_S10000 (constant S_ .f32 0x3089705F#32)))
    (broadcastInDim S10000 ![] bcast_S_S10000 (constant S_ .f32 0x00000000#32))

theorem fn_split
    (a0 : FVec Ideal S10000x128 .f32) (a1 : FVec Ideal S10000x16 .f32)
    (a2 : FVec Ideal S10000x2048 .f32) (a3 : FVec Ideal S2048 .f32)
    (a4 : FVec Ideal S128x32 .f32) (a5 : FVec Ideal S32 .f32)
    (a6 : FVec Ideal S16x32 .f32) (a7 : FVec Ideal S32 .f32)
    (a8 : FVec Ideal S64x64 .f32) (a9 : FVec Ideal S64 .f32)
    (a10 : FVec Ideal S64x32 .f32) (a11 : FVec Ideal S32 .f32)
    (a12 : FVec Ideal S32x64 .f32) (a13 : FVec Ideal S64 .f32)
    (a14 : FVec Ideal S64x64 .f32) (a15 : FVec Ideal S64 .f32)
    (a16 : FVec Ideal S64x2 .f32) (a17 : FVec Ideal S2 .f32) :
    ∃ X : IVec S_ 1, fn (F := Ideal) a0 a1 a2 a3 a4 a5 a6 a7 a8 a9 a10 a11 a12 a13 a14 a15 a16 a17
      = andi X (Host.reduce IntOp.andi (degMask a2 a3) (constantI S_ 1 1#1) reducesTo_S10000_S_d0 h_S_) :=
  ⟨_, rfl⟩

theorem rowSum_apply (x : FVec Ideal S10000x2048 .f32) (r : Fin 10000) :
    Host.reduceAdd x (constant S_ .f32 0x00000000#32) reducesTo_S10000x2048_S10000_d1 h_S_ (ix1 r)
      = ∑ k : Fin 2048, x (ix2 r k) := by
  simp only [Host.reduceAdd, Ideal.hostReduceAdd_def]
  rw [Ideal.hostReduceAdd_single reducesTo_S10000x2048_S10000_d1 (by decide), constant_apply,
    Ideal.ofBits_zero_f32, zero_add]
  refine Finset.sum_congr rfl fun k _ => congrArg x ?_
  funext a
  exact Fin.ext (by match a with | ⟨0, _⟩ => rfl | ⟨1, _⟩ => rfl)

theorem wRows_apply (a3 : FVec Ideal S2048 .f32) (r : Fin 10000) (k : Fin 2048) :
    broadcastInDim S10000x2048 ![0, 1] bcast_S1x2048_S10000x2048_0_1
        (broadcastInDim S1x2048 ![1] bcast_S2048_S1x2048_1 a3) (ix2 r k) = a3 (ix1 k) := by
  rw [← ij_eq_ix2, Predicate.bcast_cols, ofFin_eq_ix1]

theorem scalarRows_apply (b : BitVec 32) (r : Fin 10000) :
    broadcastInDim S10000 ![] bcast_S_S10000 (constant (F := Ideal) S_ .f32 b) (ix1 r) = Ideal.ofBits .f32 b := by
  rw [Predicate.bcast_scalar _ h_S_, constant_apply]

theorem cmp_ogt_zero (x : EReal) : Ideal.cmp .ogt x 0 = 1#1 ↔ 0 < x := by
  unfold Ideal.cmp
  simp only [Predicate.ofBool_eq_one_iff, decide_eq_true_eq]

theorem degMask_apply (a2 : FVec Ideal S10000x2048 .f32) (a3 : FVec Ideal S2048 .f32) (r : Fin 10000) :
    degMask a2 a3 (ix1 r)
      = Ideal.cmp .ogt ((∑ k : Fin 2048, a2 (ix2 r k) * a3 (ix1 k)) + Ideal.ofBits .f32 0x3089705F#32) 0 := by
  unfold degMask
  rw [cmpf_apply, Ideal.cmpf_def, addf_apply, rowSum_apply, scalarRows_apply, scalarRows_apply, Ideal.ofBits_zero_f32]
  refine congrArg (fun t => Ideal.cmp .ogt (t + Ideal.ofBits .f32 0x3089705F#32) 0) ?_
  exact Finset.sum_congr rfl fun k _ => by rw [mulf_apply, wRows_apply]

end

theorem dv_pos [hP : Cert.Pre_finite_inputs.Facts]
    (a0 : FVec Ideal Cert.Pre_finite_inputs.S10000x128 .f32) (a1 : FVec Ideal Cert.Pre_finite_inputs.S10000x16 .f32)
    (a2 : FVec Ideal Cert.Pre_finite_inputs.S10000x2048 .f32) (a3 : FVec Ideal Cert.Pre_finite_inputs.S2048 .f32)
    (a4 : FVec Ideal Cert.Pre_finite_inputs.S128x32 .f32) (a5 : FVec Ideal Cert.Pre_finite_inputs.S32 .f32)
    (a6 : FVec Ideal Cert.Pre_finite_inputs.S16x32 .f32) (a7 : FVec Ideal Cert.Pre_finite_inputs.S32 .f32)
    (a8 : FVec Ideal Cert.Pre_finite_inputs.S64x64 .f32) (a9 : FVec Ideal Cert.Pre_finite_inputs.S64 .f32)
    (a10 : FVec Ideal Cert.Pre_finite_inputs.S64x32 .f32) (a11 : FVec Ideal Cert.Pre_finite_inputs.S32 .f32)
    (a12 : FVec Ideal Cert.Pre_finite_inputs.S32x64 .f32) (a13 : FVec Ideal Cert.Pre_finite_inputs.S64 .f32)
    (a14 : FVec Ideal Cert.Pre_finite_inputs.S64x64 .f32) (a15 : FVec Ideal Cert.Pre_finite_inputs.S64 .f32)
    (a16 : FVec Ideal Cert.Pre_finite_inputs.S64x2 .f32) (a17 : FVec Ideal Cert.Pre_finite_inputs.S2 .f32)
    (h : Cert.Pre_finite_inputs.fn (F := Ideal) a0 a1 a2 a3 a4 a5 a6 a7 a8 a9 a10 a11 a12 a13 a14 a15 a16 a17 = (fun _ => 1#1)) :
    ∀ r : Fin 10000, 0 < Cert.Spec.Dv (Cert.Spec.ofArrays a0 a1 a2 a3 a4 a5 a6 a7 a8 a9 a10 a11 a12 a13 a14 a15 a16 a17) r + Cert.Spec.epsI := by
  intro r
  obtain ⟨X, hX⟩ := fn_split a0 a1 a2 a3 a4 a5 a6 a7 a8 a9 a10 a11 a12 a13 a14 a15 a16 a17

  have h0 : IntOp.andi (X ix0)
      (Host.reduce IntOp.andi (degMask a2 a3) (constantI S_ 1 1#1) reducesTo_S10000_S_d0 h_S_ ix0) = 1#1 := by
    have e := congrFun h ix0
    rw [hX] at e
    exact e

  have h2 : degMask a2 a3 (ix1 r) = 1#1 :=
    Host.reduce_andi_all _ _ _ _ _ (IntOp.andi_eq_one.1 h0).2 (ix1 r)
  rw [degMask_apply, cmp_ogt_zero] at h2
  exact h2

end Cert.PreDecode

end
-- ==== Proof.lean ====
import proofs.«108041_g40587440947829_cont_sun_m_1101_23_alg».proof.Defs
import proofs.«108041_g40587440947829_cont_sun_m_1101_23_alg».proof.Proof.Gen.Kernel
import proofs.«108041_g40587440947829_cont_sun_m_1101_23_alg».proof.Proof.Gen.KernelIdeal
import proofs.«108041_g40587440947829_cont_sun_m_1101_23_alg».proof.Proof.Gen.ReferenceIdeal
import proofs.«108041_g40587440947829_cont_sun_m_1101_23_alg».proof.Proof.Gen.Pre_finite_inputs
import proofs.«108041_g40587440947829_cont_sun_m_1101_23_alg».proof.Proof.KBody
import proofs.«108041_g40587440947829_cont_sun_m_1101_23_alg».proof.Proof.KIBody
import proofs.«108041_g40587440947829_cont_sun_m_1101_23_alg».proof.Proof.KVFinal
import proofs.«108041_g40587440947829_cont_sun_m_1101_23_alg».proof.Proof.RefValue
import proofs.«108041_g40587440947829_cont_sun_m_1101_23_alg».proof.Proof.SpecAlgebra
import proofs.«108041_g40587440947829_cont_sun_m_1101_23_alg».proof.Proof.PreDecode
import Idealize.ShloMosaic.Adequacy
import Idealize.ShloMosaic.Init

noncomputable section

namespace Cert.Proof

open Idealize.ShloMosaic Idealize.SL.Sem

variable [hK : Cert.Kernel.Facts] [hKI : Cert.KernelIdeal.Facts] [hR : Cert.ReferenceIdeal.Facts] [hP : Cert.Pre_finite_inputs.Facts]

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.RefValue.run_spec m ρ)

theorem preserves : Cert.preserves_Kernel_KernelIdeal := trivial

/-- Every node normalisation is a nonnegative real under the precondition, so scaling the rows before the sum or after it gives one value. -/
theorem algebraic : Cert.algebraic_KernelIdeal_ReferenceIdeal := by
  intro m ρ m' ρ' hpre hagree
  refine ⟨fun c => Cert.Spec.arr2 (Cert.Spec.logitsK (Cert.KernelIdeal.KV.inpK m c) Cert.Spec.epsI Cert.Spec.oneI),
    fun c => Cert.Spec.arr2 (Cert.Spec.gate (Cert.KernelIdeal.KV.inpK m c)), Cert.KernelIdeal.KV.value_run m ρ, ?_⟩
  refine (θ_run Cert.ReferenceIdeal.defs _ _).mono (fun _ h c => ?_) (Cert.ReferenceIdeal.RefValue.run_spec m' ρ')
  have hI : Cert.ReferenceIdeal.RefValue.inpR m' c = Cert.KernelIdeal.KV.inpK m c := by
    unfold Cert.ReferenceIdeal.RefValue.inpR Cert.KernelIdeal.KV.inpK
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2]
  have hs : ∀ r, ∃ σ : ℝ, 0 ≤ σ ∧ Cert.Spec.s (Cert.KernelIdeal.KV.inpK m c) Cert.Spec.epsI r = (σ : EReal) := fun r =>
    Cert.Spec.s_nonneg_real _ _ r (Cert.PreDecode.dv_pos _ _ _ _ _ _ _ _ _ _ _ _ _ _ _ _ _ _ (hpre c) r)
  refine ⟨(h c).1.trans ?_, (h c).2.1.trans ?_, (h c).2.2⟩
  · rw [hI]; exact congrArg Cert.Spec.arr2 (Cert.Spec.logitsK_eq_logitsR _ _ _ hs).symm
  · rw [hI]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
